-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x133 : Shape := ⟨2, ![200000, 133]⟩
abbrev S200000 : Shape := ⟨1, ![200000]⟩
abbrev S2x500000 : Shape := ⟨2, ![2, 500000]⟩
abbrev S500000x14 : Shape := ⟨2, ![500000, 14]⟩
abbrev S500000 : Shape := ⟨1, ![500000]⟩
abbrev S150000 : Shape := ⟨1, ![150000]⟩
abbrev S100000 : Shape := ⟨1, ![100000]⟩
abbrev S2x350000 : Shape := ⟨2, ![2, 350000]⟩
abbrev S350000 : Shape := ⟨1, ![350000]⟩
abbrev S133x128 : Shape := ⟨2, ![133, 128]⟩
abbrev S128 : Shape := ⟨1, ![128]⟩
abbrev S14x128 : Shape := ⟨2, ![14, 128]⟩
abbrev S3x128x128 : Shape := ⟨3, ![3, 128, 128]⟩
abbrev S3x128 : Shape := ⟨2, ![3, 128]⟩
abbrev S128x128 : Shape := ⟨2, ![128, 128]⟩
abbrev S_ : Shape := ⟨0, ![]⟩

class Facts : Prop where
  bcast_S_S200000x133 : S_.BroadcastsInDim S200000x133 (![] : Fin 0 → Fin S200000x133.rank)
  reducesTo_S200000x133_S_d0_1 : S200000x133.ReducesTo [0, 1] S_
  h_S_ : 0 < S_.numel
  bcast_S_S200000 : S_.BroadcastsInDim S200000 (![] : Fin 0 → Fin S200000.rank)
  reducesTo_S200000_S_d0 : S200000.ReducesTo [0] S_
  bcast_S_S500000x14 : S_.BroadcastsInDim S500000x14 (![] : Fin 0 → Fin S500000x14.rank)
  reducesTo_S500000x14_S_d0_1 : S500000x14.ReducesTo [0, 1] S_
  bcast_S_S500000 : S_.BroadcastsInDim S500000 (![] : Fin 0 → Fin S500000.rank)
  reducesTo_S500000_S_d0 : S500000.ReducesTo [0] S_
  bcast_S_S133x128 : S_.BroadcastsInDim S133x128 (![] : Fin 0 → Fin S133x128.rank)
  reducesTo_S133x128_S_d0_1 : S133x128.ReducesTo [0, 1] S_
  bcast_S_S128 : S_.BroadcastsInDim S128 (![] : Fin 0 → Fin S128.rank)
  reducesTo_S128_S_d0 : S128.ReducesTo [0] S_
  bcast_S_S14x128 : S_.BroadcastsInDim S14x128 (![] : Fin 0 → Fin S14x128.rank)
  reducesTo_S14x128_S_d0_1 : S14x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg25 : FVec F S128x128 .f32) (main_arg26 : FVec F S128 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S128x128 .f32 := Host.absf main_arg25
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg26
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg21 : FVec F S14x128 .f32) (main_arg22 : FVec F S128 .f32) (main_arg23 : FVec F S3x128x128 .f32) (main_arg24 : FVec F S3x128 .f32) (main_arg25 : FVec F S128x128 .f32) (main_arg26 : FVec F S128 .f32) (main_v63 : IVec S_ 1) (main_v67 : IVec S_ 1) : IVec S_ 1 :=
  let main_v68 : IVec S_ 1 := andi main_v63 main_v67
  let main_v69 : FVec F S14x128 .f32 := Host.absf main_arg21
  let main_cst_26 : FVec F S_ .f32 := constant S_ .f32 0x7F800000#32
  let main_v70 : FVec F S14x128 .f32 := broadcastInDim S14x128 ![] bcast_S_S14x128 main_cst_26
  let main_v71 : IVec S14x128 1 := cmpf .olt main_v69 main_v70
  let main_c_27 : IVec S_ 1 := constantI S_ 1 1#1
  let main_v72 : IVec S_ 1 := (fun x v => Host.reduce IntOp.andi x v reducesTo_S14x128_S_d0_1 h_S_) main_v71 main_c_27
  let main_v73 : IVec S_ 1 := andi main_v68 main_v72
  let main_v74 : FVec F S128 .f32 := Host.absf main_arg22
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S3x128x128 .f32 := Host.absf main_arg23
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg24
  let main_cst_32 : FVec F S_ .f32 := constant S_ .f32 0x7F800000#32
  fn_part5 (F := F) main_arg25 main_arg26 main_v83 main_v84 main_cst_32

def fn_part3 {F : FTy → Type} [FloatOps F] (main_arg18 : FVec F S128 .f32) (main_arg19 : FVec F S133x128 .f32) (main_arg20 : FVec F S128 .f32) (main_arg21 : FVec F S14x128 .f32) (main_arg22 : FVec F S128 .f32) (main_arg23 : FVec F S3x128x128 .f32) (main_arg24 : FVec F S3x128 .f32) (main_arg25 : FVec F S128x128 .f32) (main_arg26 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg18
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S133x128 .f32 := Host.absf main_arg19
  let main_cst_22 : FVec F S_ .f32 := constant S_ .f32 0x7F800000#32
  let main_v60 : FVec F S133x128 .f32 := broadcastInDim S133x128 ![] bcast_S_S133x128 main_cst_22
  let main_v61 : IVec S133x128 1 := cmpf .olt main_v59 main_v60
  let main_c_23 : IVec S_ 1 := constantI S_ 1 1#1
  let main_v62 : IVec S_ 1 := (fun x v => Host.reduce IntOp.andi x v reducesTo_S133x128_S_d0_1 h_S_) main_v61 main_c_23
  let main_v63 : IVec S_ 1 := andi main_v58 main_v62
  let main_v64 : FVec F S128 .f32 := Host.absf main_arg20
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg21 main_arg22 main_arg23 main_arg24 main_arg25 main_arg26 main_v63 main_v67

def fn_part2 {F : FTy → Type} [FloatOps F] (main_arg14 : FVec F S128 .f32) (main_arg15 : FVec F S3x128x128 .f32) (main_arg16 : FVec F S3x128 .f32) (main_arg17 : FVec F S128x128 .f32) (main_arg18 : FVec F S128 .f32) (main_arg19 : FVec F S133x128 .f32) (main_arg20 : FVec F S128 .f32) (main_arg21 : FVec F S14x128 .f32) (main_arg22 : FVec F S128 .f32) (main_arg23 : FVec F S3x128x128 .f32) (main_arg24 : FVec F S3x128 .f32) (main_arg25 : FVec F S128x128 .f32) (main_arg26 : FVec F S128 .f32) (main_v33 : IVec S_ 1) : IVec S_ 1 :=
  let main_v34 : FVec F S128 .f32 := Host.absf main_arg14
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128x128 .f32 := Host.absf main_arg15
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg16
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x128 .f32 := Host.absf main_arg17
  let main_cst_18 : FVec F S_ .f32 := constant S_ .f32 0x7F800000#32
  let main_v50 : FVec F S128x128 .f32 := broadcastInDim S128x128 ![] bcast_S_S128x128 main_cst_18
  fn_part3 (F := F) main_arg18 main_arg19 main_arg20 main_arg21 main_arg22 main_arg23 main_arg24 main_arg25 main_arg26 main_v48 main_v49 main_v50

def fn_part1 {F : FTy → Type} [FloatOps F] (main_arg11 : FVec F S133x128 .f32) (main_arg12 : FVec F S128 .f32) (main_arg13 : FVec F S14x128 .f32) (main_arg14 : FVec F S128 .f32) (main_arg15 : FVec F S3x128x128 .f32) (main_arg16 : FVec F S3x128 .f32) (main_arg17 : FVec F S128x128 .f32) (main_arg18 : FVec F S128 .f32) (main_arg19 : FVec F S133x128 .f32) (main_arg20 : FVec F S128 .f32) (main_arg21 : FVec F S14x128 .f32) (main_arg22 : FVec F S128 .f32) (main_arg23 : FVec F S3x128x128 .f32) (main_arg24 : FVec F S3x128 .f32) (main_arg25 : FVec F S128x128 .f32) (main_arg26 : FVec F S128 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S133x128 .f32 := Host.absf main_arg11
  let main_cst_6 : FVec F S_ .f32 := constant S_ .f32 0x7F800000#32
  let main_v20 : FVec F S133x128 .f32 := broadcastInDim S133x128 ![] bcast_S_S133x128 main_cst_6
  let main_v21 : IVec S133x128 1 := cmpf .olt main_v19 main_v20
  let main_c_7 : IVec S_ 1 := constantI S_ 1 1#1
  let main_v22 : IVec S_ 1 := (fun x v => Host.reduce IntOp.andi x v reducesTo_S133x128_S_d0_1 h_S_) main_v21 main_c_7
  let main_v23 : IVec S_ 1 := andi main_v18 main_v22
  let main_v24 : FVec F S128 .f32 := Host.absf main_arg12
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S14x128 .f32 := Host.absf main_arg13
  let main_cst_10 : FVec F S_ .f32 := constant S_ .f32 0x7F800000#32
  let main_v30 : FVec F S14x128 .f32 := broadcastInDim S14x128 ![] bcast_S_S14x128 main_cst_10
  let main_v31 : IVec S14x128 1 := cmpf .olt main_v29 main_v30
  let main_c_11 : IVec S_ 1 := constantI S_ 1 1#1
  let main_v32 : IVec S_ 1 := (fun x v => Host.reduce IntOp.andi x v reducesTo_S14x128_S_d0_1 h_S_) main_v31 main_c_11
  let main_v33 : IVec S_ 1 := andi main_v28 main_v32
  fn_part2 (F := F) main_arg14 main_arg15 main_arg16 main_arg17 main_arg18 main_arg19 main_arg20 main_arg21 main_arg22 main_arg23 main_arg24 main_arg25 main_arg26 main_v33

def fn {F : FTy → Type} [FloatOps F] (main_arg0 : FVec F S200000x133 .f32) (main_arg1 : FVec F S200000 .f32) (main_arg2 : IVec S2x500000 32) (main_arg3 : FVec F S500000x14 .f32) (main_arg4 : FVec F S500000 .f32) (main_arg5 : IVec S200000 32) (main_arg6 : IVec S150000 32) (main_arg7 : IVec S100000 32) (main_arg8 : IVec S2x350000 32) (main_arg9 : IVec S350000 32) (main_arg10 : IVec S350000 1) (main_arg11 : FVec F S133x128 .f32) (main_arg12 : FVec F S128 .f32) (main_arg13 : FVec F S14x128 .f32) (main_arg14 : FVec F S128 .f32) (main_arg15 : FVec F S3x128x128 .f32) (main_arg16 : FVec F S3x128 .f32) (main_arg17 : FVec F S128x128 .f32) (main_arg18 : FVec F S128 .f32) (main_arg19 : FVec F S133x128 .f32) (main_arg20 : FVec F S128 .f32) (main_arg21 : FVec F S14x128 .f32) (main_arg22 : FVec F S128 .f32) (main_arg23 : FVec F S3x128x128 .f32) (main_arg24 : FVec F S3x128 .f32) (main_arg25 : FVec F S128x128 .f32) (main_arg26 : FVec F S128 .f32) : IVec S_ 1 :=
  let main_v0 : FVec F S200000x133 .f32 := Host.absf main_arg0
  let main_cst : FVec F S_ .f32 := constant S_ .f32 0x7F800000#32
  let main_v1 : FVec F S200000x133 .f32 := broadcastInDim S200000x133 ![] bcast_S_S200000x133 main_cst
  let main_v2 : IVec S200000x133 1 := cmpf .olt main_v0 main_v1
  let main_c : IVec S_ 1 := constantI S_ 1 1#1
  let main_v3 : IVec S_ 1 := (fun x v => Host.reduce IntOp.andi x v reducesTo_S200000x133_S_d0_1 h_S_) main_v2 main_c
  let main_v4 : FVec F S200000 .f32 := Host.absf main_arg1
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S500000x14 .f32 := Host.absf main_arg3
  let main_cst_2 : FVec F S_ .f32 := constant S_ .f32 0x7F800000#32
  let main_v10 : FVec F S500000x14 .f32 := broadcastInDim S500000x14 ![] bcast_S_S500000x14 main_cst_2
  let main_v11 : IVec S500000x14 1 := cmpf .olt main_v9 main_v10
  let main_c_3 : IVec S_ 1 := constantI S_ 1 1#1
  let main_v12 : IVec S_ 1 := (fun x v => Host.reduce IntOp.andi x v reducesTo_S500000x14_S_d0_1 h_S_) main_v11 main_c_3
  let main_v13 : IVec S_ 1 := andi main_v8 main_v12
  let main_v14 : FVec F S500000 .f32 := Host.absf main_arg4
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S200000x133 : Shape := ⟨2, ![200000, 133]⟩
abbrev S200000 : Shape := ⟨1, ![200000]⟩
abbrev S2x500000 : Shape := ⟨2, ![2, 500000]⟩
abbrev S500000x14 : Shape := ⟨2, ![500000, 14]⟩
abbrev S500000 : Shape := ⟨1, ![500000]⟩
abbrev S150000 : Shape := ⟨1, ![150000]⟩
abbrev S100000 : Shape := ⟨1, ![100000]⟩
abbrev S2x350000 : Shape := ⟨2, ![2, 350000]⟩
abbrev S350000 : Shape := ⟨1, ![350000]⟩
abbrev S133x128 : Shape := ⟨2, ![133, 128]⟩
abbrev S128 : Shape := ⟨1, ![128]⟩
abbrev S14x128 : Shape := ⟨2, ![14, 128]⟩
abbrev S3x128x128 : Shape := ⟨3, ![3, 128, 128]⟩
abbrev S3x128 : Shape := ⟨2, ![3, 128]⟩
abbrev S128x128 : Shape := ⟨2, ![128, 128]⟩
abbrev S_ : Shape := ⟨0, ![]⟩
abbrev S150000x1 : Shape := ⟨2, ![150000, 1]⟩
abbrev S150000x133 : Shape := ⟨2, ![150000, 133]⟩
abbrev S350000x1 : Shape := ⟨2, ![350000, 1]⟩
abbrev S350000x14 : Shape := ⟨2, ![350000, 14]⟩
abbrev S1x350000 : Shape := ⟨2, ![1, 350000]⟩
abbrev S1x128 : Shape := ⟨2, ![1, 128]⟩
abbrev S150000x128 : Shape := ⟨2, ![150000, 128]⟩
abbrev S5000x133 : Shape := ⟨2, ![5000, 133]⟩
abbrev S5000x128 : Shape := ⟨2, ![5000, 128]⟩
abbrev S350000x128 : Shape := ⟨2, ![350000, 128]⟩
abbrev S5000x14 : Shape := ⟨2, ![5000, 14]⟩
abbrev S1x128x128 : Shape := ⟨3, ![1, 128, 128]⟩
abbrev S5000x1 : Shape := ⟨2, ![5000, 1]⟩
abbrev S150528x128 : Shape := ⟨2, ![150528, 128]⟩
abbrev S150528 : Shape := ⟨1, ![150528]⟩
abbrev S1x150528 : Shape := ⟨2, ![1, 150528]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1x500000 : Shape := ⟨2, ![1, 500000]⟩
abbrev S200000x128 : Shape := ⟨2, ![200000, 128]⟩
abbrev S500000x128 : Shape := ⟨2, ![500000, 128]⟩
abbrev S500000x1 : Shape := ⟨2, ![500000, 1]⟩
abbrev S200000x1 : Shape := ⟨2, ![200000, 1]⟩
abbrev S100000x1 : Shape := ⟨2, ![100000, 1]⟩
abbrev S100000x128 : Shape := ⟨2, ![100000, 128]⟩
abbrev S100352x128 : Shape := ⟨2, ![100352, 128]⟩
abbrev S100352 : Shape := ⟨1, ![100352]⟩
abbrev S1x100352 : Shape := ⟨2, ![1, 100352]⟩
abbrev S1x1024x128 : Shape := ⟨3, ![1, 1024, 128]⟩
abbrev S2x1024x128 : Shape := ⟨3, ![2, 1024, 128]⟩

abbrev nBuf : Space → Nat
  | .hbm => 287
  | .vmem => 100
  | .smem => 0
  | _ => 0

abbrev hbmTy0_0 (i : Nat) : BufTy := match i % 128 with
  | 0 => ⟨S200000x133, .f32⟩
  | 1 => ⟨S200000, .f32⟩
  | 2 => ⟨S2x500000, .i32⟩
  | 3 => ⟨S500000x14, .f32⟩
  | 4 => ⟨S500000, .f32⟩
  | 5 => ⟨S200000, .i32⟩
  | 6 => ⟨S150000, .i32⟩
  | 7 => ⟨S100000, .i32⟩
  | 8 => ⟨S2x350000, .i32⟩
  | 9 => ⟨S350000, .i32⟩
  | 10 => ⟨S350000, .i1⟩
  | 11 => ⟨S133x128, .f32⟩
  | 12 => ⟨S128, .f32⟩
  | 13 => ⟨S14x128, .f32⟩
  | 14 => ⟨S128, .f32⟩
  | 15 => ⟨S3x128x128, .f32⟩
  | 16 => ⟨S3x128, .f32⟩
  | 17 => ⟨S128x128, .f32⟩
  | 18 => ⟨S128, .f32⟩
  | 19 => ⟨S133x128, .f32⟩
  | 20 => ⟨S128, .f32⟩
  | 21 => ⟨S14x128, .f32⟩
  | 22 => ⟨S128, .f32⟩
  | 23 => ⟨S3x128x128, .f32⟩
  | 24 => ⟨S3x128, .f32⟩
  | 25 => ⟨S128x128, .f32⟩
  | 26 => ⟨S128, .f32⟩
  | 27 => ⟨S_, .i32⟩
  | 28 => ⟨S150000, .i32⟩
  | 29 => ⟨S150000, .i1⟩
  | 30 => ⟨S_, .i32⟩
  | 31 => ⟨S150000, .i32⟩
  | 32 => ⟨S150000, .i32⟩
  | 33 => ⟨S150000, .i32⟩
  | 34 => ⟨S150000x1, .i32⟩
  | 35 => ⟨S150000x133, .f32⟩
  | 36 => ⟨S_, .i32⟩
  | 37 => ⟨S150000, .i32⟩
  | 38 => ⟨S150000, .i1⟩
  | 39 => ⟨S_, .i32⟩
  | 40 => ⟨S150000, .i32⟩
  | 41 => ⟨S150000, .i32⟩
  | 42 => ⟨S150000, .i32⟩
  | 43 => ⟨S150000x1, .i32⟩
  | 44 => ⟨S150000, .f32⟩
  | 45 => ⟨S_, .i32⟩
  | 46 => ⟨S350000, .i32⟩
  | 47 => ⟨S350000, .i1⟩
  | 48 => ⟨S_, .i32⟩
  | 49 => ⟨S350000, .i32⟩
  | 50 => ⟨S350000, .i32⟩
  | 51 => ⟨S350000, .i32⟩
  | 52 => ⟨S350000x1, .i32⟩
  | 53 => ⟨S350000x14, .f32⟩
  | 54 => ⟨S_, .i32⟩
  | 55 => ⟨S350000, .i32⟩
  | 56 => ⟨S350000, .i1⟩
  | 57 => ⟨S_, .i32⟩
  | 58 => ⟨S350000, .i32⟩
  | 59 => ⟨S350000, .i32⟩
  | 60 => ⟨S350000, .i32⟩
  | 61 => ⟨S350000x1, .i32⟩
  | 62 => ⟨S350000, .f32⟩
  | 63 => ⟨S350000, .f32⟩
  | 64 => ⟨S350000, .f32⟩
  | 65 => ⟨S1x350000, .i32⟩
  | 66 => ⟨S350000, .i32⟩
  | 67 => ⟨S1x350000, .i32⟩
  | 68 => ⟨S350000, .i32⟩
  | 69 => ⟨S1x128, .f32⟩
  | 70 => ⟨S150000x128, .bf16⟩
  | 71 => ⟨S1x128, .f32⟩
  | 72 => ⟨S350000x128, .bf16⟩
  | 73 => ⟨S350000x128, .f32⟩
  | 74 => ⟨S350000x1, .f32⟩
  | 75 => ⟨S_, .i32⟩
  | 76 => ⟨S350000, .i32⟩
  | 77 => ⟨S350000, .i1⟩
  | 78 => ⟨S_, .i32⟩
  | 79 => ⟨S350000, .i32⟩
  | 80 => ⟨S350000, .i32⟩
  | 81 => ⟨S350000, .i32⟩
  | 82 => ⟨S350000x1, .i32⟩
  | 83 => ⟨S350000x128, .bf16⟩
  | 84 => ⟨S350000x128, .f32⟩
  | 85 => ⟨S350000x128, .f32⟩
  | 86 => ⟨S350000x128, .f32⟩
  | 87 => ⟨S350000x128, .f32⟩
  | 88 => ⟨S_, .f32⟩
  | 89 => ⟨S150000x128, .f32⟩
  | 90 => ⟨S350000x1, .i32⟩
  | 91 => ⟨S150000x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S150000x128, .bf16⟩
  | 98 => ⟨S_, .i32⟩
  | 99 => ⟨S350000, .i32⟩
  | 100 => ⟨S350000, .i1⟩
  | 101 => ⟨S_, .i32⟩
  | 102 => ⟨S350000, .i32⟩
  | 103 => ⟨S350000, .i32⟩
  | 104 => ⟨S350000, .i32⟩
  | 105 => ⟨S350000x1, .i32⟩
  | 106 => ⟨S350000x128, .bf16⟩
  | 107 => ⟨S350000x128, .f32⟩
  | 108 => ⟨S350000x128, .f32⟩
  | 109 => ⟨S350000x128, .f32⟩
  | 110 => ⟨S350000x128, .f32⟩
  | 111 => ⟨S_, .f32⟩
  | 112 => ⟨S150000x128, .f32⟩
  | 113 => ⟨S350000x1, .i32⟩
  | 114 => ⟨S150000x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S150000x128, .bf16⟩
  | 121 => ⟨S_, .i32⟩
  | 122 => ⟨S350000, .i32⟩
  | 123 => ⟨S350000, .i1⟩
  | 124 => ⟨S_, .i32⟩
  | 125 => ⟨S350000, .i32⟩
  | 126 => ⟨S350000, .i32⟩
  | 127 => ⟨S350000, .i32⟩
  | _ => ⟨S200000x133, .f32⟩

abbrev hbmTy0_1 (i : Nat) : BufTy := match i % 128 with
  | 0 => ⟨S350000x1, .i32⟩
  | 1 => ⟨S350000x128, .bf16⟩
  | 2 => ⟨S350000x128, .f32⟩
  | 3 => ⟨S350000x128, .f32⟩
  | 4 => ⟨S350000x128, .f32⟩
  | 5 => ⟨S350000x128, .f32⟩
  | 6 => ⟨S_, .f32⟩
  | 7 => ⟨S150000x128, .f32⟩
  | 8 => ⟨S350000x1, .i32⟩
  | 9 => ⟨S150000x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S150000x128, .bf16⟩
  | 16 => ⟨S150000x1, .f32⟩
  | 17 => ⟨S1x128, .f32⟩
  | 18 => ⟨S150000x128, .f32⟩
  | 19 => ⟨S_, .i32⟩
  | 20 => ⟨S150000, .i32⟩
  | 21 => ⟨S150000, .i1⟩
  | 22 => ⟨S_, .i32⟩
  | 23 => ⟨S150000, .i32⟩
  | 24 => ⟨S150000, .i32⟩
  | 25 => ⟨S150000, .i32⟩
  | 26 => ⟨S150000x1, .i32⟩
  | 27 => ⟨S150000, .i32⟩
  | 28 => ⟨S_, .i32⟩
  | 29 => ⟨S_, .f32⟩
  | 30 => ⟨S150528x128, .f32⟩
  | 31 => ⟨S_, .i32⟩
  | 32 => ⟨S_, .i32⟩
  | 33 => ⟨S150528, .i32⟩
  | 34 => ⟨S1x150528, .i32⟩
  | 35 => ⟨S1024x128, .f32⟩
  | 36 => ⟨S1024x1, .f32⟩
  | 37 => ⟨S_, .f32⟩
  | 38 => ⟨S1024x1, .f32⟩
  | 39 => ⟨S1024x1, .f32⟩
  | 40 => ⟨S1024x128, .f32⟩
  | 41 => ⟨S1024x128, .f32⟩
  | 42 => ⟨S1x500000, .i32⟩
  | 43 => ⟨S500000, .i32⟩
  | 44 => ⟨S1x500000, .i32⟩
  | 45 => ⟨S500000, .i32⟩
  | 46 => ⟨S1x128, .f32⟩
  | 47 => ⟨S200000x128, .bf16⟩
  | 48 => ⟨S1x128, .f32⟩
  | 49 => ⟨S500000x128, .bf16⟩
  | 50 => ⟨S500000x128, .f32⟩
  | 51 => ⟨S500000x1, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .bf16⟩
  | 61 => ⟨S500000x128, .f32⟩
  | 62 => ⟨S500000x128, .f32⟩
  | 63 => ⟨S500000x128, .f32⟩
  | 64 => ⟨S500000x128, .f32⟩
  | 65 => ⟨S_, .f32⟩
  | 66 => ⟨S200000x128, .f32⟩
  | 67 => ⟨S500000x1, .i32⟩
  | 68 => ⟨S200000x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S200000x128, .bf16⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x128, .bf16⟩
  | 84 => ⟨S500000x128, .f32⟩
  | 85 => ⟨S500000x128, .f32⟩
  | 86 => ⟨S500000x128, .f32⟩
  | 87 => ⟨S500000x128, .f32⟩
  | 88 => ⟨S_, .f32⟩
  | 89 => ⟨S200000x128, .f32⟩
  | 90 => ⟨S500000x1, .i32⟩
  | 91 => ⟨S200000x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S200000x128, .bf16⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .bf16⟩
  | 107 => ⟨S500000x128, .f32⟩
  | 108 => ⟨S500000x128, .f32⟩
  | 109 => ⟨S500000x128, .f32⟩
  | 110 => ⟨S500000x128, .f32⟩
  | 111 => ⟨S_, .f32⟩
  | 112 => ⟨S200000x128, .f32⟩
  | 113 => ⟨S500000x1, .i32⟩
  | 114 => ⟨S200000x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S200000x128, .bf16⟩
  | 121 => ⟨S200000x1, .f32⟩
  | 122 => ⟨S1x128, .f32⟩
  | 123 => ⟨S200000x128, .f32⟩
  | 124 => ⟨S_, .i32⟩
  | 125 => ⟨S100000, .i32⟩
  | 126 => ⟨S100000, .i1⟩
  | 127 => ⟨S_, .i32⟩
  | _ => ⟨S200000x133, .f32⟩

abbrev hbmTy0_2 (i : Nat) : BufTy := match i % 128 with
  | 0 => ⟨S100000, .i32⟩
  | 1 => ⟨S100000, .i32⟩
  | 2 => ⟨S100000, .i32⟩
  | 3 => ⟨S100000x1, .i32⟩
  | 4 => ⟨S100000x128, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000, .i32⟩
  | 14 => ⟨S_, .i32⟩
  | 15 => ⟨S_, .f32⟩
  | 16 => ⟨S100352x128, .f32⟩
  | 17 => ⟨S_, .i32⟩
  | 18 => ⟨S_, .i32⟩
  | 19 => ⟨S100352, .i32⟩
  | 20 => ⟨S1x100352, .i32⟩
  | 21 => ⟨S1024x128, .f32⟩
  | 22 => ⟨S1024x1, .f32⟩
  | 23 => ⟨S_, .f32⟩
  | 24 => ⟨S1024x1, .f32⟩
  | 25 => ⟨S1024x1, .f32⟩
  | 26 => ⟨S1024x128, .f32⟩
  | 27 => ⟨S1024x128, .f32⟩
  | 28 => ⟨S1x1024x128, .f32⟩
  | 29 => ⟨S1x1024x128, .f32⟩
  | 30 => ⟨S2x1024x128, .f32⟩
  | _ => ⟨S200000x133, .f32⟩

abbrev hbmTy (i : Nat) : BufTy := match i / 128 with
  | 0 => hbmTy0_0 i
  | 1 => hbmTy0_1 i
  | 2 => hbmTy0_2 i
  | _ => ⟨S200000x133, .f32⟩

abbrev bufTy : (tb : Table) → Fin (tcTables nBuf tb) → BufTy
  | .hbm, ⟨i, _⟩ => hbmTy i
  | .local _ .vmem, ⟨0, _⟩ => ⟨S5000x133, .f32⟩
  | .local _ .vmem, ⟨1, _⟩ => ⟨S5000x133, .f32⟩
  | .local _ .vmem, ⟨2, _⟩ => ⟨S133x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x14, .f32⟩
  | .local _ .vmem, ⟨7, _⟩ => ⟨S5000x14, .f32⟩
  | .local _ .vmem, ⟨8, _⟩ => ⟨S14x128, .f32⟩
  | .local _ .vmem, ⟨9, _⟩ => ⟨S1x128, .f32⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .bf16⟩
  | .local _ .vmem, ⟨27, _⟩ => ⟨S5000x128, .bf16⟩
  | .local _ .vmem, ⟨28, _⟩ => ⟨S5000x128, .bf16⟩
  | .local _ .vmem, ⟨29, _⟩ => ⟨S5000x128, .bf16⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .bf16⟩
  | .local _ .vmem, ⟨35, _⟩ => ⟨S5000x128, .bf16⟩
  | .local _ .vmem, ⟨36, _⟩ => ⟨S5000x128, .bf16⟩
  | .local _ .vmem, ⟨37, _⟩ => ⟨S5000x128, .bf16⟩
  | .local _ .vmem, ⟨38, _⟩ => ⟨S128x128, .f32⟩
  | .local _ .vmem, ⟨39, _⟩ => ⟨S1x128, .f32⟩
  | .local _ .vmem, ⟨40, _⟩ => ⟨S5000x1, .f32⟩
  | .local _ .vmem, ⟨41, _⟩ => ⟨S5000x1, .f32⟩
  | .local _ .vmem, ⟨42, _⟩ => ⟨S5000x128, .f32⟩
  | .local _ .vmem, ⟨43, _⟩ => ⟨S5000x128, .f32⟩
  | .local _ .vmem, ⟨44, _⟩ => ⟨S1024x128, .f32⟩
  | .local _ .vmem, ⟨45, _⟩ => ⟨S1024x128, .f32⟩
  | .local _ .vmem, ⟨46, _⟩ => ⟨S1x1024, .i32⟩
  | .local _ .vmem, ⟨47, _⟩ => ⟨S1x1024, .i32⟩
  | .local _ .vmem, ⟨48, _⟩ => ⟨S1024x128, .f32⟩
  | .local _ .vmem, ⟨49, _⟩ => ⟨S1024x1, .f32⟩
  | .local _ .vmem, ⟨50, _⟩ => ⟨S5000x133, .f32⟩
  | .local _ .vmem, ⟨51, _⟩ => ⟨S5000x133, .f32⟩
  | .local _ .vmem, ⟨52, _⟩ => ⟨S133x128, .f32⟩
  | .local _ .vmem, ⟨53, _⟩ => ⟨S1x128, .f32⟩
  | .local _ .vmem, ⟨54, _⟩ => ⟨S5000x128, .bf16⟩
  | .local _ .vmem, ⟨55, _⟩ => ⟨S5000x128, .bf16⟩
  | .local _ .vmem, ⟨56, _⟩ => ⟨S5000x14, .f32⟩
  | .local _ .vmem, ⟨57, _⟩ => ⟨S5000x14, .f32⟩
  | .local _ .vmem, ⟨58, _⟩ => ⟨S14x128, .f32⟩
  | .local _ .vmem, ⟨59, _⟩ => ⟨S1x128, .f32⟩
  | .local _ .vmem, ⟨60, _⟩ => ⟨S5000x128, .bf16⟩
  | .local _ .vmem, ⟨61, _⟩ => ⟨S5000x128, .bf16⟩
  | .local _ .vmem, ⟨62, _⟩ => ⟨S5000x128, .bf16⟩
  | .local _ .vmem, ⟨63, _⟩ => ⟨S5000x128, .bf16⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S1x128, .f32⟩
  | .local _ .vmem, ⟨68, _⟩ => ⟨S5000x128, .bf16⟩
  | .local _ .vmem, ⟨69, _⟩ => ⟨S5000x128, .bf16⟩
  | .local _ .vmem, ⟨70, _⟩ => ⟨S5000x128, .bf16⟩
  | .local _ .vmem, ⟨71, _⟩ => ⟨S5000x128, .bf16⟩
  | .local _ .vmem, ⟨72, _⟩ => ⟨S5000x128, .f32⟩
  | .local _ .vmem, ⟨73, _⟩ => ⟨S5000x128, .f32⟩
  | .local _ .vmem, ⟨74, _⟩ => ⟨S128x128, .f32⟩
  | .local _ .vmem, ⟨75, _⟩ => ⟨S1x128, .f32⟩
  | .local _ .vmem, ⟨76, _⟩ => ⟨S5000x128, .bf16⟩
  | .local _ .vmem, ⟨77, _⟩ => ⟨S5000x128, .bf16⟩
  | .local _ .vmem, ⟨78, _⟩ => ⟨S5000x128, .bf16⟩
  | .local _ .vmem, ⟨79, _⟩ => ⟨S5000x128, .bf16⟩
  | .local _ .vmem, ⟨80, _⟩ => ⟨S5000x128, .f32⟩
  | .local _ .vmem, ⟨81, _⟩ => ⟨S5000x128, .f32⟩
  | .local _ .vmem, ⟨82, _⟩ => ⟨S128x128, .f32⟩
  | .local _ .vmem, ⟨83, _⟩ => ⟨S1x128, .f32⟩
  | .local _ .vmem, ⟨84, _⟩ => ⟨S5000x128, .bf16⟩
  | .local _ .vmem, ⟨85, _⟩ => ⟨S5000x128, .bf16⟩
  | .local _ .vmem, ⟨86, _⟩ => ⟨S5000x128, .bf16⟩
  | .local _ .vmem, ⟨87, _⟩ => ⟨S5000x128, .bf16⟩
  | .local _ .vmem, ⟨88, _⟩ => ⟨S128x128, .f32⟩
  | .local _ .vmem, ⟨89, _⟩ => ⟨S1x128, .f32⟩
  | .local _ .vmem, ⟨90, _⟩ => ⟨S5000x1, .f32⟩
  | .local _ .vmem, ⟨91, _⟩ => ⟨S5000x1, .f32⟩
  | .local _ .vmem, ⟨92, _⟩ => ⟨S5000x128, .f32⟩
  | .local _ .vmem, ⟨93, _⟩ => ⟨S5000x128, .f32⟩
  | .local _ .vmem, ⟨94, _⟩ => ⟨S1024x128, .f32⟩
  | .local _ .vmem, ⟨95, _⟩ => ⟨S1024x128, .f32⟩
  | .local _ .vmem, ⟨96, _⟩ => ⟨S1x1024, .i32⟩
  | .local _ .vmem, ⟨97, _⟩ => ⟨S1x1024, .i32⟩
  | .local _ .vmem, ⟨98, _⟩ => ⟨S1024x128, .f32⟩
  | .local _ .vmem, ⟨99, _⟩ => ⟨S1024x1, .f32⟩
  | _, _ => ⟨S200000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_7 : Ref sig .tc := ⟨.hbm, 75, rfl⟩
abbrev main_v40 : Ref sig .tc := ⟨.hbm, 76, rfl⟩
abbrev main_v41 : Ref sig .tc := ⟨.hbm, 77, rfl⟩
abbrev main_c_8 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_9 : Ref sig .tc := ⟨.hbm, 98, rfl⟩
abbrev main_v60 : Ref sig .tc := ⟨.hbm, 99, rfl⟩
abbrev main_v61 : Ref sig .tc := ⟨.hbm, 100, rfl⟩
abbrev main_c_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_11 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_12 : Ref sig .tc := ⟨.hbm, 121, rfl⟩
abbrev main_v80 : Ref sig .tc := ⟨.hbm, 122, rfl⟩
abbrev main_v81 : Ref sig .tc := ⟨.hbm, 123, rfl⟩
abbrev main_c_13 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_14 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_15 : Ref sig .tc := ⟨.hbm, 147, rfl⟩
abbrev main_v103 : Ref sig .tc := ⟨.hbm, 148, rfl⟩
abbrev main_v104 : Ref sig .tc := ⟨.hbm, 149, rfl⟩
abbrev main_c_16 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_17 : Ref sig .tc := ⟨.hbm, 156, rfl⟩
abbrev main_call0_v0 : Ref sig .tc := ⟨.hbm, 157, rfl⟩
abbrev main_v110 : Ref sig .tc := ⟨.hbm, 158, rfl⟩
abbrev main_c_18 : Ref sig .tc := ⟨.hbm, 159, rfl⟩
abbrev main_call1_v0 : Ref sig .tc := ⟨.hbm, 160, rfl⟩
abbrev main_v111 : Ref sig .tc := ⟨.hbm, 161, rfl⟩
abbrev main_v112 : Ref sig .tc := ⟨.hbm, 162, rfl⟩
abbrev main_v113_0 : Ref sig .tc := ⟨.hbm, 163, rfl⟩
abbrev main_v113_1 : Ref sig .tc := ⟨.hbm, 164, rfl⟩
abbrev main_cst_19 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_c_20 : Ref sig .tc := ⟨.hbm, 180, rfl⟩
abbrev main_v128 : Ref sig .tc := ⟨.hbm, 181, rfl⟩
abbrev main_v129 : Ref sig .tc := ⟨.hbm, 182, rfl⟩
abbrev main_c_21 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_22 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_c_23 : Ref sig .tc := ⟨.hbm, 203, rfl⟩
abbrev main_v148 : Ref sig .tc := ⟨.hbm, 204, rfl⟩
abbrev main_v149 : Ref sig .tc := ⟨.hbm, 205, rfl⟩
abbrev main_c_24 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_25 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_26 : Ref sig .tc := ⟨.hbm, 226, rfl⟩
abbrev main_v168 : Ref sig .tc := ⟨.hbm, 227, rfl⟩
abbrev main_v169 : Ref sig .tc := ⟨.hbm, 228, rfl⟩
abbrev main_c_27 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_28 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_c_29 : Ref sig .tc := ⟨.hbm, 252, rfl⟩
abbrev main_v191 : Ref sig .tc := ⟨.hbm, 253, rfl⟩
abbrev main_v192 : Ref sig .tc := ⟨.hbm, 254, rfl⟩
abbrev main_c_30 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_31 : Ref sig .tc := ⟨.hbm, 261, rfl⟩
abbrev main_v198 : Ref sig .tc := ⟨.hbm, 262, rfl⟩
abbrev main_v199 : Ref sig .tc := ⟨.hbm, 263, rfl⟩
abbrev main_c_32 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_c_33 : Ref sig .tc := ⟨.hbm, 270, rfl⟩
abbrev main_call2_v0 : Ref sig .tc := ⟨.hbm, 271, rfl⟩
abbrev main_v205 : Ref sig .tc := ⟨.hbm, 272, rfl⟩
abbrev main_c_34 : Ref sig .tc := ⟨.hbm, 273, rfl⟩
abbrev main_call3_v0 : Ref sig .tc := ⟨.hbm, 274, rfl⟩
abbrev main_v206 : Ref sig .tc := ⟨.hbm, 275, rfl⟩
abbrev main_v207 : Ref sig .tc := ⟨.hbm, 276, rfl⟩
abbrev main_v208_0 : Ref sig .tc := ⟨.hbm, 277, rfl⟩
abbrev main_v208_1 : Ref sig .tc := ⟨.hbm, 278, rfl⟩
abbrev main_cst_35 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg3_0 : Ref sig .tc := ⟨.vmem, 75, rfl⟩
abbrev cc10_stg4_0 : Ref sig .tc := ⟨.vmem, 76, rfl⟩
abbrev cc10_stg4_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg1_1 : Ref sig .tc := ⟨.vmem, 81, rfl⟩
abbrev cc11_stg2_0 : Ref sig .tc := ⟨.vmem, 82, rfl⟩
abbrev cc11_stg3_0 : Ref sig .tc := ⟨.vmem, 83, rfl⟩
abbrev cc11_stg4_0 : Ref sig .tc := ⟨.vmem, 84, rfl⟩
abbrev cc11_stg4_1 : Ref sig .tc := ⟨.vmem, 85, rfl⟩
abbrev cc12_stg0_0 : Ref sig .tc := ⟨.vmem, 86, rfl⟩
abbrev cc12_stg0_1 : Ref sig .tc := ⟨.vmem, 87, rfl⟩
abbrev cc12_stg1_0 : Ref sig .tc := ⟨.vmem, 88, rfl⟩
abbrev cc12_stg2_0 : Ref sig .tc := ⟨.vmem, 89, rfl⟩
abbrev cc12_stg3_0 : Ref sig .tc := ⟨.vmem, 90, rfl⟩
abbrev cc12_stg3_1 : Ref sig .tc := ⟨.vmem, 91, rfl⟩
abbrev cc12_stg4_0 : Ref sig .tc := ⟨.vmem, 92, rfl⟩
abbrev cc12_stg4_1 : Ref sig .tc := ⟨.vmem, 93, rfl⟩
abbrev cc13_stg0_0 : Ref sig .tc := ⟨.vmem, 94, rfl⟩
abbrev cc13_stg0_1 : Ref sig .tc := ⟨.vmem, 95, rfl⟩
abbrev cc13_stg1_0 : Ref sig .tc := ⟨.vmem, 96, rfl⟩
abbrev cc13_stg1_1 : Ref sig .tc := ⟨.vmem, 97, rfl⟩
abbrev cc13_stg2_0 : Ref sig .tc := ⟨.vmem, 98, rfl⟩
abbrev cc13_stg3_0 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem3_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem3_0 : DmaSem sig := 75
abbrev cc10_sem4_0 : DmaSem sig := 76
abbrev cc10_sem4_1 : DmaSem sig := 77
abbrev cc11_sem0_0 : DmaSem sig := 78
abbrev cc11_sem0_1 : DmaSem sig := 79
abbrev cc11_sem1_0 : DmaSem sig := 80
abbrev cc11_sem1_1 : DmaSem sig := 81
abbrev cc11_sem2_0 : DmaSem sig := 82
abbrev cc11_sem3_0 : DmaSem sig := 83
abbrev cc11_sem4_0 : DmaSem sig := 84
abbrev cc11_sem4_1 : DmaSem sig := 85
abbrev cc12_sem0_0 : DmaSem sig := 86
abbrev cc12_sem0_1 : DmaSem sig := 87
abbrev cc12_sem1_0 : DmaSem sig := 88
abbrev cc12_sem2_0 : DmaSem sig := 89
abbrev cc12_sem3_0 : DmaSem sig := 90
abbrev cc12_sem3_1 : DmaSem sig := 91
abbrev cc12_sem4_0 : DmaSem sig := 92
abbrev cc12_sem4_1 : DmaSem sig := 93
abbrev cc13_sem0_0 : DmaSem sig := 94
abbrev cc13_sem0_1 : DmaSem sig := 95
abbrev cc13_sem1_0 : DmaSem sig := 96
abbrev cc13_sem1_1 : DmaSem sig := 97
abbrev cc13_sem2_0 : DmaSem sig := 98
abbrev cc13_sem3_0 : DmaSem sig := 99

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S133x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![70], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S14x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![147], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1024 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x133 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S133x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x14 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S14x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![40], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x128 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x128 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![40], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x1 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![98], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S1024x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1024 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1024x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1024x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S_S350000 : S_.BroadcastsInDim S350000 (![] : Fin 0 → Fin S350000.rank)
  bcast_S350000_S350000x1_0 : S350000.BroadcastsInDim S350000x1 (![0] : Fin 1 → Fin S350000x1.rank)
  slices_S2x350000_S1x350000_0_0 : S2x350000.Slices ![0, 0] S1x350000
  shapeCasts_S1x350000_S350000 : S1x350000.ShapeCasts S350000
  slices_S2x350000_S1x350000_1_0 : S2x350000.Slices ![1, 0] S1x350000
  shapeCasts_S128_S1x128 : S128.ShapeCasts S1x128
  inb_S5000x133_S5000x133_0_0 : ∀ a, (![0, 0] : Fin 2 → Nat) a + S5000x133.size a ≤ S5000x133.size a
  h_S5000x133 : 0 < S5000x133.numel
  shapeCasts_S5000x133_S5000x133 : S5000x133.ShapeCasts S5000x133
  bitsLt_bf16_f32 : FTy.bits .bf16 < FTy.bits .f32
  inb_S133x128_S133x128_0_0 : ∀ a, (![0, 0] : Fin 2 → Nat) a + S133x128.size a ≤ S133x128.size a
  h_S133x128 : 0 < S133x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  inb_S5000x14_S5000x14_0_0 : ∀ a, (![0, 0] : Fin 2 → Nat) a + S5000x14.size a ≤ S5000x14.size a
  h_S5000x14 : 0 < S5000x14.numel
  shapeCasts_S5000x14_S5000x14 : S5000x14.ShapeCasts S5000x14
  inb_S14x128_S14x128_0_0 : ∀ a, (![0, 0] : Fin 2 → Nat) a + S14x128.size a ≤ S14x128.size a
  h_S14x128 : 0 < S14x128.numel
  shapeCasts_S350000_S350000x1 : S350000.ShapeCasts S350000x1
  bcast_S350000x1_S350000x128_0_1 : S350000x1.BroadcastsInDim S350000x128 (![0, 1] : Fin 2 → Fin S350000x128.rank)
  bcast_S_S150000x128 : S_.BroadcastsInDim S150000x128 (![] : Fin 0 → Fin S150000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S150000_S150000x1 : S150000.ShapeCasts S150000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  pads_S150000x128_S150528x128_05280_000 : S150000x128.Pads (![0, 0] : Fin 2 → Nat) ![528, 0] ![0, 0] S150528x128
  h_S_ : 0 < S_.numel
  pads_S150000_S150528_05280 : S150000.Pads (![0] : Fin 1 → Nat) ![528] ![0] S150528
  shapeCasts_S150528_S1x150528 : S150528.ShapeCasts S1x150528
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  broadcasts_S1x1024_S1024x1024 : S1x1024.Broadcasts S1024x1024
  natLt_1_32 : 1 < 32
  shapeCasts_S1024x128_S1024x128 : S1024x128.ShapeCasts S1024x128
  shapeCasts_S1024x1_S1024x1 : S1024x1.ShapeCasts S1024x1
  reduces_S1024x1024_S1024 : S1024x1024.Reduces [1] S1024
  shapeCasts_S1024_S1024x1 : S1024.ShapeCasts S1024x1
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S500000_S500000x1 : S500000.ShapeCasts S500000x1
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S200000x128 : S_.BroadcastsInDim S200000x128 (![] : Fin 0 → Fin S200000x128.rank)
  shapeCasts_S200000_S200000x1 : S200000.ShapeCasts S200000x1
  bcast_S_S100000 : S_.BroadcastsInDim S100000 (![] : Fin 0 → Fin S100000.rank)
  bcast_S100000_S100000x1_0 : S100000.BroadcastsInDim S100000x1 (![0] : Fin 1 → Fin S100000x1.rank)
  pads_S100000x128_S100352x128_03520_000 : S100000x128.Pads (![0, 0] : Fin 2 → Nat) ![352, 0] ![0, 0] S100352x128
  pads_S100000_S100352_03520 : S100000.Pads (![0] : Fin 1 → Nat) ![352] ![0] S100352
  shapeCasts_S100352_S1x100352 : S100352.ShapeCasts S1x100352
  bcast_S1024x128_S1x1024x128_1_2 : S1024x128.BroadcastsInDim S1x1024x128 (![1, 2] : Fin 2 → Fin S1x1024x128.rank)
  concatenates_S1x1024x128_S1x1024x128_S2x1024x128_d0 : Shape.Concatenates [S1x1024x128, S1x1024x128] S2x1024x128 0
  gather_S200000x133_S150000x1_S150000x133_1_0_n_n_0_1_1133_wf : GatherDims.WF S200000x133 S150000x1 S150000x133 [1] [0] [] [0] [] 1 ![1, 133]
  gather_S200000_S150000x1_S150000_n_0_n_n_0_1_1_wf : GatherDims.WF S200000 S150000x1 S150000 [] [0] [] [0] [] 1 ![1]
  gather_S500000x14_S350000x1_S350000x14_1_0_n_n_0_1_114_wf : GatherDims.WF S500000x14 S350000x1 S350000x14 [1] [0] [] [0] [] 1 ![1, 14]
  gather_S500000_S350000x1_S350000_n_0_n_n_0_1_1_wf : GatherDims.WF S500000 S350000x1 S350000 [] [0] [] [0] [] 1 ![1]
  dot_S5000x133_S133x128_S5000x128_1_0_0_1_n_n_wf : DotDims.WF S5000x133 S133x128 S5000x128 [1] [0] [0] [1] [] []
  dot_S5000x14_S14x128_S5000x128_1_0_0_1_n_n_wf : DotDims.WF S5000x14 S14x128 S5000x128 [1] [0] [0] [1] [] []
  gather_S150000x128_S350000x1_S350000x128_1_0_n_n_0_1_1128_wf : GatherDims.WF S150000x128 S350000x1 S350000x128 [1] [0] [] [0] [] 1 ![1, 128]
  scatter_S150000x128_S350000x1_S350000x128_1_0_0_1_wf : ScatterDims.WF S150000x128 S350000x1 S350000x128 [1] [0] [0] 1
  dot_S5000x128_S128x128_S5000x128_1_0_0_1_n_n_wf : DotDims.WF S5000x128 S128x128 S5000x128 [1] [0] [0] [1] [] []
  dot_S1024x1024_S1024x128_S1024x128_1_0_0_1_n_n_wf : DotDims.WF S1024x1024 S1024x128 S1024x128 [1] [0] [0] [1] [] []
  gather_S200000x128_S500000x1_S500000x128_1_0_n_n_0_1_1128_wf : GatherDims.WF S200000x128 S500000x1 S500000x128 [1] [0] [] [0] [] 1 ![1, 128]
  scatter_S200000x128_S500000x1_S500000x128_1_0_0_1_wf : ScatterDims.WF S200000x128 S500000x1 S500000x128 [1] [0] [0] 1
  gather_S200000x128_S100000x1_S100000x128_1_0_n_n_0_1_1128_wf : GatherDims.WF S200000x128 S100000x1 S100000x128 [1] [0] [] [0] [] 1 ![1, 128]
  gather_S200000_S100000x1_S100000_n_0_n_n_0_1_1_wf : GatherDims.WF S200000 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x133.size a ≤ S150000x133.size a
  hwx0_0 : ∀ i : grid0.Coords, EltTy.bits .f32 = 32 ∨ (Rect.block (s := S150000x133) S5000x133.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S133x128.size a ≤ S133x128.size a
  hwx0_1 : ∀ i : grid0.Coords, EltTy.bits .f32 = 32 ∨ (Rect.block (s := S133x128) S133x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S150000x128.size a
  hwx0_3 : ∀ i : grid0.Coords, EltTy.bits .bf16 = 32 ∨ (Rect.block (s := S150000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x14.size a ≤ S350000x14.size a
  hwx1_0 : ∀ i : grid1.Coords, EltTy.bits .f32 = 32 ∨ (Rect.block (s := S350000x14) S5000x14.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S14x128.size a ≤ S14x128.size a
  hwx1_1 : ∀ i : grid1.Coords, EltTy.bits .f32 = 32 ∨ (Rect.block (s := S14x128) S14x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S350000x128.size a
  hwx1_3 : ∀ i : grid1.Coords, EltTy.bits .bf16 = 32 ∨ (Rect.block (s := S350000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S150000x128.size a
  hwx2_0 : ∀ i : grid2.Coords, EltTy.bits .bf16 = 32 ∨ (Rect.block (s := S150000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S150000x128.size a
  hwx2_1 : ∀ i : grid2.Coords, EltTy.bits .f32 = 32 ∨ (Rect.block (s := S150000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S150000x128.size a
  hwx2_4 : ∀ i : grid2.Coords, EltTy.bits .bf16 = 32 ∨ (Rect.block (s := S150000x128) S5000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S150000x128.size a
  hwx3_0 : ∀ i : grid3.Coords, EltTy.bits .bf16 = 32 ∨ (Rect.block (s := S150000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S150000x128.size a
  hwx3_1 : ∀ i : grid3.Coords, EltTy.bits .f32 = 32 ∨ (Rect.block (s := S150000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S150000x128.size a
  hwx3_4 : ∀ i : grid3.Coords, EltTy.bits .bf16 = 32 ∨ (Rect.block (s := S150000x128) S5000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S150000x128.size a
  hwx4_0 : ∀ i : grid4.Coords, EltTy.bits .bf16 = 32 ∨ (Rect.block (s := S150000x128) S5000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S150000x128.size a
  hwx4_1 : ∀ i : grid4.Coords, EltTy.bits .f32 = 32 ∨ (Rect.block (s := S150000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S150000x128.size a
  hwx4_4 : ∀ i : grid4.Coords, EltTy.bits .bf16 = 32 ∨ (Rect.block (s := S150000x128) S5000x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S150000x128.size a
  hwx5_0 : ∀ i : grid5.Coords, EltTy.bits .bf16 = 32 ∨ (Rect.block (s := S150000x128) S5000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S150000x1.size a
  hwx5_3 : ∀ i : grid5.Coords, EltTy.bits .f32 = 32 ∨ (Rect.block (s := S150000x1) S5000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S150000x128.size a
  hwx5_4 : ∀ i : grid5.Coords, EltTy.bits .f32 = 32 ∨ (Rect.block (s := S150000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S150528x128.size a
  hwx6_0 : ∀ i : grid6.Coords, EltTy.bits .f32 = 32 ∨ (Rect.block (s := S150528x128) S1024x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1024.size a ≤ S1x150528.size a
  hwx6_1 : ∀ i : grid6.Coords, EltTy.bits .i32 = 32 ∨ (Rect.block (s := S1x150528) S1x1024.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S1024x128.size a
  hwx6_2 : ∀ i : grid6.Coords, EltTy.bits .f32 = 32 ∨ (Rect.block (s := S1024x128) S1024x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x1.size a ≤ S1024x1.size a
  hwx6_3 : ∀ i : grid6.Coords, EltTy.bits .f32 = 32 ∨ (Rect.block (s := S1024x1) S1024x1.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x133.size a ≤ S200000x133.size a
  hwx7_0 : ∀ i : grid7.Coords, EltTy.bits .f32 = 32 ∨ (Rect.block (s := S200000x133) S5000x133.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S133x128.size a ≤ S133x128.size a
  hwx7_1 : ∀ i : grid7.Coords, EltTy.bits .f32 = 32 ∨ (Rect.block (s := S133x128) S133x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S200000x128.size a
  hwx7_3 : ∀ i : grid7.Coords, EltTy.bits .bf16 = 32 ∨ (Rect.block (s := S200000x128) S5000x128.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x14.size a ≤ S500000x14.size a
  hwx8_0 : ∀ i : grid8.Coords, EltTy.bits .f32 = 32 ∨ (Rect.block (s := S500000x14) S5000x14.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S14x128.size a ≤ S14x128.size a
  hwx8_1 : ∀ i : grid8.Coords, EltTy.bits .f32 = 32 ∨ (Rect.block (s := S14x128) S14x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S500000x128.size a
  hwx8_3 : ∀ i : grid8.Coords, EltTy.bits .bf16 = 32 ∨ (Rect.block (s := S500000x128) S5000x128.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S200000x128.size a
  hwx9_0 : ∀ i : grid9.Coords, EltTy.bits .bf16 = 32 ∨ (Rect.block (s := S200000x128) S5000x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S200000x128.size a
  hwx9_1 : ∀ i : grid9.Coords, EltTy.bits .f32 = 32 ∨ (Rect.block (s := S200000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S200000x128.size a
  hwx9_4 : ∀ i : grid9.Coords, EltTy.bits .bf16 = 32 ∨ (Rect.block (s := S200000x128) S5000x128.size (cc9_transform_4 i) (hinb9_4 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S200000x128.size a
  hwx10_0 : ∀ i : grid10.Coords, EltTy.bits .bf16 = 32 ∨ (Rect.block (s := S200000x128) S5000x128.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S200000x128.size a
  hwx10_1 : ∀ i : grid10.Coords, EltTy.bits .f32 = 32 ∨ (Rect.block (s := S200000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S200000x128.size a
  hwx10_4 : ∀ i : grid10.Coords, EltTy.bits .bf16 = 32 ∨ (Rect.block (s := S200000x128) S5000x128.size (cc10_transform_4 i) (hinb10_4 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S200000x128.size a
  hwx11_0 : ∀ i : grid11.Coords, EltTy.bits .bf16 = 32 ∨ (Rect.block (s := S200000x128) S5000x128.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S200000x128.size a
  hwx11_1 : ∀ i : grid11.Coords, EltTy.bits .f32 = 32 ∨ (Rect.block (s := S200000x128) S5000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x128.size a ≤ S200000x128.size a
  hwx11_4 : ∀ i : grid11.Coords, EltTy.bits .bf16 = 32 ∨ (Rect.block (s := S200000x128) S5000x128.size (cc11_transform_4 i) (hinb11_4 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S200000x128.size a
  hwx12_0 : ∀ i : grid12.Coords, EltTy.bits .bf16 = 32 ∨ (Rect.block (s := S200000x128) S5000x128.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x1.size a ≤ S200000x1.size a
  hwx12_3 : ∀ i : grid12.Coords, EltTy.bits .f32 = 32 ∨ (Rect.block (s := S200000x1) S5000x1.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S200000x128.size a
  hwx12_4 : ∀ i : grid12.Coords, EltTy.bits .f32 = 32 ∨ (Rect.block (s := S200000x128) S5000x128.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x128.size a ≤ S100352x128.size a
  hwx13_0 : ∀ i : grid13.Coords, EltTy.bits .f32 = 32 ∨ (Rect.block (s := S100352x128) S1024x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x1024.size a ≤ S1x100352.size a
  hwx13_1 : ∀ i : grid13.Coords, EltTy.bits .i32 = 32 ∨ (Rect.block (s := S1x100352) S1x1024.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1024x128.size a ≤ S1024x128.size a
  hwx13_2 : ∀ i : grid13.Coords, EltTy.bits .f32 = 32 ∨ (Rect.block (s := S1024x128) S1024x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1024x1.size a ≤ S1024x1.size a
  hwx13_3 : ∀ i : grid13.Coords, EltTy.bits .f32 = 32 ∨ (Rect.block (s := S1024x1) S1024x1.size (cc13_transform_3 i) (hinb13_3 i)).WholeWords (EltTy.packing .f32)

variable [Facts₀]

def gather_S200000x133_S150000x1_S150000x133_1_0_n_n_0_1_1133 : GatherDims S200000x133 S150000x1 S150000x133 where
  offsetDims := [1]
  collapsedSliceDims := [0]
  operandBatchingDims := []
  startIndicesBatchingDims := []
  startIndexMap := [0]
  indexVectorDim := 1
  sliceSizes := ![1, 133]
  wf := gather_S200000x133_S150000x1_S150000x133_1_0_n_n_0_1_1133_wf
def gather_S200000_S150000x1_S150000_n_0_n_n_0_1_1 : GatherDims S200000 S150000x1 S150000 where
  offsetDims := []
  collapsedSliceDims := [0]
  operandBatchingDims := []
  startIndicesBatchingDims := []
  startIndexMap := [0]
  indexVectorDim := 1
  sliceSizes := ![1]
  wf := gather_S200000_S150000x1_S150000_n_0_n_n_0_1_1_wf
def gather_S500000x14_S350000x1_S350000x14_1_0_n_n_0_1_114 : GatherDims S500000x14 S350000x1 S350000x14 where
  offsetDims := [1]
  collapsedSliceDims := [0]
  operandBatchingDims := []
  startIndicesBatchingDims := []
  startIndexMap := [0]
  indexVectorDim := 1
  sliceSizes := ![1, 14]
  wf := gather_S500000x14_S350000x1_S350000x14_1_0_n_n_0_1_114_wf
def gather_S500000_S350000x1_S350000_n_0_n_n_0_1_1 : GatherDims S500000 S350000x1 S350000 where
  offsetDims := []
  collapsedSliceDims := [0]
  operandBatchingDims := []
  startIndicesBatchingDims := []
  startIndexMap := [0]
  indexVectorDim := 1
  sliceSizes := ![1]
  wf := gather_S500000_S350000x1_S350000_n_0_n_n_0_1_1_wf
def dot_S5000x133_S133x128_S5000x128_1_0_0_1_n_n : DotDims S5000x133 S133x128 S5000x128 where
  lhsContracting := [1]
  rhsContracting := [0]
  lhsNonContracting := [0]
  rhsNonContracting := [1]
  lhsBatch := []
  rhsBatch := []
  wf := dot_S5000x133_S133x128_S5000x128_1_0_0_1_n_n_wf
def dot_S5000x14_S14x128_S5000x128_1_0_0_1_n_n : DotDims S5000x14 S14x128 S5000x128 where
  lhsContracting := [1]
  rhsContracting := [0]
  lhsNonContracting := [0]
  rhsNonContracting := [1]
  lhsBatch := []
  rhsBatch := []
  wf := dot_S5000x14_S14x128_S5000x128_1_0_0_1_n_n_wf
def gather_S150000x128_S350000x1_S350000x128_1_0_n_n_0_1_1128 : GatherDims S150000x128 S350000x1 S350000x128 where
  offsetDims := [1]
  collapsedSliceDims := [0]
  operandBatchingDims := []
  startIndicesBatchingDims := []
  startIndexMap := [0]
  indexVectorDim := 1
  sliceSizes := ![1, 128]
  wf := gather_S150000x128_S350000x1_S350000x128_1_0_n_n_0_1_1128_wf
def scatter_S150000x128_S350000x1_S350000x128_1_0_0_1 : ScatterDims S150000x128 S350000x1 S350000x128 where
  updateWindowDims := [1]
  insertedWindowDims := [0]
  scatterDimsToOperandDims := [0]
  indexVectorDim := 1
  wf := scatter_S150000x128_S350000x1_S350000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf

abbrev win0_0 : Pipeline.Window sig grid0 :=
  Pipeline.Window.ofSpec (Memref.whole main_v6) S5000x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S133x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S14x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v99) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v102) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v110) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v112) S1x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v113_0) S1024x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v113_1) S1024x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_arg0) S5000x133.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg19) S133x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v122) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v123) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg3) S5000x14.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg21) S14x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v124) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v123) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v141) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v143) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v146) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v147) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v147) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v161) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v163) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v166) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v167) S5000x128.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v167) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v181) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v183) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v186) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v187) S5000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v187) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg25) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v189) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v188) S5000x1.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v190) S5000x128.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v205) S1024x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v207) S1x1024.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v208_0) S1024x128.size cc13_transform_2 reads13_2 true true 1 stage13_2 sem13_2
    hrank13 hreads13_2 hinb13_2 nbuf13_2 (Memref.isWhole_whole _) hwx13_2 hstage13_2

abbrev win13_3 : Pipeline.Window sig grid13 :=
  Pipeline.Window.ofSpec (Memref.whole main_v208_1) S1024x1.size cc13_transform_3 reads13_3 true true 1 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S200000x133 : Shape := ⟨2, ![200000, 133]⟩
abbrev S200000 : Shape := ⟨1, ![200000]⟩
abbrev S2x500000 : Shape := ⟨2, ![2, 500000]⟩
abbrev S500000x14 : Shape := ⟨2, ![500000, 14]⟩
abbrev S500000 : Shape := ⟨1, ![500000]⟩
abbrev S150000 : Shape := ⟨1, ![150000]⟩
abbrev S100000 : Shape := ⟨1, ![100000]⟩
abbrev S2x350000 : Shape := ⟨2, ![2, 350000]⟩
abbrev S350000 : Shape := ⟨1, ![350000]⟩
abbrev S133x128 : Shape := ⟨2, ![133, 128]⟩
abbrev S128 : Shape := ⟨1, ![128]⟩
abbrev S14x128 : Shape := ⟨2, ![14, 128]⟩
abbrev S3x128x128 : Shape := ⟨3, ![3, 128, 128]⟩
abbrev S3x128 : Shape := ⟨2, ![3, 128]⟩
abbrev S128x128 : Shape := ⟨2, ![128, 128]⟩
abbrev S_ : Shape := ⟨0, ![]⟩
abbrev S150000x1 : Shape := ⟨2, ![150000, 1]⟩
abbrev S150000x133 : Shape := ⟨2, ![150000, 133]⟩
abbrev S350000x1 : Shape := ⟨2, ![350000, 1]⟩
abbrev S350000x14 : Shape := ⟨2, ![350000, 14]⟩
abbrev S1x350000 : Shape := ⟨2, ![1, 350000]⟩
abbrev S150000x128 : Shape := ⟨2, ![150000, 128]⟩
abbrev S1x128 : Shape := ⟨2, ![1, 128]⟩
abbrev S350000x128 : Shape := ⟨2, ![350000, 128]⟩
abbrev S1x128x128 : Shape := ⟨3, ![1, 128, 128]⟩
abbrev S1024x128 : Shape := ⟨2, ![1024, 128]⟩
abbrev S1024 : Shape := ⟨1, ![1024]⟩
abbrev S1024x1 : Shape := ⟨2, ![1024, 1]⟩
abbrev S1x500000 : Shape := ⟨2, ![1, 500000]⟩
abbrev S200000x128 : Shape := ⟨2, ![200000, 128]⟩
abbrev S500000x128 : Shape := ⟨2, ![500000, 128]⟩
abbrev S500000x1 : Shape := ⟨2, ![500000, 1]⟩
abbrev S200000x1 : Shape := ⟨2, ![200000, 1]⟩
abbrev S100000x1 : Shape := ⟨2, ![100000, 1]⟩
abbrev S100000x128 : Shape := ⟨2, ![100000, 128]⟩
abbrev S1x1024x128 : Shape := ⟨3, ![1, 1024, 128]⟩
abbrev S2x1024x128 : Shape := ⟨3, ![2, 1024, 128]⟩

abbrev nBuf : Space → Nat
  | .hbm => 347
  | .vmem => 0
  | .smem => 0
  | _ => 0

abbrev hbmTy0_0 (i : Nat) : BufTy := match i % 128 with
  | 0 => ⟨S200000x133, .f32⟩
  | 1 => ⟨S200000, .f32⟩
  | 2 => ⟨S2x500000, .i32⟩
  | 3 => ⟨S500000x14, .f32⟩
  | 4 => ⟨S500000, .f32⟩
  | 5 => ⟨S200000, .i32⟩
  | 6 => ⟨S150000, .i32⟩
  | 7 => ⟨S100000, .i32⟩
  | 8 => ⟨S2x350000, .i32⟩
  | 9 => ⟨S350000, .i32⟩
  | 10 => ⟨S350000, .i1⟩
  | 11 => ⟨S133x128, .f32⟩
  | 12 => ⟨S128, .f32⟩
  | 13 => ⟨S14x128, .f32⟩
  | 14 => ⟨S128, .f32⟩
  | 15 => ⟨S3x128x128, .f32⟩
  | 16 => ⟨S3x128, .f32⟩
  | 17 => ⟨S128x128, .f32⟩
  | 18 => ⟨S128, .f32⟩
  | 19 => ⟨S133x128, .f32⟩
  | 20 => ⟨S128, .f32⟩
  | 21 => ⟨S14x128, .f32⟩
  | 22 => ⟨S128, .f32⟩
  | 23 => ⟨S3x128x128, .f32⟩
  | 24 => ⟨S3x128, .f32⟩
  | 25 => ⟨S128x128, .f32⟩
  | 26 => ⟨S128, .f32⟩
  | 27 => ⟨S_, .i32⟩
  | 28 => ⟨S150000, .i32⟩
  | 29 => ⟨S150000, .i1⟩
  | 30 => ⟨S_, .i32⟩
  | 31 => ⟨S150000, .i32⟩
  | 32 => ⟨S150000, .i32⟩
  | 33 => ⟨S150000, .i32⟩
  | 34 => ⟨S150000x1, .i32⟩
  | 35 => ⟨S150000x133, .f32⟩
  | 36 => ⟨S_, .i32⟩
  | 37 => ⟨S150000, .i32⟩
  | 38 => ⟨S150000, .i1⟩
  | 39 => ⟨S_, .i32⟩
  | 40 => ⟨S150000, .i32⟩
  | 41 => ⟨S150000, .i32⟩
  | 42 => ⟨S150000, .i32⟩
  | 43 => ⟨S150000x1, .i32⟩
  | 44 => ⟨S150000, .f32⟩
  | 45 => ⟨S_, .i32⟩
  | 46 => ⟨S350000, .i32⟩
  | 47 => ⟨S350000, .i1⟩
  | 48 => ⟨S_, .i32⟩
  | 49 => ⟨S350000, .i32⟩
  | 50 => ⟨S350000, .i32⟩
  | 51 => ⟨S350000, .i32⟩
  | 52 => ⟨S350000x1, .i32⟩
  | 53 => ⟨S350000x14, .f32⟩
  | 54 => ⟨S_, .i32⟩
  | 55 => ⟨S350000, .i32⟩
  | 56 => ⟨S350000, .i1⟩
  | 57 => ⟨S_, .i32⟩
  | 58 => ⟨S350000, .i32⟩
  | 59 => ⟨S350000, .i32⟩
  | 60 => ⟨S350000, .i32⟩
  | 61 => ⟨S350000x1, .i32⟩
  | 62 => ⟨S350000, .f32⟩
  | 63 => ⟨S350000, .f32⟩
  | 64 => ⟨S350000, .f32⟩
  | 65 => ⟨S1x350000, .i32⟩
  | 66 => ⟨S350000, .i32⟩
  | 67 => ⟨S1x350000, .i32⟩
  | 68 => ⟨S350000, .i32⟩
  | 69 => ⟨S150000x128, .f32⟩
  | 70 => ⟨S1x128, .f32⟩
  | 71 => ⟨S150000x128, .f32⟩
  | 72 => ⟨S150000x128, .f32⟩
  | 73 => ⟨S_, .f32⟩
  | 74 => ⟨S150000x128, .f32⟩
  | 75 => ⟨S150000x128, .f32⟩
  | 76 => ⟨S350000x128, .f32⟩
  | 77 => ⟨S1x128, .f32⟩
  | 78 => ⟨S350000x128, .f32⟩
  | 79 => ⟨S350000x128, .f32⟩
  | 80 => ⟨S_, .f32⟩
  | 81 => ⟨S350000x128, .f32⟩
  | 82 => ⟨S350000x128, .f32⟩
  | 83 => ⟨S350000x1, .f32⟩
  | 84 => ⟨S_, .i32⟩
  | 85 => ⟨S350000, .i32⟩
  | 86 => ⟨S350000, .i1⟩
  | 87 => ⟨S_, .i32⟩
  | 88 => ⟨S350000, .i32⟩
  | 89 => ⟨S350000, .i32⟩
  | 90 => ⟨S350000, .i32⟩
  | 91 => ⟨S350000x1, .i32⟩
  | 92 => ⟨S350000x128, .f32⟩
  | 93 => ⟨S350000x128, .f32⟩
  | 94 => ⟨S350000x128, .f32⟩
  | 95 => ⟨S350000x128, .f32⟩
  | 96 => ⟨S_, .f32⟩
  | 97 => ⟨S150000x128, .f32⟩
  | 98 => ⟨S350000x1, .i32⟩
  | 99 => ⟨S150000x128, .f32⟩
  | 100 => ⟨S1x128x128, .f32⟩
  | 101 => ⟨S128x128, .f32⟩
  | 102 => ⟨S150000x128, .f32⟩
  | 103 => ⟨S150000x128, .f32⟩
  | 104 => ⟨S1x128, .f32⟩
  | 105 => ⟨S128, .f32⟩
  | 106 => ⟨S1x128, .f32⟩
  | 107 => ⟨S150000x128, .f32⟩
  | 108 => ⟨S150000x128, .f32⟩
  | 109 => ⟨S_, .f32⟩
  | 110 => ⟨S150000x128, .f32⟩
  | 111 => ⟨S150000x128, .f32⟩
  | 112 => ⟨S_, .i32⟩
  | 113 => ⟨S350000, .i32⟩
  | 114 => ⟨S350000, .i1⟩
  | 115 => ⟨S_, .i32⟩
  | 116 => ⟨S350000, .i32⟩
  | 117 => ⟨S350000, .i32⟩
  | 118 => ⟨S350000, .i32⟩
  | 119 => ⟨S350000x1, .i32⟩
  | 120 => ⟨S350000x128, .f32⟩
  | 121 => ⟨S350000x128, .f32⟩
  | 122 => ⟨S350000x128, .f32⟩
  | 123 => ⟨S350000x128, .f32⟩
  | 124 => ⟨S_, .f32⟩
  | 125 => ⟨S150000x128, .f32⟩
  | 126 => ⟨S350000x1, .i32⟩
  | 127 => ⟨S150000x128, .f32⟩
  | _ => ⟨S200000x133, .f32⟩

abbrev hbmTy0_1 (i : Nat) : BufTy := match i % 128 with
  | 0 => ⟨S1x128x128, .f32⟩
  | 1 => ⟨S128x128, .f32⟩
  | 2 => ⟨S150000x128, .f32⟩
  | 3 => ⟨S150000x128, .f32⟩
  | 4 => ⟨S1x128, .f32⟩
  | 5 => ⟨S128, .f32⟩
  | 6 => ⟨S1x128, .f32⟩
  | 7 => ⟨S150000x128, .f32⟩
  | 8 => ⟨S150000x128, .f32⟩
  | 9 => ⟨S_, .f32⟩
  | 10 => ⟨S150000x128, .f32⟩
  | 11 => ⟨S150000x128, .f32⟩
  | 12 => ⟨S_, .i32⟩
  | 13 => ⟨S350000, .i32⟩
  | 14 => ⟨S350000, .i1⟩
  | 15 => ⟨S_, .i32⟩
  | 16 => ⟨S350000, .i32⟩
  | 17 => ⟨S350000, .i32⟩
  | 18 => ⟨S350000, .i32⟩
  | 19 => ⟨S350000x1, .i32⟩
  | 20 => ⟨S350000x128, .f32⟩
  | 21 => ⟨S350000x128, .f32⟩
  | 22 => ⟨S350000x128, .f32⟩
  | 23 => ⟨S350000x128, .f32⟩
  | 24 => ⟨S_, .f32⟩
  | 25 => ⟨S150000x128, .f32⟩
  | 26 => ⟨S350000x1, .i32⟩
  | 27 => ⟨S150000x128, .f32⟩
  | 28 => ⟨S1x128x128, .f32⟩
  | 29 => ⟨S128x128, .f32⟩
  | 30 => ⟨S150000x128, .f32⟩
  | 31 => ⟨S150000x128, .f32⟩
  | 32 => ⟨S1x128, .f32⟩
  | 33 => ⟨S128, .f32⟩
  | 34 => ⟨S1x128, .f32⟩
  | 35 => ⟨S150000x128, .f32⟩
  | 36 => ⟨S150000x128, .f32⟩
  | 37 => ⟨S_, .f32⟩
  | 38 => ⟨S150000x128, .f32⟩
  | 39 => ⟨S150000x128, .f32⟩
  | 40 => ⟨S150000x128, .f32⟩
  | 41 => ⟨S1x128, .f32⟩
  | 42 => ⟨S150000x128, .f32⟩
  | 43 => ⟨S150000x128, .f32⟩
  | 44 => ⟨S150000x1, .f32⟩
  | 45 => ⟨S150000x128, .f32⟩
  | 46 => ⟨S150000x128, .f32⟩
  | 47 => ⟨S_, .i32⟩
  | 48 => ⟨S150000, .i32⟩
  | 49 => ⟨S150000, .i1⟩
  | 50 => ⟨S_, .i32⟩
  | 51 => ⟨S150000, .i32⟩
  | 52 => ⟨S150000, .i32⟩
  | 53 => ⟨S150000, .i32⟩
  | 54 => ⟨S150000x1, .i32⟩
  | 55 => ⟨S150000, .i32⟩
  | 56 => ⟨S_, .f32⟩
  | 57 => ⟨S1024x128, .f32⟩
  | 58 => ⟨S150000x1, .i32⟩
  | 59 => ⟨S1024x128, .f32⟩
  | 60 => ⟨S_, .f32⟩
  | 61 => ⟨S150000, .f32⟩
  | 62 => ⟨S_, .f32⟩
  | 63 => ⟨S1024, .f32⟩
  | 64 => ⟨S150000x1, .i32⟩
  | 65 => ⟨S1024, .f32⟩
  | 66 => ⟨S_, .f32⟩
  | 67 => ⟨S1024, .f32⟩
  | 68 => ⟨S1024, .f32⟩
  | 69 => ⟨S1024x1, .f32⟩
  | 70 => ⟨S1024x128, .f32⟩
  | 71 => ⟨S1024x128, .f32⟩
  | 72 => ⟨S1x500000, .i32⟩
  | 73 => ⟨S500000, .i32⟩
  | 74 => ⟨S1x500000, .i32⟩
  | 75 => ⟨S500000, .i32⟩
  | 76 => ⟨S200000x128, .f32⟩
  | 77 => ⟨S1x128, .f32⟩
  | 78 => ⟨S200000x128, .f32⟩
  | 79 => ⟨S200000x128, .f32⟩
  | 80 => ⟨S_, .f32⟩
  | 81 => ⟨S200000x128, .f32⟩
  | 82 => ⟨S200000x128, .f32⟩
  | 83 => ⟨S500000x128, .f32⟩
  | 84 => ⟨S1x128, .f32⟩
  | 85 => ⟨S500000x128, .f32⟩
  | 86 => ⟨S500000x128, .f32⟩
  | 87 => ⟨S_, .f32⟩
  | 88 => ⟨S500000x128, .f32⟩
  | 89 => ⟨S500000x128, .f32⟩
  | 90 => ⟨S500000x1, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S500000x128, .f32⟩
  | 101 => ⟨S500000x128, .f32⟩
  | 102 => ⟨S500000x128, .f32⟩
  | 103 => ⟨S_, .f32⟩
  | 104 => ⟨S200000x128, .f32⟩
  | 105 => ⟨S500000x1, .i32⟩
  | 106 => ⟨S200000x128, .f32⟩
  | 107 => ⟨S1x128x128, .f32⟩
  | 108 => ⟨S128x128, .f32⟩
  | 109 => ⟨S200000x128, .f32⟩
  | 110 => ⟨S200000x128, .f32⟩
  | 111 => ⟨S1x128, .f32⟩
  | 112 => ⟨S128, .f32⟩
  | 113 => ⟨S1x128, .f32⟩
  | 114 => ⟨S200000x128, .f32⟩
  | 115 => ⟨S200000x128, .f32⟩
  | 116 => ⟨S_, .f32⟩
  | 117 => ⟨S200000x128, .f32⟩
  | 118 => ⟨S200000x128, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x128, .f32⟩
  | _ => ⟨S200000x133, .f32⟩

abbrev hbmTy0_2 (i : Nat) : BufTy := match i % 128 with
  | 0 => ⟨S500000x128, .f32⟩
  | 1 => ⟨S500000x128, .f32⟩
  | 2 => ⟨S500000x128, .f32⟩
  | 3 => ⟨S_, .f32⟩
  | 4 => ⟨S200000x128, .f32⟩
  | 5 => ⟨S500000x1, .i32⟩
  | 6 => ⟨S200000x128, .f32⟩
  | 7 => ⟨S1x128x128, .f32⟩
  | 8 => ⟨S128x128, .f32⟩
  | 9 => ⟨S200000x128, .f32⟩
  | 10 => ⟨S200000x128, .f32⟩
  | 11 => ⟨S1x128, .f32⟩
  | 12 => ⟨S128, .f32⟩
  | 13 => ⟨S1x128, .f32⟩
  | 14 => ⟨S200000x128, .f32⟩
  | 15 => ⟨S200000x128, .f32⟩
  | 16 => ⟨S_, .f32⟩
  | 17 => ⟨S200000x128, .f32⟩
  | 18 => ⟨S200000x128, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x128, .f32⟩
  | 28 => ⟨S500000x128, .f32⟩
  | 29 => ⟨S500000x128, .f32⟩
  | 30 => ⟨S500000x128, .f32⟩
  | 31 => ⟨S_, .f32⟩
  | 32 => ⟨S200000x128, .f32⟩
  | 33 => ⟨S500000x1, .i32⟩
  | 34 => ⟨S200000x128, .f32⟩
  | 35 => ⟨S1x128x128, .f32⟩
  | 36 => ⟨S128x128, .f32⟩
  | 37 => ⟨S200000x128, .f32⟩
  | 38 => ⟨S200000x128, .f32⟩
  | 39 => ⟨S1x128, .f32⟩
  | 40 => ⟨S128, .f32⟩
  | 41 => ⟨S1x128, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S200000x128, .f32⟩
  | 48 => ⟨S1x128, .f32⟩
  | 49 => ⟨S200000x128, .f32⟩
  | 50 => ⟨S200000x128, .f32⟩
  | 51 => ⟨S200000x1, .f32⟩
  | 52 => ⟨S200000x128, .f32⟩
  | 53 => ⟨S200000x128, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x128, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000, .i32⟩
  | 72 => ⟨S_, .f32⟩
  | 73 => ⟨S1024x128, .f32⟩
  | 74 => ⟨S100000x1, .i32⟩
  | 75 => ⟨S1024x128, .f32⟩
  | 76 => ⟨S_, .f32⟩
  | 77 => ⟨S100000, .f32⟩
  | 78 => ⟨S_, .f32⟩
  | 79 => ⟨S1024, .f32⟩
  | 80 => ⟨S100000x1, .i32⟩
  | 81 => ⟨S1024, .f32⟩
  | 82 => ⟨S_, .f32⟩
  | 83 => ⟨S1024, .f32⟩
  | 84 => ⟨S1024, .f32⟩
  | 85 => ⟨S1024x1, .f32⟩
  | 86 => ⟨S1024x128, .f32⟩
  | 87 => ⟨S1024x128, .f32⟩
  | 88 => ⟨S1x1024x128, .f32⟩
  | 89 => ⟨S1x1024x128, .f32⟩
  | 90 => ⟨S2x1024x128, .f32⟩
  | _ => ⟨S200000x133, .f32⟩

abbrev hbmTy (i : Nat) : BufTy := match i / 128 with
  | 0 => hbmTy0_0 i
  | 1 => hbmTy0_1 i
  | 2 => hbmTy0_2 i
  | _ => ⟨S200000x133, .f32⟩

abbrev bufTy : (tb : Table) → Fin (tcTables nBuf tb) → BufTy
  | .hbm, ⟨i, _⟩ => hbmTy i
  | _, _ => ⟨S200000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_call0_cst : Ref sig .tc := ⟨.hbm, 73, rfl⟩
abbrev main_call0_v0 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call1_cst : Ref sig .tc := ⟨.hbm, 80, rfl⟩
abbrev main_call1_v0 : Ref sig .tc := ⟨.hbm, 81, rfl⟩
abbrev main_v43 : Ref sig .tc := ⟨.hbm, 82, rfl⟩
abbrev main_v44 : Ref sig .tc := ⟨.hbm, 83, rfl⟩
abbrev main_c_7 : Ref sig .tc := ⟨.hbm, 84, rfl⟩
abbrev main_v45 : Ref sig .tc := ⟨.hbm, 85, rfl⟩
abbrev main_v46 : Ref sig .tc := ⟨.hbm, 86, rfl⟩
abbrev main_c_8 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_call2_cst : Ref sig .tc := ⟨.hbm, 109, rfl⟩
abbrev main_call2_v0 : Ref sig .tc := ⟨.hbm, 110, rfl⟩
abbrev main_v67 : Ref sig .tc := ⟨.hbm, 111, rfl⟩
abbrev main_c_9 : Ref sig .tc := ⟨.hbm, 112, rfl⟩
abbrev main_v68 : Ref sig .tc := ⟨.hbm, 113, rfl⟩
abbrev main_v69 : Ref sig .tc := ⟨.hbm, 114, rfl⟩
abbrev main_c_10 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_11 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_call3_cst : Ref sig .tc := ⟨.hbm, 137, rfl⟩
abbrev main_call3_v0 : Ref sig .tc := ⟨.hbm, 138, rfl⟩
abbrev main_v90 : Ref sig .tc := ⟨.hbm, 139, rfl⟩
abbrev main_c_12 : Ref sig .tc := ⟨.hbm, 140, rfl⟩
abbrev main_v91 : Ref sig .tc := ⟨.hbm, 141, rfl⟩
abbrev main_v92 : Ref sig .tc := ⟨.hbm, 142, rfl⟩
abbrev main_c_13 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_14 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_call4_cst : Ref sig .tc := ⟨.hbm, 165, rfl⟩
abbrev main_call4_v0 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_c_15 : Ref sig .tc := ⟨.hbm, 175, rfl⟩
abbrev main_v121 : Ref sig .tc := ⟨.hbm, 176, rfl⟩
abbrev main_v122 : Ref sig .tc := ⟨.hbm, 177, rfl⟩
abbrev main_c_16 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_17 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_18 : Ref sig .tc := ⟨.hbm, 188, rfl⟩
abbrev main_v131 : Ref sig .tc := ⟨.hbm, 189, rfl⟩
abbrev main_cst_19 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_20 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_call5_cst : Ref sig .tc := ⟨.hbm, 208, rfl⟩
abbrev main_call5_v0 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_call6_cst : Ref sig .tc := ⟨.hbm, 215, rfl⟩
abbrev main_call6_v0 : Ref sig .tc := ⟨.hbm, 216, rfl⟩
abbrev main_v153 : Ref sig .tc := ⟨.hbm, 217, rfl⟩
abbrev main_v154 : Ref sig .tc := ⟨.hbm, 218, rfl⟩
abbrev main_c_21 : Ref sig .tc := ⟨.hbm, 219, rfl⟩
abbrev main_v155 : Ref sig .tc := ⟨.hbm, 220, rfl⟩
abbrev main_v156 : Ref sig .tc := ⟨.hbm, 221, rfl⟩
abbrev main_c_22 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_cst_23 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_call7_cst : Ref sig .tc := ⟨.hbm, 244, rfl⟩
abbrev main_call7_v0 : Ref sig .tc := ⟨.hbm, 245, rfl⟩
abbrev main_v177 : Ref sig .tc := ⟨.hbm, 246, rfl⟩
abbrev main_c_24 : Ref sig .tc := ⟨.hbm, 247, rfl⟩
abbrev main_v178 : Ref sig .tc := ⟨.hbm, 248, rfl⟩
abbrev main_v179 : Ref sig .tc := ⟨.hbm, 249, rfl⟩
abbrev main_c_25 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_cst_26 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_call8_cst : Ref sig .tc := ⟨.hbm, 272, rfl⟩
abbrev main_call8_v0 : Ref sig .tc := ⟨.hbm, 273, rfl⟩
abbrev main_v200 : Ref sig .tc := ⟨.hbm, 274, rfl⟩
abbrev main_c_27 : Ref sig .tc := ⟨.hbm, 275, rfl⟩
abbrev main_v201 : Ref sig .tc := ⟨.hbm, 276, rfl⟩
abbrev main_v202 : Ref sig .tc := ⟨.hbm, 277, rfl⟩
abbrev main_c_28 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_cst_29 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_call9_cst : Ref sig .tc := ⟨.hbm, 300, rfl⟩
abbrev main_call9_v0 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_c_30 : Ref sig .tc := ⟨.hbm, 310, rfl⟩
abbrev main_v231 : Ref sig .tc := ⟨.hbm, 311, rfl⟩
abbrev main_v232 : Ref sig .tc := ⟨.hbm, 312, rfl⟩
abbrev main_c_31 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_c_32 : Ref sig .tc := ⟨.hbm, 319, rfl⟩
abbrev main_v238 : Ref sig .tc := ⟨.hbm, 320, rfl⟩
abbrev main_v239 : Ref sig .tc := ⟨.hbm, 321, rfl⟩
abbrev main_c_33 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_cst_34 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_cst_35 : Ref sig .tc := ⟨.hbm, 332, rfl⟩
abbrev main_v248 : Ref sig .tc := ⟨.hbm, 333, rfl⟩
abbrev main_cst_36 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_cst_37 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩

abbrev nD : Nat := 1
abbrev τ : Topo := Topo.v7x

variable {F : FTy → Type} [FloatOps F]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S_S350000 : S_.BroadcastsInDim S350000 (![] : Fin 0 → Fin S350000.rank)
  bcast_S350000_S350000x1_0 : S350000.BroadcastsInDim S350000x1 (![0] : Fin 1 → Fin S350000x1.rank)
  slices_S2x350000_S1x350000_0_0 : S2x350000.Slices ![0, 0] S1x350000
  shapeCasts_S1x350000_S350000 : S1x350000.ShapeCasts S350000
  slices_S2x350000_S1x350000_1_0 : S2x350000.Slices ![1, 0] S1x350000
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S_S150000x128 : S_.BroadcastsInDim S150000x128 (![] : Fin 0 → Fin S150000x128.rank)
  bcast_S1x128_S350000x128_0_1 : S1x128.BroadcastsInDim S350000x128 (![0, 1] : Fin 2 → Fin S350000x128.rank)
  bcast_S_S350000x128 : S_.BroadcastsInDim S350000x128 (![] : Fin 0 → Fin S350000x128.rank)
  bcast_S350000x1_S350000x128_0_1 : S350000x1.BroadcastsInDim S350000x128 (![0, 1] : Fin 2 → Fin S350000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S150000x1_S150000x128_0_1 : S150000x1.BroadcastsInDim S150000x128 (![0, 1] : Fin 2 → Fin S150000x128.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S1024x128_S1x1024x128_1_2 : S1024x128.BroadcastsInDim S1x1024x128 (![1, 2] : Fin 2 → Fin S1x1024x128.rank)
  concatenates_S1x1024x128_S1x1024x128_S2x1024x128_d0 : Shape.Concatenates [S1x1024x128, S1x1024x128] S2x1024x128 0
  gather_S200000x133_S150000x1_S150000x133_1_0_n_n_0_1_1133_wf : GatherDims.WF S200000x133 S150000x1 S150000x133 [1] [0] [] [0] [] 1 ![1, 133]
  gather_S200000_S150000x1_S150000_n_0_n_n_0_1_1_wf : GatherDims.WF S200000 S150000x1 S150000 [] [0] [] [0] [] 1 ![1]
  gather_S500000x14_S350000x1_S350000x14_1_0_n_n_0_1_114_wf : GatherDims.WF S500000x14 S350000x1 S350000x14 [1] [0] [] [0] [] 1 ![1, 14]
  gather_S500000_S350000x1_S350000_n_0_n_n_0_1_1_wf : GatherDims.WF S500000 S350000x1 S350000 [] [0] [] [0] [] 1 ![1]
  dot_S150000x133_S133x128_S150000x128_1_0_0_1_n_n_wf : DotDims.WF S150000x133 S133x128 S150000x128 [1] [0] [0] [1] [] []
  dot_S350000x14_S14x128_S350000x128_1_0_0_1_n_n_wf : DotDims.WF S350000x14 S14x128 S350000x128 [1] [0] [0] [1] [] []
  gather_S150000x128_S350000x1_S350000x128_1_0_n_n_0_1_1128_wf : GatherDims.WF S150000x128 S350000x1 S350000x128 [1] [0] [] [0] [] 1 ![1, 128]
  scatter_S150000x128_S350000x1_S350000x128_1_0_0_1_wf : ScatterDims.WF S150000x128 S350000x1 S350000x128 [1] [0] [0] 1
  dot_S150000x128_S128x128_S150000x128_1_0_0_1_n_n_wf : DotDims.WF S150000x128 S128x128 S150000x128 [1] [0] [0] [1] [] []
  scatter_S1024x128_S150000x1_S150000x128_1_0_0_1_wf : ScatterDims.WF S1024x128 S150000x1 S150000x128 [1] [0] [0] 1
  scatter_S1024_S150000x1_S150000_n_0_0_1_wf : ScatterDims.WF S1024 S150000x1 S150000 [] [0] [0] 1
  dot_S200000x133_S133x128_S200000x128_1_0_0_1_n_n_wf : DotDims.WF S200000x133 S133x128 S200000x128 [1] [0] [0] [1] [] []
  dot_S500000x14_S14x128_S500000x128_1_0_0_1_n_n_wf : DotDims.WF S500000x14 S14x128 S500000x128 [1] [0] [0] [1] [] []
  gather_S200000x128_S500000x1_S500000x128_1_0_n_n_0_1_1128_wf : GatherDims.WF S200000x128 S500000x1 S500000x128 [1] [0] [] [0] [] 1 ![1, 128]
  scatter_S200000x128_S500000x1_S500000x128_1_0_0_1_wf : ScatterDims.WF S200000x128 S500000x1 S500000x128 [1] [0] [0] 1
  dot_S200000x128_S128x128_S200000x128_1_0_0_1_n_n_wf : DotDims.WF S200000x128 S128x128 S200000x128 [1] [0] [0] [1] [] []
  gather_S200000x128_S100000x1_S100000x128_1_0_n_n_0_1_1128_wf : GatherDims.WF S200000x128 S100000x1 S100000x128 [1] [0] [] [0] [] 1 ![1, 128]
  gather_S200000_S100000x1_S100000_n_0_n_n_0_1_1_wf : GatherDims.WF S200000 S100000x1 S100000 [] [0] [] [0] [] 1 ![1]
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1

variable [Facts₀]

def gather_S200000x133_S150000x1_S150000x133_1_0_n_n_0_1_1133 : GatherDims S200000x133 S150000x1 S150000x133 where
  offsetDims := [1]
  collapsedSliceDims := [0]
  operandBatchingDims := []
  startIndicesBatchingDims := []
  startIndexMap := [0]
  indexVectorDim := 1
  sliceSizes := ![1, 133]
  wf := gather_S200000x133_S150000x1_S150000x133_1_0_n_n_0_1_1133_wf
def gather_S200000_S150000x1_S150000_n_0_n_n_0_1_1 : GatherDims S200000 S150000x1 S150000 where
  offsetDims := []
  collapsedSliceDims := [0]
  operandBatchingDims := []
  startIndicesBatchingDims := []
  startIndexMap := [0]
  indexVectorDim := 1
  sliceSizes := ![1]
  wf := gather_S200000_S150000x1_S150000_n_0_n_n_0_1_1_wf
def gather_S500000x14_S350000x1_S350000x14_1_0_n_n_0_1_114 : GatherDims S500000x14 S350000x1 S350000x14 where
  offsetDims := [1]
  collapsedSliceDims := [0]
  operandBatchingDims := []
  startIndicesBatchingDims := []
  startIndexMap := [0]
  indexVectorDim := 1
  sliceSizes := ![1, 14]
  wf := gather_S500000x14_S350000x1_S350000x14_1_0_n_n_0_1_114_wf
def gather_S500000_S350000x1_S350000_n_0_n_n_0_1_1 : GatherDims S500000 S350000x1 S350000 where
  offsetDims := []
  collapsedSliceDims := [0]
  operandBatchingDims := []
  startIndicesBatchingDims := []
  startIndexMap := [0]
  indexVectorDim := 1
  sliceSizes := ![1]
  wf := gather_S500000_S350000x1_S350000_n_0_n_n_0_1_1_wf
def dot_S150000x133_S133x128_S150000x128_1_0_0_1_n_n : DotDims S150000x133 S133x128 S150000x128 where
  lhsContracting := [1]
  rhsContracting := [0]
  lhsNonContracting := [0]
  rhsNonContracting := [1]
  lhsBatch := []
  rhsBatch := []
  wf := dot_S150000x133_S133x128_S150000x128_1_0_0_1_n_n_wf
def dot_S350000x14_S14x128_S350000x128_1_0_0_1_n_n : DotDims S350000x14 S14x128 S350000x128 where
  lhsContracting := [1]
  rhsContracting := [0]
  lhsNonContracting := [0]
  rhsNonContracting := [1]
  lhsBatch := []
  rhsBatch := []
  wf := dot_S350000x14_S14x128_S350000x128_1_0_0_1_n_n_wf
def gather_S150000x128_S350000x1_S350000x128_1_0_n_n_0_1_1128 : GatherDims S150000x128 S350000x1 S350000x128 where
  offsetDims := [1]
  collapsedSliceDims := [0]
  operandBatchingDims := []
  startIndicesBatchingDims := []
  startIndexMap := [0]
  indexVectorDim := 1
  sliceSizes := ![1, 128]
  wf := gather_S150000x128_S350000x1_S350000x128_1_0_n_n_0_1_1128_wf
def scatter_S150000x128_S350000x1_S350000x128_1_0_0_1 : ScatterDims S150000x128 S350000x1 S350000x128 where
  updateWindowDims := [1]
  insertedWindowDims := [0]
  scatterDimsToOperandDims := [0]
  indexVectorDim := 1
  wf := scatter_S150000x128_S350000x1_S350000x128_1_0_0_1_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def scatter_S1024x128_S150000x1_S150000x128_1_0_0_1 : ScatterDims S1024x128 S150000x1 S150000x128 where
  updateWindowDims := [1]
  insertedWindowDims := [0]
  scatterDimsToOperandDims := [0]
  indexVectorDim := 1
  wf := scatter_S1024x128_S150000x1_S150000x128_1_0_0_1_wf
def scatter_S1024_S150000x1_S150000_n_0_0_1 : ScatterDims S1024 S150000x1 S150000 where
  updateWindowDims := []
  insertedWindowDims := [0]
  scatterDimsToOperandDims := [0]
  indexVectorDim := 1
  wf := scatter_S1024_S150000x1_S150000_n_0_0_1_wf
def dot_S200000x133_S133x128_S200000x128_1_0_0_1_n_n : DotDims S200000x133 S133x128 S200000x128 where
  lhsContracting := [1]
  rhsContracting := [0]
  lhsNonContracting := [0]
  rhsNonContracting := [1]
  lhsBatch := []
  rhsBatch := []
  wf := dot_S200000x133_S133x128_S200000x128_1_0_0_1_n_n_wf
def dot_S500000x14_S14x128_S500000x128_1_0_0_1_n_n : DotDims S500000x14 S14x128 S500000x128 where
  lhsContracting := [1]
  rhsContracting := [0]
  lhsNonContracting := [0]
  rhsNonContracting := [1]
  lhsBatch := []
  rhsBatch := []
  wf := dot_S500000x14_S14x128_S500000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf

class Facts : Prop extends Facts₀ where

variable [Facts]
-- ==== Proof.RStage.lean ====
-- The reference, stage by stage, for any float values: the value each of its host operations writes, as that operation's
-- function of the stages its operands hold (an argument buffer holding its launch contents). The result is the last stage.
import proofs.«400221_j39548058861723_2_alg».proof.Proof.Gen.ReferenceIdeal
import Idealize.ShloMosaic.Lib.StableHlo.Run
import Idealize.ShloMosaic.PureOps.Ideal

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

def rv_c (_ : (ℓ : Loc nD τ sig) → Buf (Elt F) ℓ) (_ : Dev nD) : (⟨S_, .i32⟩ : BufTy).Contents (Elt F) :=
  constantI S_ 32 0#32

def rv_v0 : (⟨S150000, .i32⟩ : BufTy).Contents (Elt F) :=
  broadcastInDim S150000 ![] bcast_S_S150000 (rv_c m c)

def rv_v1 : (⟨S150000, .i1⟩ : BufTy).Contents (Elt F) :=
  cmpi .slt (m ((c.tc : Thread nD τ).loc main_arg6)) (rv_v0 m c)

def rv_c_0 (_ : (ℓ : Loc nD τ sig) → Buf (Elt F) ℓ) (_ : Dev nD) : (⟨S_, .i32⟩ : BufTy).Contents (Elt F) :=
  constantI S_ 32 200000#32

def rv_v2 : (⟨S150000, .i32⟩ : BufTy).Contents (Elt F) :=
  broadcastInDim S150000 ![] bcast_S_S150000 (rv_c_0 m c)

def rv_v3 : (⟨S150000, .i32⟩ : BufTy).Contents (Elt F) :=
  addi (m ((c.tc : Thread nD τ).loc main_arg6)) (rv_v2 m c)

def rv_v4 : (⟨S150000, .i32⟩ : BufTy).Contents (Elt F) :=
  select (rv_v1 m c) (rv_v3 m c) (m ((c.tc : Thread nD τ).loc main_arg6))

def rv_v5 : (⟨S150000x1, .i32⟩ : BufTy).Contents (Elt F) :=
  broadcastInDim S150000x1 ![0] bcast_S150000_S150000x1_0 (rv_v4 m c)

def rv_v6 : (⟨S150000x133, .f32⟩ : BufTy).Contents (Elt F) :=
  (fun x i => Host.gather gather_S200000x133_S150000x1_S150000x133_1_0_n_n_0_1_1133 x i) (m ((c.tc : Thread nD τ).loc main_arg0)) (rv_v5 m c)

def rv_c_1 (_ : (ℓ : Loc nD τ sig) → Buf (Elt F) ℓ) (_ : Dev nD) : (⟨S_, .i32⟩ : BufTy).Contents (Elt F) :=
  constantI S_ 32 0#32

def rv_v7 : (⟨S150000, .i32⟩ : BufTy).Contents (Elt F) :=
  broadcastInDim S150000 ![] bcast_S_S150000 (rv_c_1 m c)

def rv_v8 : (⟨S150000, .i1⟩ : BufTy).Contents (Elt F) :=
  cmpi .slt (m ((c.tc : Thread nD τ).loc main_arg6)) (rv_v7 m c)

def rv_c_2 (_ : (ℓ : Loc nD τ sig) → Buf (Elt F) ℓ) (_ : Dev nD) : (⟨S_, .i32⟩ : BufTy).Contents (Elt F) :=
  constantI S_ 32 200000#32

def rv_v9 : (⟨S150000, .i32⟩ : BufTy).Contents (Elt F) :=
  broadcastInDim S150000 ![] bcast_S_S150000 (rv_c_2 m c)

def rv_v10 : (⟨S150000, .i32⟩ : BufTy).Contents (Elt F) :=
  addi (m ((c.tc : Thread nD τ).loc main_arg6)) (rv_v9 m c)

def rv_v11 : (⟨S150000, .i32⟩ : BufTy).Contents (Elt F) :=
  select (rv_v8 m c) (rv_v10 m c) (m ((c.tc : Thread nD τ).loc main_arg6))

def rv_v12 : (⟨S150000x1, .i32⟩ : BufTy).Contents (Elt F) :=
  broadcastInDim S150000x1 ![0] bcast_S150000_S150000x1_0 (rv_v11 m c)

def rv_v13 : (⟨S150000, .f32⟩ : BufTy).Contents (Elt F) :=
  (fun x i => Host.gather gather_S200000_S150000x1_S150000_n_0_n_n_0_1_1 x i) (m ((c.tc : Thread nD τ).loc main_arg1)) (rv_v12 m c)

def rv_c_3 (_ : (ℓ : Loc nD τ sig) → Buf (Elt F) ℓ) (_ : Dev nD) : (⟨S_, .i32⟩ : BufTy).Contents (Elt F) :=
  constantI S_ 32 0#32

def rv_v14 : (⟨S350000, .i32⟩ : BufTy).Contents (Elt F) :=
  broadcastInDim S350000 ![] bcast_S_S350000 (rv_c_3 m c)

def rv_v15 : (⟨S350000, .i1⟩ : BufTy).Contents (Elt F) :=
  cmpi .slt (m ((c.tc : Thread nD τ).loc main_arg9)) (rv_v14 m c)

def rv_c_4 (_ : (ℓ : Loc nD τ sig) → Buf (Elt F) ℓ) (_ : Dev nD) : (⟨S_, .i32⟩ : BufTy).Contents (Elt F) :=
  constantI S_ 32 500000#32

def rv_v16 : (⟨S350000, .i32⟩ : BufTy).Contents (Elt F) :=
  broadcastInDim S350000 ![] bcast_S_S350000 (rv_c_4 m c)

def rv_v17 : (⟨S350000, .i32⟩ : BufTy).Contents (Elt F) :=
  addi (m ((c.tc : Thread nD τ).loc main_arg9)) (rv_v16 m c)

def rv_v18 : (⟨S350000, .i32⟩ : BufTy).Contents (Elt F) :=
  select (rv_v15 m c) (rv_v17 m c) (m ((c.tc : Thread nD τ).loc main_arg9))

def rv_v19 : (⟨S350000x1, .i32⟩ : BufTy).Contents (Elt F) :=
  broadcastInDim S350000x1 ![0] bcast_S350000_S350000x1_0 (rv_v18 m c)

def rv_v20 : (⟨S350000x14, .f32⟩ : BufTy).Contents (Elt F) :=
  (fun x i => Host.gather gather_S500000x14_S350000x1_S350000x14_1_0_n_n_0_1_114 x i) (m ((c.tc : Thread nD τ).loc main_arg3)) (rv_v19 m c)

def rv_c_5 (_ : (ℓ : Loc nD τ sig) → Buf (Elt F) ℓ) (_ : Dev nD) : (⟨S_, .i32⟩ : BufTy).Contents (Elt F) :=
  constantI S_ 32 0#32

def rv_v21 : (⟨S350000, .i32⟩ : BufTy).Contents (Elt F) :=
  broadcastInDim S350000 ![] bcast_S_S350000 (rv_c_5 m c)

def rv_v22 : (⟨S350000, .i1⟩ : BufTy).Contents (Elt F) :=
  cmpi .slt (m ((c.tc : Thread nD τ).loc main_arg9)) (rv_v21 m c)

def rv_c_6 (_ : (ℓ : Loc nD τ sig) → Buf (Elt F) ℓ) (_ : Dev nD) : (⟨S_, .i32⟩ : BufTy).Contents (Elt F) :=
  constantI S_ 32 500000#32

def rv_v23 : (⟨S350000, .i32⟩ : BufTy).Contents (Elt F) :=
  broadcastInDim S350000 ![] bcast_S_S350000 (rv_c_6 m c)

def rv_v24 : (⟨S350000, .i32⟩ : BufTy).Contents (Elt F) :=
  addi (m ((c.tc : Thread nD τ).loc main_arg9)) (rv_v23 m c)

def rv_v25 : (⟨S350000, .i32⟩ : BufTy).Contents (Elt F) :=
  select (rv_v22 m c) (rv_v24 m c) (m ((c.tc : Thread nD τ).loc main_arg9))

def rv_v26 : (⟨S350000x1, .i32⟩ : BufTy).Contents (Elt F) :=
  broadcastInDim S350000x1 ![0] bcast_S350000_S350000x1_0 (rv_v25 m c)

def rv_v27 : (⟨S350000, .f32⟩ : BufTy).Contents (Elt F) :=
  (fun x i => Host.gather gather_S500000_S350000x1_S350000_n_0_n_n_0_1_1 x i) (m ((c.tc : Thread nD τ).loc main_arg4)) (rv_v26 m c)

def rv_v28 : (⟨S350000, .f32⟩ : BufTy).Contents (Elt F) :=
  uitofp (F := F) .f32 (m ((c.tc : Thread nD τ).loc main_arg10))

def rv_v29 : (⟨S350000, .f32⟩ : BufTy).Contents (Elt F) :=
  mulf (rv_v27 m c) (rv_v28 m c)

def rv_v30 : (⟨S1x350000, .i32⟩ : BufTy).Contents (Elt F) :=
  (extractStridedSlice S1x350000 ![0, 0] · slices_S2x350000_S1x350000_0_0) (m ((c.tc : Thread nD τ).loc main_arg8))

def rv_v31 : (⟨S350000, .i32⟩ : BufTy).Contents (Elt F) :=
  shapeCast S350000 (rv_v30 m c) shapeCasts_S1x350000_S350000

def rv_v32 : (⟨S1x350000, .i32⟩ : BufTy).Contents (Elt F) :=
  (extractStridedSlice S1x350000 ![1, 0] · slices_S2x350000_S1x350000_1_0) (m ((c.tc : Thread nD τ).loc main_arg8))

def rv_v33 : (⟨S350000, .i32⟩ : BufTy).Contents (Elt F) :=
  shapeCast S350000 (rv_v32 m c) shapeCasts_S1x350000_S350000

def rv_v34 : (⟨S150000x128, .f32⟩ : BufTy).Contents (Elt F) :=
  (fun l r => Host.dotGeneral dot_S150000x133_S133x128_S150000x128_1_0_0_1_n_n none l r) (rv_v6 m c) (m ((c.tc : Thread nD τ).loc main_arg11))

def rv_v35 : (⟨S1x128, .f32⟩ : BufTy).Contents (Elt F) :=
  broadcastInDim S1x128 ![1] bcast_S128_S1x128_1 (m ((c.tc : Thread nD τ).loc main_arg12))

def rv_v36 : (⟨S150000x128, .f32⟩ : BufTy).Contents (Elt F) :=
  broadcastInDim S150000x128 ![0, 1] bcast_S1x128_S150000x128_0_1 (rv_v35 m c)

def rv_v37 : (⟨S150000x128, .f32⟩ : BufTy).Contents (Elt F) :=
  addf (rv_v34 m c) (rv_v36 m c)

def rv_call0_cst (_ : (ℓ : Loc nD τ sig) → Buf (Elt F) ℓ) (_ : Dev nD) : (⟨S_, .f32⟩ : BufTy).Contents (Elt F) :=
  constant (F := F) S_ .f32 0x00000000#32

def rv_call0_v0 : (⟨S150000x128, .f32⟩ : BufTy).Contents (Elt F) :=
  (broadcastInDim S150000x128 ![] bcast_S_S150000x128) (rv_call0_cst m c)

def rv_v38 : (⟨S150000x128, .f32⟩ : BufTy).Contents (Elt F) :=
  maximumf (rv_v37 m c) (rv_call0_v0 m c)

def rv_v39 : (⟨S350000x128, .f32⟩ : BufTy).Contents (Elt F) :=
  (fun l r => Host.dotGeneral dot_S350000x14_S14x128_S350000x128_1_0_0_1_n_n none l r) (rv_v20 m c) (m ((c.tc : Thread nD τ).loc main_arg13))

def rv_v40 : (⟨S1x128, .f32⟩ : BufTy).Contents (Elt F) :=
  broadcastInDim S1x128 ![1] bcast_S128_S1x128_1 (m ((c.tc : Thread nD τ).loc main_arg14))

def rv_v41 : (⟨S350000x128, .f32⟩ : BufTy).Contents (Elt F) :=
  broadcastInDim S350000x128 ![0, 1] bcast_S1x128_S350000x128_0_1 (rv_v40 m c)

def rv_v42 : (⟨S350000x128, .f32⟩ : BufTy).Contents (Elt F) :=
  addf (rv_v39 m c) (rv_v41 m c)

def rv_call1_cst (_ : (ℓ : Loc nD τ sig) → Buf (Elt F) ℓ) (_ : Dev nD) : (⟨S_, .f32⟩ : BufTy).Contents (Elt F) :=
  constant (F := F) S_ .f32 0x00000000#32

def rv_call1_v0 : (⟨S350000x128, .f32⟩ : BufTy).Contents (Elt F) :=
  (broadcastInDim S350000x128 ![] bcast_S_S350000x128) (rv_call1_cst m c)

def rv_v43 : (⟨S350000x128, .f32⟩ : BufTy).Contents (Elt F) :=
  maximumf (rv_v42 m c) (rv_call1_v0 m c)

def rv_v44 : (⟨S350000x1, .f32⟩ : BufTy).Contents (Elt F) :=
  broadcastInDim S350000x1 ![0] bcast_S350000_S350000x1_0 (rv_v29 m c)

def rv_c_7 (_ : (ℓ : Loc nD τ sig) → Buf (Elt F) ℓ) (_ : Dev nD) : (⟨S_, .i32⟩ : BufTy).Contents (Elt F) :=
  constantI S_ 32 0#32

def rv_v45 : (⟨S350000, .i32⟩ : BufTy).Contents (Elt F) :=
  broadcastInDim S350000 ![] bcast_S_S350000 (rv_c_7 m c)

def rv_v46 : (⟨S350000, .i1⟩ : BufTy).Contents (Elt F) :=
  cmpi .slt (rv_v31 m c) (rv_v45 m c)

def rv_c_8 (_ : (ℓ : Loc nD τ sig) → Buf (Elt F) ℓ) (_ : Dev nD) : (⟨S_, .i32⟩ : BufTy).Contents (Elt F) :=
  constantI S_ 32 150000#32

def rv_v47 : (⟨S350000, .i32⟩ : BufTy).Contents (Elt F) :=
  broadcastInDim S350000 ![] bcast_S_S350000 (rv_c_8 m c)

def rv_v48 : (⟨S350000, .i32⟩ : BufTy).Contents (Elt F) :=
  addi (rv_v31 m c) (rv_v47 m c)

def rv_v49 : (⟨S350000, .i32⟩ : BufTy).Contents (Elt F) :=
  select (rv_v46 m c) (rv_v48 m c) (rv_v31 m c)

def rv_v50 : (⟨S350000x1, .i32⟩ : BufTy).Contents (Elt F) :=
  broadcastInDim S350000x1 ![0] bcast_S350000_S350000x1_0 (rv_v49 m c)

def rv_v51 : (⟨S350000x128, .f32⟩ : BufTy).Contents (Elt F) :=
  (fun x i => Host.gather gather_S150000x128_S350000x1_S350000x128_1_0_n_n_0_1_1128 x i) (rv_v38 m c) (rv_v50 m c)

def rv_v52 : (⟨S350000x128, .f32⟩ : BufTy).Contents (Elt F) :=
  addf (rv_v51 m c) (rv_v43 m c)

def rv_v53 : (⟨S350000x128, .f32⟩ : BufTy).Contents (Elt F) :=
  broadcastInDim S350000x128 ![0, 1] bcast_S350000x1_S350000x128_0_1 (rv_v44 m c)

def rv_v54 : (⟨S350000x128, .f32⟩ : BufTy).Contents (Elt F) :=
  mulf (rv_v53 m c) (rv_v52 m c)

def rv_cst (_ : (ℓ : Loc nD τ sig) → Buf (Elt F) ℓ) (_ : Dev nD) : (⟨S_, .f32⟩ : BufTy).Contents (Elt F) :=
  constant (F := F) S_ .f32 0x00000000#32

def rv_v55 : (⟨S150000x128, .f32⟩ : BufTy).Contents (Elt F) :=
  broadcastInDim S150000x128 ![] bcast_S_S150000x128 (rv_cst m c)

def rv_v56 : (⟨S350000x1, .i32⟩ : BufTy).Contents (Elt F) :=
  broadcastInDim S350000x1 ![0] bcast_S350000_S350000x1_0 (rv_v33 m c)

def rv_v57 : (⟨S150000x128, .f32⟩ : BufTy).Contents (Elt F) :=
  (fun x i u => Host.scatterAdd scatter_S150000x128_S350000x1_S350000x128_1_0_0_1 x i u) (rv_v55 m c) (rv_v56 m c) (rv_v54 m c)

def rv_v58 : (⟨S1x128x128, .f32⟩ : BufTy).Contents (Elt F) :=
  (extractStridedSlice S1x128x128 ![0, 0, 0] · slices_S3x128x128_S1x128x128_0_0_0) (m ((c.tc : Thread nD τ).loc main_arg15))

def rv_v59 : (⟨S128x128, .f32⟩ : BufTy).Contents (Elt F) :=
  shapeCast S128x128 (rv_v58 m c) shapeCasts_S1x128x128_S128x128

def rv_v60 : (⟨S150000x128, .f32⟩ : BufTy).Contents (Elt F) :=
  (fun l r => Host.dotGeneral dot_S150000x128_S128x128_S150000x128_1_0_0_1_n_n none l r) (rv_v57 m c) (rv_v59 m c)

def rv_v61 : (⟨S150000x128, .f32⟩ : BufTy).Contents (Elt F) :=
  addf (rv_v38 m c) (rv_v60 m c)

def rv_v62 : (⟨S1x128, .f32⟩ : BufTy).Contents (Elt F) :=
  (extractStridedSlice S1x128 ![0, 0] · slices_S3x128_S1x128_0_0) (m ((c.tc : Thread nD τ).loc main_arg16))

def rv_v63 : (⟨S128, .f32⟩ : BufTy).Contents (Elt F) :=
  shapeCast S128 (rv_v62 m c) shapeCasts_S1x128_S128

def rv_v64 : (⟨S1x128, .f32⟩ : BufTy).Contents (Elt F) :=
  broadcastInDim S1x128 ![1] bcast_S128_S1x128_1 (rv_v63 m c)

def rv_v65 : (⟨S150000x128, .f32⟩ : BufTy).Contents (Elt F) :=
  broadcastInDim S150000x128 ![0, 1] bcast_S1x128_S150000x128_0_1 (rv_v64 m c)

def rv_v66 : (⟨S150000x128, .f32⟩ : BufTy).Contents (Elt F) :=
  addf (rv_v61 m c) (rv_v65 m c)

def rv_call2_cst (_ : (ℓ : Loc nD τ sig) → Buf (Elt F) ℓ) (_ : Dev nD) : (⟨S_, .f32⟩ : BufTy).Contents (Elt F) :=
  constant (F := F) S_ .f32 0x00000000#32

def rv_call2_v0 : (⟨S150000x128, .f32⟩ : BufTy).Contents (Elt F) :=
  (broadcastInDim S150000x128 ![] bcast_S_S150000x128) (rv_call2_cst m c)

def rv_v67 : (⟨S150000x128, .f32⟩ : BufTy).Contents (Elt F) :=
  maximumf (rv_v66 m c) (rv_call2_v0 m c)

def rv_c_9 (_ : (ℓ : Loc nD τ sig) → Buf (Elt F) ℓ) (_ : Dev nD) : (⟨S_, .i32⟩ : BufTy).Contents (Elt F) :=
  constantI S_ 32 0#32

def rv_v68 : (⟨S350000, .i32⟩ : BufTy).Contents (Elt F) :=
  broadcastInDim S350000 ![] bcast_S_S350000 (rv_c_9 m c)

def rv_v69 : (⟨S350000, .i1⟩ : BufTy).Contents (Elt F) :=
  cmpi .slt (rv_v31 m c) (rv_v68 m c)

def rv_c_10 (_ : (ℓ : Loc nD τ sig) → Buf (Elt F) ℓ) (_ : Dev nD) : (⟨S_, .i32⟩ : BufTy).Contents (Elt F) :=
  constantI S_ 32 150000#32

def rv_v70 : (⟨S350000, .i32⟩ : BufTy).Contents (Elt F) :=
  broadcastInDim S350000 ![] bcast_S_S350000 (rv_c_10 m c)

def rv_v71 : (⟨S350000, .i32⟩ : BufTy).Contents (Elt F) :=
  addi (rv_v31 m c) (rv_v70 m c)

def rv_v72 : (⟨S350000, .i32⟩ : BufTy).Contents (Elt F) :=
  select (rv_v69 m c) (rv_v71 m c) (rv_v31 m c)

def rv_v73 : (⟨S350000x1, .i32⟩ : BufTy).Contents (Elt F) :=
  broadcastInDim S350000x1 ![0] bcast_S350000_S350000x1_0 (rv_v72 m c)

def rv_v74 : (⟨S350000x128, .f32⟩ : BufTy).Contents (Elt F) :=
  (fun x i => Host.gather gather_S150000x128_S350000x1_S350000x128_1_0_n_n_0_1_1128 x i) (rv_v67 m c) (rv_v73 m c)

def rv_v75 : (⟨S350000x128, .f32⟩ : BufTy).Contents (Elt F) :=
  addf (rv_v74 m c) (rv_v43 m c)

def rv_v76 : (⟨S350000x128, .f32⟩ : BufTy).Contents (Elt F) :=
  broadcastInDim S350000x128 ![0, 1] bcast_S350000x1_S350000x128_0_1 (rv_v44 m c)

def rv_v77 : (⟨S350000x128, .f32⟩ : BufTy).Contents (Elt F) :=
  mulf (rv_v76 m c) (rv_v75 m c)

def rv_cst_11 (_ : (ℓ : Loc nD τ sig) → Buf (Elt F) ℓ) (_ : Dev nD) : (⟨S_, .f32⟩ : BufTy).Contents (Elt F) :=
  constant (F := F) S_ .f32 0x00000000#32

def rv_v78 : (⟨S150000x128, .f32⟩ : BufTy).Contents (Elt F) :=
  broadcastInDim S150000x128 ![] bcast_S_S150000x128 (rv_cst_11 m c)

def rv_v79 : (⟨S350000x1, .i32⟩ : BufTy).Contents (Elt F) :=
  broadcastInDim S350000x1 ![0] bcast_S350000_S350000x1_0 (rv_v33 m c)

def rv_v80 : (⟨S150000x128, .f32⟩ : BufTy).Contents (Elt F) :=
  (fun x i u => Host.scatterAdd scatter_S150000x128_S350000x1_S350000x128_1_0_0_1 x i u) (rv_v78 m c) (rv_v79 m c) (rv_v77 m c)

def rv_v81 : (⟨S1x128x128, .f32⟩ : BufTy).Contents (Elt F) :=
  (extractStridedSlice S1x128x128 ![1, 0, 0] · slices_S3x128x128_S1x128x128_1_0_0) (m ((c.tc : Thread nD τ).loc main_arg15))

def rv_v82 : (⟨S128x128, .f32⟩ : BufTy).Contents (Elt F) :=
  shapeCast S128x128 (rv_v81 m c) shapeCasts_S1x128x128_S128x128

def rv_v83 : (⟨S150000x128, .f32⟩ : BufTy).Contents (Elt F) :=
  (fun l r => Host.dotGeneral dot_S150000x128_S128x128_S150000x128_1_0_0_1_n_n none l r) (rv_v80 m c) (rv_v82 m c)

def rv_v84 : (⟨S150000x128, .f32⟩ : BufTy).Contents (Elt F) :=
  addf (rv_v67 m c) (rv_v83 m c)

def rv_v85 : (⟨S1x128, .f32⟩ : BufTy).Contents (Elt F) :=
  (extractStridedSlice S1x128 ![1, 0] · slices_S3x128_S1x128_1_0) (m ((c.tc : Thread nD τ).loc main_arg16))

def rv_v86 : (⟨S128, .f32⟩ : BufTy).Contents (Elt F) :=
  shapeCast S128 (rv_v85 m c) shapeCasts_S1x128_S128

def rv_v87 : (⟨S1x128, .f32⟩ : BufTy).Contents (Elt F) :=
  broadcastInDim S1x128 ![1] bcast_S128_S1x128_1 (rv_v86 m c)

def rv_v88 : (⟨S150000x128, .f32⟩ : BufTy).Contents (Elt F) :=
  broadcastInDim S150000x128 ![0, 1] bcast_S1x128_S150000x128_0_1 (rv_v87 m c)

def rv_v89 : (⟨S150000x128, .f32⟩ : BufTy).Contents (Elt F) :=
  addf (rv_v84 m c) (rv_v88 m c)

def rv_call3_cst (_ : (ℓ : Loc nD τ sig) → Buf (Elt F) ℓ) (_ : Dev nD) : (⟨S_, .f32⟩ : BufTy).Contents (Elt F) :=
  constant (F := F) S_ .f32 0x00000000#32

def rv_call3_v0 : (⟨S150000x128, .f32⟩ : BufTy).Contents (Elt F) :=
  (broadcastInDim S150000x128 ![] bcast_S_S150000x128) (rv_call3_cst m c)

def rv_v90 : (⟨S150000x128, .f32⟩ : BufTy).Contents (Elt F) :=
  maximumf (rv_v89 m c) (rv_call3_v0 m c)

def rv_c_12 (_ : (ℓ : Loc nD τ sig) → Buf (Elt F) ℓ) (_ : Dev nD) : (⟨S_, .i32⟩ : BufTy).Contents (Elt F) :=
  constantI S_ 32 0#32

def rv_v91 : (⟨S350000, .i32⟩ : BufTy).Contents (Elt F) :=
  broadcastInDim S350000 ![] bcast_S_S350000 (rv_c_12 m c)

def rv_v92 : (⟨S350000, .i1⟩ : BufTy).Contents (Elt F) :=
  cmpi .slt (rv_v31 m c) (rv_v91 m c)

def rv_c_13 (_ : (ℓ : Loc nD τ sig) → Buf (Elt F) ℓ) (_ : Dev nD) : (⟨S_, .i32⟩ : BufTy).Contents (Elt F) :=
  constantI S_ 32 150000#32

def rv_v93 : (⟨S350000, .i32⟩ : BufTy).Contents (Elt F) :=
  broadcastInDim S350000 ![] bcast_S_S350000 (rv_c_13 m c)

def rv_v94 : (⟨S350000, .i32⟩ : BufTy).Contents (Elt F) :=
  addi (rv_v31 m c) (rv_v93 m c)

def rv_v95 : (⟨S350000, .i32⟩ : BufTy).Contents (Elt F) :=
  select (rv_v92 m c) (rv_v94 m c) (rv_v31 m c)

def rv_v96 : (⟨S350000x1, .i32⟩ : BufTy).Contents (Elt F) :=
  broadcastInDim S350000x1 ![0] bcast_S350000_S350000x1_0 (rv_v95 m c)

def rv_v97 : (⟨S350000x128, .f32⟩ : BufTy).Contents (Elt F) :=
  (fun x i => Host.gather gather_S150000x128_S350000x1_S350000x128_1_0_n_n_0_1_1128 x i) (rv_v90 m c) (rv_v96 m c)

def rv_v98 : (⟨S350000x128, .f32⟩ : BufTy).Contents (Elt F) :=
  addf (rv_v97 m c) (rv_v43 m c)

def rv_v99 : (⟨S350000x128, .f32⟩ : BufTy).Contents (Elt F) :=
  broadcastInDim S350000x128 ![0, 1] bcast_S350000x1_S350000x128_0_1 (rv_v44 m c)

def rv_v100 : (⟨S350000x128, .f32⟩ : BufTy).Contents (Elt F) :=
  mulf (rv_v99 m c) (rv_v98 m c)

def rv_cst_14 (_ : (ℓ : Loc nD τ sig) → Buf (Elt F) ℓ) (_ : Dev nD) : (⟨S_, .f32⟩ : BufTy).Contents (Elt F) :=
  constant (F := F) S_ .f32 0x00000000#32

def rv_v101 : (⟨S150000x128, .f32⟩ : BufTy).Contents (Elt F) :=
  broadcastInDim S150000x128 ![] bcast_S_S150000x128 (rv_cst_14 m c)

def rv_v102 : (⟨S350000x1, .i32⟩ : BufTy).Contents (Elt F) :=
  broadcastInDim S350000x1 ![0] bcast_S350000_S350000x1_0 (rv_v33 m c)

def rv_v103 : (⟨S150000x128, .f32⟩ : BufTy).Contents (Elt F) :=
  (fun x i u => Host.scatterAdd scatter_S150000x128_S350000x1_S350000x128_1_0_0_1 x i u) (rv_v101 m c) (rv_v102 m c) (rv_v100 m c)

def rv_v104 : (⟨S1x128x128, .f32⟩ : BufTy).Contents (Elt F) :=
  (extractStridedSlice S1x128x128 ![2, 0, 0] · slices_S3x128x128_S1x128x128_2_0_0) (m ((c.tc : Thread nD τ).loc main_arg15))

def rv_v105 : (⟨S128x128, .f32⟩ : BufTy).Contents (Elt F) :=
  shapeCast S128x128 (rv_v104 m c) shapeCasts_S1x128x128_S128x128

def rv_v106 : (⟨S150000x128, .f32⟩ : BufTy).Contents (Elt F) :=
  (fun l r => Host.dotGeneral dot_S150000x128_S128x128_S150000x128_1_0_0_1_n_n none l r) (rv_v103 m c) (rv_v105 m c)

def rv_v107 : (⟨S150000x128, .f32⟩ : BufTy).Contents (Elt F) :=
  addf (rv_v90 m c) (rv_v106 m c)

def rv_v108 : (⟨S1x128, .f32⟩ : BufTy).Contents (Elt F) :=
  (extractStridedSlice S1x128 ![2, 0] · slices_S3x128_S1x128_2_0) (m ((c.tc : Thread nD τ).loc main_arg16))

def rv_v109 : (⟨S128, .f32⟩ : BufTy).Contents (Elt F) :=
  shapeCast S128 (rv_v108 m c) shapeCasts_S1x128_S128

def rv_v110 : (⟨S1x128, .f32⟩ : BufTy).Contents (Elt F) :=
  broadcastInDim S1x128 ![1] bcast_S128_S1x128_1 (rv_v109 m c)

def rv_v111 : (⟨S150000x128, .f32⟩ : BufTy).Contents (Elt F) :=
  broadcastInDim S150000x128 ![0, 1] bcast_S1x128_S150000x128_0_1 (rv_v110 m c)

def rv_v112 : (⟨S150000x128, .f32⟩ : BufTy).Contents (Elt F) :=
  addf (rv_v107 m c) (rv_v111 m c)

def rv_call4_cst (_ : (ℓ : Loc nD τ sig) → Buf (Elt F) ℓ) (_ : Dev nD) : (⟨S_, .f32⟩ : BufTy).Contents (Elt F) :=
  constant (F := F) S_ .f32 0x00000000#32

def rv_call4_v0 : (⟨S150000x128, .f32⟩ : BufTy).Contents (Elt F) :=
  (broadcastInDim S150000x128 ![] bcast_S_S150000x128) (rv_call4_cst m c)

def rv_v113 : (⟨S150000x128, .f32⟩ : BufTy).Contents (Elt F) :=
  maximumf (rv_v112 m c) (rv_call4_v0 m c)

def rv_v114 : (⟨S150000x128, .f32⟩ : BufTy).Contents (Elt F) :=
  (fun l r => Host.dotGeneral dot_S150000x128_S128x128_S150000x128_1_0_0_1_n_n none l r) (rv_v113 m c) (m ((c.tc : Thread nD τ).loc main_arg17))

def rv_v115 : (⟨S1x128, .f32⟩ : BufTy).Contents (Elt F) :=
  broadcastInDim S1x128 ![1] bcast_S128_S1x128_1 (m ((c.tc : Thread nD τ).loc main_arg18))

def rv_v116 : (⟨S150000x128, .f32⟩ : BufTy).Contents (Elt F) :=
  broadcastInDim S150000x128 ![0, 1] bcast_S1x128_S150000x128_0_1 (rv_v115 m c)

def rv_v117 : (⟨S150000x128, .f32⟩ : BufTy).Contents (Elt F) :=
  addf (rv_v114 m c) (rv_v116 m c)

def rv_v118 : (⟨S150000x1, .f32⟩ : BufTy).Contents (Elt F) :=
  broadcastInDim S150000x1 ![0] bcast_S150000_S150000x1_0 (rv_v13 m c)

def rv_v119 : (⟨S150000x128, .f32⟩ : BufTy).Contents (Elt F) :=
  broadcastInDim S150000x128 ![0, 1] bcast_S150000x1_S150000x128_0_1 (rv_v118 m c)

def rv_v120 : (⟨S150000x128, .f32⟩ : BufTy).Contents (Elt F) :=
  mulf (rv_v117 m c) (rv_v119 m c)

def rv_c_15 (_ : (ℓ : Loc nD τ sig) → Buf (Elt F) ℓ) (_ : Dev nD) : (⟨S_, .i32⟩ : BufTy).Contents (Elt F) :=
  constantI S_ 32 0#32

def rv_v121 : (⟨S150000, .i32⟩ : BufTy).Contents (Elt F) :=
  broadcastInDim S150000 ![] bcast_S_S150000 (rv_c_15 m c)

def rv_v122 : (⟨S150000, .i1⟩ : BufTy).Contents (Elt F) :=
  cmpi .slt (m ((c.tc : Thread nD τ).loc main_arg6)) (rv_v121 m c)

def rv_c_16 (_ : (ℓ : Loc nD τ sig) → Buf (Elt F) ℓ) (_ : Dev nD) : (⟨S_, .i32⟩ : BufTy).Contents (Elt F) :=
  constantI S_ 32 200000#32

def rv_v123 : (⟨S150000, .i32⟩ : BufTy).Contents (Elt F) :=
  broadcastInDim S150000 ![] bcast_S_S150000 (rv_c_16 m c)

def rv_v124 : (⟨S150000, .i32⟩ : BufTy).Contents (Elt F) :=
  addi (m ((c.tc : Thread nD τ).loc main_arg6)) (rv_v123 m c)

def rv_v125 : (⟨S150000, .i32⟩ : BufTy).Contents (Elt F) :=
  select (rv_v122 m c) (rv_v124 m c) (m ((c.tc : Thread nD τ).loc main_arg6))

def rv_v126 : (⟨S150000x1, .i32⟩ : BufTy).Contents (Elt F) :=
  broadcastInDim S150000x1 ![0] bcast_S150000_S150000x1_0 (rv_v125 m c)

def rv_v127 : (⟨S150000, .i32⟩ : BufTy).Contents (Elt F) :=
  (fun x i => Host.gather gather_S200000_S150000x1_S150000_n_0_n_n_0_1_1 x i) (m ((c.tc : Thread nD τ).loc main_arg5)) (rv_v126 m c)

def rv_cst_17 (_ : (ℓ : Loc nD τ sig) → Buf (Elt F) ℓ) (_ : Dev nD) : (⟨S_, .f32⟩ : BufTy).Contents (Elt F) :=
  constant (F := F) S_ .f32 0x00000000#32

def rv_v128 : (⟨S1024x128, .f32⟩ : BufTy).Contents (Elt F) :=
  broadcastInDim S1024x128 ![] bcast_S_S1024x128 (rv_cst_17 m c)

def rv_v129 : (⟨S150000x1, .i32⟩ : BufTy).Contents (Elt F) :=
  broadcastInDim S150000x1 ![0] bcast_S150000_S150000x1_0 (rv_v127 m c)

def rv_v130 : (⟨S1024x128, .f32⟩ : BufTy).Contents (Elt F) :=
  (fun x i u => Host.scatterAdd scatter_S1024x128_S150000x1_S150000x128_1_0_0_1 x i u) (rv_v128 m c) (rv_v129 m c) (rv_v120 m c)

def rv_cst_18 (_ : (ℓ : Loc nD τ sig) → Buf (Elt F) ℓ) (_ : Dev nD) : (⟨S_, .f32⟩ : BufTy).Contents (Elt F) :=
  constant (F := F) S_ .f32 0x3F800000#32

def rv_v131 : (⟨S150000, .f32⟩ : BufTy).Contents (Elt F) :=
  broadcastInDim S150000 ![] bcast_S_S150000 (rv_cst_18 m c)

def rv_cst_19 (_ : (ℓ : Loc nD τ sig) → Buf (Elt F) ℓ) (_ : Dev nD) : (⟨S_, .f32⟩ : BufTy).Contents (Elt F) :=
  constant (F := F) S_ .f32 0x00000000#32

def rv_v132 : (⟨S1024, .f32⟩ : BufTy).Contents (Elt F) :=
  broadcastInDim S1024 ![] bcast_S_S1024 (rv_cst_19 m c)

def rv_v133 : (⟨S150000x1, .i32⟩ : BufTy).Contents (Elt F) :=
  broadcastInDim S150000x1 ![0] bcast_S150000_S150000x1_0 (rv_v127 m c)

def rv_v134 : (⟨S1024, .f32⟩ : BufTy).Contents (Elt F) :=
  (fun x i u => Host.scatterAdd scatter_S1024_S150000x1_S150000_n_0_0_1 x i u) (rv_v132 m c) (rv_v133 m c) (rv_v131 m c)

def rv_cst_20 (_ : (ℓ : Loc nD τ sig) → Buf (Elt F) ℓ) (_ : Dev nD) : (⟨S_, .f32⟩ : BufTy).Contents (Elt F) :=
  constant (F := F) S_ .f32 0x3F800000#32

def rv_v135 : (⟨S1024, .f32⟩ : BufTy).Contents (Elt F) :=
  broadcastInDim S1024 ![] bcast_S_S1024 (rv_cst_20 m c)

def rv_v136 : (⟨S1024, .f32⟩ : BufTy).Contents (Elt F) :=
  maximumf (rv_v134 m c) (rv_v135 m c)

def rv_v137 : (⟨S1024x1, .f32⟩ : BufTy).Contents (Elt F) :=
  broadcastInDim S1024x1 ![0] bcast_S1024_S1024x1_0 (rv_v136 m c)

def rv_v138 : (⟨S1024x128, .f32⟩ : BufTy).Contents (Elt F) :=
  broadcastInDim S1024x128 ![0, 1] bcast_S1024x1_S1024x128_0_1 (rv_v137 m c)

def rv_v139 : (⟨S1024x128, .f32⟩ : BufTy).Contents (Elt F) :=
  Host.divf (rv_v130 m c) (rv_v138 m c)

def rv_v140 : (⟨S1x500000, .i32⟩ : BufTy).Contents (Elt F) :=
  (extractStridedSlice S1x500000 ![0, 0] · slices_S2x500000_S1x500000_0_0) (m ((c.tc : Thread nD τ).loc main_arg2))

def rv_v141 : (⟨S500000, .i32⟩ : BufTy).Contents (Elt F) :=
  shapeCast S500000 (rv_v140 m c) shapeCasts_S1x500000_S500000

def rv_v142 : (⟨S1x500000, .i32⟩ : BufTy).Contents (Elt F) :=
  (extractStridedSlice S1x500000 ![1, 0] · slices_S2x500000_S1x500000_1_0) (m ((c.tc : Thread nD τ).loc main_arg2))

def rv_v143 : (⟨S500000, .i32⟩ : BufTy).Contents (Elt F) :=
  shapeCast S500000 (rv_v142 m c) shapeCasts_S1x500000_S500000

def rv_v144 : (⟨S200000x128, .f32⟩ : BufTy).Contents (Elt F) :=
  (fun l r => Host.dotGeneral dot_S200000x133_S133x128_S200000x128_1_0_0_1_n_n none l r) (m ((c.tc : Thread nD τ).loc main_arg0)) (m ((c.tc : Thread nD τ).loc main_arg19))

def rv_v145 : (⟨S1x128, .f32⟩ : BufTy).Contents (Elt F) :=
  broadcastInDim S1x128 ![1] bcast_S128_S1x128_1 (m ((c.tc : Thread nD τ).loc main_arg20))

def rv_v146 : (⟨S200000x128, .f32⟩ : BufTy).Contents (Elt F) :=
  broadcastInDim S200000x128 ![0, 1] bcast_S1x128_S200000x128_0_1 (rv_v145 m c)

def rv_v147 : (⟨S200000x128, .f32⟩ : BufTy).Contents (Elt F) :=
  addf (rv_v144 m c) (rv_v146 m c)

def rv_call5_cst (_ : (ℓ : Loc nD τ sig) → Buf (Elt F) ℓ) (_ : Dev nD) : (⟨S_, .f32⟩ : BufTy).Contents (Elt F) :=
  constant (F := F) S_ .f32 0x00000000#32

def rv_call5_v0 : (⟨S200000x128, .f32⟩ : BufTy).Contents (Elt F) :=
  (broadcastInDim S200000x128 ![] bcast_S_S200000x128) (rv_call5_cst m c)

def rv_v148 : (⟨S200000x128, .f32⟩ : BufTy).Contents (Elt F) :=
  maximumf (rv_v147 m c) (rv_call5_v0 m c)

def rv_v149 : (⟨S500000x128, .f32⟩ : BufTy).Contents (Elt F) :=
  (fun l r => Host.dotGeneral dot_S500000x14_S14x128_S500000x128_1_0_0_1_n_n none l r) (m ((c.tc : Thread nD τ).loc main_arg3)) (m ((c.tc : Thread nD τ).loc main_arg21))

def rv_v150 : (⟨S1x128, .f32⟩ : BufTy).Contents (Elt F) :=
  broadcastInDim S1x128 ![1] bcast_S128_S1x128_1 (m ((c.tc : Thread nD τ).loc main_arg22))

def rv_v151 : (⟨S500000x128, .f32⟩ : BufTy).Contents (Elt F) :=
  broadcastInDim S500000x128 ![0, 1] bcast_S1x128_S500000x128_0_1 (rv_v150 m c)

def rv_v152 : (⟨S500000x128, .f32⟩ : BufTy).Contents (Elt F) :=
  addf (rv_v149 m c) (rv_v151 m c)

def rv_call6_cst (_ : (ℓ : Loc nD τ sig) → Buf (Elt F) ℓ) (_ : Dev nD) : (⟨S_, .f32⟩ : BufTy).Contents (Elt F) :=
  constant (F := F) S_ .f32 0x00000000#32

def rv_call6_v0 : (⟨S500000x128, .f32⟩ : BufTy).Contents (Elt F) :=
  (broadcastInDim S500000x128 ![] bcast_S_S500000x128) (rv_call6_cst m c)

def rv_v153 : (⟨S500000x128, .f32⟩ : BufTy).Contents (Elt F) :=
  maximumf (rv_v152 m c) (rv_call6_v0 m c)

def rv_v154 : (⟨S500000x1, .f32⟩ : BufTy).Contents (Elt F) :=
  broadcastInDim S500000x1 ![0] bcast_S500000_S500000x1_0 (m ((c.tc : Thread nD τ).loc main_arg4))

def rv_c_21 (_ : (ℓ : Loc nD τ sig) → Buf (Elt F) ℓ) (_ : Dev nD) : (⟨S_, .i32⟩ : BufTy).Contents (Elt F) :=
  constantI S_ 32 0#32

def rv_v155 : (⟨S500000, .i32⟩ : BufTy).Contents (Elt F) :=
  broadcastInDim S500000 ![] bcast_S_S500000 (rv_c_21 m c)

def rv_v156 : (⟨S500000, .i1⟩ : BufTy).Contents (Elt F) :=
  cmpi .slt (rv_v141 m c) (rv_v155 m c)

def rv_c_22 (_ : (ℓ : Loc nD τ sig) → Buf (Elt F) ℓ) (_ : Dev nD) : (⟨S_, .i32⟩ : BufTy).Contents (Elt F) :=
  constantI S_ 32 200000#32

def rv_v157 : (⟨S500000, .i32⟩ : BufTy).Contents (Elt F) :=
  broadcastInDim S500000 ![] bcast_S_S500000 (rv_c_22 m c)

def rv_v158 : (⟨S500000, .i32⟩ : BufTy).Contents (Elt F) :=
  addi (rv_v141 m c) (rv_v157 m c)

def rv_v159 : (⟨S500000, .i32⟩ : BufTy).Contents (Elt F) :=
  select (rv_v156 m c) (rv_v158 m c) (rv_v141 m c)

def rv_v160 : (⟨S500000x1, .i32⟩ : BufTy).Contents (Elt F) :=
  broadcastInDim S500000x1 ![0] bcast_S500000_S500000x1_0 (rv_v159 m c)

def rv_v161 : (⟨S500000x128, .f32⟩ : BufTy).Contents (Elt F) :=
  (fun x i => Host.gather gather_S200000x128_S500000x1_S500000x128_1_0_n_n_0_1_1128 x i) (rv_v148 m c) (rv_v160 m c)

def rv_v162 : (⟨S500000x128, .f32⟩ : BufTy).Contents (Elt F) :=
  addf (rv_v161 m c) (rv_v153 m c)

def rv_v163 : (⟨S500000x128, .f32⟩ : BufTy).Contents (Elt F) :=
  broadcastInDim S500000x128 ![0, 1] bcast_S500000x1_S500000x128_0_1 (rv_v154 m c)

def rv_v164 : (⟨S500000x128, .f32⟩ : BufTy).Contents (Elt F) :=
  mulf (rv_v163 m c) (rv_v162 m c)

def rv_cst_23 (_ : (ℓ : Loc nD τ sig) → Buf (Elt F) ℓ) (_ : Dev nD) : (⟨S_, .f32⟩ : BufTy).Contents (Elt F) :=
  constant (F := F) S_ .f32 0x00000000#32

def rv_v165 : (⟨S200000x128, .f32⟩ : BufTy).Contents (Elt F) :=
  broadcastInDim S200000x128 ![] bcast_S_S200000x128 (rv_cst_23 m c)

def rv_v166 : (⟨S500000x1, .i32⟩ : BufTy).Contents (Elt F) :=
  broadcastInDim S500000x1 ![0] bcast_S500000_S500000x1_0 (rv_v143 m c)

def rv_v167 : (⟨S200000x128, .f32⟩ : BufTy).Contents (Elt F) :=
  (fun x i u => Host.scatterAdd scatter_S200000x128_S500000x1_S500000x128_1_0_0_1 x i u) (rv_v165 m c) (rv_v166 m c) (rv_v164 m c)

def rv_v168 : (⟨S1x128x128, .f32⟩ : BufTy).Contents (Elt F) :=
  (extractStridedSlice S1x128x128 ![0, 0, 0] · slices_S3x128x128_S1x128x128_0_0_0) (m ((c.tc : Thread nD τ).loc main_arg23))

def rv_v169 : (⟨S128x128, .f32⟩ : BufTy).Contents (Elt F) :=
  shapeCast S128x128 (rv_v168 m c) shapeCasts_S1x128x128_S128x128

def rv_v170 : (⟨S200000x128, .f32⟩ : BufTy).Contents (Elt F) :=
  (fun l r => Host.dotGeneral dot_S200000x128_S128x128_S200000x128_1_0_0_1_n_n none l r) (rv_v167 m c) (rv_v169 m c)

def rv_v171 : (⟨S200000x128, .f32⟩ : BufTy).Contents (Elt F) :=
  addf (rv_v148 m c) (rv_v170 m c)

def rv_v172 : (⟨S1x128, .f32⟩ : BufTy).Contents (Elt F) :=
  (extractStridedSlice S1x128 ![0, 0] · slices_S3x128_S1x128_0_0) (m ((c.tc : Thread nD τ).loc main_arg24))

def rv_v173 : (⟨S128, .f32⟩ : BufTy).Contents (Elt F) :=
  shapeCast S128 (rv_v172 m c) shapeCasts_S1x128_S128

def rv_v174 : (⟨S1x128, .f32⟩ : BufTy).Contents (Elt F) :=
  broadcastInDim S1x128 ![1] bcast_S128_S1x128_1 (rv_v173 m c)

def rv_v175 : (⟨S200000x128, .f32⟩ : BufTy).Contents (Elt F) :=
  broadcastInDim S200000x128 ![0, 1] bcast_S1x128_S200000x128_0_1 (rv_v174 m c)

def rv_v176 : (⟨S200000x128, .f32⟩ : BufTy).Contents (Elt F) :=
  addf (rv_v171 m c) (rv_v175 m c)

def rv_call7_cst (_ : (ℓ : Loc nD τ sig) → Buf (Elt F) ℓ) (_ : Dev nD) : (⟨S_, .f32⟩ : BufTy).Contents (Elt F) :=
  constant (F := F) S_ .f32 0x00000000#32

def rv_call7_v0 : (⟨S200000x128, .f32⟩ : BufTy).Contents (Elt F) :=
  (broadcastInDim S200000x128 ![] bcast_S_S200000x128) (rv_call7_cst m c)

def rv_v177 : (⟨S200000x128, .f32⟩ : BufTy).Contents (Elt F) :=
  maximumf (rv_v176 m c) (rv_call7_v0 m c)

def rv_c_24 (_ : (ℓ : Loc nD τ sig) → Buf (Elt F) ℓ) (_ : Dev nD) : (⟨S_, .i32⟩ : BufTy).Contents (Elt F) :=
  constantI S_ 32 0#32

def rv_v178 : (⟨S500000, .i32⟩ : BufTy).Contents (Elt F) :=
  broadcastInDim S500000 ![] bcast_S_S500000 (rv_c_24 m c)

def rv_v179 : (⟨S500000, .i1⟩ : BufTy).Contents (Elt F) :=
  cmpi .slt (rv_v141 m c) (rv_v178 m c)

def rv_c_25 (_ : (ℓ : Loc nD τ sig) → Buf (Elt F) ℓ) (_ : Dev nD) : (⟨S_, .i32⟩ : BufTy).Contents (Elt F) :=
  constantI S_ 32 200000#32

def rv_v180 : (⟨S500000, .i32⟩ : BufTy).Contents (Elt F) :=
  broadcastInDim S500000 ![] bcast_S_S500000 (rv_c_25 m c)

def rv_v181 : (⟨S500000, .i32⟩ : BufTy).Contents (Elt F) :=
  addi (rv_v141 m c) (rv_v180 m c)

def rv_v182 : (⟨S500000, .i32⟩ : BufTy).Contents (Elt F) :=
  select (rv_v179 m c) (rv_v181 m c) (rv_v141 m c)

def rv_v183 : (⟨S500000x1, .i32⟩ : BufTy).Contents (Elt F) :=
  broadcastInDim S500000x1 ![0] bcast_S500000_S500000x1_0 (rv_v182 m c)

def rv_v184 : (⟨S500000x128, .f32⟩ : BufTy).Contents (Elt F) :=
  (fun x i => Host.gather gather_S200000x128_S500000x1_S500000x128_1_0_n_n_0_1_1128 x i) (rv_v177 m c) (rv_v183 m c)

def rv_v185 : (⟨S500000x128, .f32⟩ : BufTy).Contents (Elt F) :=
  addf (rv_v184 m c) (rv_v153 m c)

def rv_v186 : (⟨S500000x128, .f32⟩ : BufTy).Contents (Elt F) :=
  broadcastInDim S500000x128 ![0, 1] bcast_S500000x1_S500000x128_0_1 (rv_v154 m c)

def rv_v187 : (⟨S500000x128, .f32⟩ : BufTy).Contents (Elt F) :=
  mulf (rv_v186 m c) (rv_v185 m c)

def rv_cst_26 (_ : (ℓ : Loc nD τ sig) → Buf (Elt F) ℓ) (_ : Dev nD) : (⟨S_, .f32⟩ : BufTy).Contents (Elt F) :=
  constant (F := F) S_ .f32 0x00000000#32

def rv_v188 : (⟨S200000x128, .f32⟩ : BufTy).Contents (Elt F) :=
  broadcastInDim S200000x128 ![] bcast_S_S200000x128 (rv_cst_26 m c)

def rv_v189 : (⟨S500000x1, .i32⟩ : BufTy).Contents (Elt F) :=
  broadcastInDim S500000x1 ![0] bcast_S500000_S500000x1_0 (rv_v143 m c)

def rv_v190 : (⟨S200000x128, .f32⟩ : BufTy).Contents (Elt F) :=
  (fun x i u => Host.scatterAdd scatter_S200000x128_S500000x1_S500000x128_1_0_0_1 x i u) (rv_v188 m c) (rv_v189 m c) (rv_v187 m c)

def rv_v191 : (⟨S1x128x128, .f32⟩ : BufTy).Contents (Elt F) :=
  (extractStridedSlice S1x128x128 ![1, 0, 0] · slices_S3x128x128_S1x128x128_1_0_0) (m ((c.tc : Thread nD τ).loc main_arg23))

def rv_v192 : (⟨S128x128, .f32⟩ : BufTy).Contents (Elt F) :=
  shapeCast S128x128 (rv_v191 m c) shapeCasts_S1x128x128_S128x128

def rv_v193 : (⟨S200000x128, .f32⟩ : BufTy).Contents (Elt F) :=
  (fun l r => Host.dotGeneral dot_S200000x128_S128x128_S200000x128_1_0_0_1_n_n none l r) (rv_v190 m c) (rv_v192 m c)

def rv_v194 : (⟨S200000x128, .f32⟩ : BufTy).Contents (Elt F) :=
  addf (rv_v177 m c) (rv_v193 m c)

def rv_v195 : (⟨S1x128, .f32⟩ : BufTy).Contents (Elt F) :=
  (extractStridedSlice S1x128 ![1, 0] · slices_S3x128_S1x128_1_0) (m ((c.tc : Thread nD τ).loc main_arg24))

def rv_v196 : (⟨S128, .f32⟩ : BufTy).Contents (Elt F) :=
  shapeCast S128 (rv_v195 m c) shapeCasts_S1x128_S128

def rv_v197 : (⟨S1x128, .f32⟩ : BufTy).Contents (Elt F) :=
  broadcastInDim S1x128 ![1] bcast_S128_S1x128_1 (rv_v196 m c)

def rv_v198 : (⟨S200000x128, .f32⟩ : BufTy).Contents (Elt F) :=
  broadcastInDim S200000x128 ![0, 1] bcast_S1x128_S200000x128_0_1 (rv_v197 m c)

def rv_v199 : (⟨S200000x128, .f32⟩ : BufTy).Contents (Elt F) :=
  addf (rv_v194 m c) (rv_v198 m c)

def rv_call8_cst (_ : (ℓ : Loc nD τ sig) → Buf (Elt F) ℓ) (_ : Dev nD) : (⟨S_, .f32⟩ : BufTy).Contents (Elt F) :=
  constant (F := F) S_ .f32 0x00000000#32

def rv_call8_v0 : (⟨S200000x128, .f32⟩ : BufTy).Contents (Elt F) :=
  (broadcastInDim S200000x128 ![] bcast_S_S200000x128) (rv_call8_cst m c)

def rv_v200 : (⟨S200000x128, .f32⟩ : BufTy).Contents (Elt F) :=
  maximumf (rv_v199 m c) (rv_call8_v0 m c)

def rv_c_27 (_ : (ℓ : Loc nD τ sig) → Buf (Elt F) ℓ) (_ : Dev nD) : (⟨S_, .i32⟩ : BufTy).Contents (Elt F) :=
  constantI S_ 32 0#32

def rv_v201 : (⟨S500000, .i32⟩ : BufTy).Contents (Elt F) :=
  broadcastInDim S500000 ![] bcast_S_S500000 (rv_c_27 m c)

def rv_v202 : (⟨S500000, .i1⟩ : BufTy).Contents (Elt F) :=
  cmpi .slt (rv_v141 m c) (rv_v201 m c)

def rv_c_28 (_ : (ℓ : Loc nD τ sig) → Buf (Elt F) ℓ) (_ : Dev nD) : (⟨S_, .i32⟩ : BufTy).Contents (Elt F) :=
  constantI S_ 32 200000#32

def rv_v203 : (⟨S500000, .i32⟩ : BufTy).Contents (Elt F) :=
  broadcastInDim S500000 ![] bcast_S_S500000 (rv_c_28 m c)

def rv_v204 : (⟨S500000, .i32⟩ : BufTy).Contents (Elt F) :=
  addi (rv_v141 m c) (rv_v203 m c)

def rv_v205 : (⟨S500000, .i32⟩ : BufTy).Contents (Elt F) :=
  select (rv_v202 m c) (rv_v204 m c) (rv_v141 m c)

def rv_v206 : (⟨S500000x1, .i32⟩ : BufTy).Contents (Elt F) :=
  broadcastInDim S500000x1 ![0] bcast_S500000_S500000x1_0 (rv_v205 m c)

def rv_v207 : (⟨S500000x128, .f32⟩ : BufTy).Contents (Elt F) :=
  (fun x i => Host.gather gather_S200000x128_S500000x1_S500000x128_1_0_n_n_0_1_1128 x i) (rv_v200 m c) (rv_v206 m c)

def rv_v208 : (⟨S500000x128, .f32⟩ : BufTy).Contents (Elt F) :=
  addf (rv_v207 m c) (rv_v153 m c)

def rv_v209 : (⟨S500000x128, .f32⟩ : BufTy).Contents (Elt F) :=
  broadcastInDim S500000x128 ![0, 1] bcast_S500000x1_S500000x128_0_1 (rv_v154 m c)

def rv_v210 : (⟨S500000x128, .f32⟩ : BufTy).Contents (Elt F) :=
  mulf (rv_v209 m c) (rv_v208 m c)

def rv_cst_29 (_ : (ℓ : Loc nD τ sig) → Buf (Elt F) ℓ) (_ : Dev nD) : (⟨S_, .f32⟩ : BufTy).Contents (Elt F) :=
  constant (F := F) S_ .f32 0x00000000#32

def rv_v211 : (⟨S200000x128, .f32⟩ : BufTy).Contents (Elt F) :=
  broadcastInDim S200000x128 ![] bcast_S_S200000x128 (rv_cst_29 m c)

def rv_v212 : (⟨S500000x1, .i32⟩ : BufTy).Contents (Elt F) :=
  broadcastInDim S500000x1 ![0] bcast_S500000_S500000x1_0 (rv_v143 m c)

def rv_v213 : (⟨S200000x128, .f32⟩ : BufTy).Contents (Elt F) :=
  (fun x i u => Host.scatterAdd scatter_S200000x128_S500000x1_S500000x128_1_0_0_1 x i u) (rv_v211 m c) (rv_v212 m c) (rv_v210 m c)

def rv_v214 : (⟨S1x128x128, .f32⟩ : BufTy).Contents (Elt F) :=
  (extractStridedSlice S1x128x128 ![2, 0, 0] · slices_S3x128x128_S1x128x128_2_0_0) (m ((c.tc : Thread nD τ).loc main_arg23))

def rv_v215 : (⟨S128x128, .f32⟩ : BufTy).Contents (Elt F) :=
  shapeCast S128x128 (rv_v214 m c) shapeCasts_S1x128x128_S128x128

def rv_v216 : (⟨S200000x128, .f32⟩ : BufTy).Contents (Elt F) :=
  (fun l r => Host.dotGeneral dot_S200000x128_S128x128_S200000x128_1_0_0_1_n_n none l r) (rv_v213 m c) (rv_v215 m c)

def rv_v217 : (⟨S200000x128, .f32⟩ : BufTy).Contents (Elt F) :=
  addf (rv_v200 m c) (rv_v216 m c)

def rv_v218 : (⟨S1x128, .f32⟩ : BufTy).Contents (Elt F) :=
  (extractStridedSlice S1x128 ![2, 0] · slices_S3x128_S1x128_2_0) (m ((c.tc : Thread nD τ).loc main_arg24))

def rv_v219 : (⟨S128, .f32⟩ : BufTy).Contents (Elt F) :=
  shapeCast S128 (rv_v218 m c) shapeCasts_S1x128_S128

def rv_v220 : (⟨S1x128, .f32⟩ : BufTy).Contents (Elt F) :=
  broadcastInDim S1x128 ![1] bcast_S128_S1x128_1 (rv_v219 m c)

def rv_v221 : (⟨S200000x128, .f32⟩ : BufTy).Contents (Elt F) :=
  broadcastInDim S200000x128 ![0, 1] bcast_S1x128_S200000x128_0_1 (rv_v220 m c)

def rv_v222 : (⟨S200000x128, .f32⟩ : BufTy).Contents (Elt F) :=
  addf (rv_v217 m c) (rv_v221 m c)

def rv_call9_cst (_ : (ℓ : Loc nD τ sig) → Buf (Elt F) ℓ) (_ : Dev nD) : (⟨S_, .f32⟩ : BufTy).Contents (Elt F) :=
  constant (F := F) S_ .f32 0x00000000#32

def rv_call9_v0 : (⟨S200000x128, .f32⟩ : BufTy).Contents (Elt F) :=
  (broadcastInDim S200000x128 ![] bcast_S_S200000x128) (rv_call9_cst m c)

def rv_v223 : (⟨S200000x128, .f32⟩ : BufTy).Contents (Elt F) :=
  maximumf (rv_v222 m c) (rv_call9_v0 m c)

def rv_v224 : (⟨S200000x128, .f32⟩ : BufTy).Contents (Elt F) :=
  (fun l r => Host.dotGeneral dot_S200000x128_S128x128_S200000x128_1_0_0_1_n_n none l r) (rv_v223 m c) (m ((c.tc : Thread nD τ).loc main_arg25))

def rv_v225 : (⟨S1x128, .f32⟩ : BufTy).Contents (Elt F) :=
  broadcastInDim S1x128 ![1] bcast_S128_S1x128_1 (m ((c.tc : Thread nD τ).loc main_arg26))

def rv_v226 : (⟨S200000x128, .f32⟩ : BufTy).Contents (Elt F) :=
  broadcastInDim S200000x128 ![0, 1] bcast_S1x128_S200000x128_0_1 (rv_v225 m c)

def rv_v227 : (⟨S200000x128, .f32⟩ : BufTy).Contents (Elt F) :=
  addf (rv_v224 m c) (rv_v226 m c)

def rv_v228 : (⟨S200000x1, .f32⟩ : BufTy).Contents (Elt F) :=
  broadcastInDim S200000x1 ![0] bcast_S200000_S200000x1_0 (m ((c.tc : Thread nD τ).loc main_arg1))

def rv_v229 : (⟨S200000x128, .f32⟩ : BufTy).Contents (Elt F) :=
  broadcastInDim S200000x128 ![0, 1] bcast_S200000x1_S200000x128_0_1 (rv_v228 m c)

def rv_v230 : (⟨S200000x128, .f32⟩ : BufTy).Contents (Elt F) :=
  mulf (rv_v227 m c) (rv_v229 m c)

def rv_c_30 (_ : (ℓ : Loc nD τ sig) → Buf (Elt F) ℓ) (_ : Dev nD) : (⟨S_, .i32⟩ : BufTy).Contents (Elt F) :=
  constantI S_ 32 0#32

def rv_v231 : (⟨S100000, .i32⟩ : BufTy).Contents (Elt F) :=
  broadcastInDim S100000 ![] bcast_S_S100000 (rv_c_30 m c)

def rv_v232 : (⟨S100000, .i1⟩ : BufTy).Contents (Elt F) :=
  cmpi .slt (m ((c.tc : Thread nD τ).loc main_arg7)) (rv_v231 m c)

def rv_c_31 (_ : (ℓ : Loc nD τ sig) → Buf (Elt F) ℓ) (_ : Dev nD) : (⟨S_, .i32⟩ : BufTy).Contents (Elt F) :=
  constantI S_ 32 200000#32

def rv_v233 : (⟨S100000, .i32⟩ : BufTy).Contents (Elt F) :=
  broadcastInDim S100000 ![] bcast_S_S100000 (rv_c_31 m c)

def rv_v234 : (⟨S100000, .i32⟩ : BufTy).Contents (Elt F) :=
  addi (m ((c.tc : Thread nD τ).loc main_arg7)) (rv_v233 m c)

def rv_v235 : (⟨S100000, .i32⟩ : BufTy).Contents (Elt F) :=
  select (rv_v232 m c) (rv_v234 m c) (m ((c.tc : Thread nD τ).loc main_arg7))

def rv_v236 : (⟨S100000x1, .i32⟩ : BufTy).Contents (Elt F) :=
  broadcastInDim S100000x1 ![0] bcast_S100000_S100000x1_0 (rv_v235 m c)

def rv_v237 : (⟨S100000x128, .f32⟩ : BufTy).Contents (Elt F) :=
  (fun x i => Host.gather gather_S200000x128_S100000x1_S100000x128_1_0_n_n_0_1_1128 x i) (rv_v230 m c) (rv_v236 m c)

def rv_c_32 (_ : (ℓ : Loc nD τ sig) → Buf (Elt F) ℓ) (_ : Dev nD) : (⟨S_, .i32⟩ : BufTy).Contents (Elt F) :=
  constantI S_ 32 0#32

def rv_v238 : (⟨S100000, .i32⟩ : BufTy).Contents (Elt F) :=
  broadcastInDim S100000 ![] bcast_S_S100000 (rv_c_32 m c)

def rv_v239 : (⟨S100000, .i1⟩ : BufTy).Contents (Elt F) :=
  cmpi .slt (m ((c.tc : Thread nD τ).loc main_arg7)) (rv_v238 m c)

def rv_c_33 (_ : (ℓ : Loc nD τ sig) → Buf (Elt F) ℓ) (_ : Dev nD) : (⟨S_, .i32⟩ : BufTy).Contents (Elt F) :=
  constantI S_ 32 200000#32

def rv_v240 : (⟨S100000, .i32⟩ : BufTy).Contents (Elt F) :=
  broadcastInDim S100000 ![] bcast_S_S100000 (rv_c_33 m c)

def rv_v241 : (⟨S100000, .i32⟩ : BufTy).Contents (Elt F) :=
  addi (m ((c.tc : Thread nD τ).loc main_arg7)) (rv_v240 m c)

def rv_v242 : (⟨S100000, .i32⟩ : BufTy).Contents (Elt F) :=
  select (rv_v239 m c) (rv_v241 m c) (m ((c.tc : Thread nD τ).loc main_arg7))

def rv_v243 : (⟨S100000x1, .i32⟩ : BufTy).Contents (Elt F) :=
  broadcastInDim S100000x1 ![0] bcast_S100000_S100000x1_0 (rv_v242 m c)

def rv_v244 : (⟨S100000, .i32⟩ : BufTy).Contents (Elt F) :=
  (fun x i => Host.gather gather_S200000_S100000x1_S100000_n_0_n_n_0_1_1 x i) (m ((c.tc : Thread nD τ).loc main_arg5)) (rv_v243 m c)

def rv_cst_34 (_ : (ℓ : Loc nD τ sig) → Buf (Elt F) ℓ) (_ : Dev nD) : (⟨S_, .f32⟩ : BufTy).Contents (Elt F) :=
  constant (F := F) S_ .f32 0x00000000#32

def rv_v245 : (⟨S1024x128, .f32⟩ : BufTy).Contents (Elt F) :=
  broadcastInDim S1024x128 ![] bcast_S_S1024x128 (rv_cst_34 m c)

def rv_v246 : (⟨S100000x1, .i32⟩ : BufTy).Contents (Elt F) :=
  broadcastInDim S100000x1 ![0] bcast_S100000_S100000x1_0 (rv_v244 m c)

def rv_v247 : (⟨S1024x128, .f32⟩ : BufTy).Contents (Elt F) :=
  (fun x i u => Host.scatterAdd scatter_S1024x128_S100000x1_S100000x128_1_0_0_1 x i u) (rv_v245 m c) (rv_v246 m c) (rv_v237 m c)

def rv_cst_35 (_ : (ℓ : Loc nD τ sig) → Buf (Elt F) ℓ) (_ : Dev nD) : (⟨S_, .f32⟩ : BufTy).Contents (Elt F) :=
  constant (F := F) S_ .f32 0x3F800000#32

def rv_v248 : (⟨S100000, .f32⟩ : BufTy).Contents (Elt F) :=
  broadcastInDim S100000 ![] bcast_S_S100000 (rv_cst_35 m c)

def rv_cst_36 (_ : (ℓ : Loc nD τ sig) → Buf (Elt F) ℓ) (_ : Dev nD) : (⟨S_, .f32⟩ : BufTy).Contents (Elt F) :=
  constant (F := F) S_ .f32 0x00000000#32

def rv_v249 : (⟨S1024, .f32⟩ : BufTy).Contents (Elt F) :=
  broadcastInDim S1024 ![] bcast_S_S1024 (rv_cst_36 m c)

def rv_v250 : (⟨S100000x1, .i32⟩ : BufTy).Contents (Elt F) :=
  broadcastInDim S100000x1 ![0] bcast_S100000_S100000x1_0 (rv_v244 m c)

def rv_v251 : (⟨S1024, .f32⟩ : BufTy).Contents (Elt F) :=
  (fun x i u => Host.scatterAdd scatter_S1024_S100000x1_S100000_n_0_0_1 x i u) (rv_v249 m c) (rv_v250 m c) (rv_v248 m c)

def rv_cst_37 (_ : (ℓ : Loc nD τ sig) → Buf (Elt F) ℓ) (_ : Dev nD) : (⟨S_, .f32⟩ : BufTy).Contents (Elt F) :=
  constant (F := F) S_ .f32 0x3F800000#32

def rv_v252 : (⟨S1024, .f32⟩ : BufTy).Contents (Elt F) :=
  broadcastInDim S1024 ![] bcast_S_S1024 (rv_cst_37 m c)

def rv_v253 : (⟨S1024, .f32⟩ : BufTy).Contents (Elt F) :=
  maximumf (rv_v251 m c) (rv_v252 m c)

def rv_v254 : (⟨S1024x1, .f32⟩ : BufTy).Contents (Elt F) :=
  broadcastInDim S1024x1 ![0] bcast_S1024_S1024x1_0 (rv_v253 m c)

def rv_v255 : (⟨S1024x128, .f32⟩ : BufTy).Contents (Elt F) :=
  broadcastInDim S1024x128 ![0, 1] bcast_S1024x1_S1024x128_0_1 (rv_v254 m c)

def rv_v256 : (⟨S1024x128, .f32⟩ : BufTy).Contents (Elt F) :=
  Host.divf (rv_v247 m c) (rv_v255 m c)

def rv_v257 : (⟨S1x1024x128, .f32⟩ : BufTy).Contents (Elt F) :=
  broadcastInDim S1x1024x128 ![1, 2] bcast_S1024x128_S1x1024x128_1_2 (rv_v139 m c)

def rv_v258 : (⟨S1x1024x128, .f32⟩ : BufTy).Contents (Elt F) :=
  broadcastInDim S1x1024x128 ![1, 2] bcast_S1024x128_S1x1024x128_1_2 (rv_v256 m c)

def rv_v259 : (⟨S2x1024x128, .f32⟩ : BufTy).Contents (Elt F) :=
  (fun a b => concatenate S2x1024x128 0 [⟨S1x1024x128, a⟩, ⟨S1x1024x128, b⟩] concatenates_S1x1024x128_S1x1024x128_S2x1024x128_d0) (rv_v257 m c) (rv_v258 m c)

end Cert.ReferenceIdeal.Stage

end
-- ==== Proof.RefRunHI.lean ====
-- The facts carried between stretches of the reference's operations: arguments untouched, each buffer read later at its stage.
import proofs.«400221_j39548058861723_2_alg».proof.Proof.RStage
import Idealize.ShloMosaic.Lib.StableHlo.Run

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

-- One fact for all 27 arguments, so each stretch carries it by a single membership check.
def ArgsKept (m : (ℓ : Loc nD τ sig) → Buf (Elt F) ℓ) (c : Dev nD) (W : Valuation τ sig (Elt F)) : Prop :=
  ∀ r ∈ argRefs, W (Proc.devRef .tc r) = launchContents m c (Proc.devRef .tc r)

theorem ArgsKept.get {m : (ℓ : Loc nD τ sig) → Buf (Elt F) ℓ} {c : Dev nD} {W : Valuation τ sig (Elt F)} (h : ArgsKept m c W)
    (r : Ref sig .tc) (hr : r ∈ argRefs := by decide) : W (Proc.devRef .tc r) = m ((c.tc : Thread nD τ).loc r) := h r hr

structure Inv0 (m : (ℓ : Loc nD τ sig) → Buf (Elt F) ℓ) (c : Dev nD) (W : Valuation τ sig (Elt F)) : Prop where
  args : ArgsKept m c W

structure Inv1 (m : (ℓ : Loc nD τ sig) → Buf (Elt F) ℓ) (c : Dev nD) (W : Valuation τ sig (Elt F)) : Prop where
  args : ArgsKept m c W
  v13 : W (Proc.devRef .tc main_v13) = rv_v13 m c
  v31 : W (Proc.devRef .tc main_v31) = rv_v31 m c
  v33 : W (Proc.devRef .tc main_v33) = rv_v33 m c
  v38 : W (Proc.devRef .tc main_v38) = rv_v38 m c
  v43 : W (Proc.devRef .tc main_v43) = rv_v43 m c
  v44 : W (Proc.devRef .tc main_v44) = rv_v44 m c
  v49 : W (Proc.devRef .tc main_v49) = rv_v49 m c

structure Inv2 (m : (ℓ : Loc nD τ sig) → Buf (Elt F) ℓ) (c : Dev nD) (W : Valuation τ sig (Elt F)) : Prop where
  args : ArgsKept m c W
  v13 : W (Proc.devRef .tc main_v13) = rv_v13 m c
  v90 : W (Proc.devRef .tc main_v90) = rv_v90 m c
  v100 : W (Proc.devRef .tc main_v100) = rv_v100 m c
  v101 : W (Proc.devRef .tc main_v101) = rv_v101 m c
  v102 : W (Proc.devRef .tc main_v102) = rv_v102 m c

structure Inv3 (m : (ℓ : Loc nD τ sig) → Buf (Elt F) ℓ) (c : Dev nD) (W : Valuation τ sig (Elt F)) : Prop where
  args : ArgsKept m c W
  v139 : W (Proc.devRef .tc main_v139) = rv_v139 m c
  v141 : W (Proc.devRef .tc main_v141) = rv_v141 m c
  v143 : W (Proc.devRef .tc main_v143) = rv_v143 m c
  v148 : W (Proc.devRef .tc main_v148) = rv_v148 m c
  v153 : W (Proc.devRef .tc main_v153) = rv_v153 m c
  v154 : W (Proc.devRef .tc main_v154) = rv_v154 m c
  v155 : W (Proc.devRef .tc main_v155) = rv_v155 m c

structure Inv4 (m : (ℓ : Loc nD τ sig) → Buf (Elt F) ℓ) (c : Dev nD) (W : Valuation τ sig (Elt F)) : Prop where
  args : ArgsKept m c W
  v139 : W (Proc.devRef .tc main_v139) = rv_v139 m c
  v143 : W (Proc.devRef .tc main_v143) = rv_v143 m c
  v154 : W (Proc.devRef .tc main_v154) = rv_v154 m c
  v200 : W (Proc.devRef .tc main_v200) = rv_v200 m c
  v208 : W (Proc.devRef .tc main_v208) = rv_v208 m c

structure Inv5 (m : (ℓ : Loc nD τ sig) → Buf (Elt F) ℓ) (c : Dev nD) (W : Valuation τ sig (Elt F)) : Prop where
  args : ArgsKept m c W
  v257 : W (Proc.devRef .tc main_v257) = rv_v257 m c
  v258 : W (Proc.devRef .tc main_v258) = rv_v258 m c

structure Inv6 (m : (ℓ : Loc nD τ sig) → Buf (Elt F) ℓ) (c : Dev nD) (W : Valuation τ sig (Elt F)) : Prop where
  args : ArgsKept m c W
  v259 : W (Proc.devRef .tc main_v259) = rv_v259 m c

theorem inv0 (m : (ℓ : Loc nD τ sig) → Buf (Elt F) ℓ) (c : Dev nD) : Inv0 m c (launchContents m c) where
  args := fun _ _ => rfl

end Cert.ReferenceIdeal.RunH

end
-- ==== Proof.RefRunHLib.lean ====
-- Reading a long line of host operations piece by piece: writes stay inside a listed set, and two lines compose.
import Idealize.ShloMosaic.Lib.StableHlo.Run

noncomputable section

namespace Cert.ReferenceIdeal.RunH

open Idealize.ShloMosaic Idealize.ShloMosaic.StableHlo

variable {τ : Topo} {sig : RefSig} {Val : EltTy → Type}

theorem single_sub_map {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem after_append : ∀ (l₁ l₂ : List (HloOp τ sig Val)) (V : Valuation τ sig Val),
    after (l₁ ++ l₂) V = after l₂ (after l₁ V)
  | [], _, _ => rfl
  | op :: l₁, l₂, V => by
    show after (l₁ ++ l₂) (op.result V) = after l₂ (after l₁ (op.result V))
    exact after_append l₁ l₂ (op.result V)

end Cert.ReferenceIdeal.RunH

end
-- ==== Proof.RefRunH0.lean ====
-- Stretch 0 of the reference's operations carries the facts before it to the facts after it.
import proofs.«400221_j39548058861723_2_alg».proof.Proof.RefRunHI
import proofs.«400221_j39548058861723_2_alg».proof.Proof.RefRunHLib

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev ops0 : List (HloOp τ sig (Elt F)) :=
  [ nullary main_c (constantI S_ 32 0#32),
    unary main_c main_v0 (broadcastInDim S150000 ![] bcast_S_S150000),
    binary main_arg6 main_v0 main_v1 (cmpi .slt),
    nullary main_c_0 (constantI S_ 32 200000#32),
    unary main_c_0 main_v2 (broadcastInDim S150000 ![] bcast_S_S150000),
    binary main_arg6 main_v2 main_v3 addi,
    ternary main_v1 main_v3 main_arg6 main_v4 select,
    unary main_v4 main_v5 (broadcastInDim S150000x1 ![0] bcast_S150000_S150000x1_0),
    binary main_arg0 main_v5 main_v6 (fun x i => Host.gather gather_S200000x133_S150000x1_S150000x133_1_0_n_n_0_1_1133 x i),
    nullary main_c_1 (constantI S_ 32 0#32),
    unary main_c_1 main_v7 (broadcastInDim S150000 ![] bcast_S_S150000),
    binary main_arg6 main_v7 main_v8 (cmpi .slt),
    nullary main_c_2 (constantI S_ 32 200000#32),
    unary main_c_2 main_v9 (broadcastInDim S150000 ![] bcast_S_S150000),
    binary main_arg6 main_v9 main_v10 addi,
    ternary main_v8 main_v10 main_arg6 main_v11 select,
    unary main_v11 main_v12 (broadcastInDim S150000x1 ![0] bcast_S150000_S150000x1_0),
    binary main_arg1 main_v12 main_v13 (fun x i => Host.gather gather_S200000_S150000x1_S150000_n_0_n_n_0_1_1 x i),
    nullary main_c_3 (constantI S_ 32 0#32),
    unary main_c_3 main_v14 (broadcastInDim S350000 ![] bcast_S_S350000),
    binary main_arg9 main_v14 main_v15 (cmpi .slt),
    nullary main_c_4 (constantI S_ 32 500000#32),
    unary main_c_4 main_v16 (broadcastInDim S350000 ![] bcast_S_S350000),
    binary main_arg9 main_v16 main_v17 addi,
    ternary main_v15 main_v17 main_arg9 main_v18 select,
    unary main_v18 main_v19 (broadcastInDim S350000x1 ![0] bcast_S350000_S350000x1_0),
    binary main_arg3 main_v19 main_v20 (fun x i => Host.gather gather_S500000x14_S350000x1_S350000x14_1_0_n_n_0_1_114 x i),
    nullary main_c_5 (constantI S_ 32 0#32),
    unary main_c_5 main_v21 (broadcastInDim S350000 ![] bcast_S_S350000),
    binary main_arg9 main_v21 main_v22 (cmpi .slt),
    nullary main_c_6 (constantI S_ 32 500000#32),
    unary main_c_6 main_v23 (broadcastInDim S350000 ![] bcast_S_S350000),
    binary main_arg9 main_v23 main_v24 addi,
    ternary main_v22 main_v24 main_arg9 main_v25 select,
    unary main_v25 main_v26 (broadcastInDim S350000x1 ![0] bcast_S350000_S350000x1_0),
    binary main_arg4 main_v26 main_v27 (fun x i => Host.gather gather_S500000_S350000x1_S350000_n_0_n_n_0_1_1 x i),
    unary main_arg10 main_v28 (uitofp .f32),
    binary main_v27 main_v28 main_v29 mulf,
    unary main_arg8 main_v30 (extractStridedSlice S1x350000 ![0, 0] · slices_S2x350000_S1x350000_0_0),
    reshape main_v30 main_v31 rfl shapeCasts_S1x350000_S350000,
    unary main_arg8 main_v32 (extractStridedSlice S1x350000 ![1, 0] · slices_S2x350000_S1x350000_1_0),
    reshape main_v32 main_v33 rfl shapeCasts_S1x350000_S350000,
    binary main_v6 main_arg11 main_v34 (fun l r => Host.dotGeneral dot_S150000x133_S133x128_S150000x128_1_0_0_1_n_n none l r),
    unary main_arg12 main_v35 (broadcastInDim S1x128 ![1] bcast_S128_S1x128_1),
    unary main_v35 main_v36 (broadcastInDim S150000x128 ![0, 1] bcast_S1x128_S150000x128_0_1),
    binary main_v34 main_v36 main_v37 addf,
    TRef.nullary (TRef.of (T := ⟨S_, .f32⟩) main_call0_cst) (constant S_ .f32 0x00000000#32),
    TRef.unary (TRef.of (T := ⟨S_, .f32⟩) main_call0_cst) (TRef.of (T := ⟨S150000x128, .f32⟩) main_call0_v0) (broadcastInDim S150000x128 ![] bcast_S_S150000x128),
    TRef.binary (TRef.of (T := ⟨S150000x128, .f32⟩) main_v37) (TRef.of (T := ⟨S150000x128, .f32⟩) main_call0_v0) (TRef.of (T := ⟨S150000x128, .f32⟩) main_v38) maximumf,
    binary main_v20 main_arg13 main_v39 (fun l r => Host.dotGeneral dot_S350000x14_S14x128_S350000x128_1_0_0_1_n_n none l r),
    unary main_arg14 main_v40 (broadcastInDim S1x128 ![1] bcast_S128_S1x128_1),
    unary main_v40 main_v41 (broadcastInDim S350000x128 ![0, 1] bcast_S1x128_S350000x128_0_1),
    binary main_v39 main_v41 main_v42 addf,
    TRef.nullary (TRef.of (T := ⟨S_, .f32⟩) main_call1_cst) (constant S_ .f32 0x00000000#32),
    TRef.unary (TRef.of (T := ⟨S_, .f32⟩) main_call1_cst) (TRef.of (T := ⟨S350000x128, .f32⟩) main_call1_v0) (broadcastInDim S350000x128 ![] bcast_S_S350000x128),
    TRef.binary (TRef.of (T := ⟨S350000x128, .f32⟩) main_v42) (TRef.of (T := ⟨S350000x128, .f32⟩) main_call1_v0) (TRef.of (T := ⟨S350000x128, .f32⟩) main_v43) maximumf,
    unary main_v29 main_v44 (broadcastInDim S350000x1 ![0] bcast_S350000_S350000x1_0),
    nullary main_c_7 (constantI S_ 32 0#32),
    unary main_c_7 main_v45 (broadcastInDim S350000 ![] bcast_S_S350000),
    binary main_v31 main_v45 main_v46 (cmpi .slt),
    nullary main_c_8 (constantI S_ 32 150000#32),
    unary main_c_8 main_v47 (broadcastInDim S350000 ![] bcast_S_S350000),
    binary main_v31 main_v47 main_v48 addi,
    ternary main_v46 main_v48 main_v31 main_v49 select ]

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

set_option maxRecDepth 8192 in
theorem ops0_fresh : ∀ op ∈ (ops0 : List (HloOp τ sig (Elt F))), op.fresh = ∅ :=
  List.forall_iff_forall_mem.mp (show (ops0 : List (HloOp τ sig (Elt F))).Forall (fun op => op.fresh = ∅) from by
    repeat' apply And.intro
    all_goals rfl)

abbrev wr0 : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27, main_v28, main_v29, main_v30, main_v31, main_v32, main_v33, main_v34, main_v35, main_v36, main_v37, main_call0_cst, main_call0_v0, main_v38, main_v39, main_v40, main_v41, main_v42, main_call1_cst, main_call1_v0, main_v43, main_v44, main_c_7, main_v45, main_v46, main_c_8, main_v47, main_v48, main_v49]

set_option maxRecDepth 8192 in
theorem ops0_writes : (ops0 : List (HloOp τ sig (Elt F))).Forall fun op => op.writes ⊆ (wr0.map (Proc.devRef (τ := τ) .tc)).toFinset := by
  repeat' apply And.intro
  all_goals exact single_sub_map (by decide)

theorem keep0 (W : Valuation τ sig (Elt F)) {r : Ref sig .tc} (hr : r ∉ wr0) :
    after ops0 W (Proc.devRef .tc r) = W (Proc.devRef .tc r) :=
  after_of_writes_sub ops0 W ops0_writes hr

set_option maxRecDepth 8192 in
set_option maxHeartbeats 4000000 in

theorem step0 (m : (ℓ : Loc nD τ sig) → Buf (Elt F) ℓ) (c : Dev nD) (W : Valuation τ sig (Elt F)) (h : Inv0 m c W) : Inv1 m c (after ops0 W) where
  args := fun r hr => (keep0 W ((by decide : ∀ r ∈ argRefs, r ∉ wr0) r hr)).trans (h.args r hr)
  v13 := by after_results_simp; (try simp only [TRef.ofBuf, TRef.toBuf, cast_eq]); rw [h.args.get main_arg1, h.args.get main_arg6]; rfl
  v31 := by after_results_simp; (try simp only [TRef.ofBuf, TRef.toBuf, cast_eq]); rw [h.args.get main_arg8]; rfl
  v33 := by after_results_simp; (try simp only [TRef.ofBuf, TRef.toBuf, cast_eq]); rw [h.args.get main_arg8]; rfl
  v38 := by after_results_simp; (try simp only [TRef.ofBuf, TRef.toBuf, cast_eq]); rw [h.args.get main_arg0, h.args.get main_arg6, h.args.get main_arg11, h.args.get main_arg12]; rfl
  v43 := by after_results_simp; (try simp only [TRef.ofBuf, TRef.toBuf, cast_eq]); rw [h.args.get main_arg3, h.args.get main_arg9, h.args.get main_arg13, h.args.get main_arg14]; rfl
  v44 := by after_results_simp; (try simp only [TRef.ofBuf, TRef.toBuf, cast_eq]); rw [h.args.get main_arg4, h.args.get main_arg9, h.args.get main_arg10]; rfl
  v49 := by after_results_simp; (try simp only [TRef.ofBuf, TRef.toBuf, cast_eq]); rw [h.args.get main_arg8]; rfl

end Cert.ReferenceIdeal.RunH

end
-- ==== Proof.RefRunH1.lean ====
-- Stretch 1 of the reference's operations carries the facts before it to the facts after it.
import proofs.«400221_j39548058861723_2_alg».proof.Proof.RefRunHI
import proofs.«400221_j39548058861723_2_alg».proof.Proof.RefRunHLib

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev ops1 : List (HloOp τ sig (Elt F)) :=
  [ unary main_v49 main_v50 (broadcastInDim S350000x1 ![0] bcast_S350000_S350000x1_0),
    binary main_v38 main_v50 main_v51 (fun x i => Host.gather gather_S150000x128_S350000x1_S350000x128_1_0_n_n_0_1_1128 x i),
    binary main_v51 main_v43 main_v52 addf,
    unary main_v44 main_v53 (broadcastInDim S350000x128 ![0, 1] bcast_S350000x1_S350000x128_0_1),
    binary main_v53 main_v52 main_v54 mulf,
    nullary main_cst (constant S_ .f32 0x00000000#32),
    unary main_cst main_v55 (broadcastInDim S150000x128 ![] bcast_S_S150000x128),
    unary main_v33 main_v56 (broadcastInDim S350000x1 ![0] bcast_S350000_S350000x1_0),
    ternary main_v55 main_v56 main_v54 main_v57 (fun x i u => Host.scatterAdd scatter_S150000x128_S350000x1_S350000x128_1_0_0_1 x i u),
    unary main_arg15 main_v58 (extractStridedSlice S1x128x128 ![0, 0, 0] · slices_S3x128x128_S1x128x128_0_0_0),
    reshape main_v58 main_v59 rfl shapeCasts_S1x128x128_S128x128,
    binary main_v57 main_v59 main_v60 (fun l r => Host.dotGeneral dot_S150000x128_S128x128_S150000x128_1_0_0_1_n_n none l r),
    binary main_v38 main_v60 main_v61 addf,
    unary main_arg16 main_v62 (extractStridedSlice S1x128 ![0, 0] · slices_S3x128_S1x128_0_0),
    reshape main_v62 main_v63 rfl shapeCasts_S1x128_S128,
    unary main_v63 main_v64 (broadcastInDim S1x128 ![1] bcast_S128_S1x128_1),
    unary main_v64 main_v65 (broadcastInDim S150000x128 ![0, 1] bcast_S1x128_S150000x128_0_1),
    binary main_v61 main_v65 main_v66 addf,
    TRef.nullary (TRef.of (T := ⟨S_, .f32⟩) main_call2_cst) (constant S_ .f32 0x00000000#32),
    TRef.unary (TRef.of (T := ⟨S_, .f32⟩) main_call2_cst) (TRef.of (T := ⟨S150000x128, .f32⟩) main_call2_v0) (broadcastInDim S150000x128 ![] bcast_S_S150000x128),
    TRef.binary (TRef.of (T := ⟨S150000x128, .f32⟩) main_v66) (TRef.of (T := ⟨S150000x128, .f32⟩) main_call2_v0) (TRef.of (T := ⟨S150000x128, .f32⟩) main_v67) maximumf,
    nullary main_c_9 (constantI S_ 32 0#32),
    unary main_c_9 main_v68 (broadcastInDim S350000 ![] bcast_S_S350000),
    binary main_v31 main_v68 main_v69 (cmpi .slt),
    nullary main_c_10 (constantI S_ 32 150000#32),
    unary main_c_10 main_v70 (broadcastInDim S350000 ![] bcast_S_S350000),
    binary main_v31 main_v70 main_v71 addi,
    ternary main_v69 main_v71 main_v31 main_v72 select,
    unary main_v72 main_v73 (broadcastInDim S350000x1 ![0] bcast_S350000_S350000x1_0),
    binary main_v67 main_v73 main_v74 (fun x i => Host.gather gather_S150000x128_S350000x1_S350000x128_1_0_n_n_0_1_1128 x i),
    binary main_v74 main_v43 main_v75 addf,
    unary main_v44 main_v76 (broadcastInDim S350000x128 ![0, 1] bcast_S350000x1_S350000x128_0_1),
    binary main_v76 main_v75 main_v77 mulf,
    nullary main_cst_11 (constant S_ .f32 0x00000000#32),
    unary main_cst_11 main_v78 (broadcastInDim S150000x128 ![] bcast_S_S150000x128),
    unary main_v33 main_v79 (broadcastInDim S350000x1 ![0] bcast_S350000_S350000x1_0),
    ternary main_v78 main_v79 main_v77 main_v80 (fun x i u => Host.scatterAdd scatter_S150000x128_S350000x1_S350000x128_1_0_0_1 x i u),
    unary main_arg15 main_v81 (extractStridedSlice S1x128x128 ![1, 0, 0] · slices_S3x128x128_S1x128x128_1_0_0),
    reshape main_v81 main_v82 rfl shapeCasts_S1x128x128_S128x128,
    binary main_v80 main_v82 main_v83 (fun l r => Host.dotGeneral dot_S150000x128_S128x128_S150000x128_1_0_0_1_n_n none l r),
    binary main_v67 main_v83 main_v84 addf,
    unary main_arg16 main_v85 (extractStridedSlice S1x128 ![1, 0] · slices_S3x128_S1x128_1_0),
    reshape main_v85 main_v86 rfl shapeCasts_S1x128_S128,
    unary main_v86 main_v87 (broadcastInDim S1x128 ![1] bcast_S128_S1x128_1),
    unary main_v87 main_v88 (broadcastInDim S150000x128 ![0, 1] bcast_S1x128_S150000x128_0_1),
    binary main_v84 main_v88 main_v89 addf,
    TRef.nullary (TRef.of (T := ⟨S_, .f32⟩) main_call3_cst) (constant S_ .f32 0x00000000#32),
    TRef.unary (TRef.of (T := ⟨S_, .f32⟩) main_call3_cst) (TRef.of (T := ⟨S150000x128, .f32⟩) main_call3_v0) (broadcastInDim S150000x128 ![] bcast_S_S150000x128),
    TRef.binary (TRef.of (T := ⟨S150000x128, .f32⟩) main_v89) (TRef.of (T := ⟨S150000x128, .f32⟩) main_call3_v0) (TRef.of (T := ⟨S150000x128, .f32⟩) main_v90) maximumf,
    nullary main_c_12 (constantI S_ 32 0#32),
    unary main_c_12 main_v91 (broadcastInDim S350000 ![] bcast_S_S350000),
    binary main_v31 main_v91 main_v92 (cmpi .slt),
    nullary main_c_13 (constantI S_ 32 150000#32),
    unary main_c_13 main_v93 (broadcastInDim S350000 ![] bcast_S_S350000),
    binary main_v31 main_v93 main_v94 addi,
    ternary main_v92 main_v94 main_v31 main_v95 select,
    unary main_v95 main_v96 (broadcastInDim S350000x1 ![0] bcast_S350000_S350000x1_0),
    binary main_v90 main_v96 main_v97 (fun x i => Host.gather gather_S150000x128_S350000x1_S350000x128_1_0_n_n_0_1_1128 x i),
    binary main_v97 main_v43 main_v98 addf,
    unary main_v44 main_v99 (broadcastInDim S350000x128 ![0, 1] bcast_S350000x1_S350000x128_0_1),
    binary main_v99 main_v98 main_v100 mulf,
    nullary main_cst_14 (constant S_ .f32 0x00000000#32),
    unary main_cst_14 main_v101 (broadcastInDim S150000x128 ![] bcast_S_S150000x128),
    unary main_v33 main_v102 (broadcastInDim S350000x1 ![0] bcast_S350000_S350000x1_0) ]

set_option maxRecDepth 8192 in
theorem ops1_sub : (ops1 : List (HloOp τ sig (Elt F))).Forall fun op => op.bufs ⊆ tcRefs τ sig :=
  ⟨unary_bufs_sub .., binary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub ..⟩

set_option maxRecDepth 8192 in
theorem ops1_fresh : ∀ op ∈ (ops1 : List (HloOp τ sig (Elt F))), op.fresh = ∅ :=
  List.forall_iff_forall_mem.mp (show (ops1 : List (HloOp τ sig (Elt F))).Forall (fun op => op.fresh = ∅) from by
    repeat' apply And.intro
    all_goals rfl)

abbrev wr1 : List (Ref sig .tc) := [main_v50, main_v51, main_v52, main_v53, main_v54, main_cst, main_v55, main_v56, main_v57, main_v58, main_v59, main_v60, main_v61, main_v62, main_v63, main_v64, main_v65, main_v66, main_call2_cst, main_call2_v0, main_v67, main_c_9, main_v68, main_v69, main_c_10, main_v70, main_v71, main_v72, main_v73, main_v74, main_v75, main_v76, main_v77, main_cst_11, main_v78, main_v79, main_v80, main_v81, main_v82, main_v83, main_v84, main_v85, main_v86, main_v87, main_v88, main_v89, main_call3_cst, main_call3_v0, main_v90, main_c_12, main_v91, main_v92, main_c_13, main_v93, main_v94, main_v95, main_v96, main_v97, main_v98, main_v99, main_v100, main_cst_14, main_v101, main_v102]

set_option maxRecDepth 8192 in
theorem ops1_writes : (ops1 : List (HloOp τ sig (Elt F))).Forall fun op => op.writes ⊆ (wr1.map (Proc.devRef (τ := τ) .tc)).toFinset := by
  repeat' apply And.intro
  all_goals exact single_sub_map (by decide)

theorem keep1 (W : Valuation τ sig (Elt F)) {r : Ref sig .tc} (hr : r ∉ wr1) :
    after ops1 W (Proc.devRef .tc r) = W (Proc.devRef .tc r) :=
  after_of_writes_sub ops1 W ops1_writes hr

set_option maxRecDepth 8192 in
set_option maxHeartbeats 4000000 in

theorem step1 (m : (ℓ : Loc nD τ sig) → Buf (Elt F) ℓ) (c : Dev nD) (W : Valuation τ sig (Elt F)) (h : Inv1 m c W) : Inv2 m c (after ops1 W) where
  args := fun r hr => (keep1 W ((by decide : ∀ r ∈ argRefs, r ∉ wr1) r hr)).trans (h.args r hr)
  v13 := (keep1 W (by decide)).trans h.v13
  v90 := by after_results_simp; (try simp only [TRef.ofBuf, TRef.toBuf, cast_eq]); rw [h.args.get main_arg15, h.args.get main_arg16, h.v31, h.v33, h.v38, h.v43, h.v44, h.v49]; rfl
  v100 := by after_results_simp; (try simp only [TRef.ofBuf, TRef.toBuf, cast_eq]); rw [h.args.get main_arg15, h.args.get main_arg16, h.v31, h.v33, h.v38, h.v43, h.v44, h.v49]; rfl
  v101 := by after_results_simp; (try simp only [TRef.ofBuf, TRef.toBuf, cast_eq]); rfl
  v102 := by after_results_simp; (try simp only [TRef.ofBuf, TRef.toBuf, cast_eq]); rw [h.v33]; rfl

end Cert.ReferenceIdeal.RunH

end
-- ==== Proof.RefRunH2.lean ====
-- Stretch 2 of the reference's operations carries the facts before it to the facts after it.
import proofs.«400221_j39548058861723_2_alg».proof.Proof.RefRunHI
import proofs.«400221_j39548058861723_2_alg».proof.Proof.RefRunHLib

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev ops2 : List (HloOp τ sig (Elt F)) :=
  [ ternary main_v101 main_v102 main_v100 main_v103 (fun x i u => Host.scatterAdd scatter_S150000x128_S350000x1_S350000x128_1_0_0_1 x i u),
    unary main_arg15 main_v104 (extractStridedSlice S1x128x128 ![2, 0, 0] · slices_S3x128x128_S1x128x128_2_0_0),
    reshape main_v104 main_v105 rfl shapeCasts_S1x128x128_S128x128,
    binary main_v103 main_v105 main_v106 (fun l r => Host.dotGeneral dot_S150000x128_S128x128_S150000x128_1_0_0_1_n_n none l r),
    binary main_v90 main_v106 main_v107 addf,
    unary main_arg16 main_v108 (extractStridedSlice S1x128 ![2, 0] · slices_S3x128_S1x128_2_0),
    reshape main_v108 main_v109 rfl shapeCasts_S1x128_S128,
    unary main_v109 main_v110 (broadcastInDim S1x128 ![1] bcast_S128_S1x128_1),
    unary main_v110 main_v111 (broadcastInDim S150000x128 ![0, 1] bcast_S1x128_S150000x128_0_1),
    binary main_v107 main_v111 main_v112 addf,
    TRef.nullary (TRef.of (T := ⟨S_, .f32⟩) main_call4_cst) (constant S_ .f32 0x00000000#32),
    TRef.unary (TRef.of (T := ⟨S_, .f32⟩) main_call4_cst) (TRef.of (T := ⟨S150000x128, .f32⟩) main_call4_v0) (broadcastInDim S150000x128 ![] bcast_S_S150000x128),
    TRef.binary (TRef.of (T := ⟨S150000x128, .f32⟩) main_v112) (TRef.of (T := ⟨S150000x128, .f32⟩) main_call4_v0) (TRef.of (T := ⟨S150000x128, .f32⟩) main_v113) maximumf,
    binary main_v113 main_arg17 main_v114 (fun l r => Host.dotGeneral dot_S150000x128_S128x128_S150000x128_1_0_0_1_n_n none l r),
    unary main_arg18 main_v115 (broadcastInDim S1x128 ![1] bcast_S128_S1x128_1),
    unary main_v115 main_v116 (broadcastInDim S150000x128 ![0, 1] bcast_S1x128_S150000x128_0_1),
    binary main_v114 main_v116 main_v117 addf,
    unary main_v13 main_v118 (broadcastInDim S150000x1 ![0] bcast_S150000_S150000x1_0),
    unary main_v118 main_v119 (broadcastInDim S150000x128 ![0, 1] bcast_S150000x1_S150000x128_0_1),
    binary main_v117 main_v119 main_v120 mulf,
    nullary main_c_15 (constantI S_ 32 0#32),
    unary main_c_15 main_v121 (broadcastInDim S150000 ![] bcast_S_S150000),
    binary main_arg6 main_v121 main_v122 (cmpi .slt),
    nullary main_c_16 (constantI S_ 32 200000#32),
    unary main_c_16 main_v123 (broadcastInDim S150000 ![] bcast_S_S150000),
    binary main_arg6 main_v123 main_v124 addi,
    ternary main_v122 main_v124 main_arg6 main_v125 select,
    unary main_v125 main_v126 (broadcastInDim S150000x1 ![0] bcast_S150000_S150000x1_0),
    binary main_arg5 main_v126 main_v127 (fun x i => Host.gather gather_S200000_S150000x1_S150000_n_0_n_n_0_1_1 x i),
    nullary main_cst_17 (constant S_ .f32 0x00000000#32),
    unary main_cst_17 main_v128 (broadcastInDim S1024x128 ![] bcast_S_S1024x128),
    unary main_v127 main_v129 (broadcastInDim S150000x1 ![0] bcast_S150000_S150000x1_0),
    ternary main_v128 main_v129 main_v120 main_v130 (fun x i u => Host.scatterAdd scatter_S1024x128_S150000x1_S150000x128_1_0_0_1 x i u),
    nullary main_cst_18 (constant S_ .f32 0x3F800000#32),
    unary main_cst_18 main_v131 (broadcastInDim S150000 ![] bcast_S_S150000),
    nullary main_cst_19 (constant S_ .f32 0x00000000#32),
    unary main_cst_19 main_v132 (broadcastInDim S1024 ![] bcast_S_S1024),
    unary main_v127 main_v133 (broadcastInDim S150000x1 ![0] bcast_S150000_S150000x1_0),
    ternary main_v132 main_v133 main_v131 main_v134 (fun x i u => Host.scatterAdd scatter_S1024_S150000x1_S150000_n_0_0_1 x i u),
    nullary main_cst_20 (constant S_ .f32 0x3F800000#32),
    unary main_cst_20 main_v135 (broadcastInDim S1024 ![] bcast_S_S1024),
    binary main_v134 main_v135 main_v136 maximumf,
    unary main_v136 main_v137 (broadcastInDim S1024x1 ![0] bcast_S1024_S1024x1_0),
    unary main_v137 main_v138 (broadcastInDim S1024x128 ![0, 1] bcast_S1024x1_S1024x128_0_1),
    binary main_v130 main_v138 main_v139 Host.divf,
    unary main_arg2 main_v140 (extractStridedSlice S1x500000 ![0, 0] · slices_S2x500000_S1x500000_0_0),
    reshape main_v140 main_v141 rfl shapeCasts_S1x500000_S500000,
    unary main_arg2 main_v142 (extractStridedSlice S1x500000 ![1, 0] · slices_S2x500000_S1x500000_1_0),
    reshape main_v142 main_v143 rfl shapeCasts_S1x500000_S500000,
    binary main_arg0 main_arg19 main_v144 (fun l r => Host.dotGeneral dot_S200000x133_S133x128_S200000x128_1_0_0_1_n_n none l r),
    unary main_arg20 main_v145 (broadcastInDim S1x128 ![1] bcast_S128_S1x128_1),
    unary main_v145 main_v146 (broadcastInDim S200000x128 ![0, 1] bcast_S1x128_S200000x128_0_1),
    binary main_v144 main_v146 main_v147 addf,
    TRef.nullary (TRef.of (T := ⟨S_, .f32⟩) main_call5_cst) (constant S_ .f32 0x00000000#32),
    TRef.unary (TRef.of (T := ⟨S_, .f32⟩) main_call5_cst) (TRef.of (T := ⟨S200000x128, .f32⟩) main_call5_v0) (broadcastInDim S200000x128 ![] bcast_S_S200000x128),
    TRef.binary (TRef.of (T := ⟨S200000x128, .f32⟩) main_v147) (TRef.of (T := ⟨S200000x128, .f32⟩) main_call5_v0) (TRef.of (T := ⟨S200000x128, .f32⟩) main_v148) maximumf,
    binary main_arg3 main_arg21 main_v149 (fun l r => Host.dotGeneral dot_S500000x14_S14x128_S500000x128_1_0_0_1_n_n none l r),
    unary main_arg22 main_v150 (broadcastInDim S1x128 ![1] bcast_S128_S1x128_1),
    unary main_v150 main_v151 (broadcastInDim S500000x128 ![0, 1] bcast_S1x128_S500000x128_0_1),
    binary main_v149 main_v151 main_v152 addf,
    TRef.nullary (TRef.of (T := ⟨S_, .f32⟩) main_call6_cst) (constant S_ .f32 0x00000000#32),
    TRef.unary (TRef.of (T := ⟨S_, .f32⟩) main_call6_cst) (TRef.of (T := ⟨S500000x128, .f32⟩) main_call6_v0) (broadcastInDim S500000x128 ![] bcast_S_S500000x128),
    TRef.binary (TRef.of (T := ⟨S500000x128, .f32⟩) main_v152) (TRef.of (T := ⟨S500000x128, .f32⟩) main_call6_v0) (TRef.of (T := ⟨S500000x128, .f32⟩) main_v153) maximumf,
    unary main_arg4 main_v154 (broadcastInDim S500000x1 ![0] bcast_S500000_S500000x1_0),
    nullary main_c_21 (constantI S_ 32 0#32),
    unary main_c_21 main_v155 (broadcastInDim S500000 ![] bcast_S_S500000) ]

set_option maxRecDepth 8192 in
theorem ops2_sub : (ops2 : List (HloOp τ sig (Elt F))).Forall fun op => op.bufs ⊆ tcRefs τ sig :=
  ⟨ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub ..⟩

set_option maxRecDepth 8192 in
theorem ops2_fresh : ∀ op ∈ (ops2 : List (HloOp τ sig (Elt F))), op.fresh = ∅ :=
  List.forall_iff_forall_mem.mp (show (ops2 : List (HloOp τ sig (Elt F))).Forall (fun op => op.fresh = ∅) from by
    repeat' apply And.intro
    all_goals rfl)

abbrev wr2 : List (Ref sig .tc) := [main_v103, main_v104, main_v105, main_v106, main_v107, main_v108, main_v109, main_v110, main_v111, main_v112, main_call4_cst, main_call4_v0, main_v113, main_v114, main_v115, main_v116, main_v117, main_v118, main_v119, main_v120, main_c_15, main_v121, main_v122, main_c_16, main_v123, main_v124, main_v125, main_v126, main_v127, main_cst_17, main_v128, main_v129, main_v130, main_cst_18, main_v131, main_cst_19, main_v132, main_v133, main_v134, main_cst_20, main_v135, main_v136, main_v137, main_v138, main_v139, main_v140, main_v141, main_v142, main_v143, main_v144, main_v145, main_v146, main_v147, main_call5_cst, main_call5_v0, main_v148, main_v149, main_v150, main_v151, main_v152, main_call6_cst, main_call6_v0, main_v153, main_v154, main_c_21, main_v155]

set_option maxRecDepth 8192 in
theorem ops2_writes : (ops2 : List (HloOp τ sig (Elt F))).Forall fun op => op.writes ⊆ (wr2.map (Proc.devRef (τ := τ) .tc)).toFinset := by
  repeat' apply And.intro
  all_goals exact single_sub_map (by decide)

theorem keep2 (W : Valuation τ sig (Elt F)) {r : Ref sig .tc} (hr : r ∉ wr2) :
    after ops2 W (Proc.devRef .tc r) = W (Proc.devRef .tc r) :=
  after_of_writes_sub ops2 W ops2_writes hr

set_option maxRecDepth 8192 in
set_option maxHeartbeats 4000000 in

theorem step2 (m : (ℓ : Loc nD τ sig) → Buf (Elt F) ℓ) (c : Dev nD) (W : Valuation τ sig (Elt F)) (h : Inv2 m c W) : Inv3 m c (after ops2 W) where
  args := fun r hr => (keep2 W ((by decide : ∀ r ∈ argRefs, r ∉ wr2) r hr)).trans (h.args r hr)
  v139 := by after_results_simp; (try simp only [TRef.ofBuf, TRef.toBuf, cast_eq]); rw [h.args.get main_arg5, h.args.get main_arg6, h.args.get main_arg15, h.args.get main_arg16, h.args.get main_arg17, h.args.get main_arg18, h.v13, h.v90, h.v100, h.v101, h.v102]; rfl
  v141 := by after_results_simp; (try simp only [TRef.ofBuf, TRef.toBuf, cast_eq]); rw [h.args.get main_arg2]; rfl
  v143 := by after_results_simp; (try simp only [TRef.ofBuf, TRef.toBuf, cast_eq]); rw [h.args.get main_arg2]; rfl
  v148 := by after_results_simp; (try simp only [TRef.ofBuf, TRef.toBuf, cast_eq]); rw [h.args.get main_arg0, h.args.get main_arg19, h.args.get main_arg20]; rfl
  v153 := by after_results_simp; (try simp only [TRef.ofBuf, TRef.toBuf, cast_eq]); rw [h.args.get main_arg3, h.args.get main_arg21, h.args.get main_arg22]; rfl
  v154 := by after_results_simp; (try simp only [TRef.ofBuf, TRef.toBuf, cast_eq]); rw [h.args.get main_arg4]; rfl
  v155 := by after_results_simp; (try simp only [TRef.ofBuf, TRef.toBuf, cast_eq]); rfl

end Cert.ReferenceIdeal.RunH

end
-- ==== Proof.RefRunH3.lean ====
-- Stretch 3 of the reference's operations carries the facts before it to the facts after it.
import proofs.«400221_j39548058861723_2_alg».proof.Proof.RefRunHI
import proofs.«400221_j39548058861723_2_alg».proof.Proof.RefRunHLib

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev ops3 : List (HloOp τ sig (Elt F)) :=
  [ binary main_v141 main_v155 main_v156 (cmpi .slt),
    nullary main_c_22 (constantI S_ 32 200000#32),
    unary main_c_22 main_v157 (broadcastInDim S500000 ![] bcast_S_S500000),
    binary main_v141 main_v157 main_v158 addi,
    ternary main_v156 main_v158 main_v141 main_v159 select,
    unary main_v159 main_v160 (broadcastInDim S500000x1 ![0] bcast_S500000_S500000x1_0),
    binary main_v148 main_v160 main_v161 (fun x i => Host.gather gather_S200000x128_S500000x1_S500000x128_1_0_n_n_0_1_1128 x i),
    binary main_v161 main_v153 main_v162 addf,
    unary main_v154 main_v163 (broadcastInDim S500000x128 ![0, 1] bcast_S500000x1_S500000x128_0_1),
    binary main_v163 main_v162 main_v164 mulf,
    nullary main_cst_23 (constant S_ .f32 0x00000000#32),
    unary main_cst_23 main_v165 (broadcastInDim S200000x128 ![] bcast_S_S200000x128),
    unary main_v143 main_v166 (broadcastInDim S500000x1 ![0] bcast_S500000_S500000x1_0),
    ternary main_v165 main_v166 main_v164 main_v167 (fun x i u => Host.scatterAdd scatter_S200000x128_S500000x1_S500000x128_1_0_0_1 x i u),
    unary main_arg23 main_v168 (extractStridedSlice S1x128x128 ![0, 0, 0] · slices_S3x128x128_S1x128x128_0_0_0),
    reshape main_v168 main_v169 rfl shapeCasts_S1x128x128_S128x128,
    binary main_v167 main_v169 main_v170 (fun l r => Host.dotGeneral dot_S200000x128_S128x128_S200000x128_1_0_0_1_n_n none l r),
    binary main_v148 main_v170 main_v171 addf,
    unary main_arg24 main_v172 (extractStridedSlice S1x128 ![0, 0] · slices_S3x128_S1x128_0_0),
    reshape main_v172 main_v173 rfl shapeCasts_S1x128_S128,
    unary main_v173 main_v174 (broadcastInDim S1x128 ![1] bcast_S128_S1x128_1),
    unary main_v174 main_v175 (broadcastInDim S200000x128 ![0, 1] bcast_S1x128_S200000x128_0_1),
    binary main_v171 main_v175 main_v176 addf,
    TRef.nullary (TRef.of (T := ⟨S_, .f32⟩) main_call7_cst) (constant S_ .f32 0x00000000#32),
    TRef.unary (TRef.of (T := ⟨S_, .f32⟩) main_call7_cst) (TRef.of (T := ⟨S200000x128, .f32⟩) main_call7_v0) (broadcastInDim S200000x128 ![] bcast_S_S200000x128),
    TRef.binary (TRef.of (T := ⟨S200000x128, .f32⟩) main_v176) (TRef.of (T := ⟨S200000x128, .f32⟩) main_call7_v0) (TRef.of (T := ⟨S200000x128, .f32⟩) main_v177) maximumf,
    nullary main_c_24 (constantI S_ 32 0#32),
    unary main_c_24 main_v178 (broadcastInDim S500000 ![] bcast_S_S500000),
    binary main_v141 main_v178 main_v179 (cmpi .slt),
    nullary main_c_25 (constantI S_ 32 200000#32),
    unary main_c_25 main_v180 (broadcastInDim S500000 ![] bcast_S_S500000),
    binary main_v141 main_v180 main_v181 addi,
    ternary main_v179 main_v181 main_v141 main_v182 select,
    unary main_v182 main_v183 (broadcastInDim S500000x1 ![0] bcast_S500000_S500000x1_0),
    binary main_v177 main_v183 main_v184 (fun x i => Host.gather gather_S200000x128_S500000x1_S500000x128_1_0_n_n_0_1_1128 x i),
    binary main_v184 main_v153 main_v185 addf,
    unary main_v154 main_v186 (broadcastInDim S500000x128 ![0, 1] bcast_S500000x1_S500000x128_0_1),
    binary main_v186 main_v185 main_v187 mulf,
    nullary main_cst_26 (constant S_ .f32 0x00000000#32),
    unary main_cst_26 main_v188 (broadcastInDim S200000x128 ![] bcast_S_S200000x128),
    unary main_v143 main_v189 (broadcastInDim S500000x1 ![0] bcast_S500000_S500000x1_0),
    ternary main_v188 main_v189 main_v187 main_v190 (fun x i u => Host.scatterAdd scatter_S200000x128_S500000x1_S500000x128_1_0_0_1 x i u),
    unary main_arg23 main_v191 (extractStridedSlice S1x128x128 ![1, 0, 0] · slices_S3x128x128_S1x128x128_1_0_0),
    reshape main_v191 main_v192 rfl shapeCasts_S1x128x128_S128x128,
    binary main_v190 main_v192 main_v193 (fun l r => Host.dotGeneral dot_S200000x128_S128x128_S200000x128_1_0_0_1_n_n none l r),
    binary main_v177 main_v193 main_v194 addf,
    unary main_arg24 main_v195 (extractStridedSlice S1x128 ![1, 0] · slices_S3x128_S1x128_1_0),
    reshape main_v195 main_v196 rfl shapeCasts_S1x128_S128,
    unary main_v196 main_v197 (broadcastInDim S1x128 ![1] bcast_S128_S1x128_1),
    unary main_v197 main_v198 (broadcastInDim S200000x128 ![0, 1] bcast_S1x128_S200000x128_0_1),
    binary main_v194 main_v198 main_v199 addf,
    TRef.nullary (TRef.of (T := ⟨S_, .f32⟩) main_call8_cst) (constant S_ .f32 0x00000000#32),
    TRef.unary (TRef.of (T := ⟨S_, .f32⟩) main_call8_cst) (TRef.of (T := ⟨S200000x128, .f32⟩) main_call8_v0) (broadcastInDim S200000x128 ![] bcast_S_S200000x128),
    TRef.binary (TRef.of (T := ⟨S200000x128, .f32⟩) main_v199) (TRef.of (T := ⟨S200000x128, .f32⟩) main_call8_v0) (TRef.of (T := ⟨S200000x128, .f32⟩) main_v200) maximumf,
    nullary main_c_27 (constantI S_ 32 0#32),
    unary main_c_27 main_v201 (broadcastInDim S500000 ![] bcast_S_S500000),
    binary main_v141 main_v201 main_v202 (cmpi .slt),
    nullary main_c_28 (constantI S_ 32 200000#32),
    unary main_c_28 main_v203 (broadcastInDim S500000 ![] bcast_S_S500000),
    binary main_v141 main_v203 main_v204 addi,
    ternary main_v202 main_v204 main_v141 main_v205 select,
    unary main_v205 main_v206 (broadcastInDim S500000x1 ![0] bcast_S500000_S500000x1_0),
    binary main_v200 main_v206 main_v207 (fun x i => Host.gather gather_S200000x128_S500000x1_S500000x128_1_0_n_n_0_1_1128 x i),
    binary main_v207 main_v153 main_v208 addf ]

set_option maxRecDepth 8192 in
theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem ops3_fresh : ∀ op ∈ (ops3 : List (HloOp τ sig (Elt F))), op.fresh = ∅ :=
  List.forall_iff_forall_mem.mp (show (ops3 : List (HloOp τ sig (Elt F))).Forall (fun op => op.fresh = ∅) from by
    repeat' apply And.intro
    all_goals rfl)

abbrev wr3 : List (Ref sig .tc) := [main_v156, main_c_22, main_v157, main_v158, main_v159, main_v160, main_v161, main_v162, main_v163, main_v164, main_cst_23, main_v165, main_v166, main_v167, main_v168, main_v169, main_v170, main_v171, main_v172, main_v173, main_v174, main_v175, main_v176, main_call7_cst, main_call7_v0, main_v177, main_c_24, main_v178, main_v179, main_c_25, main_v180, main_v181, main_v182, main_v183, main_v184, main_v185, main_v186, main_v187, main_cst_26, main_v188, main_v189, main_v190, main_v191, main_v192, main_v193, main_v194, main_v195, main_v196, main_v197, main_v198, main_v199, main_call8_cst, main_call8_v0, main_v200, main_c_27, main_v201, main_v202, main_c_28, main_v203, main_v204, main_v205, main_v206, main_v207, main_v208]

set_option maxRecDepth 8192 in
theorem ops3_writes : (ops3 : List (HloOp τ sig (Elt F))).Forall fun op => op.writes ⊆ (wr3.map (Proc.devRef (τ := τ) .tc)).toFinset := by
  repeat' apply And.intro
  all_goals exact single_sub_map (by decide)

theorem keep3 (W : Valuation τ sig (Elt F)) {r : Ref sig .tc} (hr : r ∉ wr3) :
    after ops3 W (Proc.devRef .tc r) = W (Proc.devRef .tc r) :=
  after_of_writes_sub ops3 W ops3_writes hr

set_option maxRecDepth 8192 in
set_option maxHeartbeats 4000000 in

theorem step3 (m : (ℓ : Loc nD τ sig) → Buf (Elt F) ℓ) (c : Dev nD) (W : Valuation τ sig (Elt F)) (h : Inv3 m c W) : Inv4 m c (after ops3 W) where
  args := fun r hr => (keep3 W ((by decide : ∀ r ∈ argRefs, r ∉ wr3) r hr)).trans (h.args r hr)
  v139 := (keep3 W (by decide)).trans h.v139
  v143 := (keep3 W (by decide)).trans h.v143
  v154 := (keep3 W (by decide)).trans h.v154
  v200 := by after_results_simp; (try simp only [TRef.ofBuf, TRef.toBuf, cast_eq]); rw [h.args.get main_arg23, h.args.get main_arg24, h.v141, h.v143, h.v148, h.v153, h.v154, h.v155]; rfl
  v208 := by after_results_simp; (try simp only [TRef.ofBuf, TRef.toBuf, cast_eq]); rw [h.args.get main_arg23, h.args.get main_arg24, h.v141, h.v143, h.v148, h.v153, h.v154, h.v155]; rfl

end Cert.ReferenceIdeal.RunH

end
-- ==== Proof.RefRunH4.lean ====
-- Stretch 4 of the reference's operations carries the facts before it to the facts after it.
import proofs.«400221_j39548058861723_2_alg».proof.Proof.RefRunHI
import proofs.«400221_j39548058861723_2_alg».proof.Proof.RefRunHLib

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev ops4 : List (HloOp τ sig (Elt F)) :=
  [ unary main_v154 main_v209 (broadcastInDim S500000x128 ![0, 1] bcast_S500000x1_S500000x128_0_1),
    binary main_v209 main_v208 main_v210 mulf,
    nullary main_cst_29 (constant S_ .f32 0x00000000#32),
    unary main_cst_29 main_v211 (broadcastInDim S200000x128 ![] bcast_S_S200000x128),
    unary main_v143 main_v212 (broadcastInDim S500000x1 ![0] bcast_S500000_S500000x1_0),
    ternary main_v211 main_v212 main_v210 main_v213 (fun x i u => Host.scatterAdd scatter_S200000x128_S500000x1_S500000x128_1_0_0_1 x i u),
    unary main_arg23 main_v214 (extractStridedSlice S1x128x128 ![2, 0, 0] · slices_S3x128x128_S1x128x128_2_0_0),
    reshape main_v214 main_v215 rfl shapeCasts_S1x128x128_S128x128,
    binary main_v213 main_v215 main_v216 (fun l r => Host.dotGeneral dot_S200000x128_S128x128_S200000x128_1_0_0_1_n_n none l r),
    binary main_v200 main_v216 main_v217 addf,
    unary main_arg24 main_v218 (extractStridedSlice S1x128 ![2, 0] · slices_S3x128_S1x128_2_0),
    reshape main_v218 main_v219 rfl shapeCasts_S1x128_S128,
    unary main_v219 main_v220 (broadcastInDim S1x128 ![1] bcast_S128_S1x128_1),
    unary main_v220 main_v221 (broadcastInDim S200000x128 ![0, 1] bcast_S1x128_S200000x128_0_1),
    binary main_v217 main_v221 main_v222 addf,
    TRef.nullary (TRef.of (T := ⟨S_, .f32⟩) main_call9_cst) (constant S_ .f32 0x00000000#32),
    TRef.unary (TRef.of (T := ⟨S_, .f32⟩) main_call9_cst) (TRef.of (T := ⟨S200000x128, .f32⟩) main_call9_v0) (broadcastInDim S200000x128 ![] bcast_S_S200000x128),
    TRef.binary (TRef.of (T := ⟨S200000x128, .f32⟩) main_v222) (TRef.of (T := ⟨S200000x128, .f32⟩) main_call9_v0) (TRef.of (T := ⟨S200000x128, .f32⟩) main_v223) maximumf,
    binary main_v223 main_arg25 main_v224 (fun l r => Host.dotGeneral dot_S200000x128_S128x128_S200000x128_1_0_0_1_n_n none l r),
    unary main_arg26 main_v225 (broadcastInDim S1x128 ![1] bcast_S128_S1x128_1),
    unary main_v225 main_v226 (broadcastInDim S200000x128 ![0, 1] bcast_S1x128_S200000x128_0_1),
    binary main_v224 main_v226 main_v227 addf,
    unary main_arg1 main_v228 (broadcastInDim S200000x1 ![0] bcast_S200000_S200000x1_0),
    unary main_v228 main_v229 (broadcastInDim S200000x128 ![0, 1] bcast_S200000x1_S200000x128_0_1),
    binary main_v227 main_v229 main_v230 mulf,
    nullary main_c_30 (constantI S_ 32 0#32),
    unary main_c_30 main_v231 (broadcastInDim S100000 ![] bcast_S_S100000),
    binary main_arg7 main_v231 main_v232 (cmpi .slt),
    nullary main_c_31 (constantI S_ 32 200000#32),
    unary main_c_31 main_v233 (broadcastInDim S100000 ![] bcast_S_S100000),
    binary main_arg7 main_v233 main_v234 addi,
    ternary main_v232 main_v234 main_arg7 main_v235 select,
    unary main_v235 main_v236 (broadcastInDim S100000x1 ![0] bcast_S100000_S100000x1_0),
    binary main_v230 main_v236 main_v237 (fun x i => Host.gather gather_S200000x128_S100000x1_S100000x128_1_0_n_n_0_1_1128 x i),
    nullary main_c_32 (constantI S_ 32 0#32),
    unary main_c_32 main_v238 (broadcastInDim S100000 ![] bcast_S_S100000),
    binary main_arg7 main_v238 main_v239 (cmpi .slt),
    nullary main_c_33 (constantI S_ 32 200000#32),
    unary main_c_33 main_v240 (broadcastInDim S100000 ![] bcast_S_S100000),
    binary main_arg7 main_v240 main_v241 addi,
    ternary main_v239 main_v241 main_arg7 main_v242 select,
    unary main_v242 main_v243 (broadcastInDim S100000x1 ![0] bcast_S100000_S100000x1_0),
    binary main_arg5 main_v243 main_v244 (fun x i => Host.gather gather_S200000_S100000x1_S100000_n_0_n_n_0_1_1 x i),
    nullary main_cst_34 (constant S_ .f32 0x00000000#32),
    unary main_cst_34 main_v245 (broadcastInDim S1024x128 ![] bcast_S_S1024x128),
    unary main_v244 main_v246 (broadcastInDim S100000x1 ![0] bcast_S100000_S100000x1_0),
    ternary main_v245 main_v246 main_v237 main_v247 (fun x i u => Host.scatterAdd scatter_S1024x128_S100000x1_S100000x128_1_0_0_1 x i u),
    nullary main_cst_35 (constant S_ .f32 0x3F800000#32),
    unary main_cst_35 main_v248 (broadcastInDim S100000 ![] bcast_S_S100000),
    nullary main_cst_36 (constant S_ .f32 0x00000000#32),
    unary main_cst_36 main_v249 (broadcastInDim S1024 ![] bcast_S_S1024),
    unary main_v244 main_v250 (broadcastInDim S100000x1 ![0] bcast_S100000_S100000x1_0),
    ternary main_v249 main_v250 main_v248 main_v251 (fun x i u => Host.scatterAdd scatter_S1024_S100000x1_S100000_n_0_0_1 x i u),
    nullary main_cst_37 (constant S_ .f32 0x3F800000#32),
    unary main_cst_37 main_v252 (broadcastInDim S1024 ![] bcast_S_S1024),
    binary main_v251 main_v252 main_v253 maximumf,
    unary main_v253 main_v254 (broadcastInDim S1024x1 ![0] bcast_S1024_S1024x1_0),
    unary main_v254 main_v255 (broadcastInDim S1024x128 ![0, 1] bcast_S1024x1_S1024x128_0_1),
    binary main_v247 main_v255 main_v256 Host.divf,
    unary main_v139 main_v257 (broadcastInDim S1x1024x128 ![1, 2] bcast_S1024x128_S1x1024x128_1_2),
    unary main_v256 main_v258 (broadcastInDim S1x1024x128 ![1, 2] bcast_S1024x128_S1x1024x128_1_2) ]

set_option maxRecDepth 8192 in
theorem ops4_sub : (ops4 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., unary_bufs_sub ..⟩

set_option maxRecDepth 8192 in
theorem ops4_fresh : ∀ op ∈ (ops4 : List (HloOp τ sig (Elt F))), op.fresh = ∅ :=
  List.forall_iff_forall_mem.mp (show (ops4 : List (HloOp τ sig (Elt F))).Forall (fun op => op.fresh = ∅) from by
    repeat' apply And.intro
    all_goals rfl)

abbrev wr4 : List (Ref sig .tc) := [main_v209, main_v210, main_cst_29, main_v211, main_v212, main_v213, main_v214, main_v215, main_v216, main_v217, main_v218, main_v219, main_v220, main_v221, main_v222, main_call9_cst, main_call9_v0, main_v223, main_v224, main_v225, main_v226, main_v227, main_v228, main_v229, main_v230, main_c_30, main_v231, main_v232, main_c_31, main_v233, main_v234, main_v235, main_v236, main_v237, main_c_32, main_v238, main_v239, main_c_33, main_v240, main_v241, main_v242, main_v243, main_v244, main_cst_34, main_v245, main_v246, main_v247, main_cst_35, main_v248, main_cst_36, main_v249, main_v250, main_v251, main_cst_37, main_v252, main_v253, main_v254, main_v255, main_v256, main_v257, main_v258]

set_option maxRecDepth 8192 in
theorem ops4_writes : (ops4 : List (HloOp τ sig (Elt F))).Forall fun op => op.writes ⊆ (wr4.map (Proc.devRef (τ := τ) .tc)).toFinset := by
  repeat' apply And.intro
  all_goals exact single_sub_map (by decide)

theorem keep4 (W : Valuation τ sig (Elt F)) {r : Ref sig .tc} (hr : r ∉ wr4) :
    after ops4 W (Proc.devRef .tc r) = W (Proc.devRef .tc r) :=
  after_of_writes_sub ops4 W ops4_writes hr

set_option maxRecDepth 8192 in
set_option maxHeartbeats 4000000 in

theorem step4 (m : (ℓ : Loc nD τ sig) → Buf (Elt F) ℓ) (c : Dev nD) (W : Valuation τ sig (Elt F)) (h : Inv4 m c W) : Inv5 m c (after ops4 W) where
  args := fun r hr => (keep4 W ((by decide : ∀ r ∈ argRefs, r ∉ wr4) r hr)).trans (h.args r hr)
  v257 := by after_results_simp; (try simp only [TRef.ofBuf, TRef.toBuf, cast_eq]); rw [h.v139]; rfl
  v258 := by after_results_simp; (try simp only [TRef.ofBuf, TRef.toBuf, cast_eq]); rw [h.args.get main_arg1, h.args.get main_arg5, h.args.get main_arg7, h.args.get main_arg23, h.args.get main_arg24, h.args.get main_arg25, h.args.get main_arg26, h.v143, h.v154, h.v200, h.v208]; rfl

end Cert.ReferenceIdeal.RunH

end
-- ==== Proof.RefRunH5.lean ====
-- Stretch 5 of the reference's operations carries the facts before it to the facts after it.
import proofs.«400221_j39548058861723_2_alg».proof.Proof.RefRunHI
import proofs.«400221_j39548058861723_2_alg».proof.Proof.RefRunHLib

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev ops5 : List (HloOp τ sig (Elt F)) :=
  [ binary main_v257 main_v258 main_v259 (fun a b => concatenate S2x1024x128 0 [⟨S1x1024x128, a⟩, ⟨S1x1024x128, b⟩] concatenates_S1x1024x128_S1x1024x128_S2x1024x128_d0) ]

set_option maxRecDepth 8192 in
theorem ops5_sub : (ops5 : List (HloOp τ sig (Elt F))).Forall fun op => op.bufs ⊆ tcRefs τ sig :=
  binary_bufs_sub ..

set_option maxRecDepth 8192 in
theorem ops5_fresh : ∀ op ∈ (ops5 : List (HloOp τ sig (Elt F))), op.fresh = ∅ :=
  List.forall_iff_forall_mem.mp (show (ops5 : List (HloOp τ sig (Elt F))).Forall (fun op => op.fresh = ∅) from
    rfl)

abbrev wr5 : List (Ref sig .tc) := [main_v259]

set_option maxRecDepth 8192 in
theorem ops5_writes : (ops5 : List (HloOp τ sig (Elt F))).Forall fun op => op.writes ⊆ (wr5.map (Proc.devRef (τ := τ) .tc)).toFinset :=
  single_sub_map (by decide)

theorem keep5 (W : Valuation τ sig (Elt F)) {r : Ref sig .tc} (hr : r ∉ wr5) :
    after ops5 W (Proc.devRef .tc r) = W (Proc.devRef .tc r) :=
  after_of_writes_sub ops5 W ops5_writes hr

set_option maxRecDepth 8192 in
set_option maxHeartbeats 4000000 in

theorem step5 (m : (ℓ : Loc nD τ sig) → Buf (Elt F) ℓ) (c : Dev nD) (W : Valuation τ sig (Elt F)) (h : Inv5 m c W) : Inv6 m c (after ops5 W) where
  args := fun r hr => (keep5 W ((by decide : ∀ r ∈ argRefs, r ∉ wr5) r hr)).trans (h.args r hr)
  v259 := by after_results_simp; (try simp only [TRef.ofBuf, TRef.toBuf, cast_eq]); rw [h.v257, h.v258]; rfl

end Cert.ReferenceIdeal.RunH

end
-- ==== Proof.RefRunH.lean ====
-- The reference's run is its stretches in sequence, so the result ends at its last stage and the arguments are kept.
import proofs.«400221_j39548058861723_2_alg».proof.Proof.RefRunH0
import proofs.«400221_j39548058861723_2_alg».proof.Proof.RefRunH1
import proofs.«400221_j39548058861723_2_alg».proof.Proof.RefRunH2
import proofs.«400221_j39548058861723_2_alg».proof.Proof.RefRunH3
import proofs.«400221_j39548058861723_2_alg».proof.Proof.RefRunH4
import proofs.«400221_j39548058861723_2_alg».proof.Proof.RefRunH5

noncomputable section

namespace Cert.ReferenceIdeal.RunH

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

abbrev opsAll : List (HloOp τ sig (Elt F)) := ops0 ++ (ops1 ++ (ops2 ++ (ops3 ++ (ops4 ++ (ops5)))))

set_option maxRecDepth 8192 in
theorem main_part0_eq (c : Dev nD) : main_part0 (F := F) c = seq (ops0) := rfl
set_option maxRecDepth 8192 in
theorem main_part1_eq (c : Dev nD) : main_part1 (F := F) c = seq (ops1) := rfl
set_option maxRecDepth 8192 in
theorem main_part2_eq (c : Dev nD) : main_part2 (F := F) c = seq (ops2) := rfl
set_option maxRecDepth 8192 in
theorem main_part3_eq (c : Dev nD) : main_part3 (F := F) c = seq (ops3) := rfl
set_option maxRecDepth 8192 in
theorem main_part4_eq (c : Dev nD) : main_part4 (F := F) c = seq (ops4 ++ (ops5)) := rfl

theorem main_eq (c : Dev nD) : main (F := F) c = seq opsAll := by
  have e : main (F := F) c = (main_part0 c >>= fun _ => main_part1 c >>= fun _ => main_part2 c >>= fun _ => main_part3 c >>= fun _ => main_part4 c >>= fun _ => main_part5 c) := rfl
  have e5 : main_part5 (F := F) c = pure ⟨⟩ := rfl
  rw [e, e5, main_part0_eq, main_part1_eq, main_part2_eq, main_part3_eq, main_part4_eq]
  simp only [opsAll, seq_append, bind_assoc, bind_pure_unit]

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_iff_forall_mem.mpr fun op h => by
    simp only [opsAll, List.mem_append] at h
    rcases h with h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

theorem opsAll_fresh : ∀ op ∈ (opsAll : List (HloOp τ sig (Elt F))), op.fresh = ∅ := fun op h => by
  simp only [opsAll, List.mem_append] at h
  rcases h with h | h | h | h | h | h
  exacts [ops0_fresh op h, ops1_fresh op h, ops2_fresh op h, ops3_fresh op h, ops4_fresh op h, ops5_fresh op h]

theorem last (m : (ℓ : Loc nD τ sig) → Buf (Elt F) ℓ) (c : Dev nD) : Inv6 m c (after opsAll (launchContents m c)) := by
  simp only [opsAll, after_append]
  exact step5 m c _ (step4 m c _ (step3 m c _ (step2 m c _ (step1 m c _ (step0 m c _ (inv0 m c))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v259) = rv_v259 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c main_v259).trans (last m c).v259,
      (h c main_arg0).trans ((last m c).args.get main_arg0),
      (h c main_arg1).trans ((last m c).args.get main_arg1),
      (h c main_arg2).trans ((last m c).args.get main_arg2),
      (h c main_arg3).trans ((last m c).args.get main_arg3),
      (h c main_arg4).trans ((last m c).args.get main_arg4),
      (h c main_arg5).trans ((last m c).args.get main_arg5),
      (h c main_arg6).trans ((last m c).args.get main_arg6),
      (h c main_arg7).trans ((last m c).args.get main_arg7),
      (h c main_arg8).trans ((last m c).args.get main_arg8),
      (h c main_arg9).trans ((last m c).args.get main_arg9),
      (h c main_arg10).trans ((last m c).args.get main_arg10),
      (h c main_arg11).trans ((last m c).args.get main_arg11),
      (h c main_arg12).trans ((last m c).args.get main_arg12),
      (h c main_arg13).trans ((last m c).args.get main_arg13),
      (h c main_arg14).trans ((last m c).args.get main_arg14),
      (h c main_arg15).trans ((last m c).args.get main_arg15),
      (h c main_arg16).trans ((last m c).args.get main_arg16),
      (h c main_arg17).trans ((last m c).args.get main_arg17),
      (h c main_arg18).trans ((last m c).args.get main_arg18),
      (h c main_arg19).trans ((last m c).args.get main_arg19),
      (h c main_arg20).trans ((last m c).args.get main_arg20),
      (h c main_arg21).trans ((last m c).args.get main_arg21),
      (h c main_arg22).trans ((last m c).args.get main_arg22),
      (h c main_arg23).trans ((last m c).args.get main_arg23),
      (h c main_arg24).trans ((last m c).args.get main_arg24),
      (h c main_arg25).trans ((last m c).args.get main_arg25),
      (h c main_arg26).trans ((last m c).args.get main_arg26)⟩)
    (run_seq scopedRefs_eq scopedSems_eq defs main (fun _ => opsAll) main_eq (fun _ => opsAll_sub) m ρ (fun _ => opsAll_fresh))

end Cert.ReferenceIdeal.RunH

end
-- ==== Proof.KKeep.lean ====
/-
  The buffer contents at the 38 segment boundaries of @main form a fold; segment k rewrites only the references it
  writes. For each k this file lists those references and states that any other reference reads the same at
  boundary k as at boundary k - 1.
-/
import proofs.«400221_j39548058861723_2_alg».proof.Proof.Gen.KernelIdeal.Frame
import Idealize.ShloMosaic.Lib.StableHlo.Run
import Idealize.ShloMosaic.PureOps.Ideal

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The references the host stretch before boundary 1 writes. -/
abbrev wr1 : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27, main_v28, main_v29, main_v30, main_v31, main_v32, main_v33, main_v34]
theorem wsub1 : (hostOps0 (F := Ideal)).Forall fun op => op.writes ⊆ (wr1.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep1 (c : Dev nD) (r : Ref sig .tc) (hr : r ∉ wr1) : W1 m ρ c (Proc.devRef .tc r) = W0 m ρ c (Proc.devRef .tc r) :=
  StableHlo.after_of_writes_sub _ _ wsub1 hr

/-- The arrays of kernel region 0 (the segment before boundary 2). -/
abbrev wr2 : List (Ref sig .tc) := [main_v6, main_arg11, main_v34, main_v35]
theorem arrs2 : ∀ w, Pipeline.arrRef spec0 w ∈ wr2 := by decide
theorem keep2 (c : Dev nD) (r : Ref sig .tc) (hr : r ∉ wr2) : W2 m ρ c (Proc.devRef .tc r) = W1 m ρ c (Proc.devRef .tc r) :=
  W2_of_ne m ρ c r fun w e => hr (e ▸ arrs2 w)

/-- The references the host stretch before boundary 3 writes. -/
abbrev wr3 : List (Ref sig .tc) := [main_v36]
theorem wsub3 : (hostOps1 (F := Ideal)).Forall fun op => op.writes ⊆ (wr3.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep3 (c : Dev nD) (r : Ref sig .tc) (hr : r ∉ wr3) : W3 m ρ c (Proc.devRef .tc r) = W2 m ρ c (Proc.devRef .tc r) :=
  StableHlo.after_of_writes_sub _ _ wsub3 hr

/-- The arrays of kernel region 1 (the segment before boundary 4). -/
abbrev wr4 : List (Ref sig .tc) := [main_v20, main_arg13, main_v36, main_v37]
theorem arrs4 : ∀ w, Pipeline.arrRef spec1 w ∈ wr4 := by decide
theorem keep4 (c : Dev nD) (r : Ref sig .tc) (hr : r ∉ wr4) : W4 m ρ c (Proc.devRef .tc r) = W3 m ρ c (Proc.devRef .tc r) :=
  W4_of_ne m ρ c r fun w e => hr (e ▸ arrs4 w)

/-- The references the host stretch before boundary 5 writes. -/
abbrev wr5 : List (Ref sig .tc) := [main_v38, main_v39, main_c_7, main_v40, main_v41, main_c_8, main_v42, main_v43, main_v44, main_v45, main_v46, main_v47, main_v48, main_v49, main_v50, main_cst, main_v51, main_v52, main_v53, main_v54, main_v55, main_v56, main_v57, main_v58]
theorem wsub5 : (hostOps2 (F := Ideal)).Forall fun op => op.writes ⊆ (wr5.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep5 (c : Dev nD) (r : Ref sig .tc) (hr : r ∉ wr5) : W5 m ρ c (Proc.devRef .tc r) = W4 m ρ c (Proc.devRef .tc r) :=
  StableHlo.after_of_writes_sub _ _ wsub5 hr

/-- The arrays of kernel region 2 (the segment before boundary 6). -/
abbrev wr6 : List (Ref sig .tc) := [main_v35, main_v53, main_v55, main_v58, main_v59]
theorem arrs6 : ∀ w, Pipeline.arrRef spec2 w ∈ wr6 := by decide
theorem keep6 (c : Dev nD) (r : Ref sig .tc) (hr : r ∉ wr6) : W6 m ρ c (Proc.devRef .tc r) = W5 m ρ c (Proc.devRef .tc r) :=
  W6_of_ne m ρ c r fun w e => hr (e ▸ arrs6 w)

/-- The references the host stretch before boundary 7 writes. -/
abbrev wr7 : List (Ref sig .tc) := [main_c_9, main_v60, main_v61, main_c_10, main_v62, main_v63, main_v64, main_v65, main_v66, main_v67, main_v68, main_v69, main_v70, main_cst_11, main_v71, main_v72, main_v73, main_v74, main_v75, main_v76, main_v77, main_v78]
theorem wsub7 : (hostOps3 (F := Ideal)).Forall fun op => op.writes ⊆ (wr7.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep7 (c : Dev nD) (r : Ref sig .tc) (hr : r ∉ wr7) : W7 m ρ c (Proc.devRef .tc r) = W6 m ρ c (Proc.devRef .tc r) :=
  StableHlo.after_of_writes_sub _ _ wsub7 hr

/-- The arrays of kernel region 3 (the segment before boundary 8). -/
abbrev wr8 : List (Ref sig .tc) := [main_v59, main_v73, main_v75, main_v78, main_v79]
theorem arrs8 : ∀ w, Pipeline.arrRef spec3 w ∈ wr8 := by decide
theorem keep8 (c : Dev nD) (r : Ref sig .tc) (hr : r ∉ wr8) : W8 m ρ c (Proc.devRef .tc r) = W7 m ρ c (Proc.devRef .tc r) :=
  W8_of_ne m ρ c r fun w e => hr (e ▸ arrs8 w)

/-- The references the host stretch before boundary 9 writes. -/
abbrev wr9 : List (Ref sig .tc) := [main_c_12, main_v80, main_v81, main_c_13, main_v82, main_v83, main_v84, main_v85, main_v86, main_v87, main_v88, main_v89, main_v90, main_cst_14, main_v91, main_v92, main_v93, main_v94, main_v95, main_v96, main_v97, main_v98]
theorem wsub9 : (hostOps4 (F := Ideal)).Forall fun op => op.writes ⊆ (wr9.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep9 (c : Dev nD) (r : Ref sig .tc) (hr : r ∉ wr9) : W9 m ρ c (Proc.devRef .tc r) = W8 m ρ c (Proc.devRef .tc r) :=
  StableHlo.after_of_writes_sub _ _ wsub9 hr

/-- The arrays of kernel region 4 (the segment before boundary 10). -/
abbrev wr10 : List (Ref sig .tc) := [main_v79, main_v93, main_v95, main_v98, main_v99]
theorem arrs10 : ∀ w, Pipeline.arrRef spec4 w ∈ wr10 := by decide
theorem keep10 (c : Dev nD) (r : Ref sig .tc) (hr : r ∉ wr10) : W10 m ρ c (Proc.devRef .tc r) = W9 m ρ c (Proc.devRef .tc r) :=
  W10_of_ne m ρ c r fun w e => hr (e ▸ arrs10 w)

/-- The references the host stretch before boundary 11 writes. -/
abbrev wr11 : List (Ref sig .tc) := [main_v100, main_v101]
theorem wsub11 : (hostOps5 (F := Ideal)).Forall fun op => op.writes ⊆ (wr11.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep11 (c : Dev nD) (r : Ref sig .tc) (hr : r ∉ wr11) : W11 m ρ c (Proc.devRef .tc r) = W10 m ρ c (Proc.devRef .tc r) :=
  StableHlo.after_of_writes_sub _ _ wsub11 hr

/-- The arrays of kernel region 5 (the segment before boundary 12). -/
abbrev wr12 : List (Ref sig .tc) := [main_v99, main_arg17, main_v101, main_v100, main_v102]
theorem arrs12 : ∀ w, Pipeline.arrRef spec5 w ∈ wr12 := by decide
theorem keep12 (c : Dev nD) (r : Ref sig .tc) (hr : r ∉ wr12) : W12 m ρ c (Proc.devRef .tc r) = W11 m ρ c (Proc.devRef .tc r) :=
  W12_of_ne m ρ c r fun w e => hr (e ▸ arrs12 w)

/-- The references the host stretch before boundary 13 writes. -/
abbrev wr13 : List (Ref sig .tc) := [main_c_15, main_v103, main_v104, main_c_16, main_v105, main_v106, main_v107, main_v108, main_v109, main_c_17]
theorem wsub13 : (hostOps6 (F := Ideal)).Forall fun op => op.writes ⊆ (wr13.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep13 (c : Dev nD) (r : Ref sig .tc) (hr : r ∉ wr13) : W13 m ρ c (Proc.devRef .tc r) = W12 m ρ c (Proc.devRef .tc r) :=
  StableHlo.after_of_writes_sub _ _ wsub13 hr

/-- The references the host stretch before boundary 14 writes. -/
abbrev wr14 : List (Ref sig .tc) := [main_call0_v0, main_v110]
theorem wsub14 : (hostOps6_1 (F := Ideal)).Forall fun op => op.writes ⊆ (wr14.map (Proc.devRef (τ := τ) .tc)).toFinset := by
  simp only [hostOps6_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep14 (c : Dev nD) (r : Ref sig .tc) (hr : r ∉ wr14) : W14 m ρ c (Proc.devRef .tc r) = W13 m ρ c (Proc.devRef .tc r) :=
  StableHlo.after_of_writes_sub _ _ wsub14 hr

/-- The references the host stretch before boundary 15 writes. -/
abbrev wr15 : List (Ref sig .tc) := [main_c_18]
theorem wsub15 : (hostOps6_2 (F := Ideal)).Forall fun op => op.writes ⊆ (wr15.map (Proc.devRef (τ := τ) .tc)).toFinset := by
  simp only [hostOps6_2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep15 (c : Dev nD) (r : Ref sig .tc) (hr : r ∉ wr15) : W15 m ρ c (Proc.devRef .tc r) = W14 m ρ c (Proc.devRef .tc r) :=
  StableHlo.after_of_writes_sub _ _ wsub15 hr

/-- The references the host stretch before boundary 16 writes. -/
abbrev wr16 : List (Ref sig .tc) := [main_call1_v0, main_v111]
theorem wsub16 : (hostOps6_3 (F := Ideal)).Forall fun op => op.writes ⊆ (wr16.map (Proc.devRef (τ := τ) .tc)).toFinset := by
  simp only [hostOps6_3, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep16 (c : Dev nD) (r : Ref sig .tc) (hr : r ∉ wr16) : W16 m ρ c (Proc.devRef .tc r) = W15 m ρ c (Proc.devRef .tc r) :=
  StableHlo.after_of_writes_sub _ _ wsub16 hr

/-- The references the host stretch before boundary 17 writes. -/
abbrev wr17 : List (Ref sig .tc) := [main_v112]
theorem wsub17 : (hostOps6_4 (F := Ideal)).Forall fun op => op.writes ⊆ (wr17.map (Proc.devRef (τ := τ) .tc)).toFinset := by
  simp only [hostOps6_4, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep17 (c : Dev nD) (r : Ref sig .tc) (hr : r ∉ wr17) : W17 m ρ c (Proc.devRef .tc r) = W16 m ρ c (Proc.devRef .tc r) :=
  StableHlo.after_of_writes_sub _ _ wsub17 hr

/-- The arrays of kernel region 6 (the segment before boundary 18). -/
abbrev wr18 : List (Ref sig .tc) := [main_v110, main_v112, main_v113_0, main_v113_1]
theorem arrs18 : ∀ w, Pipeline.arrRef spec6 w ∈ wr18 := by decide
theorem keep18 (c : Dev nD) (r : Ref sig .tc) (hr : r ∉ wr18) : W18 m ρ c (Proc.devRef .tc r) = W17 m ρ c (Proc.devRef .tc r) :=
  W18_of_ne m ρ c r fun w e => hr (e ▸ arrs18 w)

/-- The references the host stretch before boundary 19 writes. -/
abbrev wr19 : List (Ref sig .tc) := [main_cst_19, main_v114, main_v115, main_v116, main_v117, main_v118, main_v119, main_v120, main_v121, main_v122]
theorem wsub19 : (hostOps7 (F := Ideal)).Forall fun op => op.writes ⊆ (wr19.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep19 (c : Dev nD) (r : Ref sig .tc) (hr : r ∉ wr19) : W19 m ρ c (Proc.devRef .tc r) = W18 m ρ c (Proc.devRef .tc r) :=
  StableHlo.after_of_writes_sub _ _ wsub19 hr

/-- The arrays of kernel region 7 (the segment before boundary 20). -/
abbrev wr20 : List (Ref sig .tc) := [main_arg0, main_arg19, main_v122, main_v123]
theorem arrs20 : ∀ w, Pipeline.arrRef spec7 w ∈ wr20 := by decide
theorem keep20 (c : Dev nD) (r : Ref sig .tc) (hr : r ∉ wr20) : W20 m ρ c (Proc.devRef .tc r) = W19 m ρ c (Proc.devRef .tc r) :=
  W20_of_ne m ρ c r fun w e => hr (e ▸ arrs20 w)

/-- The references the host stretch before boundary 21 writes. -/
abbrev wr21 : List (Ref sig .tc) := [main_v124]
theorem wsub21 : (hostOps8 (F := Ideal)).Forall fun op => op.writes ⊆ (wr21.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep21 (c : Dev nD) (r : Ref sig .tc) (hr : r ∉ wr21) : W21 m ρ c (Proc.devRef .tc r) = W20 m ρ c (Proc.devRef .tc r) :=
  StableHlo.after_of_writes_sub _ _ wsub21 hr

/-- The arrays of kernel region 8 (the segment before boundary 22). -/
abbrev wr22 : List (Ref sig .tc) := [main_arg3, main_arg21, main_v124, main_v125]
theorem arrs22 : ∀ w, Pipeline.arrRef spec8 w ∈ wr22 := by decide
theorem keep22 (c : Dev nD) (r : Ref sig .tc) (hr : r ∉ wr22) : W22 m ρ c (Proc.devRef .tc r) = W21 m ρ c (Proc.devRef .tc r) :=
  W22_of_ne m ρ c r fun w e => hr (e ▸ arrs22 w)

/-- The references the host stretch before boundary 23 writes. -/
abbrev wr23 : List (Ref sig .tc) := [main_v126, main_v127, main_c_20, main_v128, main_v129, main_c_21, main_v130, main_v131, main_v132, main_v133, main_v134, main_v135, main_v136, main_v137, main_v138, main_cst_22, main_v139, main_v140, main_v141, main_v142, main_v143, main_v144, main_v145, main_v146]
theorem wsub23 : (hostOps9 (F := Ideal)).Forall fun op => op.writes ⊆ (wr23.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep23 (c : Dev nD) (r : Ref sig .tc) (hr : r ∉ wr23) : W23 m ρ c (Proc.devRef .tc r) = W22 m ρ c (Proc.devRef .tc r) :=
  StableHlo.after_of_writes_sub _ _ wsub23 hr

/-- The arrays of kernel region 9 (the segment before boundary 24). -/
abbrev wr24 : List (Ref sig .tc) := [main_v123, main_v141, main_v143, main_v146, main_v147]
theorem arrs24 : ∀ w, Pipeline.arrRef spec9 w ∈ wr24 := by decide
theorem keep24 (c : Dev nD) (r : Ref sig .tc) (hr : r ∉ wr24) : W24 m ρ c (Proc.devRef .tc r) = W23 m ρ c (Proc.devRef .tc r) :=
  W24_of_ne m ρ c r fun w e => hr (e ▸ arrs24 w)

/-- The references the host stretch before boundary 25 writes. -/
abbrev wr25 : List (Ref sig .tc) := [main_c_23, main_v148, main_v149, main_c_24, main_v150, main_v151, main_v152, main_v153, main_v154, main_v155, main_v156, main_v157, main_v158, main_cst_25, main_v159, main_v160, main_v161, main_v162, main_v163, main_v164, main_v165, main_v166]
theorem wsub25 : (hostOps10 (F := Ideal)).Forall fun op => op.writes ⊆ (wr25.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep25 (c : Dev nD) (r : Ref sig .tc) (hr : r ∉ wr25) : W25 m ρ c (Proc.devRef .tc r) = W24 m ρ c (Proc.devRef .tc r) :=
  StableHlo.after_of_writes_sub _ _ wsub25 hr

/-- The arrays of kernel region 10 (the segment before boundary 26). -/
abbrev wr26 : List (Ref sig .tc) := [main_v147, main_v161, main_v163, main_v166, main_v167]
theorem arrs26 : ∀ w, Pipeline.arrRef spec10 w ∈ wr26 := by decide
theorem keep26 (c : Dev nD) (r : Ref sig .tc) (hr : r ∉ wr26) : W26 m ρ c (Proc.devRef .tc r) = W25 m ρ c (Proc.devRef .tc r) :=
  W26_of_ne m ρ c r fun w e => hr (e ▸ arrs26 w)

/-- The references the host stretch before boundary 27 writes. -/
abbrev wr27 : List (Ref sig .tc) := [main_c_26, main_v168, main_v169, main_c_27, main_v170, main_v171, main_v172, main_v173, main_v174, main_v175, main_v176, main_v177, main_v178, main_cst_28, main_v179, main_v180, main_v181, main_v182, main_v183, main_v184, main_v185, main_v186]
theorem wsub27 : (hostOps11 (F := Ideal)).Forall fun op => op.writes ⊆ (wr27.map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep27 (c : Dev nD) (r : Ref sig .tc) (hr : r ∉ wr27) : W27 m ρ c (Proc.devRef .tc r) = W26 m ρ c (Proc.devRef .tc r) :=
  StableHlo.after_of_writes_sub _ _ wsub27 hr

/-- The arrays of kernel region 11 (the segment before boundary 28). -/
abbrev wr28 : List (Ref sig .tc) := [main_v167, main_v181, main_v183, main_v186, main_v187]
theorem arrs28 : ∀ w, Pipeline.arrRef spec11 w ∈ wr28 := by decide
theorem keep28 (c : Dev nD) (r : Ref sig .tc) (hr : r ∉ wr28) : W28 m ρ c (Proc.devRef .tc r) = W27 m ρ c (Proc.devRef .tc r) :=
  W28_of_ne m ρ c r fun w e => hr (e ▸ arrs28 w)

/-- The references the host stretch before boundary 29 writes. -/
abbrev wr29 : List (Ref sig .tc) := [main_v188, main_v189]
theorem wsub29 : (hostOps12 (F := Ideal)).Forall fun op => op.writes ⊆ (wr29.map (Proc.devRef (τ := τ) .tc)).toFinset := by
  simp only [hostOps12, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep29 (c : Dev nD) (r : Ref sig .tc) (hr : r ∉ wr29) : W29 m ρ c (Proc.devRef .tc r) = W28 m ρ c (Proc.devRef .tc r) :=
  StableHlo.after_of_writes_sub _ _ wsub29 hr

/-- The arrays of kernel region 12 (the segment before boundary 30). -/
abbrev wr30 : List (Ref sig .tc) := [main_v187, main_arg25, main_v189, main_v188, main_v190]
theorem arrs30 : ∀ w, Pipeline.arrRef spec12 w ∈ wr30 := by decide
theorem keep30 (c : Dev nD) (r : Ref sig .tc) (hr : r ∉ wr30) : W30 m ρ c (Proc.devRef .tc r) = W29 m ρ c (Proc.devRef .tc r) :=
  W30_of_ne m ρ c r fun w e => hr (e ▸ arrs30 w)

/-- The references the host stretch before boundary 31 writes. -/
abbrev wr31 : List (Ref sig .tc) := [main_c_29, main_v191, main_v192, main_c_30, main_v193, main_v194, main_v195, main_v196, main_v197, main_c_31, main_v198, main_v199, main_c_32, main_v200, main_v201, main_v202, main_v203, main_v204, main_c_33]
theorem wsub31 : (hostOps13 (F := Ideal)).Forall fun op => op.writes ⊆ (wr31.map (Proc.devRef (τ := τ) .tc)).toFinset := by
  simp only [hostOps13, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep31 (c : Dev nD) (r : Ref sig .tc) (hr : r ∉ wr31) : W31 m ρ c (Proc.devRef .tc r) = W30 m ρ c (Proc.devRef .tc r) :=
  StableHlo.after_of_writes_sub _ _ wsub31 hr

/-- The references the host stretch before boundary 32 writes. -/
abbrev wr32 : List (Ref sig .tc) := [main_call2_v0, main_v205]
theorem wsub32 : (hostOps13_1 (F := Ideal)).Forall fun op => op.writes ⊆ (wr32.map (Proc.devRef (τ := τ) .tc)).toFinset := by
  simp only [hostOps13_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep32 (c : Dev nD) (r : Ref sig .tc) (hr : r ∉ wr32) : W32 m ρ c (Proc.devRef .tc r) = W31 m ρ c (Proc.devRef .tc r) :=
  StableHlo.after_of_writes_sub _ _ wsub32 hr

/-- The references the host stretch before boundary 33 writes. -/
abbrev wr33 : List (Ref sig .tc) := [main_c_34]
theorem wsub33 : (hostOps13_2 (F := Ideal)).Forall fun op => op.writes ⊆ (wr33.map (Proc.devRef (τ := τ) .tc)).toFinset := by
  simp only [hostOps13_2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep33 (c : Dev nD) (r : Ref sig .tc) (hr : r ∉ wr33) : W33 m ρ c (Proc.devRef .tc r) = W32 m ρ c (Proc.devRef .tc r) :=
  StableHlo.after_of_writes_sub _ _ wsub33 hr

/-- The references the host stretch before boundary 34 writes. -/
abbrev wr34 : List (Ref sig .tc) := [main_call3_v0, main_v206]
theorem wsub34 : (hostOps13_3 (F := Ideal)).Forall fun op => op.writes ⊆ (wr34.map (Proc.devRef (τ := τ) .tc)).toFinset := by
  simp only [hostOps13_3, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep34 (c : Dev nD) (r : Ref sig .tc) (hr : r ∉ wr34) : W34 m ρ c (Proc.devRef .tc r) = W33 m ρ c (Proc.devRef .tc r) :=
  StableHlo.after_of_writes_sub _ _ wsub34 hr

/-- The references the host stretch before boundary 35 writes. -/
abbrev wr35 : List (Ref sig .tc) := [main_v207]
theorem wsub35 : (hostOps13_4 (F := Ideal)).Forall fun op => op.writes ⊆ (wr35.map (Proc.devRef (τ := τ) .tc)).toFinset := by
  simp only [hostOps13_4, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep35 (c : Dev nD) (r : Ref sig .tc) (hr : r ∉ wr35) : W35 m ρ c (Proc.devRef .tc r) = W34 m ρ c (Proc.devRef .tc r) :=
  StableHlo.after_of_writes_sub _ _ wsub35 hr

/-- The arrays of kernel region 13 (the segment before boundary 36). -/
abbrev wr36 : List (Ref sig .tc) := [main_v205, main_v207, main_v208_0, main_v208_1]
theorem arrs36 : ∀ w, Pipeline.arrRef spec13 w ∈ wr36 := by decide
theorem keep36 (c : Dev nD) (r : Ref sig .tc) (hr : r ∉ wr36) : W36 m ρ c (Proc.devRef .tc r) = W35 m ρ c (Proc.devRef .tc r) :=
  W36_of_ne m ρ c r fun w e => hr (e ▸ arrs36 w)

/-- The references the host stretch before boundary 37 writes. -/
abbrev wr37 : List (Ref sig .tc) := [main_cst_35, main_v209, main_v210, main_v211, main_v212, main_v213, main_v214, main_v215]
theorem wsub37 : (hostOps14 (F := Ideal)).Forall fun op => op.writes ⊆ (wr37.map (Proc.devRef (τ := τ) .tc)).toFinset := by
  simp only [hostOps14, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))
theorem keep37 (c : Dev nD) (r : Ref sig .tc) (hr : r ∉ wr37) : W37 m ρ c (Proc.devRef .tc r) = W36 m ρ c (Proc.devRef .tc r) :=
  StableHlo.after_of_writes_sub _ _ wsub37 hr

end Cert.KernelIdeal.Keep

end
-- ==== Proof.KSpan.lean ====
-- A reference that no segment between two boundaries writes reads the same at both: one statement for every pair of boundaries.
import proofs.«400221_j39548058861723_2_alg».proof.Proof.KKeep

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

def Wn (c : Dev nD) : ℕ → Valuation τ sig (Elt Ideal)
  | 0 => W0 m ρ c
  | 1 => W1 m ρ c
  | 2 => W2 m ρ c
  | 3 => W3 m ρ c
  | 4 => W4 m ρ c
  | 5 => W5 m ρ c
  | 6 => W6 m ρ c
  | 7 => W7 m ρ c
  | 8 => W8 m ρ c
  | 9 => W9 m ρ c
  | 10 => W10 m ρ c
  | 11 => W11 m ρ c
  | 12 => W12 m ρ c
  | 13 => W13 m ρ c
  | 14 => W14 m ρ c
  | 15 => W15 m ρ c
  | 16 => W16 m ρ c
  | 17 => W17 m ρ c
  | 18 => W18 m ρ c
  | 19 => W19 m ρ c
  | 20 => W20 m ρ c
  | 21 => W21 m ρ c
  | 22 => W22 m ρ c
  | 23 => W23 m ρ c
  | 24 => W24 m ρ c
  | 25 => W25 m ρ c
  | 26 => W26 m ρ c
  | 27 => W27 m ρ c
  | 28 => W28 m ρ c
  | 29 => W29 m ρ c
  | 30 => W30 m ρ c
  | 31 => W31 m ρ c
  | 32 => W32 m ρ c
  | 33 => W33 m ρ c
  | 34 => W34 m ρ c
  | 35 => W35 m ρ c
  | 36 => W36 m ρ c
  | 37 => W37 m ρ c
  | _ => W37 m ρ c

def wrn : ℕ → List (Ref sig .tc)
  | 1 => wr1
  | 2 => wr2
  | 3 => wr3
  | 4 => wr4
  | 5 => wr5
  | 6 => wr6
  | 7 => wr7
  | 8 => wr8
  | 9 => wr9
  | 10 => wr10
  | 11 => wr11
  | 12 => wr12
  | 13 => wr13
  | 14 => wr14
  | 15 => wr15
  | 16 => wr16
  | 17 => wr17
  | 18 => wr18
  | 19 => wr19
  | 20 => wr20
  | 21 => wr21
  | 22 => wr22
  | 23 => wr23
  | 24 => wr24
  | 25 => wr25
  | 26 => wr26
  | 27 => wr27
  | 28 => wr28
  | 29 => wr29
  | 30 => wr30
  | 31 => wr31
  | 32 => wr32
  | 33 => wr33
  | 34 => wr34
  | 35 => wr35
  | 36 => wr36
  | 37 => wr37
  | _ => []

set_option maxHeartbeats 4000000 in
theorem keepn (c : Dev nD) (r : Ref sig .tc) : ∀ k, k < 37 → r ∉ wrn (k + 1) →
    Wn m ρ c (k + 1) (Proc.devRef .tc r) = Wn m ρ c k (Proc.devRef .tc r)
  | 0, _, h => keep1 m ρ c r h
  | 1, _, h => keep2 m ρ c r h
  | 2, _, h => keep3 m ρ c r h
  | 3, _, h => keep4 m ρ c r h
  | 4, _, h => keep5 m ρ c r h
  | 5, _, h => keep6 m ρ c r h
  | 6, _, h => keep7 m ρ c r h
  | 7, _, h => keep8 m ρ c r h
  | 8, _, h => keep9 m ρ c r h
  | 9, _, h => keep10 m ρ c r h
  | 10, _, h => keep11 m ρ c r h
  | 11, _, h => keep12 m ρ c r h
  | 12, _, h => keep13 m ρ c r h
  | 13, _, h => keep14 m ρ c r h
  | 14, _, h => keep15 m ρ c r h
  | 15, _, h => keep16 m ρ c r h
  | 16, _, h => keep17 m ρ c r h
  | 17, _, h => keep18 m ρ c r h
  | 18, _, h => keep19 m ρ c r h
  | 19, _, h => keep20 m ρ c r h
  | 20, _, h => keep21 m ρ c r h
  | 21, _, h => keep22 m ρ c r h
  | 22, _, h => keep23 m ρ c r h
  | 23, _, h => keep24 m ρ c r h
  | 24, _, h => keep25 m ρ c r h
  | 25, _, h => keep26 m ρ c r h
  | 26, _, h => keep27 m ρ c r h
  | 27, _, h => keep28 m ρ c r h
  | 28, _, h => keep29 m ρ c r h
  | 29, _, h => keep30 m ρ c r h
  | 30, _, h => keep31 m ρ c r h
  | 31, _, h => keep32 m ρ c r h
  | 32, _, h => keep33 m ρ c r h
  | 33, _, h => keep34 m ρ c r h
  | 34, _, h => keep35 m ρ c r h
  | 35, _, h => keep36 m ρ c r h
  | 36, _, h => keep37 m ρ c r h
  | _ + 37, hk, _ => absurd hk (by omega)

-- By induction on the number of segments crossed, one segment at a time.
theorem keepSpan (c : Dev nD) (r : Ref sig .tc) (j : ℕ) : ∀ d : ℕ, j + d ≤ 37 → (∀ i, i < d → r ∉ wrn (j + i + 1)) →
    Wn m ρ c (j + d) (Proc.devRef .tc r) = Wn m ρ c j (Proc.devRef .tc r)
  | 0, _, _ => rfl
  | d + 1, hd, h => (keepn m ρ c r (j + d) (by omega) (h d (Nat.lt_succ_self d))).trans
      (keepSpan c r j d (by omega) fun i hi => h i (Nat.lt_succ_of_lt hi))

end Cert.KernelIdeal.Keep

end
-- ==== Proof.Agree.lean ====
-- The two launch memories hold the same argument arrays.
import proofs.«400221_j39548058861723_2_alg».proof.Defs

noncomputable section

namespace Cert.Chain

open Idealize.ShloMosaic Idealize.ShloMosaic.TcCoe Idealize.SL.Sem

def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
    ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)

end Cert.Chain

end
-- ==== Proof.LibRows.lean ====
-- Row gathers and accumulating row scatters read at an index.
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

def rowOf {N n w : ℕ} (hN : 0 < N) (idx : IVec ⟨2, ![n, 1]⟩ w) (p : Fin n) : Fin N :=
  ⟨min (idx (ixP p)).toInt.toNat (N - 1), by omega⟩

theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil

  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>

    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>

    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by

  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]

  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]

  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by

  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.Spec.lean ====
-- The network's stages as entry-by-entry functions of whole arrays, the common value both programs are compared with.
import Idealize.ShloMosaic.PureOps.Ideal
import Idealize.ShloMosaic.PureOps.Ideal.Laws
import Idealize.ShloMosaic.Lib.ValueIdx
import Idealize.ShloMosaic.Lib.StableHlo.Predicate
import proofs.«400221_j39548058861723_2_alg».proof.Proof.LibRows

noncomputable section

namespace Cert.Spec

open Idealize.ShloMosaic Idealize.ShloMosaic.ValueIdx Idealize.ShloMosaic.StableHlo.Predicate Cert.LibRows

def dense {n k h : ℕ} (x : (⟨2, ![n, k]⟩ : Shape).Idx → EReal) (w : (⟨2, ![k, h]⟩ : Shape).Idx → EReal)
    (b : (⟨1, ![h]⟩ : Shape).Idx → EReal) (p : Fin n) (q : Fin h) : EReal :=
  ∑ kk : Fin k, x (ix2 p kk) * w (ix2 kk q) + b (ix1 q)

def encode {n k h : ℕ} (x : (⟨2, ![n, k]⟩ : Shape).Idx → EReal) (w : (⟨2, ![k, h]⟩ : Shape).Idx → EReal)
    (b : (⟨1, ![h]⟩ : Shape).Idx → EReal) : (⟨2, ![n, h]⟩ : Shape).Idx → EReal :=
  fun i => max (dense x w b (i 0) (i 1)) 0

def message {n e h : ℕ} (hn : 0 < n) (st : (⟨2, ![n, h]⟩ : Shape).Idx → EReal) (code : (⟨2, ![e, h]⟩ : Shape).Idx → EReal)
    (wt : (⟨1, ![e]⟩ : Shape).Idx → EReal) (src : IVec ⟨2, ![e, 1]⟩ 32) : (⟨2, ![e, h]⟩ : Shape).Idx → EReal :=
  fun i => wt (ix1 (i 0)) * (st (ix2 (rowOf hn src (i 0)) (i 1)) + code (ix2 (i 0) (i 1)))

def rowSums {n e h : ℕ} (v : (⟨2, ![e, h]⟩ : Shape).Idx → EReal) (dst : IVec ⟨2, ![e, 1]⟩ 32) :
    (⟨2, ![n, h]⟩ : Shape).Idx → EReal :=
  fun i => 0 + ∑ a ∈ Finset.univ.filter (fun a : Fin e => (dst (ixP a)).toInt = (((i 0 : Fin n)).val : ℤ)), v (ix2 a (i 1))

def rowCount {n e : ℕ} (dst : IVec ⟨2, ![e, 1]⟩ 32) : (⟨1, ![n]⟩ : Shape).Idx → EReal :=
  fun i => 0 + ∑ _a ∈ Finset.univ.filter (fun a : Fin e => (dst (ixP a)).toInt = (((i 0 : Fin n)).val : ℤ)), (1 : EReal)

def update {n h : ℕ} (st agg : (⟨2, ![n, h]⟩ : Shape).Idx → EReal) (w : (⟨2, ![h, h]⟩ : Shape).Idx → EReal)
    (b : (⟨1, ![h]⟩ : Shape).Idx → EReal) : (⟨2, ![n, h]⟩ : Shape).Idx → EReal :=
  fun i => max (st (ix2 (i 0) (i 1)) + ∑ kk : Fin h, agg (ix2 (i 0) kk) * w (ix2 kk (i 1)) + b (ix1 (i 1))) 0

def project {n h : ℕ} (st : (⟨2, ![n, h]⟩ : Shape).Idx → EReal) (w : (⟨2, ![h, h]⟩ : Shape).Idx → EReal)
    (b : (⟨1, ![h]⟩ : Shape).Idx → EReal) (nw : (⟨1, ![n]⟩ : Shape).Idx → EReal) : (⟨2, ![n, h]⟩ : Shape).Idx → EReal :=
  fun i => dense st w b (i 0) (i 1) * nw (ix1 (i 0))

def segMean {g e h : ℕ} (v : (⟨2, ![e, h]⟩ : Shape).Idx → EReal) (seg : IVec ⟨2, ![e, 1]⟩ 32) :
    (⟨2, ![g, h]⟩ : Shape).Idx → EReal :=
  fun i => Ideal.div (rowSums (n := g) v seg (ix2 (i 0) (i 1))) (max (rowCount (n := g) seg (ix1 (i 0))) 1)

def onehotSums {g e h : ℕ} (v : (⟨2, ![e, h]⟩ : Shape).Idx → EReal) (seg : IVec ⟨2, ![1, e]⟩ 32) :
    (⟨2, ![g, h]⟩ : Shape).Idx → EReal :=
  fun i => ∑ a : Fin e, (if seg (ix2 0 a) = BitVec.ofNat 32 ((i 0 : Fin g)).val then (1 : EReal) else 0) * v (ix2 a (i 1))

def onehotCount {g e : ℕ} (seg : IVec ⟨2, ![1, e]⟩ 32) : (⟨2, ![g, 1]⟩ : Shape).Idx → EReal :=
  fun i => ∑ a : Fin e, (if seg (ix2 0 a) = BitVec.ofNat 32 ((i 0 : Fin g)).val then (1 : EReal) else 0)

def slab {t a b : ℕ} (w : (⟨3, ![t, a, b]⟩ : Shape).Idx → EReal) (s : Fin t) : (⟨2, ![a, b]⟩ : Shape).Idx → EReal :=
  fun i => w (ix3 s (i 0) (i 1))

def rowAt {t a : ℕ} (w : (⟨2, ![t, a]⟩ : Shape).Idx → EReal) (s : Fin t) : (⟨1, ![a]⟩ : Shape).Idx → EReal :=
  fun i => w (ix2 s (i 0))

end Cert.Spec

end
-- ==== Proof.LibDense.lean ====
-- A plain matrix product is, at each entry, a finite sum over the contracted axis.
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

private theorem coord_val_congr {s : Shape} (j : s.Idx) (p q : ℕ) (hp : p < s.rank) (hq : q < s.rank) (h : p = q) :
    (j ⟨p, hp⟩).val = (j ⟨q, hq⟩).val := by subst h; rfl

theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Reg5.lean ====
-- As the encoder without the clamp, each row scaled by its node's weight.
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay_apply (h : FVec Ideal S5000x128 .bf16) (w : FVec Ideal S128x128 .f32) (b : FVec Ideal S1x128 .f32)
    (nw : FVec Ideal S5000x1 .f32) (p : Fin 5000) (q : Fin 128) :
    k5_pay1 (F := Ideal) h w b nw (ix2 p q)
      = (∑ kk : Fin 128, h (ix2 p kk) * w (ix2 kk q) + b (ix2 (0 : Fin 1) q)) * nw (ix2 p (0 : Fin 1)) := by
  unfold k5_pay1
  have hm : matmul dot_S5000x128_S128x128_S5000x128_1_0_0_1_n_n none h (truncf FTy.bf16 w bitsLt_bf16_f32)
        (constant (F := Ideal) S5000x128 .f32 0x00000000#32) (ix2 p q) = ∑ kk : Fin 128, h (ix2 p kk) * w (ix2 kk q) :=
    Cert.LibDense.matmul_zero_apply dot_S5000x128_S128x128_S5000x128_1_0_0_1_n_n none rfl rfl rfl rfl rfl rfl h
      (truncf FTy.bf16 w bitsLt_bf16_f32) p q
  rw [mulf_apply, addf_apply, shapeCast_self, shapeCast_self, shapeCast_self, broadcastTo_1b_ab_apply,
    broadcastTo_a1_ab_apply, hm]

theorem tile_entry {N : ℕ} (H : (⟨2, ![N, 128]⟩ : Shape).Idx → EReal) (W : S128x128.Idx → EReal) (B : S1x128.Idx → EReal)
    (NW : (⟨2, ![N, 1]⟩ : Shape).Idx → EReal)
    (h : FVec Ideal S5000x128 .bf16) (w : FVec Ideal S128x128 .f32) (b : FVec Ideal S1x128 .f32)
    (nw : FVec Ideal S5000x1 .f32) (r : Fin N) (p : Fin 5000) (q : Fin 128)
    (hh : ∀ kk : Fin 128, h (ix2 p kk) = H (ix2 r kk)) (hw : ∀ kk : Fin 128, w (ix2 kk q) = W (ix2 kk q))
    (hb : b (ix2 (0 : Fin 1) q) = B (ix2 (0 : Fin 1) q)) (hnw : nw (ix2 p (0 : Fin 1)) = NW (ix2 r (0 : Fin 1))) :
    k5_pay1 (F := Ideal) h w b nw (ix2 p q)
      = Cert.Spec.project H W (fun i => B (ix2 0 (i 0))) (fun i => NW (ix2 (i 0) 0)) (ix2 r q) := by
  rw [pay_apply, hb, hnw]
  show _ = (∑ kk : Fin 128, H (ix2 r kk) * W (ix2 kk q) + B (ix2 (0 : Fin 1) q)) * NW (ix2 r (0 : Fin 1))
  rw [Finset.sum_congr rfl fun kk _ => by rw [hh kk, hw kk]]

theorem hz : (![0, 0] : Fin 2 → Nat) = fun _ => 0 := funext fun a => by fin_cases a <;> rfl

theorem idx_facts : ∀ t : Fin cfg5.N, win5_4.index t (0 : Fin 2) = t.val
    ∧ win5_4.index t (1 : Fin 2) = 0
    ∧ win5_0.index t (0 : Fin 2) = win5_4.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = win5_4.index t (0 : Fin 2)
    ∧ win5_3.index t (1 : Fin 2) = 0 :=
  (by decide +kernel : ∀ t : Fin grid5.N, _)

theorem flushed_eq (c : Dev nD) (t : Fin cfg5.N) :
    (dat5 (F := Ideal) V c).flushed 4 t = ((cfg5.win 4).blk t).view.read (Elt Ideal)
      (Cert.Spec.project (V c main_v99) (V c main_arg17) (fun i => V c main_v101 (ix2 0 (i 0)))
        (fun i => V c main_v100 (ix2 (i 0) 0))) := by
  show (cfg5.win 4).cut (grid5.coords t) ((dat5 (F := Ideal) V c).after 4 t) = _
  rw [after5_4]
  unfold out5_4
  rw [View.canon_unit_zero hz]
  simp only [View.ld_unit_zero (S := S5000x128) hz, View.ld_unit_zero (S := S128x128) hz,
    View.ld_unit_zero (S := S1x128) hz, View.ld_unit_zero (S := S5000x1) hz]
  obtain ⟨e4r, e4c, e0r, e0c, e1r, e1c, e2r, e2c, e3r, e3c⟩ := idx_facts t
  have hN : cfg5.N = 30 := N_5
  have ht : t.val < 30 := hN ▸ t.isLt
  funext j
  have hj0 : (j 0).val < 5000 := (j 0).isLt
  have hj1 : (j 1).val < 128 := (j 1).isLt
  have hr : win5_4.index t (0 : Fin 2) * 5000 + (j 0).val < 150000 := by omega
  have hi : ((cfg5.win 4).blk t).view.emb j
      = ix2 (⟨win5_4.index t (0 : Fin 2) * 5000 + (j 0).val, hr⟩ : Fin 150000) (⟨(j 1).val, hj1⟩ : Fin 128) := by
    funext a; apply Fin.ext
    match a with
    | ⟨0, _⟩ => show win5_4.index t (0 : Fin 2) * 5000 + 1 * (j 0).val = win5_4.index t (0 : Fin 2) * 5000 + (j 0).val; omega
    | ⟨1, _⟩ => show win5_4.index t (1 : Fin 2) * 128 + 1 * (j 1).val = (j 1).val; omega
  have hx : (cfg5.win 4).xinj (grid5.coords t) j = ix2 (⟨(j 0).val, hj0⟩ : Fin 5000) (⟨(j 1).val, hj1⟩ : Fin 128) := by
    funext a
    match a with
    | ⟨0, _⟩ => rfl
    | ⟨1, _⟩ => rfl
  show k5_pay1 (F := Ideal) (iblk5 V c 0 t) (iblk5 V c 1 t) (iblk5 V c 2 t) (iblk5 V c 3 t)
      ((cfg5.win 4).xinj (grid5.coords t) j)
    = Cert.Spec.project (V c main_v99) (V c main_arg17) (fun i => V c main_v101 (ix2 0 (i 0)))
        (fun i => V c main_v100 (ix2 (i 0) 0)) (((cfg5.win 4).blk t).view.emb j)
  rw [hx, hi]
  refine tile_entry (V c main_v99) (V c main_arg17) (V c main_v101) (V c main_v100) (iblk5 V c 0 t) (iblk5 V c 1 t)
    (iblk5 V c 2 t) (iblk5 V c 3 t) _ _ _ (fun kk => ?_) (fun kk => ?_) ?_ ?_
  ·
    show V c main_v99 (((cfg5.win 0).blk t).view.emb (ix2 (⟨(j 0).val, hj0⟩ : Fin 5000) kk)) = _
    refine congrArg (V c main_v99) (funext fun a => Fin.ext ?_)
    match a with
    | ⟨0, _⟩ => show win5_0.index t (0 : Fin 2) * 5000 + 1 * (j 0).val = win5_4.index t (0 : Fin 2) * 5000 + (j 0).val; omega
    | ⟨1, _⟩ => show win5_0.index t (1 : Fin 2) * 128 + 1 * kk.val = kk.val; omega
  ·
    show V c main_arg17 (((cfg5.win 1).blk t).view.emb (ix2 kk (⟨(j 1).val, hj1⟩ : Fin 128))) = _
    refine congrArg (V c main_arg17) (funext fun a => Fin.ext ?_)
    match a with
    | ⟨0, _⟩ => show win5_1.index t (0 : Fin 2) * 128 + 1 * kk.val = kk.val; omega
    | ⟨1, _⟩ => show win5_1.index t (1 : Fin 2) * 128 + 1 * (j 1).val = (j 1).val; omega
  ·
    show V c main_v101 (((cfg5.win 2).blk t).view.emb (ix2 (0 : Fin 1) (⟨(j 1).val, hj1⟩ : Fin 128))) = _
    refine congrArg (V c main_v101) (funext fun a => Fin.ext ?_)
    match a with
    | ⟨0, _⟩ => show win5_2.index t (0 : Fin 2) * 1 + 1 * 0 = 0; omega
    | ⟨1, _⟩ => show win5_2.index t (1 : Fin 2) * 128 + 1 * (j 1).val = (j 1).val; omega
  ·
    show V c main_v100 (((cfg5.win 3).blk t).view.emb (ix2 (⟨(j 0).val, hj0⟩ : Fin 5000) (0 : Fin 1))) = _
    refine congrArg (V c main_v100) (funext fun a => Fin.ext ?_)
    match a with
    | ⟨0, _⟩ => show win5_3.index t (0 : Fin 2) * 5000 + 1 * (j 0).val = win5_4.index t (0 : Fin 2) * 5000 + (j 0).val; omega
    | ⟨1, _⟩ => show win5_3.index t (1 : Fin 2) * 1 + 1 * 0 = 0; omega

theorem mem_blk (t : Fin cfg5.N) (i : S150000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v102).slice (win5_4.rect t)).set ↔ _
  rw [View.set_slice_whole, Rect.mem_set_unit]
  exact Iff.rfl

theorem cover (i : S150000x128.Idx) :
    ∃ t : Fin cfg5.N, (cfg5.win 4).flush t = true ∧ i ∈ ((cfg5.win 4).blk t).view.set := by
  have hi0 : (i 0).val < 150000 := (i 0).isLt
  have hi1 : (i 1).val < 128 := (i 1).isLt
  have hN : cfg5.N = 30 := N_5
  have hlt : (i 0).val / 5000 < cfg5.N := by rw [hN]; omega
  obtain ⟨e4r, e4c, -⟩ := idx_facts ⟨(i 0).val / 5000, hlt⟩
  have e4r' : win5_4.index ⟨(i 0).val / 5000, hlt⟩ (0 : Fin 2) = (i 0).val / 5000 := e4r
  refine ⟨⟨(i 0).val / 5000, hlt⟩, flush5_4 _, ?_⟩
  rw [mem_blk]
  intro a
  match a with
  | ⟨0, _⟩ =>
    show win5_4.index ⟨(i 0).val / 5000, hlt⟩ (0 : Fin 2) * 5000 ≤ (i 0).val
      ∧ (i 0).val < win5_4.index ⟨(i 0).val / 5000, hlt⟩ (0 : Fin 2) * 5000 + 5000
    omega
  | ⟨1, _⟩ =>
    show win5_4.index ⟨(i 0).val / 5000, hlt⟩ (1 : Fin 2) * 128 ≤ (i 1).val
      ∧ (i 1).val < win5_4.index ⟨(i 0).val / 5000, hlt⟩ (1 : Fin 2) * 128 + 128
    omega

theorem value (c : Dev nD) :
    (dat5 (F := Ideal) V c).arrAt 4 cfg5.N
      = Cert.Spec.project (V c main_v99) (V c main_arg17) (fun i => V c main_v101 (ix2 0 (i 0)))
          (fun i => V c main_v100 (ix2 (i 0) 0)) :=
  (dat5 (F := Ideal) V c).arrAt_eq_of_cover 4 _ (fun t _ => flushed_eq V c t) cover

end Cert.KernelIdeal.Reg5

end
-- ==== Proof.HostForms.lean ====
-- The host's dense-layer expressions are the specification's stages.
import Idealize.ShloMosaic.PureOps.Ideal
import Idealize.ShloMosaic.PureOps.Ideal.Laws
import Idealize.ShloMosaic.Lib.ValueIdx
import Idealize.ShloMosaic.Lib.StableHlo.Predicate
import proofs.«400221_j39548058861723_2_alg».proof.Proof.Spec
import proofs.«400221_j39548058861723_2_alg».proof.Proof.LibDense

noncomputable section

namespace Cert.HostForms

open Idealize.ShloMosaic Idealize.ShloMosaic.ValueIdx Idealize.ShloMosaic.StableHlo.Predicate

variable {n k h : ℕ}

theorem ij_eq_ix2 {a b : ℕ} (p : Fin a) (q : Fin b) : ij p q = ix2 p q := by
  funext c; match c with | ⟨0, _⟩ => rfl | ⟨1, _⟩ => rfl

theorem ofFin_eq_ix1 {a : ℕ} (p : Fin a) : Shape.Idx.ofFin p = ix1 p := by
  funext c; match c with | ⟨0, _⟩ => rfl

theorem along_rows_apply {α : Type} (h1 : (⟨1, ![h]⟩ : Shape).BroadcastsInDim ⟨2, ![1, h]⟩ ![1])
    (h2 : (⟨2, ![1, h]⟩ : Shape).BroadcastsInDim ⟨2, ![n, h]⟩ ![0, 1]) (b : (⟨1, ![h]⟩ : Shape).Idx → α) (p : Fin n) (q : Fin h) :
    broadcastInDim ⟨2, ![n, h]⟩ ![0, 1] h2 (broadcastInDim ⟨2, ![1, h]⟩ ![1] h1 b) (ix2 p q) = b (ix1 q) := by
  rw [← ij_eq_ix2, bcast_cols, ofFin_eq_ix1]

theorem down_columns_apply {α : Type} (c1 : (⟨1, ![n]⟩ : Shape).BroadcastsInDim ⟨2, ![n, 1]⟩ ![0])
    (c2 : (⟨2, ![n, 1]⟩ : Shape).BroadcastsInDim ⟨2, ![n, h]⟩ ![0, 1]) (v : (⟨1, ![n]⟩ : Shape).Idx → α) (p : Fin n) (q : Fin h) :
    broadcastInDim ⟨2, ![n, h]⟩ ![0, 1] c2 (broadcastInDim ⟨2, ![n, 1]⟩ ![0] c1 v) (ix2 p q) = v (ix1 p) := by
  rw [← ij_eq_ix2, bcast_rows, ofFin_eq_ix1]

theorem encode_eq (d : DotDims ⟨2, ![n, k]⟩ ⟨2, ![k, h]⟩ ⟨2, ![n, h]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![])
    (x : FVec Ideal ⟨2, ![n, k]⟩ .f32) (w : FVec Ideal ⟨2, ![k, h]⟩ .f32) (b : FVec Ideal ⟨1, ![h]⟩ .f32) :
    maximumf (addf (Host.dotGeneral d none x w)
        (broadcastInDim ⟨2, ![n, h]⟩ ![0, 1] h2 (broadcastInDim ⟨2, ![1, h]⟩ ![1] h1 b)))
      (broadcastInDim ⟨2, ![n, h]⟩ ![] h0 (constant (F := Ideal) ⟨0, ![]⟩ .f32 0x00000000#32))
    = Cert.Spec.encode x w b := by
  funext i
  obtain ⟨p, q, rfl⟩ : ∃ (p : Fin n) (q : Fin h), i = ix2 p q := ⟨i 0, i 1, eq_ix2 i⟩
  show max (FloatOps.dotGeneral (F := Ideal) d none .single x w (ix2 p q)
      + broadcastInDim ⟨2, ![n, h]⟩ ![0, 1] h2 (broadcastInDim ⟨2, ![1, h]⟩ ![1] h1 b) (ix2 p q))
      (Ideal.ofBits .f32 0x00000000#32)
    = max (∑ kk : Fin k, x (ix2 p kk) * w (ix2 kk q) + b (ix1 q)) 0
  rw [Cert.LibDense.dotGeneral_apply d none .single hlc hrc hln hrn hlb hrb, along_rows_apply, Ideal.ofBits_zero_f32]

theorem update_eq (d : DotDims ⟨2, ![n, h]⟩ ⟨2, ![h, h]⟩ ⟨2, ![n, h]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![])
    (st agg : FVec Ideal ⟨2, ![n, h]⟩ .f32) (w : FVec Ideal ⟨2, ![h, h]⟩ .f32) (b : FVec Ideal ⟨1, ![h]⟩ .f32) :
    maximumf (addf (addf st (Host.dotGeneral d none agg w))
        (broadcastInDim ⟨2, ![n, h]⟩ ![0, 1] h2 (broadcastInDim ⟨2, ![1, h]⟩ ![1] h1 b)))
      (broadcastInDim ⟨2, ![n, h]⟩ ![] h0 (constant (F := Ideal) ⟨0, ![]⟩ .f32 0x00000000#32))
    = Cert.Spec.update st agg w b := by
  funext i
  obtain ⟨p, q, rfl⟩ : ∃ (p : Fin n) (q : Fin h), i = ix2 p q := ⟨i 0, i 1, eq_ix2 i⟩
  show max (st (ix2 p q) + FloatOps.dotGeneral (F := Ideal) d none .single agg w (ix2 p q)
      + broadcastInDim ⟨2, ![n, h]⟩ ![0, 1] h2 (broadcastInDim ⟨2, ![1, h]⟩ ![1] h1 b) (ix2 p q))
      (Ideal.ofBits .f32 0x00000000#32)
    = max (st (ix2 p q) + ∑ kk : Fin h, agg (ix2 p kk) * w (ix2 kk q) + b (ix1 q)) 0
  rw [Cert.LibDense.dotGeneral_apply d none .single hlc hrc hln hrn hlb hrb, along_rows_apply, Ideal.ofBits_zero_f32]

theorem project_eq (d : DotDims ⟨2, ![n, h]⟩ ⟨2, ![h, h]⟩ ⟨2, ![n, h]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![h]⟩ : Shape).BroadcastsInDim ⟨2, ![1, h]⟩ ![1])
    (h2 : (⟨2, ![1, h]⟩ : Shape).BroadcastsInDim ⟨2, ![n, h]⟩ ![0, 1])
    (c1 : (⟨1, ![n]⟩ : Shape).BroadcastsInDim ⟨2, ![n, 1]⟩ ![0])
    (c2 : (⟨2, ![n, 1]⟩ : Shape).BroadcastsInDim ⟨2, ![n, h]⟩ ![0, 1])
    (st : FVec Ideal ⟨2, ![n, h]⟩ .f32) (w : FVec Ideal ⟨2, ![h, h]⟩ .f32) (b : FVec Ideal ⟨1, ![h]⟩ .f32)
    (nw : FVec Ideal ⟨1, ![n]⟩ .f32) :
    mulf (addf (Host.dotGeneral d none st w)
        (broadcastInDim ⟨2, ![n, h]⟩ ![0, 1] h2 (broadcastInDim ⟨2, ![1, h]⟩ ![1] h1 b)))
      (broadcastInDim ⟨2, ![n, h]⟩ ![0, 1] c2 (broadcastInDim ⟨2, ![n, 1]⟩ ![0] c1 nw))
    = Cert.Spec.project st w b nw := by
  funext i
  obtain ⟨p, q, rfl⟩ : ∃ (p : Fin n) (q : Fin h), i = ix2 p q := ⟨i 0, i 1, eq_ix2 i⟩
  show (FloatOps.dotGeneral (F := Ideal) d none .single st w (ix2 p q)
      + broadcastInDim ⟨2, ![n, h]⟩ ![0, 1] h2 (broadcastInDim ⟨2, ![1, h]⟩ ![1] h1 b) (ix2 p q))
      * broadcastInDim ⟨2, ![n, h]⟩ ![0, 1] c2 (broadcastInDim ⟨2, ![n, 1]⟩ ![0] c1 nw) (ix2 p q)
    = (∑ kk : Fin h, st (ix2 p kk) * w (ix2 kk q) + b (ix1 q)) * nw (ix1 p)
  rw [Cert.LibDense.dotGeneral_apply d none .single hlc hrc hln hrn hlb hrb, along_rows_apply, down_columns_apply]

theorem row_of_cast (hs : (⟨1, ![h]⟩ : Shape).ShapeCasts ⟨2, ![1, h]⟩) (b : (⟨1, ![h]⟩ : Shape).Idx → EReal) :
    (fun i : (⟨1, ![h]⟩ : Shape).Idx => shapeCast ⟨2, ![1, h]⟩ b hs (ix2 0 (i 0))) = b := by
  funext i
  refine congrArg b (Shape.reshapeEquiv_eq_of_rowMajor hs ?_)
  rw [Shape.rowMajor_val_one, Shape.rowMajor_val_two]
  show (i 0).val = 0 * h + (i 0).val
  omega

theorem col_of_cast (hs : (⟨1, ![n]⟩ : Shape).ShapeCasts ⟨2, ![n, 1]⟩) (v : (⟨1, ![n]⟩ : Shape).Idx → EReal) :
    (fun i : (⟨1, ![n]⟩ : Shape).Idx => shapeCast ⟨2, ![n, 1]⟩ v hs (ix2 (i 0) 0)) = v := by
  funext i
  refine congrArg v (Shape.reshapeEquiv_eq_of_rowMajor hs ?_)
  rw [Shape.rowMajor_val_one, Shape.rowMajor_val_two]
  show (i 0).val = (i 0).val * 1 + 0
  omega

end Cert.HostForms

end
-- ==== Proof.Reg0.lean ====
-- Each row tile writes its own rows of the dense layer and the tiles partition the rows, so the output array is the layer of the whole inputs.
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem body_entry (x0 : Vec Ideal S5000x133 .f32) (x1 : Vec Ideal S133x128 .f32) (x2 : Vec Ideal S1x128 .f32)
    (p : Fin 5000) (q : Fin 128) :
    k0_pay1 (F := Ideal) x0 x1 x2 (ix2 p q)
      = max (∑ kk : Fin 133, x0 (ix2 p kk) * x1 (ix2 kk q) + x2 (ix2 (0 : Fin 1) q)) 0 := by
  unfold k0_pay1
  simp only [shapeCast_self]
  show max (FloatOps.matmul (F := Ideal) dot_S5000x133_S133x128_S5000x128_1_0_0_1_n_n none
        (truncf .bf16 (x0 : FVec Ideal S5000x133 .f32) bitsLt_bf16_f32)
        (truncf .bf16 (x1 : FVec Ideal S133x128 .f32) bitsLt_bf16_f32) (constant (F := Ideal) S5000x128 .f32 0x00000000#32) (ix2 p q)
      + broadcastTo S5000x128 (x2 : FVec Ideal S1x128 .f32) broadcasts_S1x128_S5000x128 (ix2 p q))
      (Ideal.ofBits .f32 0x00000000#32) = _
  rw [Cert.LibDense.matmul_zero_apply _ none rfl rfl rfl rfl rfl rfl, broadcastTo_1b_ab_apply, Ideal.ofBits_zero_f32]
  rfl

theorem tile_entry (A : (⟨2, ![150000, 133]⟩ : Shape).Idx → EReal) (W : (⟨2, ![133, 128]⟩ : Shape).Idx → EReal)
    (B : (⟨2, ![1, 128]⟩ : Shape).Idx → EReal)
    (x0 : Vec Ideal S5000x133 .f32) (x1 : Vec Ideal S133x128 .f32) (x2 : Vec Ideal S1x128 .f32) (n : ℕ)
    (h0 : ∀ (p : Fin 5000) (kk : Fin 133) (r : Fin 150000), r.val = n * 5000 + p.val → x0 (ix2 p kk) = A (ix2 r kk))
    (h1 : ∀ (kk : Fin 133) (q : Fin 128), x1 (ix2 kk q) = W (ix2 kk q))
    (h2 : ∀ q : Fin 128, x2 (ix2 (0 : Fin 1) q) = B (ix2 (0 : Fin 1) q))
    (j : S5000x128.Idx) (i : S150000x128.Idx) (hi0 : (i 0).val = n * 5000 + (j 0).val) (hi1 : (i 1).val = (j 1).val) :
    k0_pay1 (F := Ideal) x0 x1 x2 j = Cert.Spec.encode A W (fun i => B (ix2 0 (i 0))) i := by
  obtain ⟨p, q, rfl⟩ : ∃ (p : Fin 5000) (q : Fin 128), j = ix2 p q := ⟨j 0, j 1, eq_ix2 j⟩
  obtain ⟨r, s, rfl⟩ : ∃ (r : Fin 150000) (s : Fin 128), i = ix2 r s := ⟨i 0, i 1, eq_ix2 i⟩
  obtain rfl : s = q := Fin.ext hi1
  rw [body_entry]
  show _ = max (∑ kk : Fin 133, A (ix2 r kk) * W (ix2 kk s) + B (ix2 (0 : Fin 1) s)) 0
  simp only [h0 _ _ r hi0, h1, h2]

theorem zero_offsets : (![0, 0] : Fin 2 → Nat) = fun _ => 0 := funext fun a => by fin_cases a <;> rfl

theorem tile_offsets : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem rows_tile (c : Dev nD) (t : Fin cfg0.N) (p : Fin 5000) (kk : Fin 133) (r : Fin 150000)
    (hr : r.val = t.val * 5000 + p.val) :
    (iblk0 V c 0 t : Vec Ideal S5000x133 .f32) (ix2 p kk) = (V c main_v6 : S150000x133.Idx → EReal) (ix2 r kk) := by
  obtain ⟨e0, e1, -⟩ := tile_offsets t
  unfold iblk0
  rw [View.read_apply]
  show V c main_v6 _ = V c main_v6 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 133 + 1 * kk.val = kk.val; rw [e1]; omega

theorem weights_tile (c : Dev nD) (t : Fin cfg0.N) (kk : Fin 133) (q : Fin 128) :
    (iblk0 V c 1 t : Vec Ideal S133x128 .f32) (ix2 kk q) = (V c main_arg11 : S133x128.Idx → EReal) (ix2 kk q) := by
  obtain ⟨-, -, e2, e3, -⟩ := tile_offsets t
  unfold iblk0
  rw [View.read_apply]
  show V c main_arg11 _ = V c main_arg11 _
  congr 1
  funext a
  apply Fin.ext
  match a with
  | ⟨0, _⟩ => show win0_1.index t (0 : Fin 2) * 133 + 1 * kk.val = kk.val; rw [e2]; omega
  | ⟨1, _⟩ => show win0_1.index t (1 : Fin 2) * 128 + 1 * q.val = q.val; rw [e3]; omega

theorem bias_tile (c : Dev nD) (t : Fin cfg0.N) (q : Fin 128) :
    (iblk0 V c 2 t : Vec Ideal S1x128 .f32) (ix2 (0 : Fin 1) q) = (V c main_v34 : S1x128.Idx → EReal) (ix2 (0 : Fin 1) q) := by
  obtain ⟨-, -, -, -, e4, e5, -⟩ := tile_offsets t
  unfold iblk0
  rw [View.read_apply]
  show V c main_v34 _ = V c main_v34 _
  congr 1
  funext a
  apply Fin.ext
  match a with
  | ⟨0, _⟩ => show win0_2.index t (0 : Fin 2) * 1 + 1 * 0 = 0; rw [e4]
  | ⟨1, _⟩ => show win0_2.index t (1 : Fin 2) * 128 + 1 * q.val = q.val; rw [e5]; omega

theorem tile_written (c : Dev nD) (t : Fin cfg0.N) :
    (dat0 (F := Ideal) V c).flushed 3 t
      = ((cfg0.win 3).blk t).view.read (Elt Ideal)
          (Cert.Spec.encode (V c main_v6) (V c main_arg11) (fun i => V c main_v34 (ix2 0 (i 0)))) := by
  show (cfg0.win 3).cut (grid0.coords t) ((dat0 V c).after 3 t) = _
  rw [after0_3]
  unfold out0_3
  rw [View.canon_unit_zero zero_offsets]
  simp only [View.ld_unit_zero (S := S5000x133) zero_offsets, View.ld_unit_zero (S := S133x128) zero_offsets,
    View.ld_unit_zero (S := S1x128) zero_offsets]
  obtain ⟨-, -, -, -, -, -, e6, e7⟩ := tile_offsets t
  funext j
  show k0_pay1 (F := Ideal) (iblk0 V c 0 t) (iblk0 V c 1 t) (iblk0 V c 2 t) j
    = Cert.Spec.encode (V c main_v6) (V c main_arg11) (fun i => V c main_v34 (ix2 0 (i 0))) (((cfg0.win 3).blk t).view.emb j)
  refine tile_entry (V c main_v6) (V c main_arg11) (V c main_v34) _ _ _ t.val
    (fun p kk r hr => rows_tile V c t p kk r hr) (fun kk q => weights_tile V c t kk q) (fun q => bias_tile V c t q)
    j (((cfg0.win 3).blk t).view.emb j) ?_ ?_
  · show win0_3.index t (0 : Fin 2) * 5000 + 1 * (j 0).val = t.val * 5000 + (j 0).val
    rw [e6]; omega
  · show win0_3.index t (1 : Fin 2) * 128 + 1 * (j 1).val = (j 1).val
    rw [e7]; omega

theorem mem_tile (t : Fin cfg0.N) (i : S150000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v35).slice (win0_3.rect t)).set ↔ _
  rw [View.set_slice_whole, Rect.mem_set_unit]
  exact Iff.rfl

theorem tiles_cover (i : S150000x128.Idx) :
    ∃ t : Fin cfg0.N, (cfg0.win 3).flush t = true ∧ i ∈ ((cfg0.win 3).blk t).view.set := by
  have hi0 : (i 0).val < 150000 := (i 0).isLt
  have hi1 : (i 1).val < 128 := (i 1).isLt
  have hN : cfg0.N = 30 := N_0
  obtain ⟨t, ht⟩ : ∃ t : Fin cfg0.N, t.val = (i 0).val / 5000 := ⟨⟨(i 0).val / 5000, by rw [hN]; omega⟩, rfl⟩
  obtain ⟨-, -, -, -, -, -, e6, e7⟩ := tile_offsets t
  refine ⟨t, flush0_3 t, ?_⟩
  rw [mem_tile]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

theorem value (c : Dev nD) :
    (dat0 (F := Ideal) V c).arrAt 3 cfg0.N
      = Cert.Spec.encode (V c main_v6) (V c main_arg11) (fun i => V c main_v34 (ix2 0 (i 0))) :=
  (dat0 (F := Ideal) V c).arrAt_eq_of_cover 3 _ (fun t _ => tile_written V c t) tiles_cover

end Cert.KernelIdeal.Reg0

end
-- ==== Proof.Reg1.lean ====
/-
  The context branch's edge encoder, launch by launch: 70 tiles of 5000 rows. Each tile writes
  max (x·w + b, 0) of its own rows, the tiles' row ranges partition the 350000 rows, so the whole output array
  is the encoder of the whole input arrays.
-/
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One entry of a tile -/

/-- Entry (p, q) of what the body computes from a tile of rows x0, the weights x1 and the bias row x2: the row's
    product with column q plus the bias at q, clamped at zero. The two casts to a narrower format and back are the
    identity over the extended reals, the two shape casts are between equal shapes, the accumulator is the zero
    splat, and the bias row is read at row 0 whatever the tile's row. -/
theorem body_entry (x0 : Vec Ideal S5000x14 .f32) (x1 : Vec Ideal S14x128 .f32) (x2 : Vec Ideal S1x128 .f32)
    (p : Fin 5000) (q : Fin 128) :
    k1_pay1 (F := Ideal) x0 x1 x2 (ix2 p q)
      = max (∑ kk : Fin 14, x0 (ix2 p kk) * x1 (ix2 kk q) + x2 (ix2 (0 : Fin 1) q)) 0 := by
  unfold k1_pay1
  simp only [shapeCast_self]
  show max (FloatOps.matmul (F := Ideal) dot_S5000x14_S14x128_S5000x128_1_0_0_1_n_n none
        (truncf .bf16 (x0 : FVec Ideal S5000x14 .f32) bitsLt_bf16_f32)
        (truncf .bf16 (x1 : FVec Ideal S14x128 .f32) bitsLt_bf16_f32) (constant (F := Ideal) S5000x128 .f32 0x00000000#32) (ix2 p q)
      + broadcastTo S5000x128 (x2 : FVec Ideal S1x128 .f32) broadcasts_S1x128_S5000x128 (ix2 p q))
      (Ideal.ofBits .f32 0x00000000#32) = _
  rw [Cert.LibDense.matmul_zero_apply _ none rfl rfl rfl rfl rfl rfl, broadcastTo_1b_ab_apply, Ideal.ofBits_zero_f32]
  rfl

/-- The same entry when the tile's rows are rows n·5000 + p of an array A, the weights are W and the bias row is B:
    entry (n·5000 + p, q) of the encoder of the whole arrays. -/
theorem tile_entry (A : (⟨2, ![350000, 14]⟩ : Shape).Idx → EReal) (W : (⟨2, ![14, 128]⟩ : Shape).Idx → EReal)
    (B : (⟨2, ![1, 128]⟩ : Shape).Idx → EReal)
    (x0 : Vec Ideal S5000x14 .f32) (x1 : Vec Ideal S14x128 .f32) (x2 : Vec Ideal S1x128 .f32) (n : ℕ)
    (h0 : ∀ (p : Fin 5000) (kk : Fin 14) (r : Fin 350000), r.val = n * 5000 + p.val → x0 (ix2 p kk) = A (ix2 r kk))
    (h1 : ∀ (kk : Fin 14) (q : Fin 128), x1 (ix2 kk q) = W (ix2 kk q))
    (h2 : ∀ q : Fin 128, x2 (ix2 (0 : Fin 1) q) = B (ix2 (0 : Fin 1) q))
    (j : S5000x128.Idx) (i : S350000x128.Idx) (hi0 : (i 0).val = n * 5000 + (j 0).val) (hi1 : (i 1).val = (j 1).val) :
    k1_pay1 (F := Ideal) x0 x1 x2 j = Cert.Spec.encode A W (fun i => B (ix2 0 (i 0))) i := by
  obtain ⟨p, q, rfl⟩ : ∃ (p : Fin 5000) (q : Fin 128), j = ix2 p q := ⟨j 0, j 1, eq_ix2 j⟩
  obtain ⟨r, s, rfl⟩ : ∃ (r : Fin 350000) (s : Fin 128), i = ix2 r s := ⟨i 0, i 1, eq_ix2 i⟩
  obtain rfl : s = q := Fin.ext hi1
  rw [body_entry]
  show _ = max (∑ kk : Fin 14, A (ix2 r kk) * W (ix2 kk s) + B (ix2 (0 : Fin 1) s)) 0
  simp only [h0 _ _ r hi0, h1, h2]

/-! ## The tiles of the four windows -/

/-- The zero offsets of a whole-buffer access. -/
theorem zero_offsets : (![0, 0] : Fin 2 → Nat) = fun _ => 0 := funext fun a => by fin_cases a <;> rfl

/-- The printed index maps, decided over the grid: the row tiles of the input and of the output move with the grid
    point, the weights and the bias row stay at their one block. -/
theorem tile_offsets : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

-- The buffer contents a region is entered with.
variable (V : (c : Dev nD) → (b : Ref sig .tc) → Buf (Elt Ideal) ((c : Thread nD τ).loc b))

/-- Row p of the input's tile at point t is row t·5000 + p of the input array. -/
theorem rows_tile (c : Dev nD) (t : Fin cfg1.N) (p : Fin 5000) (kk : Fin 14) (r : Fin 350000)
    (hr : r.val = t.val * 5000 + p.val) :
    (iblk1 V c 0 t : Vec Ideal S5000x14 .f32) (ix2 p kk) = (V c main_v20 : S350000x14.Idx → EReal) (ix2 r kk) := by
  obtain ⟨e0, e1, -⟩ := tile_offsets t
  unfold iblk1
  rw [View.read_apply]
  show V c main_v20 _ = V c main_v20 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 14 + 1 * kk.val = kk.val; rw [e1]; omega

/-- The weights' tile at every point is the weight array. -/
theorem weights_tile (c : Dev nD) (t : Fin cfg1.N) (kk : Fin 14) (q : Fin 128) :
    (iblk1 V c 1 t : Vec Ideal S14x128 .f32) (ix2 kk q) = (V c main_arg13 : S14x128.Idx → EReal) (ix2 kk q) := by
  obtain ⟨-, -, e2, e3, -⟩ := tile_offsets t
  unfold iblk1
  rw [View.read_apply]
  show V c main_arg13 _ = V c main_arg13 _
  congr 1
  funext a
  apply Fin.ext
  match a with
  | ⟨0, _⟩ => show win1_1.index t (0 : Fin 2) * 14 + 1 * kk.val = kk.val; rw [e2]; omega
  | ⟨1, _⟩ => show win1_1.index t (1 : Fin 2) * 128 + 1 * q.val = q.val; rw [e3]; omega

/-- The bias row's tile at every point is the bias row. -/
theorem bias_tile (c : Dev nD) (t : Fin cfg1.N) (q : Fin 128) :
    (iblk1 V c 2 t : Vec Ideal S1x128 .f32) (ix2 (0 : Fin 1) q) = (V c main_v36 : S1x128.Idx → EReal) (ix2 (0 : Fin 1) q) := by
  obtain ⟨-, -, -, -, e4, e5, -⟩ := tile_offsets t
  unfold iblk1
  rw [View.read_apply]
  show V c main_v36 _ = V c main_v36 _
  congr 1
  funext a
  apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

/-! ## What a point writes back -/

/-- What point t writes back is tile t of the encoder of the whole input arrays: the body's one store fills the
    output's buffer with its payload of the three loaded tiles, and entry (p, q) of the output's tile sits at row
    t·5000 + p, column q of the output array. -/
theorem tile_written (c : Dev nD) (t : Fin cfg1.N) :
    (dat1 (F := Ideal) V c).flushed 3 t
      = ((cfg1.win 3).blk t).view.read (Elt Ideal)
          (Cert.Spec.encode (V c main_v20) (V c main_arg13) (fun i => V c main_v36 (ix2 0 (i 0)))) := by
  show (cfg1.win 3).cut (grid1.coords t) ((dat1 V c).after 3 t) = _
  rw [after1_3]
  unfold out1_3
  rw [View.canon_unit_zero zero_offsets]
  simp only [View.ld_unit_zero (S := S5000x14) zero_offsets, View.ld_unit_zero (S := S14x128) zero_offsets,
    View.ld_unit_zero (S := S1x128) zero_offsets]
  obtain ⟨-, -, -, -, -, -, e6, e7⟩ := tile_offsets t
  funext j
  show k1_pay1 (F := Ideal) (iblk1 V c 0 t) (iblk1 V c 1 t) (iblk1 V c 2 t) j
    = Cert.Spec.encode (V c main_v20) (V c main_arg13) (fun i => V c main_v36 (ix2 0 (i 0))) (((cfg1.win 3).blk t).view.emb j)
  refine tile_entry (V c main_v20) (V c main_arg13) (V c main_v36) _ _ _ t.val
    (fun p kk r hr => rows_tile V c t p kk r hr) (fun kk q => weights_tile V c t kk q) (fun q => bias_tile V c t q)
    j (((cfg1.win 3).blk t).view.emb j) ?_ ?_
  · show win1_3.index t (0 : Fin 2) * 5000 + 1 * (j 0).val = t.val * 5000 + (j 0).val
    rw [e6]; omega
  · show win1_3.index t (1 : Fin 2) * 128 + 1 * (j 1).val = (j 1).val
    rw [e7]; omega

/-! ## The tiles cover the array -/

/-- An index of the output array is in point t's tile iff each coordinate is in the tile's range on its axis. -/
theorem mem_tile (t : Fin cfg1.N) (i : S350000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v37).slice (win1_3.rect t)).set ↔ _
  rw [View.set_slice_whole, Rect.mem_set_unit]
  exact Iff.rfl

/-- Row r of the output array is in the tile of point r / 5000, which writes back. -/
theorem tiles_cover (i : S350000x128.Idx) :
    ∃ t : Fin cfg1.N, (cfg1.win 3).flush t = true ∧ i ∈ ((cfg1.win 3).blk t).view.set := by
  have hi0 : (i 0).val < 350000 := (i 0).isLt
  have hi1 : (i 1).val < 128 := (i 1).isLt
  have hN : cfg1.N = 70 := N_1
  obtain ⟨t, ht⟩ : ∃ t : Fin cfg1.N, t.val = (i 0).val / 5000 := ⟨⟨(i 0).val / 5000, by rw [hN]; omega⟩, rfl⟩
  obtain ⟨-, -, -, -, -, -, e6, e7⟩ := tile_offsets t
  refine ⟨t, flush1_3 t, ?_⟩
  rw [mem_tile]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-! ## The whole array -/

/-- After the encoder has run over its 70 row tiles, its output array is the encoder of the whole input arrays. -/
theorem value (c : Dev nD) :
    (dat1 (F := Ideal) V c).arrAt 3 cfg1.N
      = Cert.Spec.encode (V c main_v20) (V c main_arg13) (fun i => V c main_v36 (ix2 0 (i 0))) :=
  (dat1 (F := Ideal) V c).arrAt_eq_of_cover 3 _ (fun t _ => tile_written V c t) tiles_cover

end Cert.KernelIdeal.Reg1

end
-- ==== Proof.ChainC1.lean ====
-- Sub-graph branch: the gathered inputs and the two encoders agree with the reference's stages.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg0
import proofs.«400221_j39548058861723_2_alg».proof.Proof.Reg1
import proofs.«400221_j39548058861723_2_alg».proof.Proof.HostForms

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in
theorem k6 (hag : Agree m m') (c : Dev nD) : W1 m ρ c (Proc.devRef .tc main_v6) = rv_v6 (F := Ideal) m' c := by
  unfold rv_v6 rv_v5 rv_v4 rv_v3 rv_v2 rv_v1 rv_v0 rv_c rv_c_0
  rw [(hag c).1, (hag c).2.2.2.2.2.2.1]
  show StableHlo.after hostOps0 (W0 m ρ c) (Proc.devRef .tc main_v6) = _
  after_results_simp <;> rfl

set_option maxHeartbeats 4000000 in
theorem k13 (hag : Agree m m') (c : Dev nD) : W1 m ρ c (Proc.devRef .tc main_v13) = rv_v13 (F := Ideal) m' c := by
  unfold rv_v13 rv_v12 rv_v11 rv_v10 rv_v9 rv_v8 rv_v7 rv_c_1 rv_c_2
  rw [(hag c).2.1, (hag c).2.2.2.2.2.2.1]
  show StableHlo.after hostOps0 (W0 m ρ c) (Proc.devRef .tc main_v13) = _
  after_results_simp <;> rfl

set_option maxHeartbeats 4000000 in
theorem k20 (hag : Agree m m') (c : Dev nD) : W1 m ρ c (Proc.devRef .tc main_v20) = rv_v20 (F := Ideal) m' c := by
  unfold rv_v20 rv_v19 rv_v18 rv_v17 rv_v16 rv_v15 rv_v14 rv_c_3 rv_c_4
  rw [(hag c).2.2.2.1, (hag c).2.2.2.2.2.2.2.2.2.1]
  show StableHlo.after hostOps0 (W0 m ρ c) (Proc.devRef .tc main_v20) = _
  after_results_simp <;> rfl

set_option maxHeartbeats 4000000 in
theorem k29 (hag : Agree m m') (c : Dev nD) : W1 m ρ c (Proc.devRef .tc main_v29) = rv_v29 (F := Ideal) m' c := by
  unfold rv_v29 rv_v28 rv_v27 rv_v26 rv_v25 rv_v24 rv_v23 rv_v22 rv_v21 rv_c_5 rv_c_6
  rw [(hag c).2.2.2.2.1, (hag c).2.2.2.2.2.2.2.2.2.1, (hag c).2.2.2.2.2.2.2.2.2.2.1]
  show StableHlo.after hostOps0 (W0 m ρ c) (Proc.devRef .tc main_v29) = _
  after_results_simp <;> rfl

set_option maxHeartbeats 4000000 in
theorem k31 (hag : Agree m m') (c : Dev nD) : W1 m ρ c (Proc.devRef .tc main_v31) = rv_v31 (F := Ideal) m' c := by
  unfold rv_v31 rv_v30
  rw [(hag c).2.2.2.2.2.2.2.2.1]
  show StableHlo.after hostOps0 (W0 m ρ c) (Proc.devRef .tc main_v31) = _
  after_results_simp <;> rfl

set_option maxHeartbeats 4000000 in
theorem k33 (hag : Agree m m') (c : Dev nD) : W1 m ρ c (Proc.devRef .tc main_v33) = rv_v33 (F := Ideal) m' c := by
  unfold rv_v33 rv_v32
  rw [(hag c).2.2.2.2.2.2.2.2.1]
  show StableHlo.after hostOps0 (W0 m ρ c) (Proc.devRef .tc main_v33) = _
  after_results_simp <;> rfl

theorem k34 (c : Dev nD) : W1 m ρ c (Proc.devRef .tc main_v34) = shapeCast S1x128 (m ((c : Thread nD τ).loc main_arg12)) shapeCasts_S128_S1x128 := by
  show StableHlo.after hostOps0 (W0 m ρ c) (Proc.devRef .tc main_v34) = _
  after_results
  rfl

theorem k35 (hag : Agree m m') (c : Dev nD) : W2 m ρ c (Proc.devRef .tc main_v35) = rv_v38 (F := Ideal) m' c := by
  have hreg := Cert.KernelIdeal.Reg0.value (V1 m ρ) c
  have hx : V1 m ρ c main_v6 = rv_v6 (F := Ideal) m' c := k6 m ρ m' hag c
  have hw : V1 m ρ c main_arg11 = m' ((c.tc : Thread Cert.ReferenceIdeal.nD Cert.ReferenceIdeal.τ).loc Cert.ReferenceIdeal.main_arg11) :=
    (keep1 m ρ c main_arg11 (by decide)).trans ((hag c).2.2.2.2.2.2.2.2.2.2.2.1).symm
  have hb : (fun i : (⟨1, ![128]⟩ : Shape).Idx => V1 m ρ c main_v34 (ix2 0 (i 0)))
      = m' ((c.tc : Thread Cert.ReferenceIdeal.nD Cert.ReferenceIdeal.τ).loc Cert.ReferenceIdeal.main_arg12) := by
    rw [show V1 m ρ c main_v34 = _ from k34 m ρ c]
    exact (Cert.HostForms.row_of_cast _ _).trans ((hag c).2.2.2.2.2.2.2.2.2.2.2.2.1).symm
  refine (W2_arr m ρ c 3).trans (hreg.trans ?_)
  rw [hx, hw]
  refine (congrArg (Cert.Spec.encode (rv_v6 (F := Ideal) m' c) (m' ((c.tc : Thread Cert.ReferenceIdeal.nD Cert.ReferenceIdeal.τ).loc Cert.ReferenceIdeal.main_arg11))) hb).trans ?_
  unfold rv_v38 rv_call0_v0 rv_call0_cst rv_v37 rv_v36 rv_v35 rv_v34
  exact (Cert.HostForms.encode_eq _ rfl rfl rfl rfl rfl rfl _ _ _ _ _ _).symm

theorem k36 (c : Dev nD) : W3 m ρ c (Proc.devRef .tc main_v36) = shapeCast S1x128 (m ((c : Thread nD τ).loc main_arg14)) shapeCasts_S128_S1x128 := by
  show StableHlo.after hostOps1 (W2 m ρ c) (Proc.devRef .tc main_v36) = _
  after_results
  exact congrArg (fun x => shapeCast S1x128 x shapeCasts_S128_S1x128)
    (keepSpan m ρ c main_arg14 0 2 (by decide) (by decide))

theorem k37 (hag : Agree m m') (c : Dev nD) : W4 m ρ c (Proc.devRef .tc main_v37) = rv_v43 (F := Ideal) m' c := by
  have hreg := Cert.KernelIdeal.Reg1.value (V3 m ρ) c
  have hx : V3 m ρ c main_v20 = rv_v20 (F := Ideal) m' c :=
    (keepSpan m ρ c main_v20 1 2 (by decide) (by decide)).trans (k20 m ρ m' hag c)
  have hw : V3 m ρ c main_arg13 = m' ((c.tc : Thread Cert.ReferenceIdeal.nD Cert.ReferenceIdeal.τ).loc Cert.ReferenceIdeal.main_arg13) :=
    (keepSpan m ρ c main_arg13 0 3 (by decide) (by decide)).trans ((hag c).2.2.2.2.2.2.2.2.2.2.2.2.2.1).symm
  have hb : (fun i : (⟨1, ![128]⟩ : Shape).Idx => V3 m ρ c main_v36 (ix2 0 (i 0)))
      = m' ((c.tc : Thread Cert.ReferenceIdeal.nD Cert.ReferenceIdeal.τ).loc Cert.ReferenceIdeal.main_arg14) := by
    rw [show V3 m ρ c main_v36 = _ from k36 m ρ c]
    exact (Cert.HostForms.row_of_cast _ _).trans ((hag c).2.2.2.2.2.2.2.2.2.2.2.2.2.2.1).symm
  refine (W4_arr m ρ c 3).trans (hreg.trans ?_)
  rw [hx, hw]
  refine (congrArg (Cert.Spec.encode (rv_v20 (F := Ideal) m' c) (m' ((c.tc : Thread Cert.ReferenceIdeal.nD Cert.ReferenceIdeal.τ).loc Cert.ReferenceIdeal.main_arg13))) hb).trans ?_
  unfold rv_v43 rv_call1_v0 rv_call1_cst rv_v42 rv_v41 rv_v40 rv_v39
  exact (Cert.HostForms.encode_eq _ rfl rfl rfl rfl rfl rfl _ _ _ _ _ _).symm

end Cert.Chain

end
-- ==== Proof.Reg2.lean ====
-- As the encoder, with the old state added before the clamp; sums reassociate freely over the extended reals.
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

theorem payload_apply (a : FVec Ideal S5000x128 .f32) (w : FVec Ideal S128x128 .f32) (b : FVec Ideal S1x128 .f32)
    (h : FVec Ideal S5000x128 .bf16) (p : Fin 5000) (q : Fin 128) :
    k2_pay1 (F := Ideal) a w b h (ix2 p q)
      = max (h (ix2 p q) + (∑ kk : Fin 128, a (ix2 p kk) * w (ix2 kk q) + b (ix2 0 q))) 0 := by
  unfold k2_pay1
  simp only [truncf_apply, maximumf_apply, addf_apply, extf_apply, broadcast_apply, shapeCast_self, matmul,
    broadcastTo_1b_ab_apply,
    Cert.LibDense.matmul_zero_apply dot_S5000x128_S128x128_S5000x128_1_0_0_1_n_n none rfl rfl rfl rfl rfl rfl]
  exact congrArg (max _) Ideal.ofBits_zero_f32

theorem tile_entry {N : ℕ} (H A : (⟨2, ![N, 128]⟩ : Shape).Idx → EReal) (W : S128x128.Idx → EReal) (B : S1x128.Idx → EReal)
    (a : FVec Ideal S5000x128 .f32) (w : FVec Ideal S128x128 .f32) (b : FVec Ideal S1x128 .f32) (h : FVec Ideal S5000x128 .bf16)
    (i : (⟨2, ![N, 128]⟩ : Shape).Idx) (p : Fin 5000) (q : Fin 128)
    (hh : h (ix2 p q) = H (ix2 (i 0) (i 1)))
    (ha : ∀ kk : Fin 128, a (ix2 p kk) = A (ix2 (i 0) kk))
    (hw : ∀ kk : Fin 128, w (ix2 kk q) = W (ix2 kk (i 1)))
    (hb : b (ix2 0 q) = B (ix2 0 (i 1))) :
    k2_pay1 (F := Ideal) a w b h (ix2 p q) = Cert.Spec.update H A W (fun j => B (ix2 0 (j 0))) i := by
  rw [payload_apply, hh, hb,
    Finset.sum_congr rfl fun kk _ => show a (ix2 p kk) * w (ix2 kk q) = A (ix2 (i 0) kk) * W (ix2 kk (i 1)) by rw [ha kk, hw kk],
    ← add_assoc]
  rfl

theorem index_facts : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

theorem flushed_eq (c : Dev nD) (t : Fin cfg2.N) :
    (dat2 (F := Ideal) V c).flushed 4 t
      = ((cfg2.win 4).blk t).view.read (Elt Ideal)
          (Cert.Spec.update (V c main_v35) (V c main_v53) (V c main_v55) (fun i => V c main_v58 (ix2 0 (i 0)))) := by
  show (cfg2.win 4).cut (grid2.coords t) ((dat2 (F := Ideal) V c).after 4 t) = _
  rw [after2_4]
  unfold out2_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  show k2_pay1 (F := Ideal) (iblk2 V c 1 t) (iblk2 V c 2 t) (iblk2 V c 3 t) (iblk2 V c 0 t) (ix2 p q)
    = Cert.Spec.update (V c main_v35) (V c main_v53) (V c main_v55) (fun i => V c main_v58 (ix2 0 (i 0)))
        (((cfg2.win 4).blk t).view.emb (ix2 p q))
  refine tile_entry (V c main_v35) (V c main_v53) (V c main_v55) (V c main_v58) _ _ _ _ _ p q ?_ (fun kk => ?_) (fun kk => ?_) ?_
  · show V c main_v35 (((cfg2.win 0).blk t).view.emb (ix2 p q)) = _
    refine congrArg (V c main_v35) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * q.val = win2_4.index t (1 : Fin 2) * 128 + 1 * q.val; omega
  · show V c main_v53 (((cfg2.win 1).blk t).view.emb (ix2 p kk)) = _
    refine congrArg (V c main_v53) (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 128 + 1 * kk.val = kk.val; omega
  · show V c main_v55 (((cfg2.win 2).blk t).view.emb (ix2 kk q)) = _
    refine congrArg (V c main_v55) (funext fun a => Fin.ext ?_)
    match a with
    | ⟨0, _⟩ => show win2_2.index t (0 : Fin 2) * 128 + 1 * kk.val = kk.val; omega
    | ⟨1, _⟩ => show win2_2.index t (1 : Fin 2) * 128 + 1 * q.val = win2_4.index t (1 : Fin 2) * 128 + 1 * q.val; omega
  · show V c main_v58 (((cfg2.win 3).blk t).view.emb (ix2 0 q)) = _
    refine congrArg (V c main_v58) (funext fun a => Fin.ext ?_)
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega

theorem mem_tile (t : Fin cfg2.N) (i : S150000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v59).slice (win2_4.rect t)).set ↔ _
  rw [View.set_slice_whole, Rect.mem_set_unit]
  exact Iff.rfl

theorem covered (i : S150000x128.Idx) :
    ∃ t : Fin cfg2.N, (cfg2.win 4).flush t = true ∧ i ∈ ((cfg2.win 4).blk t).view.set := by
  have hN : cfg2.N = 30 := N_2
  have hi0 : (i 0).val < 150000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, -, -, -, -, e40, e41⟩ := index_facts t
  refine ⟨t, flush2_4 t, ?_⟩
  rw [mem_tile]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

theorem value (c : Dev nD) :
    (dat2 (F := Ideal) V c).arrAt 4 cfg2.N
      = Cert.Spec.update (V c main_v35) (V c main_v53) (V c main_v55) (fun i => V c main_v58 (ix2 0 (i 0))) :=
  (dat2 (F := Ideal) V c).arrAt_eq_of_cover 4 _ (fun t _ => flushed_eq V c t) covered

end Cert.KernelIdeal.Reg2

end
-- ==== Proof.MsgForms.lean ====
-- Scaling a message by its edge weight on either side gives one value: the product commutes.
import Idealize.ShloMosaic.PureOps.Ideal
import Idealize.ShloMosaic.Lib.ValueIdx
import Idealize.ShloMosaic.Lib.StableHlo.Predicate
import proofs.«400221_j39548058861723_2_alg».proof.Proof.HostForms

noncomputable section

namespace Cert.MsgForms

open Idealize.ShloMosaic Idealize.ShloMosaic.ValueIdx Idealize.ShloMosaic.StableHlo.Predicate

variable {e h : ℕ}

theorem cast_col_apply (hs : (⟨1, ![e]⟩ : Shape).ShapeCasts ⟨2, ![e, 1]⟩)
    (b2 : (⟨2, ![e, 1]⟩ : Shape).BroadcastsInDim ⟨2, ![e, h]⟩ ![0, 1]) (w : (⟨1, ![e]⟩ : Shape).Idx → EReal) (p : Fin e) (q : Fin h) :
    broadcastInDim ⟨2, ![e, h]⟩ ![0, 1] b2 (shapeCast ⟨2, ![e, 1]⟩ w hs) (ix2 p q) = w (ix1 p) := by
  have hc := congrFun (Cert.HostForms.col_of_cast hs w) (ix1 p)
  rw [← Cert.HostForms.ij_eq_ix2, bcast_of_col]
  exact hc

theorem message_eq (hs : (⟨1, ![e]⟩ : Shape).ShapeCasts ⟨2, ![e, 1]⟩)
    (b2 : (⟨2, ![e, 1]⟩ : Shape).BroadcastsInDim ⟨2, ![e, h]⟩ ![0, 1])
    (b1 : (⟨1, ![e]⟩ : Shape).BroadcastsInDim ⟨2, ![e, 1]⟩ ![0])
    (g c : FVec Ideal ⟨2, ![e, h]⟩ .f32) (w : FVec Ideal ⟨1, ![e]⟩ .f32) :
    mulf (addf g c) (broadcastInDim ⟨2, ![e, h]⟩ ![0, 1] b2 (shapeCast ⟨2, ![e, 1]⟩ w hs))
      = mulf (broadcastInDim ⟨2, ![e, h]⟩ ![0, 1] b2 (broadcastInDim ⟨2, ![e, 1]⟩ ![0] b1 w)) (addf g c) := by
  funext i
  obtain ⟨p, q, rfl⟩ : ∃ (p : Fin e) (q : Fin h), i = ix2 p q := ⟨i 0, i 1, eq_ix2 i⟩
  rw [mulf_apply, mulf_apply, cast_col_apply, Cert.HostForms.down_columns_apply]
  exact mul_comm _ _

end Cert.MsgForms

end
-- ==== Proof.ChainC2.lean ====
-- Sub-graph branch, first message round and update.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg2
import proofs.«400221_j39548058861723_2_alg».proof.Proof.HostForms
import proofs.«400221_j39548058861723_2_alg».proof.Proof.MsgForms
import proofs.«400221_j39548058861723_2_alg».proof.Proof.ChainC1

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

theorem k38 (hag : Agree m m') (c : Dev nD) : W5 m ρ c (Proc.devRef .tc main_v38) = rv_v43 (F := Ideal) m' c := by
  show StableHlo.after hostOps2 (W4 m ρ c) (Proc.devRef .tc main_v38) = _
  after_results_simp
  exact k37 m ρ m' hag c

theorem k39 (hag : Agree m m') (c : Dev nD) :
    W5 m ρ c (Proc.devRef .tc main_v39) = shapeCast S350000x1 (rv_v29 (F := Ideal) m' c) shapeCasts_S350000_S350000x1 := by
  show StableHlo.after hostOps2 (W4 m ρ c) (Proc.devRef .tc main_v39) = _
  after_results_simp
  exact congrArg (fun x => shapeCast S350000x1 x shapeCasts_S350000_S350000x1)
    ((keepSpan m ρ c main_v29 1 3 (by decide) (by decide)).trans (k29 m ρ m' hag c))

set_option maxHeartbeats 4000000 in

theorem k53 (hag : Agree m m') (c : Dev nD) : W5 m ρ c (Proc.devRef .tc main_v53) = rv_v57 (F := Ideal) m' c := by
  have h37 : W4 m ρ c (Proc.devRef .tc main_v37) = rv_v43 (F := Ideal) m' c := k37 m ρ m' hag c
  have h29 : W4 m ρ c (Proc.devRef .tc main_v29) = rv_v29 (F := Ideal) m' c := (keepSpan m ρ c main_v29 1 3 (by decide) (by decide)).trans (k29 m ρ m' hag c)
  have h31 : W4 m ρ c (Proc.devRef .tc main_v31) = rv_v31 (F := Ideal) m' c := (keepSpan m ρ c main_v31 1 3 (by decide) (by decide)).trans (k31 m ρ m' hag c)
  have h33 : W4 m ρ c (Proc.devRef .tc main_v33) = rv_v33 (F := Ideal) m' c := (keepSpan m ρ c main_v33 1 3 (by decide) (by decide)).trans (k33 m ρ m' hag c)
  have h35 : W4 m ρ c (Proc.devRef .tc main_v35) = rv_v38 (F := Ideal) m' c := (keepSpan m ρ c main_v35 2 2 (by decide) (by decide)).trans (k35 m ρ m' hag c)
  show StableHlo.after hostOps2 (W4 m ρ c) (Proc.devRef .tc main_v53) = _
  after_results_simp
  rw [h37, h29, h31, h33, h35]
  unfold rv_v57 rv_v55 rv_cst rv_v56 rv_v54 rv_v53 rv_v44 rv_v52 rv_v51 rv_v50 rv_v49 rv_v46 rv_v45 rv_c_7 rv_v48 rv_v47 rv_c_8
  refine (congrArg (Host.scatterAdd _ _ _) (Cert.MsgForms.message_eq shapeCasts_S350000_S350000x1 bcast_S350000x1_S350000x128_0_1 Cert.ReferenceIdeal.Gen.bcast_S350000_S350000x1_0 _ _ (rv_v29 (F := Ideal) m' c))).trans ?_
  rfl

theorem k55 (hag : Agree m m') (c : Dev nD) : W5 m ρ c (Proc.devRef .tc main_v55) = rv_v59 (F := Ideal) m' c := by
  have h15 : W4 m ρ c (Proc.devRef .tc main_arg15) = m' ((c.tc : Thread Cert.ReferenceIdeal.nD Cert.ReferenceIdeal.τ).loc Cert.ReferenceIdeal.main_arg15) :=
    (keepSpan m ρ c main_arg15 0 4 (by decide) (by decide)).trans ((hag c).2.2.2.2.2.2.2.2.2.2.2.2.2.2.2.1).symm
  show StableHlo.after hostOps2 (W4 m ρ c) (Proc.devRef .tc main_v55) = _
  after_results_simp
  rw [h15]
  unfold rv_v59 rv_v58
  rfl

theorem k58 (hag : Agree m m') (c : Dev nD) :
    W5 m ρ c (Proc.devRef .tc main_v58) = shapeCast S1x128 (rv_v63 (F := Ideal) m' c) shapeCasts_S128_S1x128 := by
  have h16 : W4 m ρ c (Proc.devRef .tc main_arg16) = m' ((c.tc : Thread Cert.ReferenceIdeal.nD Cert.ReferenceIdeal.τ).loc Cert.ReferenceIdeal.main_arg16) :=
    (keepSpan m ρ c main_arg16 0 4 (by decide) (by decide)).trans ((hag c).2.2.2.2.2.2.2.2.2.2.2.2.2.2.2.2.1).symm
  show StableHlo.after hostOps2 (W4 m ρ c) (Proc.devRef .tc main_v58) = _
  after_results_simp
  rw [h16]
  unfold rv_v63 rv_v62
  rfl

theorem k59 (hag : Agree m m') (c : Dev nD) : W6 m ρ c (Proc.devRef .tc main_v59) = rv_v67 (F := Ideal) m' c := by
  have hreg := Cert.KernelIdeal.Reg2.value (V5 m ρ) c
  have hh : V5 m ρ c main_v35 = rv_v38 (F := Ideal) m' c := (keepSpan m ρ c main_v35 2 3 (by decide) (by decide)).trans (k35 m ρ m' hag c)
  have ha : V5 m ρ c main_v53 = rv_v57 (F := Ideal) m' c := k53 m ρ m' hag c
  have hw : V5 m ρ c main_v55 = rv_v59 (F := Ideal) m' c := k55 m ρ m' hag c
  have hb : (fun i : (⟨1, ![128]⟩ : Shape).Idx => V5 m ρ c main_v58 (ix2 0 (i 0))) = rv_v63 (F := Ideal) m' c := by
    rw [show V5 m ρ c main_v58 = _ from k58 m ρ m' hag c]
    exact Cert.HostForms.row_of_cast _ _
  refine (W6_arr m ρ c 4).trans (hreg.trans ?_)
  rw [hh, ha, hw]
  refine (congrArg (Cert.Spec.update (rv_v38 (F := Ideal) m' c) (rv_v57 (F := Ideal) m' c) (rv_v59 (F := Ideal) m' c)) hb).trans ?_
  unfold rv_v67 rv_v66 rv_v61 rv_v60 rv_v65 rv_v64 rv_call2_v0 rv_call2_cst
  exact (Cert.HostForms.update_eq _ rfl rfl rfl rfl rfl rfl _ _ _ _ _ _ _).symm

end Cert.Chain

end
-- ==== Proof.Reg3.lean ====
-- As the first update, with this launch's arrays: the tile's entry is the template's, the tiles partition the rows.
import proofs.«400221_j39548058861723_2_alg».proof.Proof.Gen.KernelIdeal.Frame
import proofs.«400221_j39548058861723_2_alg».proof.Proof.Spec
import proofs.«400221_j39548058861723_2_alg».proof.Proof.Reg2
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

theorem index_facts : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

theorem flushed_eq (c : Dev nD) (t : Fin cfg3.N) :
    (dat3 (F := Ideal) V c).flushed 4 t
      = ((cfg3.win 4).blk t).view.read (Elt Ideal)
          (Cert.Spec.update (V c main_v59) (V c main_v73) (V c main_v75) (fun i => V c main_v78 (ix2 0 (i 0)))) := by
  show (cfg3.win 4).cut (grid3.coords t) ((dat3 (F := Ideal) V c).after 4 t) = _
  rw [after3_4]
  unfold out3_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  show k2_pay1 (F := Ideal) (iblk3 V c 1 t) (iblk3 V c 2 t) (iblk3 V c 3 t) (iblk3 V c 0 t) (ix2 p q)
    = Cert.Spec.update (V c main_v59) (V c main_v73) (V c main_v75) (fun i => V c main_v78 (ix2 0 (i 0)))
        (((cfg3.win 4).blk t).view.emb (ix2 p q))
  refine Reg2.tile_entry (V c main_v59) (V c main_v73) (V c main_v75) (V c main_v78) _ _ _ _ _ p q ?_ (fun kk => ?_) (fun kk => ?_) ?_
  · show V c main_v59 (((cfg3.win 0).blk t).view.emb (ix2 p q)) = _
    refine congrArg (V c main_v59) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  · show V c main_v73 (((cfg3.win 1).blk t).view.emb (ix2 p kk)) = _
    refine congrArg (V c main_v73) (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * kk.val = kk.val; omega
  · show V c main_v75 (((cfg3.win 2).blk t).view.emb (ix2 kk q)) = _
    refine congrArg (V c main_v75) (funext fun a => Fin.ext ?_)
    match a with
    | ⟨0, _⟩ => show win3_2.index t (0 : Fin 2) * 128 + 1 * kk.val = kk.val; omega
    | ⟨1, _⟩ => show win3_2.index t (1 : Fin 2) * 128 + 1 * q.val = win3_4.index t (1 : Fin 2) * 128 + 1 * q.val; omega
  · show V c main_v78 (((cfg3.win 3).blk t).view.emb (ix2 0 q)) = _
    refine congrArg (V c main_v78) (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

theorem mem_tile (t : Fin cfg3.N) (i : S150000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v79).slice (win3_4.rect t)).set ↔ _
  rw [View.set_slice_whole, Rect.mem_set_unit]
  exact Iff.rfl

theorem covered (i : S150000x128.Idx) :
    ∃ t : Fin cfg3.N, (cfg3.win 4).flush t = true ∧ i ∈ ((cfg3.win 4).blk t).view.set := by
  have hN : cfg3.N = 30 := N_3
  have hi0 : (i 0).val < 150000 := (i 0).isLt
  have hi1 : (i 1).val < 128 := (i 1).isLt
  obtain ⟨t, ht⟩ : ∃ t : Fin cfg3.N, t.val = (i 0).val / 5000 := ⟨⟨(i 0).val / 5000, by rw [hN]; omega⟩, rfl⟩
  obtain ⟨-, -, -, -, -, -, -, -, e40, e41⟩ := index_facts t
  refine ⟨t, flush3_4 t, ?_⟩
  rw [mem_tile]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

theorem value (c : Dev nD) :
    (dat3 (F := Ideal) V c).arrAt 4 cfg3.N
      = Cert.Spec.update (V c main_v59) (V c main_v73) (V c main_v75) (fun i => V c main_v78 (ix2 0 (i 0))) :=
  (dat3 (F := Ideal) V c).arrAt_eq_of_cover 4 _ (fun t _ => flushed_eq V c t) covered

end Cert.KernelIdeal.Reg3

end
-- ==== Proof.ChainC3.lean ====
-- Sub-graph branch, second message round and update.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg3
import proofs.«400221_j39548058861723_2_alg».proof.Proof.HostForms
import proofs.«400221_j39548058861723_2_alg».proof.Proof.MsgForms
import proofs.«400221_j39548058861723_2_alg».proof.Proof.ChainC1
import proofs.«400221_j39548058861723_2_alg».proof.Proof.ChainC2

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in

theorem k73 (hag : Agree m m') (c : Dev nD) : W7 m ρ c (Proc.devRef .tc main_v73) = rv_v80 (F := Ideal) m' c := by
  have hh : W6 m ρ c (Proc.devRef .tc main_v59) = rv_v67 (F := Ideal) m' c := (k59 m ρ m' hag c)
  have he : W6 m ρ c (Proc.devRef .tc main_v38) = rv_v43 (F := Ideal) m' c := ((keep6 m ρ c main_v38 (by decide)).trans (k38 m ρ m' hag c))
  have hw : W6 m ρ c (Proc.devRef .tc main_v39) = shapeCast S350000x1 (rv_v29 (F := Ideal) m' c) shapeCasts_S350000_S350000x1 := ((keep6 m ρ c main_v39 (by decide)).trans (k39 m ρ m' hag c))
  have hs : W6 m ρ c (Proc.devRef .tc main_v31) = rv_v31 (F := Ideal) m' c := ((keepSpan m ρ c main_v31 1 5 (by decide) (by decide)).trans (k31 m ρ m' hag c))
  have hd : W6 m ρ c (Proc.devRef .tc main_v33) = rv_v33 (F := Ideal) m' c := ((keepSpan m ρ c main_v33 1 5 (by decide) (by decide)).trans (k33 m ρ m' hag c))
  show StableHlo.after hostOps3 (W6 m ρ c) (Proc.devRef .tc main_v73) = _
  after_results_simp
  rw [hh, he, hw, hs, hd]
  unfold rv_v80 rv_v78 rv_cst_11 rv_v79 rv_v77 rv_v76 rv_v44 rv_v75 rv_v74 rv_v73 rv_v72 rv_v69 rv_v68 rv_c_9 rv_v71 rv_v70 rv_c_10
  refine (congrArg (Host.scatterAdd _ _ _) (Cert.MsgForms.message_eq shapeCasts_S350000_S350000x1 bcast_S350000x1_S350000x128_0_1 Cert.ReferenceIdeal.Gen.bcast_S350000_S350000x1_0 _ _ (rv_v29 (F := Ideal) m' c))).trans ?_
  rfl

theorem k75 (hag : Agree m m') (c : Dev nD) : W7 m ρ c (Proc.devRef .tc main_v75) = rv_v82 (F := Ideal) m' c := by
  have ha : W6 m ρ c (Proc.devRef .tc main_arg15) = m' ((c.tc : Thread Cert.ReferenceIdeal.nD Cert.ReferenceIdeal.τ).loc Cert.ReferenceIdeal.main_arg15) :=
    (keepSpan m ρ c main_arg15 0 6 (by decide) (by decide)).trans (hag c).2.2.2.2.2.2.2.2.2.2.2.2.2.2.2.1.symm
  show StableHlo.after hostOps3 (W6 m ρ c) (Proc.devRef .tc main_v75) = _
  after_results_simp
  rw [ha]
  unfold rv_v82 rv_v81
  rfl

theorem k78 (hag : Agree m m') (c : Dev nD) :
    W7 m ρ c (Proc.devRef .tc main_v78) = shapeCast S1x128 (rv_v86 (F := Ideal) m' c) shapeCasts_S128_S1x128 := by
  have ha : W6 m ρ c (Proc.devRef .tc main_arg16) = m' ((c.tc : Thread Cert.ReferenceIdeal.nD Cert.ReferenceIdeal.τ).loc Cert.ReferenceIdeal.main_arg16) :=
    (keepSpan m ρ c main_arg16 0 6 (by decide) (by decide)).trans (hag c).2.2.2.2.2.2.2.2.2.2.2.2.2.2.2.2.1.symm
  show StableHlo.after hostOps3 (W6 m ρ c) (Proc.devRef .tc main_v78) = _
  after_results_simp
  rw [ha]
  unfold rv_v86 rv_v85
  rfl

theorem k79 (hag : Agree m m') (c : Dev nD) : W8 m ρ c (Proc.devRef .tc main_v79) = rv_v90 (F := Ideal) m' c := by
  have hreg := Cert.KernelIdeal.Reg3.value (V7 m ρ) c
  have hh : V7 m ρ c main_v59 = rv_v67 (F := Ideal) m' c := (keep7 m ρ c main_v59 (by decide)).trans (k59 m ρ m' hag c)
  have ha : V7 m ρ c main_v73 = rv_v80 (F := Ideal) m' c := k73 m ρ m' hag c
  have hw : V7 m ρ c main_v75 = rv_v82 (F := Ideal) m' c := k75 m ρ m' hag c
  have hb : (fun i : (⟨1, ![128]⟩ : Shape).Idx => V7 m ρ c main_v78 (ix2 0 (i 0))) = rv_v86 (F := Ideal) m' c := by
    rw [show V7 m ρ c main_v78 = _ from k78 m ρ m' hag c]
    exact Cert.HostForms.row_of_cast _ _
  refine (W8_arr m ρ c 4).trans (hreg.trans ?_)
  rw [hh, ha, hw]
  refine (congrArg (Cert.Spec.update (rv_v67 (F := Ideal) m' c) (rv_v80 (F := Ideal) m' c) (rv_v82 (F := Ideal) m' c)) hb).trans ?_
  unfold rv_v90 rv_v89 rv_v84 rv_v83 rv_v88 rv_v87 rv_call3_v0 rv_call3_cst
  exact (Cert.HostForms.update_eq _ rfl rfl rfl rfl rfl rfl _ _ _ _ _ _ _).symm

end Cert.Chain

end
-- ==== Proof.Reg4.lean ====
-- As the first update, with this launch's arrays: the tile's entry is the template's, the tiles partition the rows.
import proofs.«400221_j39548058861723_2_alg».proof.Proof.Gen.KernelIdeal.Frame
import proofs.«400221_j39548058861723_2_alg».proof.Proof.Spec
import proofs.«400221_j39548058861723_2_alg».proof.Proof.Reg2
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg4

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

theorem index_facts : ∀ t : Fin cfg4.N,
    win4_0.index t (0 : Fin 2) = win4_4.index t (0 : Fin 2) ∧ win4_0.index t (1 : Fin 2) = win4_4.index t (1 : Fin 2)
    ∧ win4_1.index t (0 : Fin 2) = win4_4.index t (0 : Fin 2) ∧ win4_1.index t (1 : Fin 2) = win4_4.index t (1 : Fin 2)
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

theorem flushed_eq (c : Dev nD) (t : Fin cfg4.N) :
    (dat4 (F := Ideal) V c).flushed 4 t
      = ((cfg4.win 4).blk t).view.read (Elt Ideal)
          (Cert.Spec.update (V c main_v79) (V c main_v93) (V c main_v95) (fun i => V c main_v98 (ix2 0 (i 0)))) := by
  show (cfg4.win 4).cut (grid4.coords t) ((dat4 (F := Ideal) V c).after 4 t) = _
  rw [after4_4]
  unfold out4_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  show k2_pay1 (F := Ideal) (iblk4 V c 1 t) (iblk4 V c 2 t) (iblk4 V c 3 t) (iblk4 V c 0 t) (ix2 p q)
    = Cert.Spec.update (V c main_v79) (V c main_v93) (V c main_v95) (fun i => V c main_v98 (ix2 0 (i 0)))
        (((cfg4.win 4).blk t).view.emb (ix2 p q))
  refine Reg2.tile_entry (V c main_v79) (V c main_v93) (V c main_v95) (V c main_v98) _ _ _ _ _ p q ?_ (fun kk => ?_) (fun kk => ?_) ?_
  · show V c main_v79 (((cfg4.win 0).blk t).view.emb (ix2 p q)) = _
    refine congrArg (V c main_v79) (funext fun a => Fin.ext ?_)
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * q.val = win4_4.index t (1 : Fin 2) * 128 + 1 * q.val; omega
  · show V c main_v93 (((cfg4.win 1).blk t).view.emb (ix2 p kk)) = _
    refine congrArg (V c main_v93) (funext fun a => Fin.ext ?_)
    match a with
    | ⟨0, _⟩ => show win4_1.index t (0 : Fin 2) * 5000 + 1 * p.val = win4_4.index t (0 : Fin 2) * 5000 + 1 * p.val; omega
    | ⟨1, _⟩ => show win4_1.index t (1 : Fin 2) * 128 + 1 * kk.val = kk.val; omega
  · show V c main_v95 (((cfg4.win 2).blk t).view.emb (ix2 kk q)) = _
    refine congrArg (V c main_v95) (funext fun a => Fin.ext ?_)
    match a with
    | ⟨0, _⟩ => show win4_2.index t (0 : Fin 2) * 128 + 1 * kk.val = kk.val; omega
    | ⟨1, _⟩ => show win4_2.index t (1 : Fin 2) * 128 + 1 * q.val = win4_4.index t (1 : Fin 2) * 128 + 1 * q.val; omega
  · show V c main_v98 (((cfg4.win 3).blk t).view.emb (ix2 0 q)) = _
    refine congrArg (V c main_v98) (funext fun a => Fin.ext ?_)
    match a with
    | ⟨0, _⟩ => show win4_3.index t (0 : Fin 2) * 1 + 1 * 0 = 0; omega
    | ⟨1, _⟩ => show win4_3.index t (1 : Fin 2) * 128 + 1 * q.val = win4_4.index t (1 : Fin 2) * 128 + 1 * q.val; omega

theorem mem_tile (t : Fin cfg4.N) (i : S150000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v99).slice (win4_4.rect t)).set ↔ _
  rw [View.set_slice_whole, Rect.mem_set_unit]
  exact Iff.rfl

theorem covered (i : S150000x128.Idx) :
    ∃ t : Fin cfg4.N, (cfg4.win 4).flush t = true ∧ i ∈ ((cfg4.win 4).blk t).view.set := by
  have hN : cfg4.N = 30 := N_4
  have hi0 : (i 0).val < 150000 := (i 0).isLt
  have hi1 : (i 1).val < 128 := (i 1).isLt
  obtain ⟨t, ht⟩ : ∃ t : Fin cfg4.N, t.val = (i 0).val / 5000 := ⟨⟨(i 0).val / 5000, by rw [hN]; omega⟩, rfl⟩
  obtain ⟨-, -, -, -, -, -, -, -, e40, e41⟩ := index_facts t
  refine ⟨t, flush4_4 t, ?_⟩
  rw [mem_tile]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

theorem value (c : Dev nD) :
    (dat4 (F := Ideal) V c).arrAt 4 cfg4.N
      = Cert.Spec.update (V c main_v79) (V c main_v93) (V c main_v95) (fun i => V c main_v98 (ix2 0 (i 0))) :=
  (dat4 (F := Ideal) V c).arrAt_eq_of_cover 4 _ (fun t _ => flushed_eq V c t) covered

end Cert.KernelIdeal.Reg4

end
-- ==== Proof.ChainC4.lean ====
-- Sub-graph branch, third message round and update.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg4
import proofs.«400221_j39548058861723_2_alg».proof.Proof.HostForms
import proofs.«400221_j39548058861723_2_alg».proof.Proof.MsgForms
import proofs.«400221_j39548058861723_2_alg».proof.Proof.ChainC1
import proofs.«400221_j39548058861723_2_alg».proof.Proof.ChainC2
import proofs.«400221_j39548058861723_2_alg».proof.Proof.ChainC3

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in

theorem k93 (hag : Agree m m') (c : Dev nD) : W9 m ρ c (Proc.devRef .tc main_v93) = rv_v103 (F := Ideal) m' c := by
  have hh : W8 m ρ c (Proc.devRef .tc main_v79) = rv_v90 (F := Ideal) m' c := (k79 m ρ m' hag c)
  have he : W8 m ρ c (Proc.devRef .tc main_v38) = rv_v43 (F := Ideal) m' c := ((keepSpan m ρ c main_v38 5 3 (by decide) (by decide)).trans (k38 m ρ m' hag c))
  have hw : W8 m ρ c (Proc.devRef .tc main_v39) = shapeCast S350000x1 (rv_v29 (F := Ideal) m' c) shapeCasts_S350000_S350000x1 := ((keepSpan m ρ c main_v39 5 3 (by decide) (by decide)).trans (k39 m ρ m' hag c))
  have hs : W8 m ρ c (Proc.devRef .tc main_v31) = rv_v31 (F := Ideal) m' c := ((keepSpan m ρ c main_v31 1 7 (by decide) (by decide)).trans (k31 m ρ m' hag c))
  have hd : W8 m ρ c (Proc.devRef .tc main_v33) = rv_v33 (F := Ideal) m' c := ((keepSpan m ρ c main_v33 1 7 (by decide) (by decide)).trans (k33 m ρ m' hag c))
  show StableHlo.after hostOps4 (W8 m ρ c) (Proc.devRef .tc main_v93) = _
  after_results_simp
  rw [hh, he, hw, hs, hd]
  unfold rv_v103 rv_v101 rv_cst_14 rv_v102 rv_v100 rv_v99 rv_v44 rv_v98 rv_v97 rv_v96 rv_v95 rv_v92 rv_v91 rv_c_12 rv_v94 rv_v93 rv_c_13
  refine (congrArg (Host.scatterAdd _ _ _) (Cert.MsgForms.message_eq shapeCasts_S350000_S350000x1 bcast_S350000x1_S350000x128_0_1 Cert.ReferenceIdeal.Gen.bcast_S350000_S350000x1_0 _ _ (rv_v29 (F := Ideal) m' c))).trans ?_
  rfl

theorem k95 (hag : Agree m m') (c : Dev nD) : W9 m ρ c (Proc.devRef .tc main_v95) = rv_v105 (F := Ideal) m' c := by
  have ha : W8 m ρ c (Proc.devRef .tc main_arg15) = m' ((c.tc : Thread Cert.ReferenceIdeal.nD Cert.ReferenceIdeal.τ).loc Cert.ReferenceIdeal.main_arg15) :=
    (keepSpan m ρ c main_arg15 0 8 (by decide) (by decide)).trans (hag c).2.2.2.2.2.2.2.2.2.2.2.2.2.2.2.1.symm
  show StableHlo.after hostOps4 (W8 m ρ c) (Proc.devRef .tc main_v95) = _
  after_results_simp
  rw [ha]
  unfold rv_v105 rv_v104
  rfl

theorem k98 (hag : Agree m m') (c : Dev nD) :
    W9 m ρ c (Proc.devRef .tc main_v98) = shapeCast S1x128 (rv_v109 (F := Ideal) m' c) shapeCasts_S128_S1x128 := by
  have ha : W8 m ρ c (Proc.devRef .tc main_arg16) = m' ((c.tc : Thread Cert.ReferenceIdeal.nD Cert.ReferenceIdeal.τ).loc Cert.ReferenceIdeal.main_arg16) :=
    (keepSpan m ρ c main_arg16 0 8 (by decide) (by decide)).trans (hag c).2.2.2.2.2.2.2.2.2.2.2.2.2.2.2.2.1.symm
  show StableHlo.after hostOps4 (W8 m ρ c) (Proc.devRef .tc main_v98) = _
  after_results_simp
  rw [ha]
  unfold rv_v109 rv_v108
  rfl

theorem k99 (hag : Agree m m') (c : Dev nD) : W10 m ρ c (Proc.devRef .tc main_v99) = rv_v113 (F := Ideal) m' c := by
  have hreg := Cert.KernelIdeal.Reg4.value (V9 m ρ) c
  have hh : V9 m ρ c main_v79 = rv_v90 (F := Ideal) m' c := (keep9 m ρ c main_v79 (by decide)).trans (k79 m ρ m' hag c)
  have ha : V9 m ρ c main_v93 = rv_v103 (F := Ideal) m' c := k93 m ρ m' hag c
  have hw : V9 m ρ c main_v95 = rv_v105 (F := Ideal) m' c := k95 m ρ m' hag c
  have hb : (fun i : (⟨1, ![128]⟩ : Shape).Idx => V9 m ρ c main_v98 (ix2 0 (i 0))) = rv_v109 (F := Ideal) m' c := by
    rw [show V9 m ρ c main_v98 = _ from k98 m ρ m' hag c]
    exact Cert.HostForms.row_of_cast _ _
  refine (W10_arr m ρ c 4).trans (hreg.trans ?_)
  rw [hh, ha, hw]
  refine (congrArg (Cert.Spec.update (rv_v90 (F := Ideal) m' c) (rv_v103 (F := Ideal) m' c) (rv_v105 (F := Ideal) m' c)) hb).trans ?_
  unfold rv_v113 rv_v112 rv_v107 rv_v106 rv_v111 rv_v110 rv_call4_v0 rv_call4_cst
  exact (Cert.HostForms.update_eq _ rfl rfl rfl rfl rfl rfl _ _ _ _ _ _ _).symm

end Cert.Chain

end
-- ==== Proof.ChainC5.lean ====
-- Sub-graph branch, projection.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg5
import proofs.«400221_j39548058861723_2_alg».proof.Proof.HostForms
import proofs.«400221_j39548058861723_2_alg».proof.Proof.ChainC1
import proofs.«400221_j39548058861723_2_alg».proof.Proof.ChainC2
import proofs.«400221_j39548058861723_2_alg».proof.Proof.ChainC3
import proofs.«400221_j39548058861723_2_alg».proof.Proof.ChainC4

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

theorem k102 (hag : Agree m m') (c : Dev nD) : W12 m ρ c (Proc.devRef .tc main_v102) = rv_v120 (F := Ideal) m' c := by
  have hreg := Cert.KernelIdeal.Reg5.value (V11 m ρ) c
  have hh : V11 m ρ c main_v99 = rv_v113 (F := Ideal) m' c := (keep11 m ρ c main_v99 (by decide)).trans (k99 m ρ m' hag c)
  have hw : V11 m ρ c main_arg17 = m' ((c.tc : Thread Cert.ReferenceIdeal.nD Cert.ReferenceIdeal.τ).loc Cert.ReferenceIdeal.main_arg17) := (keepSpan m ρ c main_arg17 0 11 (by decide) (by decide)).trans (hag c).2.2.2.2.2.2.2.2.2.2.2.2.2.2.2.2.2.1.symm
  have hbr : V11 m ρ c main_v101 = shapeCast S1x128 (m' ((c.tc : Thread Cert.ReferenceIdeal.nD Cert.ReferenceIdeal.τ).loc Cert.ReferenceIdeal.main_arg18)) shapeCasts_S128_S1x128 := by
    show StableHlo.after hostOps5 (W10 m ρ c) (Proc.devRef .tc main_v101) = _
    after_results
    exact congrArg (fun x => shapeCast S1x128 x shapeCasts_S128_S1x128) ((keepSpan m ρ c main_arg18 0 10 (by decide) (by decide)).trans (hag c).2.2.2.2.2.2.2.2.2.2.2.2.2.2.2.2.2.2.1.symm)
  have hnc : V11 m ρ c main_v100 = shapeCast S150000x1 (rv_v13 (F := Ideal) m' c) shapeCasts_S150000_S150000x1 := by
    show StableHlo.after hostOps5 (W10 m ρ c) (Proc.devRef .tc main_v100) = _
    after_results
    exact congrArg (fun x => shapeCast S150000x1 x shapeCasts_S150000_S150000x1) ((keepSpan m ρ c main_v13 1 9 (by decide) (by decide)).trans (k13 m ρ m' hag c))
  have hb : (fun i : (⟨1, ![128]⟩ : Shape).Idx => V11 m ρ c main_v101 (ix2 0 (i 0))) = m' ((c.tc : Thread Cert.ReferenceIdeal.nD Cert.ReferenceIdeal.τ).loc Cert.ReferenceIdeal.main_arg18) := by
    rw [hbr]; exact Cert.HostForms.row_of_cast _ _
  have hn : (fun i : (⟨1, ![150000]⟩ : Shape).Idx => V11 m ρ c main_v100 (ix2 (i 0) 0)) = rv_v13 (F := Ideal) m' c := by
    rw [hnc]; exact Cert.HostForms.col_of_cast _ _
  refine (W12_arr m ρ c 4).trans (hreg.trans ?_)
  rw [hh, hw]
  refine (congrArg (fun b => Cert.Spec.project (rv_v113 (F := Ideal) m' c) (m' ((c.tc : Thread Cert.ReferenceIdeal.nD Cert.ReferenceIdeal.τ).loc Cert.ReferenceIdeal.main_arg17)) b _) hb).trans ?_
  refine (congrArg (Cert.Spec.project (rv_v113 (F := Ideal) m' c) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))) hn).trans ?_
  unfold rv_v120 rv_v117 rv_v114 rv_v116 rv_v115 rv_v119 rv_v118
  exact (Cert.HostForms.project_eq _ rfl rfl rfl rfl rfl rfl _ _ _ _ _ _ _ _).symm

end Cert.Chain

end
-- ==== Proof.Reg12.lean ====
-- As the sub-graph's projection, with this launch's arrays.
import proofs.«400221_j39548058861723_2_alg».proof.Proof.Gen.KernelIdeal.Frame
import proofs.«400221_j39548058861723_2_alg».proof.Proof.Spec
import proofs.«400221_j39548058861723_2_alg».proof.Proof.Reg5
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg12

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg12.N, win12_4.index t (0 : Fin 2) = t.val
    ∧ win12_4.index t (1 : Fin 2) = 0
    ∧ win12_0.index t (0 : Fin 2) = win12_4.index t (0 : Fin 2)
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = win12_4.index t (0 : Fin 2)
    ∧ win12_3.index t (1 : Fin 2) = 0 :=
  (by decide +kernel : ∀ t : Fin grid12.N, _)

theorem flushed_eq (c : Dev nD) (t : Fin cfg12.N) :
    (dat12 (F := Ideal) V c).flushed 4 t = ((cfg12.win 4).blk t).view.read (Elt Ideal)
      (Cert.Spec.project (V c main_v187) (V c main_arg25) (fun i => V c main_v189 (ix2 0 (i 0)))
        (fun i => V c main_v188 (ix2 (i 0) 0))) := by
  show (cfg12.win 4).cut (grid12.coords t) ((dat12 (F := Ideal) V c).after 4 t) = _
  rw [after12_4]
  unfold out12_4
  rw [View.canon_unit_zero hz]
  simp only [View.ld_unit_zero (S := S5000x128) hz, View.ld_unit_zero (S := S128x128) hz,
    View.ld_unit_zero (S := S1x128) hz, View.ld_unit_zero (S := S5000x1) hz]
  obtain ⟨e4r, e4c, e0r, e0c, e1r, e1c, e2r, e2c, e3r, e3c⟩ := idx_facts t
  have hN : cfg12.N = 40 := N_12
  have ht : t.val < 40 := hN ▸ t.isLt
  funext j
  have hj0 : (j 0).val < 5000 := (j 0).isLt
  have hj1 : (j 1).val < 128 := (j 1).isLt
  have hr : win12_4.index t (0 : Fin 2) * 5000 + (j 0).val < 200000 := by omega
  have hi : ((cfg12.win 4).blk t).view.emb j
      = ix2 (⟨win12_4.index t (0 : Fin 2) * 5000 + (j 0).val, hr⟩ : Fin 200000) (⟨(j 1).val, hj1⟩ : Fin 128) := by
    funext a; apply Fin.ext
    match a with
    | ⟨0, _⟩ => show win12_4.index t (0 : Fin 2) * 5000 + 1 * (j 0).val = win12_4.index t (0 : Fin 2) * 5000 + (j 0).val; omega
    | ⟨1, _⟩ => show win12_4.index t (1 : Fin 2) * 128 + 1 * (j 1).val = (j 1).val; omega
  have hx : (cfg12.win 4).xinj (grid12.coords t) j = ix2 (⟨(j 0).val, hj0⟩ : Fin 5000) (⟨(j 1).val, hj1⟩ : Fin 128) := by
    funext a
    match a with
    | ⟨0, _⟩ => rfl
    | ⟨1, _⟩ => rfl
  show k5_pay1 (F := Ideal) (iblk12 V c 0 t) (iblk12 V c 1 t) (iblk12 V c 2 t) (iblk12 V c 3 t)
      ((cfg12.win 4).xinj (grid12.coords t) j)
    = Cert.Spec.project (V c main_v187) (V c main_arg25) (fun i => V c main_v189 (ix2 0 (i 0)))
        (fun i => V c main_v188 (ix2 (i 0) 0)) (((cfg12.win 4).blk t).view.emb j)
  rw [hx, hi]
  refine Reg5.tile_entry (V c main_v187) (V c main_arg25) (V c main_v189) (V c main_v188) (iblk12 V c 0 t) (iblk12 V c 1 t)
    (iblk12 V c 2 t) (iblk12 V c 3 t) _ _ _ (fun kk => ?_) (fun kk => ?_) ?_ ?_
  ·
    show V c main_v187 (((cfg12.win 0).blk t).view.emb (ix2 (⟨(j 0).val, hj0⟩ : Fin 5000) kk)) = _
    refine congrArg (V c main_v187) (funext fun a => Fin.ext ?_)
    match a with
    | ⟨0, _⟩ => show win12_0.index t (0 : Fin 2) * 5000 + 1 * (j 0).val = win12_4.index t (0 : Fin 2) * 5000 + (j 0).val; omega
    | ⟨1, _⟩ => show win12_0.index t (1 : Fin 2) * 128 + 1 * kk.val = kk.val; omega
  ·
    show V c main_arg25 (((cfg12.win 1).blk t).view.emb (ix2 kk (⟨(j 1).val, hj1⟩ : Fin 128))) = _
    refine congrArg (V c main_arg25) (funext fun a => Fin.ext ?_)
    match a with
    | ⟨0, _⟩ => show win12_1.index t (0 : Fin 2) * 128 + 1 * kk.val = kk.val; omega
    | ⟨1, _⟩ => show win12_1.index t (1 : Fin 2) * 128 + 1 * (j 1).val = (j 1).val; omega
  ·
    show V c main_v189 (((cfg12.win 2).blk t).view.emb (ix2 (0 : Fin 1) (⟨(j 1).val, hj1⟩ : Fin 128))) = _
    refine congrArg (V c main_v189) (funext fun a => Fin.ext ?_)
    match a with
    | ⟨0, _⟩ => show win12_2.index t (0 : Fin 2) * 1 + 1 * 0 = 0; omega
    | ⟨1, _⟩ => show win12_2.index t (1 : Fin 2) * 128 + 1 * (j 1).val = (j 1).val; omega
  ·
    show V c main_v188 (((cfg12.win 3).blk t).view.emb (ix2 (⟨(j 0).val, hj0⟩ : Fin 5000) (0 : Fin 1))) = _
    refine congrArg (V c main_v188) (funext fun a => Fin.ext ?_)
    match a with
    | ⟨0, _⟩ => show win12_3.index t (0 : Fin 2) * 5000 + 1 * (j 0).val = win12_4.index t (0 : Fin 2) * 5000 + (j 0).val; omega
    | ⟨1, _⟩ => show win12_3.index t (1 : Fin 2) * 1 + 1 * 0 = 0; omega

theorem mem_blk (t : Fin cfg12.N) (i : S200000x128.Idx) :
    i ∈ ((cfg12.win 4).blk t).view.set ↔ ∀ a : Fin 2, win12_4.index t a * S5000x128.size a ≤ (i a).val
      ∧ (i a).val < win12_4.index t a * S5000x128.size a + S5000x128.size a := by
  show i ∈ ((View.whole main_v190).slice (win12_4.rect t)).set ↔ _
  rw [View.set_slice_whole, Rect.mem_set_unit]
  exact Iff.rfl

theorem cover (i : S200000x128.Idx) :
    ∃ t : Fin cfg12.N, (cfg12.win 4).flush t = true ∧ i ∈ ((cfg12.win 4).blk t).view.set := by
  have hi0 : (i 0).val < 200000 := (i 0).isLt
  have hi1 : (i 1).val < 128 := (i 1).isLt
  have hN : cfg12.N = 40 := N_12
  have hlt : (i 0).val / 5000 < cfg12.N := by rw [hN]; omega
  obtain ⟨e4r, e4c, -⟩ := idx_facts ⟨(i 0).val / 5000, hlt⟩
  have e4r' : win12_4.index ⟨(i 0).val / 5000, hlt⟩ (0 : Fin 2) = (i 0).val / 5000 := e4r
  refine ⟨⟨(i 0).val / 5000, hlt⟩, flush12_4 _, ?_⟩
  rw [mem_blk]
  intro a
  match a with
  | ⟨0, _⟩ =>
    show win12_4.index ⟨(i 0).val / 5000, hlt⟩ (0 : Fin 2) * 5000 ≤ (i 0).val
      ∧ (i 0).val < win12_4.index ⟨(i 0).val / 5000, hlt⟩ (0 : Fin 2) * 5000 + 5000
    omega
  | ⟨1, _⟩ =>
    show win12_4.index ⟨(i 0).val / 5000, hlt⟩ (1 : Fin 2) * 128 ≤ (i 1).val
      ∧ (i 1).val < win12_4.index ⟨(i 0).val / 5000, hlt⟩ (1 : Fin 2) * 128 + 128
    omega

theorem value (c : Dev nD) :
    (dat12 (F := Ideal) V c).arrAt 4 cfg12.N
      = Cert.Spec.project (V c main_v187) (V c main_arg25) (fun i => V c main_v189 (ix2 0 (i 0)))
          (fun i => V c main_v188 (ix2 (i 0) 0)) :=
  (dat12 (F := Ideal) V c).arrAt_eq_of_cover 4 _ (fun t _ => flushed_eq V c t) cover

end Cert.KernelIdeal.Reg12

end
-- ==== Proof.Reg7.lean ====
/-
  The target branch's node encoder, launch by launch: 40 tiles of 5000 rows. Each tile writes
  max (x·w + b, 0) of its own rows, the tiles' row ranges partition the 200000 rows, so the whole output array
  is the encoder of the whole input arrays.
-/
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg7

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One entry of a tile -/

/-- Entry (p, q) of what the body computes from a tile of rows x0, the weights x1 and the bias row x2: the row's
    product with column q plus the bias at q, clamped at zero. The two casts to a narrower format and back are the
    identity over the extended reals, the two shape casts are between equal shapes, the accumulator is the zero
    splat, and the bias row is read at row 0 whatever the tile's row. -/
theorem body_entry (x0 : Vec Ideal S5000x133 .f32) (x1 : Vec Ideal S133x128 .f32) (x2 : Vec Ideal S1x128 .f32)
    (p : Fin 5000) (q : Fin 128) :
    k7_pay1 (F := Ideal) x0 x1 x2 (ix2 p q)
      = max (∑ kk : Fin 133, x0 (ix2 p kk) * x1 (ix2 kk q) + x2 (ix2 (0 : Fin 1) q)) 0 := by
  unfold k7_pay1
  simp only [shapeCast_self]
  show max (FloatOps.matmul (F := Ideal) dot_S5000x133_S133x128_S5000x128_1_0_0_1_n_n none
        (truncf .bf16 (x0 : FVec Ideal S5000x133 .f32) bitsLt_bf16_f32)
        (truncf .bf16 (x1 : FVec Ideal S133x128 .f32) bitsLt_bf16_f32) (constant (F := Ideal) S5000x128 .f32 0x00000000#32) (ix2 p q)
      + broadcastTo S5000x128 (x2 : FVec Ideal S1x128 .f32) broadcasts_S1x128_S5000x128 (ix2 p q))
      (Ideal.ofBits .f32 0x00000000#32) = _
  rw [Cert.LibDense.matmul_zero_apply _ none rfl rfl rfl rfl rfl rfl, broadcastTo_1b_ab_apply, Ideal.ofBits_zero_f32]
  rfl

/-- The same entry when the tile's rows are rows n·5000 + p of an array A, the weights are W and the bias row is B:
    entry (n·5000 + p, q) of the encoder of the whole arrays. -/
theorem tile_entry (A : (⟨2, ![200000, 133]⟩ : Shape).Idx → EReal) (W : (⟨2, ![133, 128]⟩ : Shape).Idx → EReal)
    (B : (⟨2, ![1, 128]⟩ : Shape).Idx → EReal)
    (x0 : Vec Ideal S5000x133 .f32) (x1 : Vec Ideal S133x128 .f32) (x2 : Vec Ideal S1x128 .f32) (n : ℕ)
    (h0 : ∀ (p : Fin 5000) (kk : Fin 133) (r : Fin 200000), r.val = n * 5000 + p.val → x0 (ix2 p kk) = A (ix2 r kk))
    (h1 : ∀ (kk : Fin 133) (q : Fin 128), x1 (ix2 kk q) = W (ix2 kk q))
    (h2 : ∀ q : Fin 128, x2 (ix2 (0 : Fin 1) q) = B (ix2 (0 : Fin 1) q))
    (j : S5000x128.Idx) (i : S200000x128.Idx) (hi0 : (i 0).val = n * 5000 + (j 0).val) (hi1 : (i 1).val = (j 1).val) :
    k7_pay1 (F := Ideal) x0 x1 x2 j = Cert.Spec.encode A W (fun i => B (ix2 0 (i 0))) i := by
  obtain ⟨p, q, rfl⟩ : ∃ (p : Fin 5000) (q : Fin 128), j = ix2 p q := ⟨j 0, j 1, eq_ix2 j⟩
  obtain ⟨r, s, rfl⟩ : ∃ (r : Fin 200000) (s : Fin 128), i = ix2 r s := ⟨i 0, i 1, eq_ix2 i⟩
  obtain rfl : s = q := Fin.ext hi1
  rw [body_entry]
  show _ = max (∑ kk : Fin 133, A (ix2 r kk) * W (ix2 kk s) + B (ix2 (0 : Fin 1) s)) 0
  simp only [h0 _ _ r hi0, h1, h2]

/-! ## The tiles of the four windows -/

/-- The zero offsets of a whole-buffer access. -/
theorem zero_offsets : (![0, 0] : Fin 2 → Nat) = fun _ => 0 := funext fun a => by fin_cases a <;> rfl

/-- The printed index maps, decided over the grid: the row tiles of the input and of the output move with the grid
    point, the weights and the bias row stay at their one block. -/
theorem tile_offsets : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

-- The buffer contents a region is entered with.
variable (V : (c : Dev nD) → (b : Ref sig .tc) → Buf (Elt Ideal) ((c : Thread nD τ).loc b))

/-- Row p of the input's tile at point t is row t·5000 + p of the input array. -/
theorem rows_tile (c : Dev nD) (t : Fin cfg7.N) (p : Fin 5000) (kk : Fin 133) (r : Fin 200000)
    (hr : r.val = t.val * 5000 + p.val) :
    (iblk7 V c 0 t : Vec Ideal S5000x133 .f32) (ix2 p kk) = (V c main_arg0 : S200000x133.Idx → EReal) (ix2 r kk) := by
  obtain ⟨e0, e1, -⟩ := tile_offsets t
  unfold iblk7
  rw [View.read_apply]
  show V c main_arg0 _ = V c main_arg0 _
  congr 1
  funext a
  apply Fin.ext
  match a with
  | ⟨0, _⟩ => show win7_0.index t (0 : Fin 2) * 5000 + 1 * p.val = r.val; rw [e0, hr]; omega
  | ⟨1, _⟩ => show win7_0.index t (1 : Fin 2) * 133 + 1 * kk.val = kk.val; rw [e1]; omega

/-- The weights' tile at every point is the weight array. -/
theorem weights_tile (c : Dev nD) (t : Fin cfg7.N) (kk : Fin 133) (q : Fin 128) :
    (iblk7 V c 1 t : Vec Ideal S133x128 .f32) (ix2 kk q) = (V c main_arg19 : S133x128.Idx → EReal) (ix2 kk q) := by
  obtain ⟨-, -, e2, e3, -⟩ := tile_offsets t
  unfold iblk7
  rw [View.read_apply]
  show V c main_arg19 _ = V c main_arg19 _
  congr 1
  funext a
  apply Fin.ext
  match a with
  | ⟨0, _⟩ => show win7_1.index t (0 : Fin 2) * 133 + 1 * kk.val = kk.val; rw [e2]; omega
  | ⟨1, _⟩ => show win7_1.index t (1 : Fin 2) * 128 + 1 * q.val = q.val; rw [e3]; omega

/-- The bias row's tile at every point is the bias row. -/
theorem bias_tile (c : Dev nD) (t : Fin cfg7.N) (q : Fin 128) :
    (iblk7 V c 2 t : Vec Ideal S1x128 .f32) (ix2 (0 : Fin 1) q) = (V c main_v122 : S1x128.Idx → EReal) (ix2 (0 : Fin 1) q) := by
  obtain ⟨-, -, -, -, e4, e5, -⟩ := tile_offsets t
  unfold iblk7
  rw [View.read_apply]
  show V c main_v122 _ = V c main_v122 _
  congr 1
  funext a
  apply Fin.ext
  match a with
  | ⟨0, _⟩ => show win7_2.index t (0 : Fin 2) * 1 + 1 * 0 = 0; rw [e4]
  | ⟨1, _⟩ => show win7_2.index t (1 : Fin 2) * 128 + 1 * q.val = q.val; rw [e5]; omega

/-! ## What a point writes back -/

/-- What point t writes back is tile t of the encoder of the whole input arrays: the body's one store fills the
    output's buffer with its payload of the three loaded tiles, and entry (p, q) of the output's tile sits at row
    t·5000 + p, column q of the output array. -/
theorem tile_written (c : Dev nD) (t : Fin cfg7.N) :
    (dat7 (F := Ideal) V c).flushed 3 t
      = ((cfg7.win 3).blk t).view.read (Elt Ideal)
          (Cert.Spec.encode (V c main_arg0) (V c main_arg19) (fun i => V c main_v122 (ix2 0 (i 0)))) := by
  show (cfg7.win 3).cut (grid7.coords t) ((dat7 V c).after 3 t) = _
  rw [after7_3]
  unfold out7_3
  rw [View.canon_unit_zero zero_offsets]
  simp only [View.ld_unit_zero (S := S5000x133) zero_offsets, View.ld_unit_zero (S := S133x128) zero_offsets,
    View.ld_unit_zero (S := S1x128) zero_offsets]
  obtain ⟨-, -, -, -, -, -, e6, e7⟩ := tile_offsets t
  funext j
  show k7_pay1 (F := Ideal) (iblk7 V c 0 t) (iblk7 V c 1 t) (iblk7 V c 2 t) j
    = Cert.Spec.encode (V c main_arg0) (V c main_arg19) (fun i => V c main_v122 (ix2 0 (i 0))) (((cfg7.win 3).blk t).view.emb j)
  refine tile_entry (V c main_arg0) (V c main_arg19) (V c main_v122) _ _ _ t.val
    (fun p kk r hr => rows_tile V c t p kk r hr) (fun kk q => weights_tile V c t kk q) (fun q => bias_tile V c t q)
    j (((cfg7.win 3).blk t).view.emb j) ?_ ?_
  · show win7_3.index t (0 : Fin 2) * 5000 + 1 * (j 0).val = t.val * 5000 + (j 0).val
    rw [e6]; omega
  · show win7_3.index t (1 : Fin 2) * 128 + 1 * (j 1).val = (j 1).val
    rw [e7]; omega

/-! ## The tiles cover the array -/

/-- An index of the output array is in point t's tile iff each coordinate is in the tile's range on its axis. -/
theorem mem_tile (t : Fin cfg7.N) (i : S200000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v123).slice (win7_3.rect t)).set ↔ _
  rw [View.set_slice_whole, Rect.mem_set_unit]
  exact Iff.rfl

/-- Row r of the output array is in the tile of point r / 5000, which writes back. -/
theorem tiles_cover (i : S200000x128.Idx) :
    ∃ t : Fin cfg7.N, (cfg7.win 3).flush t = true ∧ i ∈ ((cfg7.win 3).blk t).view.set := by
  have hi0 : (i 0).val < 200000 := (i 0).isLt
  have hi1 : (i 1).val < 128 := (i 1).isLt
  have hN : cfg7.N = 40 := N_7
  obtain ⟨t, ht⟩ : ∃ t : Fin cfg7.N, t.val = (i 0).val / 5000 := ⟨⟨(i 0).val / 5000, by rw [hN]; omega⟩, rfl⟩
  obtain ⟨-, -, -, -, -, -, e6, e7⟩ := tile_offsets t
  refine ⟨t, flush7_3 t, ?_⟩
  rw [mem_tile]
  intro a
  match a with
  | ⟨0, _⟩ => show win7_3.index t (0 : Fin 2) * 5000 ≤ (i 0).val ∧ (i 0).val < win7_3.index t (0 : Fin 2) * 5000 + 5000; rw [e6, ht]; omega
  | ⟨1, _⟩ => show win7_3.index t (1 : Fin 2) * 128 ≤ (i 1).val ∧ (i 1).val < win7_3.index t (1 : Fin 2) * 128 + 128; rw [e7]; omega

/-! ## The whole array -/

/-- After the encoder has run over its 40 row tiles, its output array is the encoder of the whole input arrays. -/
theorem value (c : Dev nD) :
    (dat7 (F := Ideal) V c).arrAt 3 cfg7.N
      = Cert.Spec.encode (V c main_arg0) (V c main_arg19) (fun i => V c main_v122 (ix2 0 (i 0))) :=
  (dat7 (F := Ideal) V c).arrAt_eq_of_cover 3 _ (fun t _ => tile_written V c t) tiles_cover

end Cert.KernelIdeal.Reg7

end
-- ==== Proof.Reg8.lean ====
/-
  The target branch's edge encoder, launch by launch: 100 tiles of 5000 rows. Each tile writes
  max (x·w + b, 0) of its own rows, the tiles' row ranges partition the 500000 rows, so the whole output array
  is the encoder of the whole input arrays.
-/
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg8

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One entry of a tile -/

/-- Entry (p, q) of what the body computes from a tile of rows x0, the weights x1 and the bias row x2: the row's
    product with column q plus the bias at q, clamped at zero. The two casts to a narrower format and back are the
    identity over the extended reals, the two shape casts are between equal shapes, the accumulator is the zero
    splat, and the bias row is read at row 0 whatever the tile's row. -/
theorem body_entry (x0 : Vec Ideal S5000x14 .f32) (x1 : Vec Ideal S14x128 .f32) (x2 : Vec Ideal S1x128 .f32)
    (p : Fin 5000) (q : Fin 128) :
    k8_pay1 (F := Ideal) x0 x1 x2 (ix2 p q)
      = max (∑ kk : Fin 14, x0 (ix2 p kk) * x1 (ix2 kk q) + x2 (ix2 (0 : Fin 1) q)) 0 := by
  unfold k8_pay1
  simp only [shapeCast_self]
  show max (FloatOps.matmul (F := Ideal) dot_S5000x14_S14x128_S5000x128_1_0_0_1_n_n none
        (truncf .bf16 (x0 : FVec Ideal S5000x14 .f32) bitsLt_bf16_f32)
        (truncf .bf16 (x1 : FVec Ideal S14x128 .f32) bitsLt_bf16_f32) (constant (F := Ideal) S5000x128 .f32 0x00000000#32) (ix2 p q)
      + broadcastTo S5000x128 (x2 : FVec Ideal S1x128 .f32) broadcasts_S1x128_S5000x128 (ix2 p q))
      (Ideal.ofBits .f32 0x00000000#32) = _
  rw [Cert.LibDense.matmul_zero_apply _ none rfl rfl rfl rfl rfl rfl, broadcastTo_1b_ab_apply, Ideal.ofBits_zero_f32]
  rfl

/-- The same entry when the tile's rows are rows n·5000 + p of an array A, the weights are W and the bias row is B:
    entry (n·5000 + p, q) of the encoder of the whole arrays. -/
theorem tile_entry (A : (⟨2, ![500000, 14]⟩ : Shape).Idx → EReal) (W : (⟨2, ![14, 128]⟩ : Shape).Idx → EReal)
    (B : (⟨2, ![1, 128]⟩ : Shape).Idx → EReal)
    (x0 : Vec Ideal S5000x14 .f32) (x1 : Vec Ideal S14x128 .f32) (x2 : Vec Ideal S1x128 .f32) (n : ℕ)
    (h0 : ∀ (p : Fin 5000) (kk : Fin 14) (r : Fin 500000), r.val = n * 5000 + p.val → x0 (ix2 p kk) = A (ix2 r kk))
    (h1 : ∀ (kk : Fin 14) (q : Fin 128), x1 (ix2 kk q) = W (ix2 kk q))
    (h2 : ∀ q : Fin 128, x2 (ix2 (0 : Fin 1) q) = B (ix2 (0 : Fin 1) q))
    (j : S5000x128.Idx) (i : S500000x128.Idx) (hi0 : (i 0).val = n * 5000 + (j 0).val) (hi1 : (i 1).val = (j 1).val) :
    k8_pay1 (F := Ideal) x0 x1 x2 j = Cert.Spec.encode A W (fun i => B (ix2 0 (i 0))) i := by
  obtain ⟨p, q, rfl⟩ : ∃ (p : Fin 5000) (q : Fin 128), j = ix2 p q := ⟨j 0, j 1, eq_ix2 j⟩
  obtain ⟨r, s, rfl⟩ : ∃ (r : Fin 500000) (s : Fin 128), i = ix2 r s := ⟨i 0, i 1, eq_ix2 i⟩
  obtain rfl : s = q := Fin.ext hi1
  rw [body_entry]
  show _ = max (∑ kk : Fin 14, A (ix2 r kk) * W (ix2 kk s) + B (ix2 (0 : Fin 1) s)) 0
  simp only [h0 _ _ r hi0, h1, h2]

/-! ## The tiles of the four windows -/

/-- The zero offsets of a whole-buffer access. -/
theorem zero_offsets : (![0, 0] : Fin 2 → Nat) = fun _ => 0 := funext fun a => by fin_cases a <;> rfl

/-- The printed index maps, decided over the grid: the row tiles of the input and of the output move with the grid
    point, the weights and the bias row stay at their one block. -/
theorem tile_offsets : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

-- The buffer contents a region is entered with.
variable (V : (c : Dev nD) → (b : Ref sig .tc) → Buf (Elt Ideal) ((c : Thread nD τ).loc b))

/-- Row p of the input's tile at point t is row t·5000 + p of the input array. -/
theorem rows_tile (c : Dev nD) (t : Fin cfg8.N) (p : Fin 5000) (kk : Fin 14) (r : Fin 500000)
    (hr : r.val = t.val * 5000 + p.val) :
    (iblk8 V c 0 t : Vec Ideal S5000x14 .f32) (ix2 p kk) = (V c main_arg3 : S500000x14.Idx → EReal) (ix2 r kk) := by
  obtain ⟨e0, e1, -⟩ := tile_offsets t
  unfold iblk8
  rw [View.read_apply]
  show V c main_arg3 _ = V c main_arg3 _
  congr 1
  funext a
  apply Fin.ext
  match a with
  | ⟨0, _⟩ => show win8_0.index t (0 : Fin 2) * 5000 + 1 * p.val = r.val; rw [e0, hr]; omega
  | ⟨1, _⟩ => show win8_0.index t (1 : Fin 2) * 14 + 1 * kk.val = kk.val; rw [e1]; omega

/-- The weights' tile at every point is the weight array. -/
theorem weights_tile (c : Dev nD) (t : Fin cfg8.N) (kk : Fin 14) (q : Fin 128) :
    (iblk8 V c 1 t : Vec Ideal S14x128 .f32) (ix2 kk q) = (V c main_arg21 : S14x128.Idx → EReal) (ix2 kk q) := by
  obtain ⟨-, -, e2, e3, -⟩ := tile_offsets t
  unfold iblk8
  rw [View.read_apply]
  show V c main_arg21 _ = V c main_arg21 _
  congr 1
  funext a
  apply Fin.ext
  match a with
  | ⟨0, _⟩ => show win8_1.index t (0 : Fin 2) * 14 + 1 * kk.val = kk.val; rw [e2]; omega
  | ⟨1, _⟩ => show win8_1.index t (1 : Fin 2) * 128 + 1 * q.val = q.val; rw [e3]; omega

/-- The bias row's tile at every point is the bias row. -/
theorem bias_tile (c : Dev nD) (t : Fin cfg8.N) (q : Fin 128) :
    (iblk8 V c 2 t : Vec Ideal S1x128 .f32) (ix2 (0 : Fin 1) q) = (V c main_v124 : S1x128.Idx → EReal) (ix2 (0 : Fin 1) q) := by
  obtain ⟨-, -, -, -, e4, e5, -⟩ := tile_offsets t
  unfold iblk8
  rw [View.read_apply]
  show V c main_v124 _ = V c main_v124 _
  congr 1
  funext a
  apply Fin.ext
  match a with
  | ⟨0, _⟩ => show win8_2.index t (0 : Fin 2) * 1 + 1 * 0 = 0; rw [e4]
  | ⟨1, _⟩ => show win8_2.index t (1 : Fin 2) * 128 + 1 * q.val = q.val; rw [e5]; omega

/-! ## What a point writes back -/

/-- What point t writes back is tile t of the encoder of the whole input arrays: the body's one store fills the
    output's buffer with its payload of the three loaded tiles, and entry (p, q) of the output's tile sits at row
    t·5000 + p, column q of the output array. -/
theorem tile_written (c : Dev nD) (t : Fin cfg8.N) :
    (dat8 (F := Ideal) V c).flushed 3 t
      = ((cfg8.win 3).blk t).view.read (Elt Ideal)
          (Cert.Spec.encode (V c main_arg3) (V c main_arg21) (fun i => V c main_v124 (ix2 0 (i 0)))) := by
  show (cfg8.win 3).cut (grid8.coords t) ((dat8 V c).after 3 t) = _
  rw [after8_3]
  unfold out8_3
  rw [View.canon_unit_zero zero_offsets]
  simp only [View.ld_unit_zero (S := S5000x14) zero_offsets, View.ld_unit_zero (S := S14x128) zero_offsets,
    View.ld_unit_zero (S := S1x128) zero_offsets]
  obtain ⟨-, -, -, -, -, -, e6, e7⟩ := tile_offsets t
  funext j
  show k8_pay1 (F := Ideal) (iblk8 V c 0 t) (iblk8 V c 1 t) (iblk8 V c 2 t) j
    = Cert.Spec.encode (V c main_arg3) (V c main_arg21) (fun i => V c main_v124 (ix2 0 (i 0))) (((cfg8.win 3).blk t).view.emb j)
  refine tile_entry (V c main_arg3) (V c main_arg21) (V c main_v124) _ _ _ t.val
    (fun p kk r hr => rows_tile V c t p kk r hr) (fun kk q => weights_tile V c t kk q) (fun q => bias_tile V c t q)
    j (((cfg8.win 3).blk t).view.emb j) ?_ ?_
  · show win8_3.index t (0 : Fin 2) * 5000 + 1 * (j 0).val = t.val * 5000 + (j 0).val
    rw [e6]; omega
  · show win8_3.index t (1 : Fin 2) * 128 + 1 * (j 1).val = (j 1).val
    rw [e7]; omega

/-! ## The tiles cover the array -/

/-- An index of the output array is in point t's tile iff each coordinate is in the tile's range on its axis. -/
theorem mem_tile (t : Fin cfg8.N) (i : S500000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v125).slice (win8_3.rect t)).set ↔ _
  rw [View.set_slice_whole, Rect.mem_set_unit]
  exact Iff.rfl

/-- Row r of the output array is in the tile of point r / 5000, which writes back. -/
theorem tiles_cover (i : S500000x128.Idx) :
    ∃ t : Fin cfg8.N, (cfg8.win 3).flush t = true ∧ i ∈ ((cfg8.win 3).blk t).view.set := by
  have hi0 : (i 0).val < 500000 := (i 0).isLt
  have hi1 : (i 1).val < 128 := (i 1).isLt
  have hN : cfg8.N = 100 := N_8
  obtain ⟨t, ht⟩ : ∃ t : Fin cfg8.N, t.val = (i 0).val / 5000 := ⟨⟨(i 0).val / 5000, by rw [hN]; omega⟩, rfl⟩
  obtain ⟨-, -, -, -, -, -, e6, e7⟩ := tile_offsets t
  refine ⟨t, flush8_3 t, ?_⟩
  rw [mem_tile]
  intro a
  match a with
  | ⟨0, _⟩ => show win8_3.index t (0 : Fin 2) * 5000 ≤ (i 0).val ∧ (i 0).val < win8_3.index t (0 : Fin 2) * 5000 + 5000; rw [e6, ht]; omega
  | ⟨1, _⟩ => show win8_3.index t (1 : Fin 2) * 128 ≤ (i 1).val ∧ (i 1).val < win8_3.index t (1 : Fin 2) * 128 + 128; rw [e7]; omega

/-! ## The whole array -/

/-- After the encoder has run over its 100 row tiles, its output array is the encoder of the whole input arrays. -/
theorem value (c : Dev nD) :
    (dat8 (F := Ideal) V c).arrAt 3 cfg8.N
      = Cert.Spec.encode (V c main_arg3) (V c main_arg21) (fun i => V c main_v124 (ix2 0 (i 0))) :=
  (dat8 (F := Ideal) V c).arrAt_eq_of_cover 3 _ (fun t _ => tile_written V c t) tiles_cover

end Cert.KernelIdeal.Reg8

end
-- ==== Proof.ChainT1.lean ====
-- Whole-graph branch: the edge endpoints and the two encoders agree with the reference's stages.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg7
import proofs.«400221_j39548058861723_2_alg».proof.Proof.Reg8
import proofs.«400221_j39548058861723_2_alg».proof.Proof.HostForms

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in

theorem k119 (hag : Agree m m') (c : Dev nD) : W19 m ρ c (Proc.devRef .tc main_v119) = rv_v141 (F := Ideal) m' c := by
  have ha2 : W18 m ρ c (Proc.devRef .tc main_arg2) = m' ((c.tc : Thread Cert.ReferenceIdeal.nD Cert.ReferenceIdeal.τ).loc Cert.ReferenceIdeal.main_arg2) :=
    (keepSpan m ρ c main_arg2 0 18 (by decide) (by decide)).trans (hag c).2.2.1.symm
  show StableHlo.after hostOps7 (W18 m ρ c) (Proc.devRef .tc main_v119) = _
  after_results_simp
  rw [ha2]
  unfold rv_v141 rv_v140
  rfl

set_option maxHeartbeats 4000000 in

theorem k121 (hag : Agree m m') (c : Dev nD) : W19 m ρ c (Proc.devRef .tc main_v121) = rv_v143 (F := Ideal) m' c := by
  have ha2 : W18 m ρ c (Proc.devRef .tc main_arg2) = m' ((c.tc : Thread Cert.ReferenceIdeal.nD Cert.ReferenceIdeal.τ).loc Cert.ReferenceIdeal.main_arg2) :=
    (keepSpan m ρ c main_arg2 0 18 (by decide) (by decide)).trans (hag c).2.2.1.symm
  show StableHlo.after hostOps7 (W18 m ρ c) (Proc.devRef .tc main_v121) = _
  after_results_simp
  rw [ha2]
  unfold rv_v143 rv_v142
  rfl

theorem k122 (hag : Agree m m') (c : Dev nD) :
    W19 m ρ c (Proc.devRef .tc main_v122) = shapeCast S1x128 (m' ((c.tc : Thread Cert.ReferenceIdeal.nD Cert.ReferenceIdeal.τ).loc Cert.ReferenceIdeal.main_arg20)) shapeCasts_S128_S1x128 := by
  have ha : W18 m ρ c (Proc.devRef .tc main_arg20) = m' ((c.tc : Thread Cert.ReferenceIdeal.nD Cert.ReferenceIdeal.τ).loc Cert.ReferenceIdeal.main_arg20) :=
    (keepSpan m ρ c main_arg20 0 18 (by decide) (by decide)).trans (hag c).2.2.2.2.2.2.2.2.2.2.2.2.2.2.2.2.2.2.2.2.1.symm
  show StableHlo.after hostOps7 (W18 m ρ c) (Proc.devRef .tc main_v122) = _
  after_results_simp
  rw [ha]
  rfl

theorem k123 (hag : Agree m m') (c : Dev nD) : W20 m ρ c (Proc.devRef .tc main_v123) = rv_v148 (F := Ideal) m' c := by
  have hreg := Cert.KernelIdeal.Reg7.value (V19 m ρ) c
  have hx : V19 m ρ c main_arg0 = m' ((c.tc : Thread Cert.ReferenceIdeal.nD Cert.ReferenceIdeal.τ).loc Cert.ReferenceIdeal.main_arg0) := (keepSpan m ρ c main_arg0 0 19 (by decide) (by decide)).trans (hag c).1.symm
  have hw : V19 m ρ c main_arg19 = m' ((c.tc : Thread Cert.ReferenceIdeal.nD Cert.ReferenceIdeal.τ).loc Cert.ReferenceIdeal.main_arg19) := (keepSpan m ρ c main_arg19 0 19 (by decide) (by decide)).trans (hag c).2.2.2.2.2.2.2.2.2.2.2.2.2.2.2.2.2.2.2.1.symm
  have hb : (fun i : (⟨1, ![128]⟩ : Shape).Idx => V19 m ρ c main_v122 (ix2 0 (i 0))) = m' ((c.tc : Thread Cert.ReferenceIdeal.nD Cert.ReferenceIdeal.τ).loc Cert.ReferenceIdeal.main_arg20) := by
    rw [show V19 m ρ c main_v122 = _ from k122 m ρ m' hag c]
    exact Cert.HostForms.row_of_cast _ _
  refine (W20_arr m ρ c 3).trans (hreg.trans ?_)
  rw [hx, hw]
  refine (congrArg (Cert.Spec.encode (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg19))) hb).trans ?_
  unfold rv_v148 rv_v147 rv_v144 rv_v146 rv_v145 rv_call5_v0 rv_call5_cst
  exact (Cert.HostForms.encode_eq _ rfl rfl rfl rfl rfl rfl _ _ _ _ _ _).symm

theorem k124 (hag : Agree m m') (c : Dev nD) :
    W21 m ρ c (Proc.devRef .tc main_v124) = shapeCast S1x128 (m' ((c.tc : Thread Cert.ReferenceIdeal.nD Cert.ReferenceIdeal.τ).loc Cert.ReferenceIdeal.main_arg22)) shapeCasts_S128_S1x128 := by
  have ha : W20 m ρ c (Proc.devRef .tc main_arg22) = m' ((c.tc : Thread Cert.ReferenceIdeal.nD Cert.ReferenceIdeal.τ).loc Cert.ReferenceIdeal.main_arg22) :=
    (keepSpan m ρ c main_arg22 0 20 (by decide) (by decide)).trans (hag c).2.2.2.2.2.2.2.2.2.2.2.2.2.2.2.2.2.2.2.2.2.2.1.symm
  show StableHlo.after hostOps8 (W20 m ρ c) (Proc.devRef .tc main_v124) = _
  after_results_simp
  rw [ha]
  rfl

theorem k125 (hag : Agree m m') (c : Dev nD) : W22 m ρ c (Proc.devRef .tc main_v125) = rv_v153 (F := Ideal) m' c := by
  have hreg := Cert.KernelIdeal.Reg8.value (V21 m ρ) c
  have hx : V21 m ρ c main_arg3 = m' ((c.tc : Thread Cert.ReferenceIdeal.nD Cert.ReferenceIdeal.τ).loc Cert.ReferenceIdeal.main_arg3) := (keepSpan m ρ c main_arg3 0 21 (by decide) (by decide)).trans (hag c).2.2.2.1.symm
  have hw : V21 m ρ c main_arg21 = m' ((c.tc : Thread Cert.ReferenceIdeal.nD Cert.ReferenceIdeal.τ).loc Cert.ReferenceIdeal.main_arg21) := (keepSpan m ρ c main_arg21 0 21 (by decide) (by decide)).trans (hag c).2.2.2.2.2.2.2.2.2.2.2.2.2.2.2.2.2.2.2.2.2.1.symm
  have hb : (fun i : (⟨1, ![128]⟩ : Shape).Idx => V21 m ρ c main_v124 (ix2 0 (i 0))) = m' ((c.tc : Thread Cert.ReferenceIdeal.nD Cert.ReferenceIdeal.τ).loc Cert.ReferenceIdeal.main_arg22) := by
    rw [show V21 m ρ c main_v124 = _ from k124 m ρ m' hag c]
    exact Cert.HostForms.row_of_cast _ _
  refine (W22_arr m ρ c 3).trans (hreg.trans ?_)
  rw [hx, hw]
  refine (congrArg (Cert.Spec.encode (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg21))) hb).trans ?_
  unfold rv_v153 rv_v152 rv_v149 rv_v151 rv_v150 rv_call6_v0 rv_call6_cst
  exact (Cert.HostForms.encode_eq _ rfl rfl rfl rfl rfl rfl _ _ _ _ _ _).symm

end Cert.Chain

end
-- ==== Proof.Reg9.lean ====
-- As the first update, with this launch's arrays: the tile's entry is the template's, the tiles partition the rows.
import proofs.«400221_j39548058861723_2_alg».proof.Proof.Gen.KernelIdeal.Frame
import proofs.«400221_j39548058861723_2_alg».proof.Proof.Spec
import proofs.«400221_j39548058861723_2_alg».proof.Proof.Reg2
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg9

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

theorem index_facts : ∀ t : Fin cfg9.N,
    win9_0.index t (0 : Fin 2) = win9_4.index t (0 : Fin 2) ∧ win9_0.index t (1 : Fin 2) = win9_4.index t (1 : Fin 2)
    ∧ win9_1.index t (0 : Fin 2) = win9_4.index t (0 : Fin 2) ∧ win9_1.index t (1 : Fin 2) = win9_4.index t (1 : Fin 2)
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

variable (V : (c : Dev nD) → (b : Ref sig .tc) → Buf (Elt Ideal) ((c : Thread nD τ).loc b))

theorem flushed_eq (c : Dev nD) (t : Fin cfg9.N) :
    (dat9 (F := Ideal) V c).flushed 4 t
      = ((cfg9.win 4).blk t).view.read (Elt Ideal)
          (Cert.Spec.update (V c main_v123) (V c main_v141) (V c main_v143) (fun i => V c main_v146 (ix2 0 (i 0)))) := by
  show (cfg9.win 4).cut (grid9.coords t) ((dat9 (F := Ideal) V c).after 4 t) = _
  rw [after9_4]
  unfold out9_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  show k2_pay1 (F := Ideal) (iblk9 V c 1 t) (iblk9 V c 2 t) (iblk9 V c 3 t) (iblk9 V c 0 t) (ix2 p q)
    = Cert.Spec.update (V c main_v123) (V c main_v141) (V c main_v143) (fun i => V c main_v146 (ix2 0 (i 0)))
        (((cfg9.win 4).blk t).view.emb (ix2 p q))
  refine Reg2.tile_entry (V c main_v123) (V c main_v141) (V c main_v143) (V c main_v146) _ _ _ _ _ p q ?_ (fun kk => ?_) (fun kk => ?_) ?_
  · show V c main_v123 (((cfg9.win 0).blk t).view.emb (ix2 p q)) = _
    refine congrArg (V c main_v123) (funext fun a => Fin.ext ?_)
    match a with
    | ⟨0, _⟩ => show win9_0.index t (0 : Fin 2) * 5000 + 1 * p.val = win9_4.index t (0 : Fin 2) * 5000 + 1 * p.val; omega
    | ⟨1, _⟩ => show win9_0.index t (1 : Fin 2) * 128 + 1 * q.val = win9_4.index t (1 : Fin 2) * 128 + 1 * q.val; omega
  · show V c main_v141 (((cfg9.win 1).blk t).view.emb (ix2 p kk)) = _
    refine congrArg (V c main_v141) (funext fun a => Fin.ext ?_)
    match a with
    | ⟨0, _⟩ => show win9_1.index t (0 : Fin 2) * 5000 + 1 * p.val = win9_4.index t (0 : Fin 2) * 5000 + 1 * p.val; omega
    | ⟨1, _⟩ => show win9_1.index t (1 : Fin 2) * 128 + 1 * kk.val = kk.val; omega
  · show V c main_v143 (((cfg9.win 2).blk t).view.emb (ix2 kk q)) = _
    refine congrArg (V c main_v143) (funext fun a => Fin.ext ?_)
    match a with
    | ⟨0, _⟩ => show win9_2.index t (0 : Fin 2) * 128 + 1 * kk.val = kk.val; omega
    | ⟨1, _⟩ => show win9_2.index t (1 : Fin 2) * 128 + 1 * q.val = win9_4.index t (1 : Fin 2) * 128 + 1 * q.val; omega
  · show V c main_v146 (((cfg9.win 3).blk t).view.emb (ix2 0 q)) = _
    refine congrArg (V c main_v146) (funext fun a => Fin.ext ?_)
    match a with
    | ⟨0, _⟩ => show win9_3.index t (0 : Fin 2) * 1 + 1 * 0 = 0; omega
    | ⟨1, _⟩ => show win9_3.index t (1 : Fin 2) * 128 + 1 * q.val = win9_4.index t (1 : Fin 2) * 128 + 1 * q.val; omega

theorem mem_tile (t : Fin cfg9.N) (i : S200000x128.Idx) :
    i ∈ ((cfg9.win 4).blk t).view.set ↔ ∀ a : Fin 2, win9_4.index t a * S5000x128.size a ≤ (i a).val
      ∧ (i a).val < win9_4.index t a * S5000x128.size a + S5000x128.size a := by
  show i ∈ ((View.whole main_v147).slice (win9_4.rect t)).set ↔ _
  rw [View.set_slice_whole, Rect.mem_set_unit]
  exact Iff.rfl

theorem covered (i : S200000x128.Idx) :
    ∃ t : Fin cfg9.N, (cfg9.win 4).flush t = true ∧ i ∈ ((cfg9.win 4).blk t).view.set := by
  have hN : cfg9.N = 40 := N_9
  have hi0 : (i 0).val < 200000 := (i 0).isLt
  have hi1 : (i 1).val < 128 := (i 1).isLt
  obtain ⟨t, ht⟩ : ∃ t : Fin cfg9.N, t.val = (i 0).val / 5000 := ⟨⟨(i 0).val / 5000, by rw [hN]; omega⟩, rfl⟩
  obtain ⟨-, -, -, -, -, -, -, -, e40, e41⟩ := index_facts t
  refine ⟨t, flush9_4 t, ?_⟩
  rw [mem_tile]
  intro a
  match a with
  | ⟨0, _⟩ =>
    show win9_4.index t (0 : Fin 2) * 5000 ≤ (i 0).val ∧ (i 0).val < win9_4.index t (0 : Fin 2) * 5000 + 5000
    omega
  | ⟨1, _⟩ =>
    show win9_4.index t (1 : Fin 2) * 128 ≤ (i 1).val ∧ (i 1).val < win9_4.index t (1 : Fin 2) * 128 + 128
    omega

theorem value (c : Dev nD) :
    (dat9 (F := Ideal) V c).arrAt 4 cfg9.N
      = Cert.Spec.update (V c main_v123) (V c main_v141) (V c main_v143) (fun i => V c main_v146 (ix2 0 (i 0))) :=
  (dat9 (F := Ideal) V c).arrAt_eq_of_cover 4 _ (fun t _ => flushed_eq V c t) covered

end Cert.KernelIdeal.Reg9

end
-- ==== Proof.ChainT2.lean ====
-- Whole-graph branch, first message round and update.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg9
import proofs.«400221_j39548058861723_2_alg».proof.Proof.HostForms
import proofs.«400221_j39548058861723_2_alg».proof.Proof.MsgForms
import proofs.«400221_j39548058861723_2_alg».proof.Proof.ChainT1

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

theorem k126 (hag : Agree m m') (c : Dev nD) : W23 m ρ c (Proc.devRef .tc main_v126) = rv_v153 (F := Ideal) m' c := by
  show StableHlo.after hostOps9 (W22 m ρ c) (Proc.devRef .tc main_v126) = _
  after_results_simp
  exact k125 m ρ m' hag c

theorem k127 (hag : Agree m m') (c : Dev nD) :
    W23 m ρ c (Proc.devRef .tc main_v127) = shapeCast S500000x1 (m' ((c.tc : Thread Cert.ReferenceIdeal.nD Cert.ReferenceIdeal.τ).loc Cert.ReferenceIdeal.main_arg4)) shapeCasts_S500000_S500000x1 := by
  have ha : W22 m ρ c (Proc.devRef .tc main_arg4) = m' ((c.tc : Thread Cert.ReferenceIdeal.nD Cert.ReferenceIdeal.τ).loc Cert.ReferenceIdeal.main_arg4) :=
    (keepSpan m ρ c main_arg4 0 22 (by decide) (by decide)).trans (hag c).2.2.2.2.1.symm
  show StableHlo.after hostOps9 (W22 m ρ c) (Proc.devRef .tc main_v127) = _
  after_results_simp
  rw [ha]
  rfl

set_option maxHeartbeats 4000000 in

theorem k141 (hag : Agree m m') (c : Dev nD) : W23 m ρ c (Proc.devRef .tc main_v141) = rv_v167 (F := Ideal) m' c := by
  have he : W22 m ρ c (Proc.devRef .tc main_v125) = rv_v153 (F := Ideal) m' c := k125 m ρ m' hag c
  have ha : W22 m ρ c (Proc.devRef .tc main_arg4) = m' ((c.tc : Thread Cert.ReferenceIdeal.nD Cert.ReferenceIdeal.τ).loc Cert.ReferenceIdeal.main_arg4) :=
    (keepSpan m ρ c main_arg4 0 22 (by decide) (by decide)).trans (hag c).2.2.2.2.1.symm
  have hs : W22 m ρ c (Proc.devRef .tc main_v119) = rv_v141 (F := Ideal) m' c := (keepSpan m ρ c main_v119 19 3 (by decide) (by decide)).trans (k119 m ρ m' hag c)
  have hd : W22 m ρ c (Proc.devRef .tc main_v121) = rv_v143 (F := Ideal) m' c := (keepSpan m ρ c main_v121 19 3 (by decide) (by decide)).trans (k121 m ρ m' hag c)
  have hh : W22 m ρ c (Proc.devRef .tc main_v123) = rv_v148 (F := Ideal) m' c := (keepSpan m ρ c main_v123 20 2 (by decide) (by decide)).trans (k123 m ρ m' hag c)
  show StableHlo.after hostOps9 (W22 m ρ c) (Proc.devRef .tc main_v141) = _
  after_results_simp
  rw [he, ha, hs, hd, hh]
  unfold rv_v167 rv_v165 rv_cst_23 rv_v166 rv_v164 rv_v163 rv_v154 rv_v162 rv_v161 rv_v160 rv_v159 rv_v156 rv_v155 rv_c_21 rv_v158 rv_v157 rv_c_22
  refine (congrArg (Host.scatterAdd _ _ _) (Cert.MsgForms.message_eq shapeCasts_S500000_S500000x1 bcast_S500000x1_S500000x128_0_1 Cert.ReferenceIdeal.Gen.bcast_S500000_S500000x1_0 _ _ (m' ((c.tc : Thread Cert.ReferenceIdeal.nD Cert.ReferenceIdeal.τ).loc Cert.ReferenceIdeal.main_arg4)))).trans ?_
  rfl

theorem k143 (hag : Agree m m') (c : Dev nD) : W23 m ρ c (Proc.devRef .tc main_v143) = rv_v169 (F := Ideal) m' c := by
  have ha23 : W22 m ρ c (Proc.devRef .tc main_arg23) = m' ((c.tc : Thread Cert.ReferenceIdeal.nD Cert.ReferenceIdeal.τ).loc Cert.ReferenceIdeal.main_arg23) :=
    (keepSpan m ρ c main_arg23 0 22 (by decide) (by decide)).trans (hag c).2.2.2.2.2.2.2.2.2.2.2.2.2.2.2.2.2.2.2.2.2.2.2.1.symm
  show StableHlo.after hostOps9 (W22 m ρ c) (Proc.devRef .tc main_v143) = _
  after_results_simp
  rw [ha23]
  unfold rv_v169 rv_v168
  rfl

theorem k146 (hag : Agree m m') (c : Dev nD) :
    W23 m ρ c (Proc.devRef .tc main_v146) = shapeCast S1x128 (rv_v173 (F := Ideal) m' c) shapeCasts_S128_S1x128 := by
  have h24 : W22 m ρ c (Proc.devRef .tc main_arg24) = m' ((c.tc : Thread Cert.ReferenceIdeal.nD Cert.ReferenceIdeal.τ).loc Cert.ReferenceIdeal.main_arg24) :=
    (keepSpan m ρ c main_arg24 0 22 (by decide) (by decide)).trans (hag c).2.2.2.2.2.2.2.2.2.2.2.2.2.2.2.2.2.2.2.2.2.2.2.2.1.symm
  show StableHlo.after hostOps9 (W22 m ρ c) (Proc.devRef .tc main_v146) = _
  after_results_simp
  rw [h24]
  unfold rv_v173 rv_v172
  rfl

theorem k147 (hag : Agree m m') (c : Dev nD) : W24 m ρ c (Proc.devRef .tc main_v147) = rv_v177 (F := Ideal) m' c := by
  have hreg := Cert.KernelIdeal.Reg9.value (V23 m ρ) c
  have hh : V23 m ρ c main_v123 = rv_v148 (F := Ideal) m' c := (keepSpan m ρ c main_v123 20 3 (by decide) (by decide)).trans (k123 m ρ m' hag c)
  have ha : V23 m ρ c main_v141 = rv_v167 (F := Ideal) m' c := k141 m ρ m' hag c
  have hw : V23 m ρ c main_v143 = rv_v169 (F := Ideal) m' c := k143 m ρ m' hag c
  have hb : (fun i : (⟨1, ![128]⟩ : Shape).Idx => V23 m ρ c main_v146 (ix2 0 (i 0))) = rv_v173 (F := Ideal) m' c := by
    rw [show V23 m ρ c main_v146 = _ from k146 m ρ m' hag c]
    exact Cert.HostForms.row_of_cast _ _
  refine (W24_arr m ρ c 4).trans (hreg.trans ?_)
  rw [hh, ha, hw]
  refine (congrArg (Cert.Spec.update (rv_v148 (F := Ideal) m' c) (rv_v167 (F := Ideal) m' c) (rv_v169 (F := Ideal) m' c)) hb).trans ?_
  unfold rv_v177 rv_v176 rv_v171 rv_v170 rv_v175 rv_v174 rv_call7_v0 rv_call7_cst
  exact (Cert.HostForms.update_eq _ rfl rfl rfl rfl rfl rfl _ _ _ _ _ _ _).symm

end Cert.Chain

end
-- ==== Proof.Reg10.lean ====
-- As the first update, with this launch's arrays: the tile's entry is the template's, the tiles partition the rows.
import proofs.«400221_j39548058861723_2_alg».proof.Proof.Gen.KernelIdeal.Frame
import proofs.«400221_j39548058861723_2_alg».proof.Proof.Spec
import proofs.«400221_j39548058861723_2_alg».proof.Proof.Reg2
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg10

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

theorem index_facts : ∀ t : Fin cfg10.N,
    win10_0.index t (0 : Fin 2) = win10_4.index t (0 : Fin 2) ∧ win10_0.index t (1 : Fin 2) = win10_4.index t (1 : Fin 2)
    ∧ win10_1.index t (0 : Fin 2) = win10_4.index t (0 : Fin 2) ∧ win10_1.index t (1 : Fin 2) = win10_4.index t (1 : Fin 2)
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

variable (V : (c : Dev nD) → (b : Ref sig .tc) → Buf (Elt Ideal) ((c : Thread nD τ).loc b))

theorem flushed_eq (c : Dev nD) (t : Fin cfg10.N) :
    (dat10 (F := Ideal) V c).flushed 4 t
      = ((cfg10.win 4).blk t).view.read (Elt Ideal)
          (Cert.Spec.update (V c main_v147) (V c main_v161) (V c main_v163) (fun i => V c main_v166 (ix2 0 (i 0)))) := by
  show (cfg10.win 4).cut (grid10.coords t) ((dat10 (F := Ideal) V c).after 4 t) = _
  rw [after10_4]
  unfold out10_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  show k2_pay1 (F := Ideal) (iblk10 V c 1 t) (iblk10 V c 2 t) (iblk10 V c 3 t) (iblk10 V c 0 t) (ix2 p q)
    = Cert.Spec.update (V c main_v147) (V c main_v161) (V c main_v163) (fun i => V c main_v166 (ix2 0 (i 0)))
        (((cfg10.win 4).blk t).view.emb (ix2 p q))
  refine Reg2.tile_entry (V c main_v147) (V c main_v161) (V c main_v163) (V c main_v166) _ _ _ _ _ p q ?_ (fun kk => ?_) (fun kk => ?_) ?_
  · show V c main_v147 (((cfg10.win 0).blk t).view.emb (ix2 p q)) = _
    refine congrArg (V c main_v147) (funext fun a => Fin.ext ?_)
    match a with
    | ⟨0, _⟩ => show win10_0.index t (0 : Fin 2) * 5000 + 1 * p.val = win10_4.index t (0 : Fin 2) * 5000 + 1 * p.val; omega
    | ⟨1, _⟩ => show win10_0.index t (1 : Fin 2) * 128 + 1 * q.val = win10_4.index t (1 : Fin 2) * 128 + 1 * q.val; omega
  · show V c main_v161 (((cfg10.win 1).blk t).view.emb (ix2 p kk)) = _
    refine congrArg (V c main_v161) (funext fun a => Fin.ext ?_)
    match a with
    | ⟨0, _⟩ => show win10_1.index t (0 : Fin 2) * 5000 + 1 * p.val = win10_4.index t (0 : Fin 2) * 5000 + 1 * p.val; omega
    | ⟨1, _⟩ => show win10_1.index t (1 : Fin 2) * 128 + 1 * kk.val = kk.val; omega
  · show V c main_v163 (((cfg10.win 2).blk t).view.emb (ix2 kk q)) = _
    refine congrArg (V c main_v163) (funext fun a => Fin.ext ?_)
    match a with
    | ⟨0, _⟩ => show win10_2.index t (0 : Fin 2) * 128 + 1 * kk.val = kk.val; omega
    | ⟨1, _⟩ => show win10_2.index t (1 : Fin 2) * 128 + 1 * q.val = win10_4.index t (1 : Fin 2) * 128 + 1 * q.val; omega
  · show V c main_v166 (((cfg10.win 3).blk t).view.emb (ix2 0 q)) = _
    refine congrArg (V c main_v166) (funext fun a => Fin.ext ?_)
    match a with
    | ⟨0, _⟩ => show win10_3.index t (0 : Fin 2) * 1 + 1 * 0 = 0; omega
    | ⟨1, _⟩ => show win10_3.index t (1 : Fin 2) * 128 + 1 * q.val = win10_4.index t (1 : Fin 2) * 128 + 1 * q.val; omega

theorem mem_tile (t : Fin cfg10.N) (i : S200000x128.Idx) :
    i ∈ ((cfg10.win 4).blk t).view.set ↔ ∀ a : Fin 2, win10_4.index t a * S5000x128.size a ≤ (i a).val
      ∧ (i a).val < win10_4.index t a * S5000x128.size a + S5000x128.size a := by
  show i ∈ ((View.whole main_v167).slice (win10_4.rect t)).set ↔ _
  rw [View.set_slice_whole, Rect.mem_set_unit]
  exact Iff.rfl

theorem covered (i : S200000x128.Idx) :
    ∃ t : Fin cfg10.N, (cfg10.win 4).flush t = true ∧ i ∈ ((cfg10.win 4).blk t).view.set := by
  have hN : cfg10.N = 40 := N_10
  have hi0 : (i 0).val < 200000 := (i 0).isLt
  have hi1 : (i 1).val < 128 := (i 1).isLt
  obtain ⟨t, ht⟩ : ∃ t : Fin cfg10.N, t.val = (i 0).val / 5000 := ⟨⟨(i 0).val / 5000, by rw [hN]; omega⟩, rfl⟩
  obtain ⟨-, -, -, -, -, -, -, -, e40, e41⟩ := index_facts t
  refine ⟨t, flush10_4 t, ?_⟩
  rw [mem_tile]
  intro a
  match a with
  | ⟨0, _⟩ =>
    show win10_4.index t (0 : Fin 2) * 5000 ≤ (i 0).val ∧ (i 0).val < win10_4.index t (0 : Fin 2) * 5000 + 5000
    omega
  | ⟨1, _⟩ =>
    show win10_4.index t (1 : Fin 2) * 128 ≤ (i 1).val ∧ (i 1).val < win10_4.index t (1 : Fin 2) * 128 + 128
    omega

theorem value (c : Dev nD) :
    (dat10 (F := Ideal) V c).arrAt 4 cfg10.N
      = Cert.Spec.update (V c main_v147) (V c main_v161) (V c main_v163) (fun i => V c main_v166 (ix2 0 (i 0))) :=
  (dat10 (F := Ideal) V c).arrAt_eq_of_cover 4 _ (fun t _ => flushed_eq V c t) covered

end Cert.KernelIdeal.Reg10

end
-- ==== Proof.ChainT3.lean ====
-- Whole-graph branch, second message round and update.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg10
import proofs.«400221_j39548058861723_2_alg».proof.Proof.HostForms
import proofs.«400221_j39548058861723_2_alg».proof.Proof.MsgForms
import proofs.«400221_j39548058861723_2_alg».proof.Proof.ChainT1
import proofs.«400221_j39548058861723_2_alg».proof.Proof.ChainT2

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in

theorem k161 (hag : Agree m m') (c : Dev nD) : W25 m ρ c (Proc.devRef .tc main_v161) = rv_v190 (F := Ideal) m' c := by
  have hh : W24 m ρ c (Proc.devRef .tc main_v147) = rv_v177 (F := Ideal) m' c := (k147 m ρ m' hag c)
  have he : W24 m ρ c (Proc.devRef .tc main_v126) = rv_v153 (F := Ideal) m' c := ((keep24 m ρ c main_v126 (by decide)).trans (k126 m ρ m' hag c))
  have hw : W24 m ρ c (Proc.devRef .tc main_v127) = shapeCast S500000x1 (m' ((c.tc : Thread Cert.ReferenceIdeal.nD Cert.ReferenceIdeal.τ).loc Cert.ReferenceIdeal.main_arg4)) shapeCasts_S500000_S500000x1 := ((keep24 m ρ c main_v127 (by decide)).trans (k127 m ρ m' hag c))
  have hs : W24 m ρ c (Proc.devRef .tc main_v119) = rv_v141 (F := Ideal) m' c := ((keepSpan m ρ c main_v119 19 5 (by decide) (by decide)).trans (k119 m ρ m' hag c))
  have hd : W24 m ρ c (Proc.devRef .tc main_v121) = rv_v143 (F := Ideal) m' c := ((keepSpan m ρ c main_v121 19 5 (by decide) (by decide)).trans (k121 m ρ m' hag c))
  show StableHlo.after hostOps10 (W24 m ρ c) (Proc.devRef .tc main_v161) = _
  after_results_simp
  rw [hh, he, hw, hs, hd]
  unfold rv_v190 rv_v188 rv_cst_26 rv_v189 rv_v187 rv_v186 rv_v154 rv_v185 rv_v184 rv_v183 rv_v182 rv_v179 rv_v178 rv_c_24 rv_v181 rv_v180 rv_c_25
  refine (congrArg (Host.scatterAdd _ _ _) (Cert.MsgForms.message_eq shapeCasts_S500000_S500000x1 bcast_S500000x1_S500000x128_0_1 Cert.ReferenceIdeal.Gen.bcast_S500000_S500000x1_0 _ _ (m' ((c.tc : Thread Cert.ReferenceIdeal.nD Cert.ReferenceIdeal.τ).loc Cert.ReferenceIdeal.main_arg4)))).trans ?_
  rfl

theorem k163 (hag : Agree m m') (c : Dev nD) : W25 m ρ c (Proc.devRef .tc main_v163) = rv_v192 (F := Ideal) m' c := by
  have ha : W24 m ρ c (Proc.devRef .tc main_arg23) = m' ((c.tc : Thread Cert.ReferenceIdeal.nD Cert.ReferenceIdeal.τ).loc Cert.ReferenceIdeal.main_arg23) :=
    (keepSpan m ρ c main_arg23 0 24 (by decide) (by decide)).trans (hag c).2.2.2.2.2.2.2.2.2.2.2.2.2.2.2.2.2.2.2.2.2.2.2.1.symm
  show StableHlo.after hostOps10 (W24 m ρ c) (Proc.devRef .tc main_v163) = _
  after_results_simp
  rw [ha]
  unfold rv_v192 rv_v191
  rfl

theorem k166 (hag : Agree m m') (c : Dev nD) :
    W25 m ρ c (Proc.devRef .tc main_v166) = shapeCast S1x128 (rv_v196 (F := Ideal) m' c) shapeCasts_S128_S1x128 := by
  have ha : W24 m ρ c (Proc.devRef .tc main_arg24) = m' ((c.tc : Thread Cert.ReferenceIdeal.nD Cert.ReferenceIdeal.τ).loc Cert.ReferenceIdeal.main_arg24) :=
    (keepSpan m ρ c main_arg24 0 24 (by decide) (by decide)).trans (hag c).2.2.2.2.2.2.2.2.2.2.2.2.2.2.2.2.2.2.2.2.2.2.2.2.1.symm
  show StableHlo.after hostOps10 (W24 m ρ c) (Proc.devRef .tc main_v166) = _
  after_results_simp
  rw [ha]
  unfold rv_v196 rv_v195
  rfl

theorem k167 (hag : Agree m m') (c : Dev nD) : W26 m ρ c (Proc.devRef .tc main_v167) = rv_v200 (F := Ideal) m' c := by
  have hreg := Cert.KernelIdeal.Reg10.value (V25 m ρ) c
  have hh : V25 m ρ c main_v147 = rv_v177 (F := Ideal) m' c := (keep25 m ρ c main_v147 (by decide)).trans (k147 m ρ m' hag c)
  have ha : V25 m ρ c main_v161 = rv_v190 (F := Ideal) m' c := k161 m ρ m' hag c
  have hw : V25 m ρ c main_v163 = rv_v192 (F := Ideal) m' c := k163 m ρ m' hag c
  have hb : (fun i : (⟨1, ![128]⟩ : Shape).Idx => V25 m ρ c main_v166 (ix2 0 (i 0))) = rv_v196 (F := Ideal) m' c := by
    rw [show V25 m ρ c main_v166 = _ from k166 m ρ m' hag c]
    exact Cert.HostForms.row_of_cast _ _
  refine (W26_arr m ρ c 4).trans (hreg.trans ?_)
  rw [hh, ha, hw]
  refine (congrArg (Cert.Spec.update (rv_v177 (F := Ideal) m' c) (rv_v190 (F := Ideal) m' c) (rv_v192 (F := Ideal) m' c)) hb).trans ?_
  unfold rv_v200 rv_v199 rv_v194 rv_v193 rv_v198 rv_v197 rv_call8_v0 rv_call8_cst
  exact (Cert.HostForms.update_eq _ rfl rfl rfl rfl rfl rfl _ _ _ _ _ _ _).symm

end Cert.Chain

end
-- ==== Proof.Reg11.lean ====
-- As the first update, with this launch's arrays: the tile's entry is the template's, the tiles partition the rows.
import proofs.«400221_j39548058861723_2_alg».proof.Proof.Gen.KernelIdeal.Frame
import proofs.«400221_j39548058861723_2_alg».proof.Proof.Spec
import proofs.«400221_j39548058861723_2_alg».proof.Proof.Reg2
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg11

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

theorem index_facts : ∀ t : Fin cfg11.N,
    win11_0.index t (0 : Fin 2) = win11_4.index t (0 : Fin 2) ∧ win11_0.index t (1 : Fin 2) = win11_4.index t (1 : Fin 2)
    ∧ win11_1.index t (0 : Fin 2) = win11_4.index t (0 : Fin 2) ∧ win11_1.index t (1 : Fin 2) = win11_4.index t (1 : Fin 2)
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

variable (V : (c : Dev nD) → (b : Ref sig .tc) → Buf (Elt Ideal) ((c : Thread nD τ).loc b))

theorem flushed_eq (c : Dev nD) (t : Fin cfg11.N) :
    (dat11 (F := Ideal) V c).flushed 4 t
      = ((cfg11.win 4).blk t).view.read (Elt Ideal)
          (Cert.Spec.update (V c main_v167) (V c main_v181) (V c main_v183) (fun i => V c main_v186 (ix2 0 (i 0)))) := by
  show (cfg11.win 4).cut (grid11.coords t) ((dat11 (F := Ideal) V c).after 4 t) = _
  rw [after11_4]
  unfold out11_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts t
  refine funext fun (j : S5000x128.Idx) => ?_
  obtain ⟨p, q, rfl⟩ : ∃ (p : Fin 5000) (q : Fin 128), j = ix2 p q := ⟨j 0, j 1, eq_ix2 j⟩
  show k2_pay1 (F := Ideal) (iblk11 V c 1 t) (iblk11 V c 2 t) (iblk11 V c 3 t) (iblk11 V c 0 t) (ix2 p q)
    = Cert.Spec.update (V c main_v167) (V c main_v181) (V c main_v183) (fun i => V c main_v186 (ix2 0 (i 0)))
        (((cfg11.win 4).blk t).view.emb (ix2 p q))
  refine Reg2.tile_entry (V c main_v167) (V c main_v181) (V c main_v183) (V c main_v186) _ _ _ _ _ p q ?_ (fun kk => ?_) (fun kk => ?_) ?_
  · show V c main_v167 (((cfg11.win 0).blk t).view.emb (ix2 p q)) = _
    refine congrArg (V c main_v167) (funext fun a => Fin.ext ?_)
    match a with
    | ⟨0, _⟩ => show win11_0.index t (0 : Fin 2) * 5000 + 1 * p.val = win11_4.index t (0 : Fin 2) * 5000 + 1 * p.val; omega
    | ⟨1, _⟩ => show win11_0.index t (1 : Fin 2) * 128 + 1 * q.val = win11_4.index t (1 : Fin 2) * 128 + 1 * q.val; omega
  · show V c main_v181 (((cfg11.win 1).blk t).view.emb (ix2 p kk)) = _
    refine congrArg (V c main_v181) (funext fun a => Fin.ext ?_)
    match a with
    | ⟨0, _⟩ => show win11_1.index t (0 : Fin 2) * 5000 + 1 * p.val = win11_4.index t (0 : Fin 2) * 5000 + 1 * p.val; omega
    | ⟨1, _⟩ => show win11_1.index t (1 : Fin 2) * 128 + 1 * kk.val = kk.val; omega
  · show V c main_v183 (((cfg11.win 2).blk t).view.emb (ix2 kk q)) = _
    refine congrArg (V c main_v183) (funext fun a => Fin.ext ?_)
    match a with
    | ⟨0, _⟩ => show win11_2.index t (0 : Fin 2) * 128 + 1 * kk.val = kk.val; omega
    | ⟨1, _⟩ => show win11_2.index t (1 : Fin 2) * 128 + 1 * q.val = win11_4.index t (1 : Fin 2) * 128 + 1 * q.val; omega
  · show V c main_v186 (((cfg11.win 3).blk t).view.emb (ix2 0 q)) = _
    refine congrArg (V c main_v186) (funext fun a => Fin.ext ?_)
    match a with
    | ⟨0, _⟩ => show win11_3.index t (0 : Fin 2) * 1 + 1 * 0 = 0; omega
    | ⟨1, _⟩ => show win11_3.index t (1 : Fin 2) * 128 + 1 * q.val = win11_4.index t (1 : Fin 2) * 128 + 1 * q.val; omega

theorem mem_tile (t : Fin cfg11.N) (i : S200000x128.Idx) :
    i ∈ ((cfg11.win 4).blk t).view.set ↔ ∀ a : Fin 2, win11_4.index t a * S5000x128.size a ≤ (i a).val
      ∧ (i a).val < win11_4.index t a * S5000x128.size a + S5000x128.size a := by
  show i ∈ ((View.whole main_v187).slice (win11_4.rect t)).set ↔ _
  rw [View.set_slice_whole, Rect.mem_set_unit]
  exact Iff.rfl

theorem covered (i : S200000x128.Idx) :
    ∃ t : Fin cfg11.N, (cfg11.win 4).flush t = true ∧ i ∈ ((cfg11.win 4).blk t).view.set := by
  have hN : cfg11.N = 40 := N_11
  have hi0 : (i 0).val < 200000 := (i 0).isLt
  have hi1 : (i 1).val < 128 := (i 1).isLt
  obtain ⟨t, ht⟩ : ∃ t : Fin cfg11.N, t.val = (i 0).val / 5000 := ⟨⟨(i 0).val / 5000, by rw [hN]; omega⟩, rfl⟩
  obtain ⟨-, -, -, -, -, -, -, -, e40, e41⟩ := index_facts t
  refine ⟨t, flush11_4 t, ?_⟩
  rw [mem_tile]
  intro a
  match a with
  | ⟨0, _⟩ =>
    show win11_4.index t (0 : Fin 2) * 5000 ≤ (i 0).val ∧ (i 0).val < win11_4.index t (0 : Fin 2) * 5000 + 5000
    omega
  | ⟨1, _⟩ =>
    show win11_4.index t (1 : Fin 2) * 128 ≤ (i 1).val ∧ (i 1).val < win11_4.index t (1 : Fin 2) * 128 + 128
    omega

theorem value (c : Dev nD) :
    (dat11 (F := Ideal) V c).arrAt 4 cfg11.N
      = Cert.Spec.update (V c main_v167) (V c main_v181) (V c main_v183) (fun i => V c main_v186 (ix2 0 (i 0))) :=
  (dat11 (F := Ideal) V c).arrAt_eq_of_cover 4 _ (fun t _ => flushed_eq V c t) covered

end Cert.KernelIdeal.Reg11

end
-- ==== Proof.ChainT4.lean ====
-- Whole-graph branch, third message round and update.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg11
import proofs.«400221_j39548058861723_2_alg».proof.Proof.HostForms
import proofs.«400221_j39548058861723_2_alg».proof.Proof.MsgForms
import proofs.«400221_j39548058861723_2_alg».proof.Proof.ChainT1
import proofs.«400221_j39548058861723_2_alg».proof.Proof.ChainT2
import proofs.«400221_j39548058861723_2_alg».proof.Proof.ChainT3

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

set_option maxHeartbeats 4000000 in

theorem k181 (hag : Agree m m') (c : Dev nD) : W27 m ρ c (Proc.devRef .tc main_v181) = rv_v213 (F := Ideal) m' c := by
  have hh : W26 m ρ c (Proc.devRef .tc main_v167) = rv_v200 (F := Ideal) m' c := (k167 m ρ m' hag c)
  have he : W26 m ρ c (Proc.devRef .tc main_v126) = rv_v153 (F := Ideal) m' c := ((keepSpan m ρ c main_v126 23 3 (by decide) (by decide)).trans (k126 m ρ m' hag c))
  have hw : W26 m ρ c (Proc.devRef .tc main_v127) = shapeCast S500000x1 (m' ((c.tc : Thread Cert.ReferenceIdeal.nD Cert.ReferenceIdeal.τ).loc Cert.ReferenceIdeal.main_arg4)) shapeCasts_S500000_S500000x1 := ((keepSpan m ρ c main_v127 23 3 (by decide) (by decide)).trans (k127 m ρ m' hag c))
  have hs : W26 m ρ c (Proc.devRef .tc main_v119) = rv_v141 (F := Ideal) m' c := ((keepSpan m ρ c main_v119 19 7 (by decide) (by decide)).trans (k119 m ρ m' hag c))
  have hd : W26 m ρ c (Proc.devRef .tc main_v121) = rv_v143 (F := Ideal) m' c := ((keepSpan m ρ c main_v121 19 7 (by decide) (by decide)).trans (k121 m ρ m' hag c))
  show StableHlo.after hostOps11 (W26 m ρ c) (Proc.devRef .tc main_v181) = _
  after_results_simp
  rw [hh, he, hw, hs, hd]
  unfold rv_v213 rv_v211 rv_cst_29 rv_v212 rv_v210 rv_v209 rv_v154 rv_v208 rv_v207 rv_v206 rv_v205 rv_v202 rv_v201 rv_c_27 rv_v204 rv_v203 rv_c_28
  refine (congrArg (Host.scatterAdd _ _ _) (Cert.MsgForms.message_eq shapeCasts_S500000_S500000x1 bcast_S500000x1_S500000x128_0_1 Cert.ReferenceIdeal.Gen.bcast_S500000_S500000x1_0 _ _ (m' ((c.tc : Thread Cert.ReferenceIdeal.nD Cert.ReferenceIdeal.τ).loc Cert.ReferenceIdeal.main_arg4)))).trans ?_
  rfl

theorem k183 (hag : Agree m m') (c : Dev nD) : W27 m ρ c (Proc.devRef .tc main_v183) = rv_v215 (F := Ideal) m' c := by
  have ha : W26 m ρ c (Proc.devRef .tc main_arg23) = m' ((c.tc : Thread Cert.ReferenceIdeal.nD Cert.ReferenceIdeal.τ).loc Cert.ReferenceIdeal.main_arg23) :=
    (keepSpan m ρ c main_arg23 0 26 (by decide) (by decide)).trans (hag c).2.2.2.2.2.2.2.2.2.2.2.2.2.2.2.2.2.2.2.2.2.2.2.1.symm
  show StableHlo.after hostOps11 (W26 m ρ c) (Proc.devRef .tc main_v183) = _
  after_results_simp
  rw [ha]
  unfold rv_v215 rv_v214
  rfl

theorem k186 (hag : Agree m m') (c : Dev nD) :
    W27 m ρ c (Proc.devRef .tc main_v186) = shapeCast S1x128 (rv_v219 (F := Ideal) m' c) shapeCasts_S128_S1x128 := by
  have ha : W26 m ρ c (Proc.devRef .tc main_arg24) = m' ((c.tc : Thread Cert.ReferenceIdeal.nD Cert.ReferenceIdeal.τ).loc Cert.ReferenceIdeal.main_arg24) :=
    (keepSpan m ρ c main_arg24 0 26 (by decide) (by decide)).trans (hag c).2.2.2.2.2.2.2.2.2.2.2.2.2.2.2.2.2.2.2.2.2.2.2.2.1.symm
  show StableHlo.after hostOps11 (W26 m ρ c) (Proc.devRef .tc main_v186) = _
  after_results_simp
  rw [ha]
  unfold rv_v219 rv_v218
  rfl

theorem k187 (hag : Agree m m') (c : Dev nD) : W28 m ρ c (Proc.devRef .tc main_v187) = rv_v223 (F := Ideal) m' c := by
  have hreg := Cert.KernelIdeal.Reg11.value (V27 m ρ) c
  have hh : V27 m ρ c main_v167 = rv_v200 (F := Ideal) m' c := (keep27 m ρ c main_v167 (by decide)).trans (k167 m ρ m' hag c)
  have ha : V27 m ρ c main_v181 = rv_v213 (F := Ideal) m' c := k181 m ρ m' hag c
  have hw : V27 m ρ c main_v183 = rv_v215 (F := Ideal) m' c := k183 m ρ m' hag c
  have hb : (fun i : (⟨1, ![128]⟩ : Shape).Idx => V27 m ρ c main_v186 (ix2 0 (i 0))) = rv_v219 (F := Ideal) m' c := by
    rw [show V27 m ρ c main_v186 = _ from k186 m ρ m' hag c]
    exact Cert.HostForms.row_of_cast _ _
  refine (W28_arr m ρ c 4).trans (hreg.trans ?_)
  rw [hh, ha, hw]
  refine (congrArg (Cert.Spec.update (rv_v200 (F := Ideal) m' c) (rv_v213 (F := Ideal) m' c) (rv_v215 (F := Ideal) m' c)) hb).trans ?_
  unfold rv_v223 rv_v222 rv_v217 rv_v216 rv_v221 rv_v220 rv_call9_v0 rv_call9_cst
  exact (Cert.HostForms.update_eq _ rfl rfl rfl rfl rfl rfl _ _ _ _ _ _ _).symm

end Cert.Chain

end
-- ==== Proof.ChainT5.lean ====
-- Whole-graph branch, projection.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg12
import proofs.«400221_j39548058861723_2_alg».proof.Proof.HostForms
import proofs.«400221_j39548058861723_2_alg».proof.Proof.ChainT1
import proofs.«400221_j39548058861723_2_alg».proof.Proof.ChainT2
import proofs.«400221_j39548058861723_2_alg».proof.Proof.ChainT3
import proofs.«400221_j39548058861723_2_alg».proof.Proof.ChainT4

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

theorem k190 (hag : Agree m m') (c : Dev nD) : W30 m ρ c (Proc.devRef .tc main_v190) = rv_v230 (F := Ideal) m' c := by
  have hreg := Cert.KernelIdeal.Reg12.value (V29 m ρ) c
  have hh : V29 m ρ c main_v187 = rv_v223 (F := Ideal) m' c := (keep29 m ρ c main_v187 (by decide)).trans (k187 m ρ m' hag c)
  have hw : V29 m ρ c main_arg25 = m' ((c.tc : Thread Cert.ReferenceIdeal.nD Cert.ReferenceIdeal.τ).loc Cert.ReferenceIdeal.main_arg25) := (keepSpan m ρ c main_arg25 0 29 (by decide) (by decide)).trans (hag c).2.2.2.2.2.2.2.2.2.2.2.2.2.2.2.2.2.2.2.2.2.2.2.2.2.1.symm
  have hbr : V29 m ρ c main_v189 = shapeCast S1x128 (m' ((c.tc : Thread Cert.ReferenceIdeal.nD Cert.ReferenceIdeal.τ).loc Cert.ReferenceIdeal.main_arg26)) shapeCasts_S128_S1x128 := by
    show StableHlo.after hostOps12 (W28 m ρ c) (Proc.devRef .tc main_v189) = _
    after_results
    exact congrArg (fun x => shapeCast S1x128 x shapeCasts_S128_S1x128) ((keepSpan m ρ c main_arg26 0 28 (by decide) (by decide)).trans (hag c).2.2.2.2.2.2.2.2.2.2.2.2.2.2.2.2.2.2.2.2.2.2.2.2.2.2.symm)
  have hnc : V29 m ρ c main_v188 = shapeCast S200000x1 (m' ((c.tc : Thread Cert.ReferenceIdeal.nD Cert.ReferenceIdeal.τ).loc Cert.ReferenceIdeal.main_arg1)) shapeCasts_S200000_S200000x1 := by
    show StableHlo.after hostOps12 (W28 m ρ c) (Proc.devRef .tc main_v188) = _
    after_results
    exact congrArg (fun x => shapeCast S200000x1 x shapeCasts_S200000_S200000x1) ((keepSpan m ρ c main_arg1 0 28 (by decide) (by decide)).trans (hag c).2.1.symm)
  have hb : (fun i : (⟨1, ![128]⟩ : Shape).Idx => V29 m ρ c main_v189 (ix2 0 (i 0))) = m' ((c.tc : Thread Cert.ReferenceIdeal.nD Cert.ReferenceIdeal.τ).loc Cert.ReferenceIdeal.main_arg26) := by
    rw [hbr]; exact Cert.HostForms.row_of_cast _ _
  have hn : (fun i : (⟨1, ![200000]⟩ : Shape).Idx => V29 m ρ c main_v188 (ix2 (i 0) 0)) = m' ((c.tc : Thread Cert.ReferenceIdeal.nD Cert.ReferenceIdeal.τ).loc Cert.ReferenceIdeal.main_arg1) := by
    rw [hnc]; exact Cert.HostForms.col_of_cast _ _
  refine (W30_arr m ρ c 4).trans (hreg.trans ?_)
  rw [hh, hw]
  refine (congrArg (fun b => Cert.Spec.project (rv_v223 (F := Ideal) m' c) (m' ((c.tc : Thread Cert.ReferenceIdeal.nD Cert.ReferenceIdeal.τ).loc Cert.ReferenceIdeal.main_arg25)) b _) hb).trans ?_
  refine (congrArg (Cert.Spec.project (rv_v223 (F := Ideal) m' c) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26))) hn).trans ?_
  unfold rv_v230 rv_v227 rv_v224 rv_v226 rv_v225 rv_v229 rv_v228
  exact (Cert.HostForms.project_eq _ rfl rfl rfl rfl rfl rfl _ _ _ _ _ _ _ _).symm

end Cert.Chain

end
-- ==== Proof.Reg6.lean ====
-- The outputs accumulate over the tiles a one-hot matrix times the tile's rows, which summed over all tiles is each segment's row sum and count.
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg6

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 :=
  funext fun a => match a with | ⟨0, _⟩ => rfl | ⟨1, _⟩ => rfl

section Pieces
variable {F : FTy → Type} [FloatOps F]

theorem left_B_2 (c : Dev nD) (i : grid6.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : ¬cond6_0 i)
    (x0 : Vec F S1024x128 .f32) (x1 : Vec F S1x1024 .i32) (xo2 : Vec F S1024x128 .f32) (xo3 : Vec F S1024x1 .f32) :
    out6_B_2 c i a1 h1 a2 h2 a3 h3 a4 h4 hc x0 x1 xo2 xo3 = k6_pay4 x1 x0 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero hz]
  simp only [View.readAt_eq_ld, h1.read_unread, h2.read_unread, h3.read_unread,
    View.ld_unit_zero (S := S1024x128) hz, View.ld_unit_zero (S := S1x1024) hz]

theorem left_B_3 (c : Dev nD) (i : grid6.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : ¬cond6_0 i)
    (x0 : Vec F S1024x128 .f32) (x1 : Vec F S1x1024 .i32) (xo2 : Vec F S1024x128 .f32) (xo3 : Vec F S1024x1 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero hz]
  simp only [View.readAt_eq_ld, h2.read_unread, h4.read_unread,
    View.ld_unit_zero (S := S1024x1) hz, View.ld_unit_zero (S := S1x1024) hz]

theorem left_A_2 (c : Dev nD) (i : grid6.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : cond6_0 i)
    (x0 : Vec F S1024x128 .f32) (x1 : Vec F S1x1024 .i32) :
    out6_A_2 c i a1 h1 a2 h2 a3 h3 a4 h4 hc x0 x1 = k6_pay4 x1 x0 (k6_pay1 (F := F)) := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S1024x128) hz, View.readCov_unit_zero (S := S1024x128) _ hz]
  simp only [View.readAt_eq_ld, h1.read_unread, h2.read_unread,
    View.ld_unit_zero (S := S1024x128) hz, View.ld_unit_zero (S := S1x1024) hz]

theorem left_A_3 (c : Dev nD) (i : grid6.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : cond6_0 i)
    (x0 : Vec F S1024x128 .f32) (x1 : Vec F S1x1024 .i32) :
    out6_A_3 c i a1 h1 a2 h2 a3 h3 a4 h4 hc x0 x1 = k6_pay5 x1 (k6_pay2 (F := F)) := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S1024x1) hz, View.readCov_unit_zero (S := S1024x1) _ hz]
  simp only [View.readAt_eq_ld, h2.read_unread,
    View.ld_unit_zero (S := S1x1024) hz]

end Pieces

theorem onehot_word (x y : BitVec 32) :
    FloatOps.sitofp (F := Ideal) .f32 ((IntOp.cmpi .eq x y).setWidth 32) = if x = y then (1 : EReal) else 0 := by
  show ((((BitVec.ofBool (x == y)).setWidth 32).toInt : ℝ) : EReal) = _
  by_cases h : x = y
  · have e : (x == y) = true := beq_iff_eq.mpr h
    rw [if_pos h, e]
    have e1 : ((BitVec.ofBool true).setWidth 32).toInt = 1 := by decide
    rw [e1, Int.cast_one, EReal.coe_one]
  · have e : (x == y) = false := beq_eq_false_iff_ne.mpr h
    rw [if_neg h, e]
    have e0 : ((BitVec.ofBool false).setWidth 32).toInt = 0 := by decide
    rw [e0, Int.cast_zero, EReal.coe_zero]

theorem bcast_row {α : Type} (seg : S1x1024.Idx → α) (h : S1x1024.Broadcasts S1024x1024) (g j : Fin 1024) :
    broadcastTo S1024x1024 seg h (ix2 g j) = seg (ix2 0 j) :=
  broadcastTo_apply seg h (ix2 g j) (ix2 0 j) (fun a => match a with | ⟨0, _⟩ => rfl | ⟨1, _⟩ => rfl)

theorem iota_row (h : S1024x1024.Iotas .tc 32 [0]) (g j : Fin 1024) :
    iota .tc S1024x1024 32 [0] h (ix2 g j) = BitVec.ofNat 32 g.val :=
  iota_single_apply .tc S1024x1024 32 0 h (ix2 g j)

theorem col_cast {α : Type} (v : S1024.Idx → α) (h : S1024.ShapeCasts S1024x1) (g : Fin 1024) (z : Fin 1) :
    shapeCast S1024x1 v h (ix2 g z) = v (ix1 g) :=
  shapeCast_apply v h (ix2 g z) (ix1 g) (by
    rw [Shape.rowMajor_val_one, Shape.rowMajor_val_two]
    show g.val = g.val * 1 + z.val
    have := z.isLt; omega)

theorem row_sum (src : FVec Ideal S1024x1024 .f32) (h : S1024x1024.Reduces [1] S1024) (hφ : FKind.Formats .f32)
    (hacc : (0x00000000#32 : BitVec 32) = FKind.add.neutral .f32 hφ) (g : Fin 1024) :
    multiReduction (F := Ideal) .add [1] S1024 src 0x00000000#32 h hφ hacc (ix1 g) = ∑ j : Fin 1024, src (ix2 g j) := by
  refine (Ideal.multiReduction_add_single src 0x00000000#32 h hφ hacc (ix1 g)).trans ?_
  show ∑ k : Fin 1024, src (h.lift (ix1 g) k) = _
  refine Finset.sum_congr rfl fun k _ => congrArg src ?_
  funext a
  apply Fin.ext
  match a with
  | ⟨0, _⟩ => rfl
  | ⟨1, _⟩ => rfl

theorem onehot_apply (seg : IVec S1x1024 32) (g j : Fin 1024) :
    k6_pay3 (F := Ideal) seg (ix2 g j) = if seg (ix2 0 j) = BitVec.ofNat 32 g.val then (1 : EReal) else 0 := by
  unfold k6_pay3
  show FloatOps.sitofp .f32 ((IntOp.cmpi .eq (broadcastTo S1024x1024 (shapeCast S1x1024 seg _) _ (ix2 g j))
    (iota .tc S1024x1024 32 [0] _ (ix2 g j))).setWidth 32) = _
  rw [bcast_row, iota_row, shapeCast_self]
  exact onehot_word _ _

theorem sums_step (seg : IVec S1x1024 32) (x acc : FVec Ideal S1024x128 .f32) (g : Fin 1024) (q : Fin 128) :
    k6_pay4 (F := Ideal) seg x acc (ix2 g q)
      = acc (ix2 g q) + ∑ j : Fin 1024, (if seg (ix2 0 j) = BitVec.ofNat 32 g.val then (1 : EReal) else 0) * x (ix2 j q) := by
  unfold k6_pay4
  show shapeCast S1024x128 acc _ (ix2 g q)
    + FloatOps.matmul dot_S1024x1024_S1024x128_S1024x128_1_0_0_1_n_n (some .fp32) (k6_pay3 (F := Ideal) seg)
        (shapeCast S1024x128 x _) (constant S1024x128 .f32 0x00000000#32) (ix2 g q) = _
  rw [shapeCast_self, shapeCast_self]
  refine congrArg (acc (ix2 g q) + ·) ?_
  refine (Cert.LibDense.matmul_zero_apply dot_S1024x1024_S1024x128_S1024x128_1_0_0_1_n_n (some .fp32) rfl rfl rfl rfl rfl rfl
    (k6_pay3 (F := Ideal) seg) x g q).trans ?_
  exact Finset.sum_congr rfl fun j _ => by rw [onehot_apply]

theorem counts_step (seg : IVec S1x1024 32) (acc : FVec Ideal S1024x1 .f32) (g : Fin 1024) (z : Fin 1) :
    k6_pay5 (F := Ideal) seg acc (ix2 g z)
      = acc (ix2 g z) + ∑ j : Fin 1024, (if seg (ix2 0 j) = BitVec.ofNat 32 g.val then (1 : EReal) else 0) := by
  unfold k6_pay5
  show shapeCast S1024x1 acc _ (ix2 g z)
    + shapeCast S1024x1 (multiReduction (F := Ideal) .add [1] S1024 (k6_pay3 (F := Ideal) seg) 0x00000000#32 _ _ _) _ (ix2 g z) = _
  rw [shapeCast_self]
  refine congrArg (acc (ix2 g z) + ·) ?_
  refine (col_cast _ _ g z).trans ?_
  refine (row_sum (k6_pay3 (F := Ideal) seg) _ _ _ g).trans ?_
  exact Finset.sum_congr rfl fun j _ => onehot_apply seg g j

theorem cleared_2 (y : S1024x128.Idx) : k6_pay1 (F := Ideal) y = 0 := by
  unfold k6_pay1
  show Ideal.ofBits .f32 0x00000000#32 = 0
  exact Ideal.ofBits_zero_f32

theorem cleared_3 (y : S1024x1.Idx) : k6_pay2 (F := Ideal) y = 0 := by
  unfold k6_pay2
  show Ideal.ofBits .f32 0x00000000#32 = 0
  exact Ideal.ofBits_zero_f32

theorem sum_tile (f : ℕ → EReal) (n : ℕ) :
    ∑ a ∈ Finset.range (1024 * (n + 1)), f a
      = ∑ a ∈ Finset.range (1024 * n), f a + ∑ j : Fin 1024, f (1024 * n + j.val) := by
  rw [show 1024 * (n + 1) = 1024 * n + 1024 by ring, Finset.sum_range_add]
  exact congrArg (_ + ·) (Finset.sum_range fun x => f (1024 * n + x))

variable (V : (c : Dev nD) → (b : Ref sig .tc) → Buf (Elt Ideal) ((c : Thread nD τ).loc b))

abbrev xarr (c : Dev nD) : FVec Ideal S150528x128 .f32 := V c main_v110

abbrev sarr (c : Dev nD) : IVec S1x150528 32 := V c main_v112

abbrev xblk (c : Dev nD) (t : Fin cfg6.N) : FVec Ideal S1024x128 .f32 := iblk6 V c 0 t

abbrev sblk (c : Dev nD) (t : Fin cfg6.N) : IVec S1x1024 32 := iblk6 V c 1 t

theorem idx_0 : ∀ t : Fin cfg6.N, win6_0.index t 0 = t.val ∧ win6_0.index t 1 = 0 :=
  (by decide +kernel : ∀ t : Fin grid6.N, win6_0.index t 0 = t.val ∧ win6_0.index t 1 = 0)

theorem idx_1 : ∀ t : Fin cfg6.N, win6_1.index t 0 = 0 ∧ win6_1.index t 1 = t.val :=
  (by decide +kernel : ∀ t : Fin grid6.N, win6_1.index t 0 = 0 ∧ win6_1.index t 1 = t.val)

theorem idx_2 : ∀ t : Fin cfg6.N, win6_2.index t 0 = 0 ∧ win6_2.index t 1 = 0 :=
  (by decide +kernel : ∀ t : Fin grid6.N, win6_2.index t 0 = 0 ∧ win6_2.index t 1 = 0)
theorem idx_3 : ∀ t : Fin cfg6.N, win6_3.index t 0 = 0 ∧ win6_3.index t 1 = 0 :=
  (by decide +kernel : ∀ t : Fin grid6.N, win6_3.index t 0 = 0 ∧ win6_3.index t 1 = 0)

theorem xblk_apply (c : Dev nD) (t : Fin cfg6.N) (j : Fin 1024) (q : Fin 128) (h : 1024 * t.val + j.val < 150528) :
    xblk V c t (ix2 j q) = xarr V c (ix2 ⟨1024 * t.val + j.val, h⟩ q) := by
  show iblk6 V c 0 t (ix2 j q) = V c main_v110 (ix2 ⟨1024 * t.val + j.val, h⟩ q)
  unfold iblk6
  rw [View.read_apply]
  show V c main_v110 _ = V c main_v110 _
  congr 1
  funext a
  apply Fin.ext
  match a with
  | ⟨0, _⟩ => show win6_0.index t 0 * 1024 + 1 * j.val = 1024 * t.val + j.val; rw [(idx_0 t).1]; omega
  | ⟨1, _⟩ => show win6_0.index t 1 * 128 + 1 * q.val = q.val; rw [(idx_0 t).2]; omega

theorem sblk_apply (c : Dev nD) (t : Fin cfg6.N) (j : Fin 1024) (h : 1024 * t.val + j.val < 150528) :
    sblk V c t (ix2 0 j) = sarr V c (ix2 0 ⟨1024 * t.val + j.val, h⟩) := by
  show iblk6 V c 1 t (ix2 0 j) = V c main_v112 (ix2 0 ⟨1024 * t.val + j.val, h⟩)
  unfold iblk6
  rw [View.read_apply]
  show V c main_v112 _ = V c main_v112 _
  congr 1
  funext a
  apply Fin.ext
  match a with
  | ⟨0, _⟩ => show win6_1.index t 0 * 1 + 1 * 0 = 0; rw [(idx_1 t).1]
  | ⟨1, _⟩ => show win6_1.index t 1 * 1024 + 1 * j.val = 1024 * t.val + j.val; rw [(idx_1 t).2]; omega

def share (c : Dev nD) (g : Fin 1024) (q : Fin 128) (a : ℕ) : EReal :=
  if h : a < 150528 then
    (if sarr V c (ix2 0 ⟨a, h⟩) = BitVec.ofNat 32 g.val then (1 : EReal) else 0) * xarr V c (ix2 ⟨a, h⟩ q)
  else 0

def hit (c : Dev nD) (g : Fin 1024) (a : ℕ) : EReal :=
  if h : a < 150528 then (if sarr V c (ix2 0 ⟨a, h⟩) = BitVec.ofNat 32 g.val then (1 : EReal) else 0) else 0

theorem tile_shares (c : Dev nD) (t : Fin cfg6.N) (g : Fin 1024) (q : Fin 128) :
    ∑ j : Fin 1024, (if sblk V c t (ix2 0 j) = BitVec.ofNat 32 g.val then (1 : EReal) else 0) * xblk V c t (ix2 j q)
      = ∑ j : Fin 1024, share V c g q (1024 * t.val + j.val) := by
  have hN : t.val < 147 := lt_of_lt_of_eq t.isLt (show cfg6.N = 147 from N_6)
  refine Finset.sum_congr rfl fun j _ => ?_
  have h : 1024 * t.val + j.val < 150528 := by have := j.isLt; omega
  rw [share, dif_pos h, xblk_apply V c t j q h, sblk_apply V c t j h]

theorem tile_hits (c : Dev nD) (t : Fin cfg6.N) (g : Fin 1024) :
    ∑ j : Fin 1024, (if sblk V c t (ix2 0 j) = BitVec.ofNat 32 g.val then (1 : EReal) else 0)
      = ∑ j : Fin 1024, hit V c g (1024 * t.val + j.val) := by
  have hN : t.val < 147 := lt_of_lt_of_eq t.isLt (show cfg6.N = 147 from N_6)
  refine Finset.sum_congr rfl fun j _ => ?_
  have h : 1024 * t.val + j.val < 150528 := by have := j.isLt; omega
  rw [hit, dif_pos h, sblk_apply V c t j h]

theorem first_2 (c : Dev nD) (hn : 0 < cfg6.N) :
    (outsAt6 V c 0 hn).1 = k6_pay4 (F := Ideal) (sblk V c ⟨0, hn⟩) (xblk V c ⟨0, hn⟩) (k6_pay1 (F := Ideal)) := by
  rw [outsAt6_A V c ⟨0, hn⟩ rfl]
  dsimp only
  exact left_A_2 (F := Ideal) c (grid6.coords ⟨0, hn⟩) (ms6_0 ⟨0, hn⟩) (hs6_0 ⟨0, hn⟩) (ms6_1 ⟨0, hn⟩) (hs6_1 ⟨0, hn⟩)
    (ms6_2 ⟨0, hn⟩) (hs6_2 ⟨0, hn⟩) (ms6_3 ⟨0, hn⟩) (hs6_3 ⟨0, hn⟩) ((hcond6_0 ⟨0, hn⟩).mpr rfl)
    (iblk6 V c 0 ⟨0, hn⟩) (iblk6 V c 1 ⟨0, hn⟩)

theorem first_3 (c : Dev nD) (hn : 0 < cfg6.N) :
    (outsAt6 V c 0 hn).2 = k6_pay5 (F := Ideal) (sblk V c ⟨0, hn⟩) (k6_pay2 (F := Ideal)) := by
  rw [outsAt6_A V c ⟨0, hn⟩ rfl]
  dsimp only
  exact left_A_3 (F := Ideal) c (grid6.coords ⟨0, hn⟩) (ms6_0 ⟨0, hn⟩) (hs6_0 ⟨0, hn⟩) (ms6_1 ⟨0, hn⟩) (hs6_1 ⟨0, hn⟩)
    (ms6_2 ⟨0, hn⟩) (hs6_2 ⟨0, hn⟩) (ms6_3 ⟨0, hn⟩) (hs6_3 ⟨0, hn⟩) ((hcond6_0 ⟨0, hn⟩).mpr rfl)
    (iblk6 V c 0 ⟨0, hn⟩) (iblk6 V c 1 ⟨0, hn⟩)

theorem next_2 (c : Dev nD) (n : ℕ) (hn : n + 1 < cfg6.N) :
    (outsAt6 V c (n + 1) hn).1
      = k6_pay4 (F := Ideal) (sblk V c ⟨n + 1, hn⟩) (xblk V c ⟨n + 1, hn⟩) (outsAt6 V c n (Nat.lt_of_succ_lt hn)).1 := by
  have hN : cfg6.N = 147 := N_6
  have hB : ¬(⟨n + 1, hn⟩ : Fin cfg6.N).val % 147 = 0 := by dsimp only; omega
  rw [outsAt6_B V c ⟨n + 1, hn⟩ hB]
  dsimp only
  exact left_B_2 (F := Ideal) c (grid6.coords ⟨n + 1, hn⟩) (ms6_0 ⟨n + 1, hn⟩) (hs6_0 ⟨n + 1, hn⟩) (ms6_1 ⟨n + 1, hn⟩)
    (hs6_1 ⟨n + 1, hn⟩) (ms6_2 ⟨n + 1, hn⟩) (hs6_2 ⟨n + 1, hn⟩) (ms6_3 ⟨n + 1, hn⟩) (hs6_3 ⟨n + 1, hn⟩)
    (fun h => hB ((hcond6_0 ⟨n + 1, hn⟩).mp h)) (iblk6 V c 0 ⟨n + 1, hn⟩) (iblk6 V c 1 ⟨n + 1, hn⟩)
    (outsAt6 V c n (Nat.lt_of_succ_lt hn)).1 (outsAt6 V c n (Nat.lt_of_succ_lt hn)).2

theorem next_3 (c : Dev nD) (n : ℕ) (hn : n + 1 < cfg6.N) :
    (outsAt6 V c (n + 1) hn).2 = k6_pay5 (F := Ideal) (sblk V c ⟨n + 1, hn⟩) (outsAt6 V c n (Nat.lt_of_succ_lt hn)).2 := by
  have hN : cfg6.N = 147 := N_6
  have hB : ¬(⟨n + 1, hn⟩ : Fin cfg6.N).val % 147 = 0 := by dsimp only; omega
  rw [outsAt6_B V c ⟨n + 1, hn⟩ hB]
  dsimp only
  exact left_B_3 (F := Ideal) c (grid6.coords ⟨n + 1, hn⟩) (ms6_0 ⟨n + 1, hn⟩) (hs6_0 ⟨n + 1, hn⟩) (ms6_1 ⟨n + 1, hn⟩)
    (hs6_1 ⟨n + 1, hn⟩) (ms6_2 ⟨n + 1, hn⟩) (hs6_2 ⟨n + 1, hn⟩) (ms6_3 ⟨n + 1, hn⟩) (hs6_3 ⟨n + 1, hn⟩)
    (fun h => hB ((hcond6_0 ⟨n + 1, hn⟩).mp h)) (iblk6 V c 0 ⟨n + 1, hn⟩) (iblk6 V c 1 ⟨n + 1, hn⟩)
    (outsAt6 V c n (Nat.lt_of_succ_lt hn)).1 (outsAt6 V c n (Nat.lt_of_succ_lt hn)).2

theorem sums_after (c : Dev nD) (g : Fin 1024) (q : Fin 128) : ∀ (n : ℕ) (hn : n < cfg6.N),
    (outsAt6 V c n hn).1 (ix2 g q) = ∑ a ∈ Finset.range (1024 * (n + 1)), share V c g q a := by
  intro n
  induction n with
  | zero =>
    intro hn
    rw [first_2 V c hn, sums_step, cleared_2, zero_add, tile_shares, sum_tile _ 0]
    show _ = ∑ a ∈ Finset.range (1024 * 0), share V c g q a + _
    rw [Nat.mul_zero, Finset.range_zero, Finset.sum_empty, zero_add]
  | succ n ih =>
    intro hn
    rw [next_2 V c n hn, sums_step, ih (Nat.lt_of_succ_lt hn), tile_shares, sum_tile _ (n + 1)]

theorem counts_after (c : Dev nD) (g : Fin 1024) (z : Fin 1) : ∀ (n : ℕ) (hn : n < cfg6.N),
    (outsAt6 V c n hn).2 (ix2 g z) = ∑ a ∈ Finset.range (1024 * (n + 1)), hit V c g a := by
  intro n
  induction n with
  | zero =>
    intro hn
    rw [first_3 V c hn, counts_step, cleared_3, zero_add, tile_hits, sum_tile _ 0]
    show _ = ∑ a ∈ Finset.range (1024 * 0), hit V c g a + _
    rw [Nat.mul_zero, Finset.range_zero, Finset.sum_empty, zero_add]
  | succ n ih =>
    intro hn
    rw [next_3 V c n hn, counts_step, ih (Nat.lt_of_succ_lt hn), tile_hits, sum_tile _ (n + 1)]

theorem sums_last (c : Dev nD) (h : 146 < cfg6.N) :
    (outsAt6 V c 146 h).1 = Cert.Spec.onehotSums (xarr V c) (sarr V c) := by
  funext y
  obtain ⟨g, q, rfl⟩ : ∃ (g : Fin 1024) (q : Fin 128), y = ix2 g q := ⟨y 0, y 1, eq_ix2 y⟩
  rw [sums_after V c g q 146 h]
  show _ = ∑ a : Fin 150528, (if sarr V c (ix2 0 a) = BitVec.ofNat 32 g.val then (1 : EReal) else 0) * xarr V c (ix2 a q)
  rw [show 1024 * (146 + 1) = 150528 by norm_num, Finset.sum_range]
  refine Finset.sum_congr rfl fun a _ => ?_
  rw [share, dif_pos a.isLt]

theorem counts_last (c : Dev nD) (h : 146 < cfg6.N) :
    (outsAt6 V c 146 h).2 = Cert.Spec.onehotCount (sarr V c) := by
  funext y
  obtain ⟨g, z, rfl⟩ : ∃ (g : Fin 1024) (z : Fin 1), y = ix2 g z := ⟨y 0, y 1, eq_ix2 y⟩
  rw [counts_after V c g z 146 h]
  show _ = ∑ a : Fin 150528, (if sarr V c (ix2 0 a) = BitVec.ofNat 32 g.val then (1 : EReal) else 0)
  rw [show 1024 * (146 + 1) = 150528 by norm_num, Finset.sum_range]
  refine Finset.sum_congr rfl fun a _ => ?_
  rw [hit, dif_pos a.isLt]

abbrev tlast : Fin cfg6.N := ⟨146, by rw [show cfg6.N = 147 from N_6]; norm_num⟩

theorem flushed_sums (c : Dev nD) (t : Fin cfg6.N) (hf : (cfg6.win 2).flush t = true) :
    (dat6 V c).flushed 2 t
      = ((cfg6.win 2).blk t).view.read (Elt Ideal) (Cert.Spec.onehotSums (xarr V c) (sarr V c)) := by
  have hN : cfg6.N = 147 := N_6
  have h146 : t.val = 146 := by have := (flush6_2 t).mp hf; have := t.isLt; omega
  obtain rfl : t = tlast := Fin.ext h146
  show (cfg6.win 2).cut (grid6.coords tlast) ((dat6 V c).after 2 tlast) = _
  rw [after6_2, sums_last]
  have hz' : (fun a => win6_2.index tlast a * main_v113_0.ty.shape.size a) = fun _ => 0 :=
    funext fun a => match a with
      | ⟨0, _⟩ => by show win6_2.index tlast 0 * _ = 0; rw [(idx_2 tlast).1, Nat.zero_mul]
      | ⟨1, _⟩ => by show win6_2.index tlast 1 * _ = 0; rw [(idx_2 tlast).2, Nat.zero_mul]
  exact (Memref.read_access_unit_zero (Elt Ideal) main_v113_0 hz' (fun a => by rw [congrFun hz' a]; simp)
    (Cert.Spec.onehotSums (xarr V c) (sarr V c))).symm

theorem flushed_counts (c : Dev nD) (t : Fin cfg6.N) (hf : (cfg6.win 3).flush t = true) :
    (dat6 V c).flushed 3 t = ((cfg6.win 3).blk t).view.read (Elt Ideal) (Cert.Spec.onehotCount (sarr V c)) := by
  have hN : cfg6.N = 147 := N_6
  have h146 : t.val = 146 := by have := (flush6_3 t).mp hf; have := t.isLt; omega
  obtain rfl : t = tlast := Fin.ext h146
  show (cfg6.win 3).cut (grid6.coords tlast) ((dat6 V c).after 3 tlast) = _
  rw [after6_3, counts_last]
  have hz' : (fun a => win6_3.index tlast a * main_v113_1.ty.shape.size a) = fun _ => 0 :=
    funext fun a => match a with
      | ⟨0, _⟩ => by show win6_3.index tlast 0 * _ = 0; rw [(idx_3 tlast).1, Nat.zero_mul]
      | ⟨1, _⟩ => by show win6_3.index tlast 1 * _ = 0; rw [(idx_3 tlast).2, Nat.zero_mul]
  exact (Memref.read_access_unit_zero (Elt Ideal) main_v113_1 hz' (fun a => by rw [congrFun hz' a]; simp)
    (Cert.Spec.onehotCount (sarr V c))).symm

theorem sums (c : Dev nD) :
    (dat6 (F := Ideal) V c).arrAt 2 cfg6.N = Cert.Spec.onehotSums (V c main_v110) (V c main_v112) :=
  (dat6 V c).arrAt_eq_of_cover 2 (Cert.Spec.onehotSums (xarr V c) (sarr V c)) (flushed_sums V c) fun i =>
    ⟨tlast, (flush6_2 tlast).mpr rfl, by
      show i ∈ ((View.whole main_v113_0).slice (win6_2.rect tlast)).set
      rw [View.set_slice_whole, Rect.mem_set_unit]
      intro a
      have h0 : (i 0 : Nat) < 1024 := (i 0).isLt
      have h1 : (i 1 : Nat) < 128 := (i 1).isLt
      match a with
      | ⟨0, _⟩ =>
        show win6_2.index tlast 0 * win6_2.size 0 ≤ (i 0 : Nat)
          ∧ (i 0 : Nat) < win6_2.index tlast 0 * win6_2.size 0 + win6_2.xsize (grid6.coords tlast) 0
        rw [(idx_2 tlast).1, show win6_2.xsize (grid6.coords tlast) 0 = 1024 from by decide +kernel]; omega
      | ⟨1, _⟩ =>
        show win6_2.index tlast 1 * win6_2.size 1 ≤ (i 1 : Nat)
          ∧ (i 1 : Nat) < win6_2.index tlast 1 * win6_2.size 1 + win6_2.xsize (grid6.coords tlast) 1
        rw [(idx_2 tlast).2, show win6_2.xsize (grid6.coords tlast) 1 = 128 from by decide +kernel]; omega⟩

theorem counts (c : Dev nD) :
    (dat6 (F := Ideal) V c).arrAt 3 cfg6.N = Cert.Spec.onehotCount (V c main_v112) :=
  (dat6 V c).arrAt_eq_of_cover 3 (Cert.Spec.onehotCount (sarr V c)) (flushed_counts V c) fun i =>
    ⟨tlast, (flush6_3 tlast).mpr rfl, by
      show i ∈ ((View.whole main_v113_1).slice (win6_3.rect tlast)).set
      rw [View.set_slice_whole, Rect.mem_set_unit]
      intro a
      have h0 : (i 0 : Nat) < 1024 := (i 0).isLt
      have h1 : (i 1 : Nat) < 1 := (i 1).isLt
      match a with
      | ⟨0, _⟩ =>
        show win6_3.index tlast 0 * win6_3.size 0 ≤ (i 0 : Nat)
          ∧ (i 0 : Nat) < win6_3.index tlast 0 * win6_3.size 0 + win6_3.xsize (grid6.coords tlast) 0
        rw [(idx_3 tlast).1, show win6_3.xsize (grid6.coords tlast) 0 = 1024 from by decide +kernel]; omega
      | ⟨1, _⟩ =>
        show win6_3.index tlast 1 * win6_3.size 1 ≤ (i 1 : Nat)
          ∧ (i 1 : Nat) < win6_3.index tlast 1 * win6_3.size 1 + win6_3.xsize (grid6.coords tlast) 1
        rw [(idx_3 tlast).2, show win6_3.xsize (grid6.coords tlast) 1 = 1 from by decide +kernel]; omega⟩

end Cert.KernelIdeal.Reg6

end
-- ==== Proof.PoolForms.lean ====
-- A segment's row sum is the same as an accumulating scatter and as a one-hot matrix product, since 0·x = 0 and 1·x = x.
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate
import proofs.«400221_j39548058861723_2_alg».proof.Proof.Spec
import proofs.«400221_j39548058861723_2_alg».proof.Proof.LibRows

noncomputable section

namespace Cert.PoolForms

open Idealize.ShloMosaic Idealize.ShloMosaic.ValueIdx Idealize.ShloMosaic.StableHlo.Predicate

variable {n np g h : ℕ}

def segSum (V : (⟨2, ![n, h]⟩ : Shape).Idx → EReal) (seg : IVec ⟨1, ![n]⟩ 32) (r : ℕ) (q : Fin h) : EReal :=
  ∑ a ∈ Finset.univ.filter (fun a : Fin n => (seg (ix1 a)).toInt = (r : ℤ)), V (ix2 a q)

def segCnt (seg : IVec ⟨1, ![n]⟩ 32) (r : ℕ) : EReal :=
  ∑ _a ∈ Finset.univ.filter (fun a : Fin n => (seg (ix1 a)).toInt = (r : ℤ)), (1 : EReal)

theorem eq_ofNat_iff_toInt (x : BitVec 32) (r : ℕ) (hr : r < 2 ^ 31) : x = BitVec.ofNat 32 r ↔ x.toInt = (r : ℤ) := by
  have hx : x.toNat < 2 ^ 32 := x.isLt
  have hmod : r % 2 ^ 32 = r := Nat.mod_eq_of_lt (by omega)
  rw [← BitVec.toNat_inj, BitVec.toNat_ofNat, hmod, BitVec.toInt_eq_toNat_cond]
  split <;> omega

theorem allOnes_ne_ofNat (r : ℕ) (hr : r < 2 ^ 31) : ¬ (4294967295#32 : BitVec 32) = BitVec.ofNat 32 r := by
  rw [eq_ofNat_iff_toInt _ r hr]
  have : (4294967295#32 : BitVec 32).toInt = -1 := by decide
  rw [this]; omega

theorem onehot_mul (x : BitVec 32) (r : ℕ) (hr : r < 2 ^ 31) (v : EReal) :
    (if x = BitVec.ofNat 32 r then (1 : EReal) else 0) * v = if x.toInt = (r : ℤ) then v else 0 := by
  by_cases hx : x = BitVec.ofNat 32 r
  · rw [if_pos hx, if_pos ((eq_ofNat_iff_toInt x r hr).mp hx), one_mul]
  · rw [if_neg hx, if_neg (fun hh => hx ((eq_ofNat_iff_toInt x r hr).mpr hh)), zero_mul]

theorem sum_pad {M : Type*} [AddCommMonoid M] (hn : n ≤ np) (f : Fin n → M) :
    ∑ a : Fin np, (if ha : a.val < n then f ⟨a.val, ha⟩ else 0) = ∑ a : Fin n, f a := by
  obtain ⟨k, rfl⟩ := Nat.exists_eq_add_of_le hn
  rw [Fin.sum_univ_add]
  have h2 : ∑ i : Fin k, (if ha : (Fin.natAdd n i).val < n then f ⟨(Fin.natAdd n i).val, ha⟩ else 0) = 0 :=
    Finset.sum_eq_zero fun i _ => dif_neg (by rw [Fin.val_natAdd]; omega)
  rw [h2, add_zero]
  exact Finset.sum_congr rfl fun i _ => by rw [dif_pos (by rw [Fin.val_castAdd]; exact i.isLt)]; rfl

theorem onehotSums_pad (hn : n ≤ np) (V : (⟨2, ![n, h]⟩ : Shape).Idx → EReal) (seg : IVec ⟨1, ![n]⟩ 32)
    (Vp : (⟨2, ![np, h]⟩ : Shape).Idx → EReal) (segp : IVec ⟨2, ![1, np]⟩ 32)
    (hV : ∀ (a : Fin np) (q : Fin h), Vp (ix2 a q) = if ha : a.val < n then V (ix2 ⟨a.val, ha⟩ q) else 0)
    (hseg : ∀ a : Fin np, segp (ix2 0 a) = if ha : a.val < n then seg (ix1 ⟨a.val, ha⟩) else 4294967295#32)
    (r : Fin g) (hr : r.val < 2 ^ 31) (q : Fin h) :
    Cert.Spec.onehotSums (g := g) Vp segp (ix2 r q) = segSum V seg r.val q := by
  show ∑ a : Fin np, (if segp (ix2 0 a) = BitVec.ofNat 32 r.val then (1 : EReal) else 0) * Vp (ix2 a q) = _
  have hterm : ∀ a : Fin np, (if segp (ix2 0 a) = BitVec.ofNat 32 r.val then (1 : EReal) else 0) * Vp (ix2 a q)
      = if ha : a.val < n then (if (seg (ix1 ⟨a.val, ha⟩)).toInt = (r.val : ℤ) then V (ix2 ⟨a.val, ha⟩ q) else 0) else 0 := by
    intro a
    rw [hV a q, hseg a]
    by_cases ha : a.val < n
    · simp only [dif_pos ha]
      exact onehot_mul _ _ hr _
    · simp only [dif_neg ha]
      exact mul_zero _
  rw [Finset.sum_congr rfl fun a _ => hterm a,
    sum_pad hn (fun a : Fin n => if (seg (ix1 a)).toInt = (r.val : ℤ) then V (ix2 a q) else 0)]
  unfold segSum
  rw [Finset.sum_filter]

theorem onehotCount_pad (hn : n ≤ np) (seg : IVec ⟨1, ![n]⟩ 32) (segp : IVec ⟨2, ![1, np]⟩ 32)
    (hseg : ∀ a : Fin np, segp (ix2 0 a) = if ha : a.val < n then seg (ix1 ⟨a.val, ha⟩) else 4294967295#32)
    (r : Fin g) (hr : r.val < 2 ^ 31) :
    Cert.Spec.onehotCount (g := g) segp (ix2 r 0) = segCnt seg r.val := by
  show ∑ a : Fin np, (if segp (ix2 0 a) = BitVec.ofNat 32 r.val then (1 : EReal) else 0) = _
  have hterm : ∀ a : Fin np, (if segp (ix2 0 a) = BitVec.ofNat 32 r.val then (1 : EReal) else 0)
      = if ha : a.val < n then (if (seg (ix1 ⟨a.val, ha⟩)).toInt = (r.val : ℤ) then (1 : EReal) else 0) else 0 := by
    intro a
    rw [hseg a]
    by_cases ha : a.val < n
    · simp only [dif_pos ha]
      exact if_congr (eq_ofNat_iff_toInt _ _ hr) rfl rfl
    · simp only [dif_neg ha]
      exact if_neg (allOnes_ne_ofNat _ hr)
  rw [Finset.sum_congr rfl fun a _ => hterm a,
    sum_pad hn (fun a : Fin n => if (seg (ix1 a)).toInt = (r.val : ℤ) then (1 : EReal) else 0)]
  unfold segCnt
  rw [Finset.sum_filter]

theorem col_apply (bc : (⟨1, ![n]⟩ : Shape).BroadcastsInDim ⟨2, ![n, 1]⟩ ![0]) (seg : IVec ⟨1, ![n]⟩ 32) (a : Fin n) :
    broadcastInDim ⟨2, ![n, 1]⟩ ![0] bc seg (ixP a) = seg (ix1 a) := by
  rw [bcast_col1]
  exact congrArg seg (funext fun b => by match b with | ⟨0, _⟩ => rfl)

theorem scatter_rows_sum (d : ScatterDims ⟨2, ![g, h]⟩ ⟨2, ![n, 1]⟩ ⟨2, ![n, h]⟩)
    (huw : d.updateWindowDims = [1]) (hiw : d.insertedWindowDims = [0]) (hsd : d.scatterDimsToOperandDims = [0])
    (hivd : d.indexVectorDim = 1) (Z : FVec Ideal ⟨2, ![g, h]⟩ .f32) (hZ : ∀ i, Z i = 0)
    (bc : (⟨1, ![n]⟩ : Shape).BroadcastsInDim ⟨2, ![n, 1]⟩ ![0]) (seg : IVec ⟨1, ![n]⟩ 32)
    (V : FVec Ideal ⟨2, ![n, h]⟩ .f32) (r : Fin g) (q : Fin h) :
    Host.scatterAdd d Z (broadcastInDim ⟨2, ![n, 1]⟩ ![0] bc seg) V (ix2 r q) = segSum V seg r.val q := by
  rw [Cert.LibRows.scatterAdd_rows d huw hiw hsd hivd, hZ, zero_add]
  unfold segSum
  exact Finset.sum_congr (Finset.filter_congr fun a _ => by rw [col_apply bc seg a]) fun _ _ => rfl

theorem scatter_vec_resultIdx {N w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (r : Fin N) :
    d.resultIdx? (ix1 e) idx = some (ix1 r) ↔ (idx (ixP e)).toInt = (r.val : ℤ) := by

  have e0 : ∀ X : Fin 1, ((ix1 e : (⟨1, ![n]⟩ : Shape).Idx) X).val = e.val := fun X => by
    match X with | ⟨0, _⟩ => rfl

  have hs0 : d.start (ix1 e) idx 0 = (idx (ixP e)).toInt := by
    have hm : (0 : Fin 1) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _
    | ⟨1, _⟩ =>
      unfold ScatterDims.siIdx
      rw [dif_pos (by rw [hivd])]
      show List.idxOf (0 : Fin 1) d.scatterDimsToOperandDims = 0
      rw [hsd]; simp

  have hw0 : d.window (ix1 e) 0 = 0 := by
    have hk : (0 : Fin 1) ∉ d.sKept := by
      simp [ScatterDims.sKept, Shape.kept, List.mem_filter, List.mem_finRange, hiw]
    unfold ScatterDims.window
    rw [dif_neg hk]
  have hr := r.isLt
  unfold ScatterDims.resultIdx?
  constructor
  · intro hh
    split at hh
    · next hin =>
      have hf := Option.some.inj hh
      have h0 := congrArg (fun f => (f 0).val) hf
      simp only [hs0, hw0] at h0
      have hin0 := (hin 0).1
      rw [hs0, hw0] at hin0
      change ((idx (ixP e)).toInt + ((0 : ℕ) : ℤ)).toNat = r.val at h0
      omega
    · exact absurd hh (by simp)
  · intro hi
    have hin : ∀ a, 0 ≤ d.start (ix1 e) idx a + d.window (ix1 e) a ∧
        d.start (ix1 e) idx a + (d.window (ix1 e) a : ℤ) < ((⟨1, ![N]⟩ : Shape).size a : ℤ) := by
      intro a
      match a with
      | ⟨0, _⟩ =>
        show 0 ≤ d.start (ix1 e) idx 0 + (d.window (ix1 e) 0 : ℤ) ∧ d.start (ix1 e) idx 0 + (d.window (ix1 e) 0 : ℤ) < (N : ℤ)
        rw [hs0, hw0, hi]; omega
    rw [dif_pos hin]
    congr 1
    funext a
    apply Fin.ext
    match a with
    | ⟨0, _⟩ =>
      show (d.start (ix1 e) idx 0 + (d.window (ix1 e) 0 : ℤ)).toNat = r.val
      rw [hs0, hw0, hi]; omega

theorem scatter_vec_cnt (d : ScatterDims ⟨1, ![g]⟩ ⟨2, ![n, 1]⟩ ⟨1, ![n]⟩)
    (huw : d.updateWindowDims = []) (hiw : d.insertedWindowDims = [0]) (hsd : d.scatterDimsToOperandDims = [0])
    (hivd : d.indexVectorDim = 1) (Z : FVec Ideal ⟨1, ![g]⟩ .f32) (hZ : ∀ i, Z i = 0)
    (bc : (⟨1, ![n]⟩ : Shape).BroadcastsInDim ⟨2, ![n, 1]⟩ ![0]) (seg : IVec ⟨1, ![n]⟩ 32)
    (O : FVec Ideal ⟨1, ![n]⟩ .f32) (hO : ∀ i, O i = 1) (r : Fin g) :
    Host.scatterAdd d Z (broadcastInDim ⟨2, ![n, 1]⟩ ![0] bc seg) O (ix1 r) = segCnt seg r.val := by
  show Z (ix1 r) + ∑ j ∈ Finset.univ.filter (fun j =>
      d.resultIdx? j (broadcastInDim ⟨2, ![n, 1]⟩ ![0] bc seg) = some (ix1 r)), O j = _
  rw [hZ, zero_add, Finset.sum_filter, ← Equiv.sum_comp (idxEquiv1 (n := n)).symm]
  unfold segCnt
  rw [Finset.sum_filter]
  refine Finset.sum_congr rfl fun a _ => ?_
  show (if d.resultIdx? (ix1 a) (broadcastInDim ⟨2, ![n, 1]⟩ ![0] bc seg) = some (ix1 r) then O (ix1 a) else 0) = _
  rw [hO]
  exact if_congr ((scatter_vec_resultIdx d huw hiw hsd hivd _ a r).trans (by rw [col_apply bc seg a])) rfl rfl

end Cert.PoolForms

end
-- ==== Proof.PadForms.lean ====
-- Padding rows that match no segment change no segment's sum or count.
import Idealize.ShloMosaic.PureOps.Ideal
import Idealize.ShloMosaic.PureOps.Ideal.Laws
import Idealize.ShloMosaic.Lib.ValueIdx
import Idealize.ShloMosaic.Lib.IdealHost
import Idealize.ShloMosaic.Lib.KernelVsHost
import Idealize.ShloMosaic.Lib.StableHlo.Predicate
import proofs.«400221_j39548058861723_2_alg».proof.Proof.Spec
import proofs.«400221_j39548058861723_2_alg».proof.Proof.PoolForms
import proofs.«400221_j39548058861723_2_alg».proof.Proof.HostForms

noncomputable section

namespace Cert.PadForms

open Idealize.ShloMosaic Idealize.ShloMosaic.ValueIdx Idealize.ShloMosaic.StableHlo.Predicate
open Cert.PoolForms

variable {n np g h : ℕ}

section ReadBack
variable {α : Type}

theorem pad_rows_apply (k : ℕ) (X : (⟨2, ![n, h]⟩ : Shape).Idx → α) {u : Shape} (v : u.Idx → α)
    (hp : (⟨2, ![n, h]⟩ : Shape).Pads ![0, 0] ![k, 0] ![0, 0] ⟨2, ![np, h]⟩) (hu : 0 < u.numel) (a : Fin np) (q : Fin h) :
    pad ⟨2, ![np, h]⟩ ![0, 0] ![k, 0] ![0, 0] X v hp hu (ix2 a q)
      = if ha : a.val < n then X (ix2 ⟨a.val, ha⟩ q) else v (Shape.Idx.first hu) := by
  by_cases ha : a.val < n
  · rw [dif_pos ha]
    refine pad_apply_of_inside _ _ _ X v hp hu _ (ix2 ⟨a.val, ha⟩ q) fun ax => ?_
    match ax with
    | ⟨0, _⟩ => show a.val = 0 + a.val * (0 + 1); omega
    | ⟨1, _⟩ => show q.val = 0 + q.val * (0 + 1); omega
  · rw [dif_neg ha]
    refine pad_apply_of_not_inside _ _ _ X v hp hu _ (0 : Fin 2) fun hin => ha ?_
    have h3 : (a.val - 0) / (0 + 1) < n := hin.2.2
    omega

theorem pad_vec_apply (k : ℕ) (S : (⟨1, ![n]⟩ : Shape).Idx → α) {u : Shape} (v : u.Idx → α)
    (hp : (⟨1, ![n]⟩ : Shape).Pads ![0] ![k] ![0] ⟨1, ![np]⟩) (hu : 0 < u.numel) (a : Fin np) :
    pad ⟨1, ![np]⟩ ![0] ![k] ![0] S v hp hu (ix1 a)
      = if ha : a.val < n then S (ix1 ⟨a.val, ha⟩) else v (Shape.Idx.first hu) := by
  by_cases ha : a.val < n
  · rw [dif_pos ha]
    refine pad_apply_of_inside _ _ _ S v hp hu _ (ix1 ⟨a.val, ha⟩) fun ax => ?_
    match ax with
    | ⟨0, _⟩ => show a.val = 0 + a.val * (0 + 1); omega
  · rw [dif_neg ha]
    refine pad_apply_of_not_inside _ _ _ S v hp hu _ (0 : Fin 1) fun hin => ha ?_
    have h3 : (a.val - 0) / (0 + 1) < n := hin.2.2
    omega

theorem row_cast_apply (hs : (⟨1, ![np]⟩ : Shape).ShapeCasts ⟨2, ![1, np]⟩) (x : (⟨1, ![np]⟩ : Shape).Idx → α) (a : Fin np) :
    shapeCast ⟨2, ![1, np]⟩ x hs (ix2 (0 : Fin 1) a) = x (ix1 a) := by
  refine congrArg x (Shape.reshapeEquiv_eq_of_rowMajor hs ?_)
  rw [Shape.rowMajor_val_one, Shape.rowMajor_val_two]
  show a.val = 0 * np + a.val
  omega

end ReadBack

def segMean (V : (⟨2, ![n, h]⟩ : Shape).Idx → EReal) (seg : IVec ⟨1, ![n]⟩ 32) : (⟨2, ![g, h]⟩ : Shape).Idx → EReal :=
  fun i => Ideal.div (segSum V seg (i 0).val (i 1)) (max (segCnt seg (i 0).val) 1)

theorem ixP_eq_ix2 {a : ℕ} (p : Fin a) : ixP p = ix2 p (0 : Fin 1) := by
  funext b; match b with | ⟨0, _⟩ => rfl | ⟨1, _⟩ => rfl

theorem padded_onehot_mean (hn : n ≤ np) (hg : g ≤ 2 ^ 31) (k : ℕ) (X : FVec Ideal ⟨2, ![n, h]⟩ .f32) (S : IVec ⟨1, ![n]⟩ 32)
    (z : FVec Ideal ⟨0, ![]⟩ .f32) (hz : ∀ i, z i = 0) (wd : IVec ⟨0, ![]⟩ 32) (hwd : ∀ i, wd i = 4294967295#32)
    (one : FVec Ideal ⟨0, ![]⟩ .f32) (hone : ∀ i, one i = 1) (hu : 0 < (⟨0, ![]⟩ : Shape).numel)
    (hpX : (⟨2, ![n, h]⟩ : Shape).Pads ![0, 0] ![k, 0] ![0, 0] ⟨2, ![np, h]⟩)
    (hpS : (⟨1, ![n]⟩ : Shape).Pads ![0] ![k] ![0] ⟨1, ![np]⟩)
    (hs : (⟨1, ![np]⟩ : Shape).ShapeCasts ⟨2, ![1, np]⟩)
    (b0 : (⟨0, ![]⟩ : Shape).BroadcastsInDim ⟨2, ![g, 1]⟩ ![])
    (b2 : (⟨2, ![g, 1]⟩ : Shape).BroadcastsInDim ⟨2, ![g, h]⟩ ![0, 1]) :
    Host.divf (F := Ideal) (φ := .f32)
        (Cert.Spec.onehotSums (g := g) (pad ⟨2, ![np, h]⟩ ![0, 0] ![k, 0] ![0, 0] X z hpX hu)
          (shapeCast ⟨2, ![1, np]⟩ (pad ⟨1, ![np]⟩ ![0] ![k] ![0] S wd hpS hu) hs))
        (broadcastInDim ⟨2, ![g, h]⟩ ![0, 1] b2
          (maximumf (F := Ideal) (φ := .f32)
            (Cert.Spec.onehotCount (g := g) (shapeCast ⟨2, ![1, np]⟩ (pad ⟨1, ![np]⟩ ![0] ![k] ![0] S wd hpS hu) hs))
            (broadcastInDim ⟨2, ![g, 1]⟩ ![] b0 one)))
      = segMean (g := g) X S := by
  have hV : ∀ (a : Fin np) (q : Fin h), pad ⟨2, ![np, h]⟩ ![0, 0] ![k, 0] ![0, 0] X z hpX hu (ix2 a q)
      = if ha : a.val < n then X (ix2 ⟨a.val, ha⟩ q) else 0 := fun a q => by
    rw [pad_rows_apply, hz]
  have hseg : ∀ a : Fin np, shapeCast ⟨2, ![1, np]⟩ (pad ⟨1, ![np]⟩ ![0] ![k] ![0] S wd hpS hu) hs (ix2 0 a)
      = if ha : a.val < n then S (ix1 ⟨a.val, ha⟩) else 4294967295#32 := fun a => by
    rw [row_cast_apply, pad_vec_apply, hwd]
  funext i
  obtain ⟨r, q, rfl⟩ : ∃ (r : Fin g) (q : Fin h), i = ix2 r q := ⟨i 0, i 1, eq_ix2 i⟩
  have hr : r.val < 2 ^ 31 := lt_of_lt_of_le r.isLt hg
  show Ideal.div (Cert.Spec.onehotSums (g := g) _ _ (ix2 r q)) (broadcastInDim _ _ b2 _ (ix2 r q))
    = Ideal.div (segSum X S r.val q) (max (segCnt S r.val) 1)
  rw [onehotSums_pad hn X S _ _ hV hseg r hr q, ← Cert.HostForms.ij_eq_ix2, bcast_of_col, maximumf_apply, ixP_eq_ix2,
    onehotCount_pad hn S _ hseg r hr, broadcastInDim_scalar_apply, hone]

theorem scatter_mean (d2 : ScatterDims ⟨2, ![g, h]⟩ ⟨2, ![n, 1]⟩ ⟨2, ![n, h]⟩)
    (huw2 : d2.updateWindowDims = [1]) (hiw2 : d2.insertedWindowDims = [0]) (hsd2 : d2.scatterDimsToOperandDims = [0])
    (hivd2 : d2.indexVectorDim = 1)
    (d1 : ScatterDims ⟨1, ![g]⟩ ⟨2, ![n, 1]⟩ ⟨1, ![n]⟩)
    (huw1 : d1.updateWindowDims = []) (hiw1 : d1.insertedWindowDims = [0]) (hsd1 : d1.scatterDimsToOperandDims = [0])
    (hivd1 : d1.indexVectorDim = 1)
    (X : FVec Ideal ⟨2, ![n, h]⟩ .f32) (S : IVec ⟨1, ![n]⟩ 32)
    (zero zero' one one' : FVec Ideal ⟨0, ![]⟩ .f32) (hzero : ∀ i, zero i = 0) (hzero' : ∀ i, zero' i = 0)
    (hone : ∀ i, one i = 1) (hone' : ∀ i, one' i = 1)
    (z2 : (⟨0, ![]⟩ : Shape).BroadcastsInDim ⟨2, ![g, h]⟩ ![]) (z1 : (⟨0, ![]⟩ : Shape).BroadcastsInDim ⟨1, ![g]⟩ ![])
    (o1 : (⟨0, ![]⟩ : Shape).BroadcastsInDim ⟨1, ![n]⟩ ![]) (o2 : (⟨0, ![]⟩ : Shape).BroadcastsInDim ⟨1, ![g]⟩ ![])
    (bc bc' : (⟨1, ![n]⟩ : Shape).BroadcastsInDim ⟨2, ![n, 1]⟩ ![0])
    (c1 : (⟨1, ![g]⟩ : Shape).BroadcastsInDim ⟨2, ![g, 1]⟩ ![0])
    (c2 : (⟨2, ![g, 1]⟩ : Shape).BroadcastsInDim ⟨2, ![g, h]⟩ ![0, 1]) :
    Host.divf (F := Ideal) (φ := .f32)
        (Host.scatterAdd d2 (broadcastInDim ⟨2, ![g, h]⟩ ![] z2 zero) (broadcastInDim ⟨2, ![n, 1]⟩ ![0] bc S) X)
        (broadcastInDim ⟨2, ![g, h]⟩ ![0, 1] c2 (broadcastInDim ⟨2, ![g, 1]⟩ ![0] c1
          (maximumf (F := Ideal) (φ := .f32)
            (Host.scatterAdd d1 (broadcastInDim ⟨1, ![g]⟩ ![] z1 zero') (broadcastInDim ⟨2, ![n, 1]⟩ ![0] bc' S)
              (broadcastInDim ⟨1, ![n]⟩ ![] o1 one))
            (broadcastInDim ⟨1, ![g]⟩ ![] o2 one'))))
      = segMean (g := g) X S := by
  funext i
  obtain ⟨r, q, rfl⟩ : ∃ (r : Fin g) (q : Fin h), i = ix2 r q := ⟨i 0, i 1, eq_ix2 i⟩
  show Ideal.div (Host.scatterAdd d2 _ _ X (ix2 r q))
      (broadcastInDim _ _ c2 (broadcastInDim _ _ c1 _) (ix2 r q))
    = Ideal.div (segSum X S r.val q) (max (segCnt S r.val) 1)
  rw [scatter_rows_sum d2 huw2 hiw2 hsd2 hivd2 _ (fun j => by rw [broadcastInDim_scalar_apply, hzero]) bc S X r q,
    Cert.HostForms.down_columns_apply, maximumf_apply,
    scatter_vec_cnt d1 huw1 hiw1 hsd1 hivd1 _ (fun j => by rw [broadcastInDim_scalar_apply, hzero']) bc' S _
      (fun j => by rw [broadcastInDim_scalar_apply, hone]) r,
    broadcastInDim_scalar_apply, hone']

end Cert.PadForms

end
-- ==== Proof.ChainC6.lean ====
-- Sub-graph branch, pooling: the padded one-hot sums over the clamped counts are the reference's segment means.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg6
import proofs.«400221_j39548058861723_2_alg».proof.Proof.PadForms
set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

theorem read_v110 (Wp : Valuation τ sig (Elt Ideal)) :
    StableHlo.after (hostOps6_1 (F := Ideal)) Wp (Proc.devRef .tc main_v110)
      = pad S150528x128 ![0, 0] ![528, 0] ![0, 0] (Wp (Proc.devRef .tc main_v102))
          (sitofp (F := Ideal) .f32 (Wp (Proc.devRef .tc main_c_17))) pads_S150000x128_S150528x128_05280_000 h_S_ := by
  after_results
  rfl

theorem read_v111 (Wp : Valuation τ sig (Elt Ideal)) :
    StableHlo.after (hostOps6_3 (F := Ideal)) Wp (Proc.devRef .tc main_v111)
      = pad S150528 ![0] ![528] ![0] (Wp (Proc.devRef .tc main_v109)) (Wp (Proc.devRef .tc main_c_18))
          pads_S150000_S150528_05280 h_S_ := by
  after_results
  rfl

theorem read_v112 (Wp : Valuation τ sig (Elt Ideal)) :
    StableHlo.after (hostOps6_4 (F := Ideal)) Wp (Proc.devRef .tc main_v112)
      = shapeCast S1x150528 (Wp (Proc.devRef .tc main_v111)) shapeCasts_S150528_S1x150528 := by
  after_results
  rfl

theorem read_c_17 (Wp : Valuation τ sig (Elt Ideal)) :
    StableHlo.after (hostOps6 (F := Ideal)) Wp (Proc.devRef .tc main_c_17) = constantI S_ 32 0#32 := by
  after_results_simp

theorem read_c_18 (Wp : Valuation τ sig (Elt Ideal)) :
    StableHlo.after (hostOps6_2 (F := Ideal)) Wp (Proc.devRef .tc main_c_18) = constantI S_ 32 4294967295#32 := by
  after_results

theorem read_v117 (Wp : Valuation τ sig (Elt Ideal)) :
    StableHlo.after (hostOps7 (F := Ideal)) Wp (Proc.devRef .tc main_v117)
      = Host.divf (Wp (Proc.devRef .tc main_v113_0))
          (broadcastInDim S1024x128 ![0, 1] bcast_S1024x1_S1024x128_0_1
            (maximumf (Wp (Proc.devRef .tc main_v113_1))
              (broadcastInDim S1024x1 ![] bcast_S_S1024x1 (constant (F := Ideal) S_ .f32 0x3F800000#32)))) := by
  after_results_simp

set_option maxHeartbeats 4000000 in

theorem k109 (hag : Agree m m') (c : Dev nD) : W13 m ρ c (Proc.devRef .tc main_v109) = rv_v127 (F := Ideal) m' c := by
  have h5 : W12 m ρ c (Proc.devRef .tc main_arg5) = m' ((c.tc : Thread Cert.ReferenceIdeal.nD Cert.ReferenceIdeal.τ).loc Cert.ReferenceIdeal.main_arg5) :=
    (keepSpan m ρ c main_arg5 0 12 (by decide) (by decide)).trans ((hag c).2.2.2.2.2.1).symm
  have h6 : W12 m ρ c (Proc.devRef .tc main_arg6) = m' ((c.tc : Thread Cert.ReferenceIdeal.nD Cert.ReferenceIdeal.τ).loc Cert.ReferenceIdeal.main_arg6) :=
    (keepSpan m ρ c main_arg6 0 12 (by decide) (by decide)).trans ((hag c).2.2.2.2.2.2.1).symm
  show StableHlo.after hostOps6 (W12 m ρ c) (Proc.devRef .tc main_v109) = _
  after_results_simp
  rw [h5, h6]
  unfold rv_v127 rv_v126 rv_v125 rv_v124 rv_v123 rv_v122 rv_v121 rv_c_15 rv_c_16
  rfl

theorem k110 (c : Dev nD) (h102 : W12 m ρ c (Proc.devRef .tc main_v102) = rv_v120 (F := Ideal) m' c) :
    W14 m ρ c (Proc.devRef .tc main_v110)
      = pad S150528x128 ![0, 0] ![528, 0] ![0, 0] (rv_v120 (F := Ideal) m' c)
          (sitofp (F := Ideal) .f32 (constantI S_ 32 0#32)) pads_S150000x128_S150528x128_05280_000 h_S_ := by
  have hc : W13 m ρ c (Proc.devRef .tc main_c_17) = constantI S_ 32 0#32 := read_c_17 (W12 m ρ c)
  have hx : W13 m ρ c (Proc.devRef .tc main_v102) = rv_v120 (F := Ideal) m' c :=
    (keep13 m ρ c main_v102 (by decide)).trans h102
  have hr : W14 m ρ c (Proc.devRef .tc main_v110) = _ := read_v110 (W13 m ρ c)
  rw [hr, hc, hx]

theorem k112 (hag : Agree m m') (c : Dev nD) :
    W17 m ρ c (Proc.devRef .tc main_v112)
      = shapeCast S1x150528 (pad S150528 ![0] ![528] ![0] (rv_v127 (F := Ideal) m' c)
          (constantI S_ 32 4294967295#32) pads_S150000_S150528_05280 h_S_) shapeCasts_S150528_S1x150528 := by
  have hc : W15 m ρ c (Proc.devRef .tc main_c_18) = constantI S_ 32 4294967295#32 := read_c_18 (W14 m ρ c)
  have hx : W15 m ρ c (Proc.devRef .tc main_v109) = rv_v127 (F := Ideal) m' c :=
    (keepSpan m ρ c main_v109 13 2 (by decide) (by decide)).trans (k109 m ρ m' hag c)
  have h111 : W16 m ρ c (Proc.devRef .tc main_v111) = _ := read_v111 (W15 m ρ c)
  have hr : W17 m ρ c (Proc.devRef .tc main_v112) = _ := read_v112 (W16 m ρ c)
  rw [hr, h111, hc, hx]

set_option maxHeartbeats 4000000 in

theorem k117 (hag : Agree m m') (c : Dev nD) (h102 : W12 m ρ c (Proc.devRef .tc main_v102) = rv_v120 (F := Ideal) m' c) :
    W19 m ρ c (Proc.devRef .tc main_v117) = rv_v139 (F := Ideal) m' c := by

  have hX : V17 m ρ c main_v110 = _ :=
    (keepSpan m ρ c main_v110 14 3 (by decide) (by decide)).trans (k110 m ρ m' c h102)
  have hS : V17 m ρ c main_v112 = _ := k112 m ρ m' hag c

  have hA : W18 m ρ c (Proc.devRef .tc main_v113_0) = Cert.Spec.onehotSums (V17 m ρ c main_v110) (V17 m ρ c main_v112) :=
    (W18_arr m ρ c 2).trans (Cert.KernelIdeal.Reg6.sums (V17 m ρ) c)
  have hC : W18 m ρ c (Proc.devRef .tc main_v113_1) = Cert.Spec.onehotCount (V17 m ρ c main_v112) :=
    (W18_arr m ρ c 3).trans (Cert.KernelIdeal.Reg6.counts (V17 m ρ) c)
  have hr : W19 m ρ c (Proc.devRef .tc main_v117) = _ := read_v117 (W18 m ρ c)
  rw [hr, hA, hC, hX, hS]

  have hz : ∀ i, sitofp (F := Ideal) .f32 (constantI S_ 32 0#32) i = 0 := fun i => by
    show (((0#32 : BitVec 32).toInt : ℝ) : EReal) = 0
    rw [show (0#32 : BitVec 32).toInt = 0 from by decide]; simp
  have hwd : ∀ i, constantI S_ 32 4294967295#32 i = 4294967295#32 := fun _ => rfl
  have hone : ∀ i, constant (F := Ideal) S_ .f32 0x3F800000#32 i = 1 := fun _ => Ideal.ofBits_one_f32
  have hzero : ∀ i, constant (F := Ideal) S_ .f32 0x00000000#32 i = 0 := fun _ => Ideal.ofBits_zero_f32
  refine (Cert.PadForms.padded_onehot_mean (n := 150000) (np := 150528) (g := 1024) (h := 128) (by norm_num) (by norm_num) 528
    (rv_v120 (F := Ideal) m' c) (rv_v127 (F := Ideal) m' c) _ hz _ hwd _ hone h_S_ pads_S150000x128_S150528x128_05280_000
    pads_S150000_S150528_05280 shapeCasts_S150528_S1x150528 bcast_S_S1024x1 bcast_S1024x1_S1024x128_0_1).trans ?_
  unfold rv_v139 rv_v138 rv_v137 rv_v136 rv_v135 rv_cst_20 rv_v134 rv_v133 rv_v132 rv_cst_19 rv_v131 rv_cst_18 rv_v130
    rv_v129 rv_v128 rv_cst_17
  exact (Cert.PadForms.scatter_mean (n := 150000) (g := 1024) (h := 128)
    Cert.ReferenceIdeal.scatter_S1024x128_S150000x1_S150000x128_1_0_0_1 rfl rfl rfl rfl
    Cert.ReferenceIdeal.scatter_S1024_S150000x1_S150000_n_0_0_1 rfl rfl rfl rfl
    (rv_v120 (F := Ideal) m' c) (rv_v127 (F := Ideal) m' c) _ _ _ _ hzero hzero hone hone
    _ _ _ _ _ _ _ _).symm

end Cert.Chain

end
-- ==== Proof.Reg13.lean ====
/-
  The target branch's pooling launch: 98 tiles of 1024 rows of the padded value array, each with its 1024 segment
  ids. The two outputs stay resident over the whole grid: the first tile clears them, every tile adds its one-hot
  matrix (row g, column j is 1 when row j's id word is g, else 0) times its rows, and the one-hot's row sums. After the
  last tile the outputs hold the sums over all 100352 rows.
-/
import proofs.«400221_j39548058861723_2_alg».proof.Proof.Gen.KernelIdeal.Frame
import proofs.«400221_j39548058861723_2_alg».proof.Proof.Spec
import proofs.«400221_j39548058861723_2_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
namespace Cert.KernelIdeal.Reg13

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Both offsets of a whole-block access are zero. -/
theorem hz : (![0, 0] : Fin 2 → Nat) = fun _ => 0 :=
  funext fun a => match a with | ⟨0, _⟩ => rfl | ⟨1, _⟩ => rfl

/-! ## What each control case leaves, as the body's arithmetic over the blocks -/

section Pieces
variable {F : FTy → Type} [FloatOps F]

/-- A later tile leaves, in the first output, the running sums plus its one-hot matrix times its rows. -/
theorem left_B_2 (c : Dev nD) (i : grid13.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : ¬cond13_0 i)
    (x0 : Vec F S1024x128 .f32) (x1 : Vec F S1x1024 .i32) (xo2 : Vec F S1024x128 .f32) (xo3 : Vec F S1024x1 .f32) :
    out13_B_2 c i a1 h1 a2 h2 a3 h3 a4 h4 hc x0 x1 xo2 xo3 = k13_pay4 x1 x0 xo2 := by
  unfold out13_B_2
  rw [View.read_writes_eq_canon _ _ _ (cover13_B_2 c i a1 h1 a2 h2 a3 h3 a4 h4 hc x0 x1 xo2 xo3)]
  unfold kernelRun13_B
  dsimp only
  sl_unfold_words
  rw [View.canon_unit_zero hz]
  simp only [View.readAt_eq_ld, h1.read_unread, h2.read_unread, h3.read_unread,
    View.ld_unit_zero (S := S1024x128) hz, View.ld_unit_zero (S := S1x1024) hz]

/-- A later tile leaves, in the second output, the running counts plus its one-hot matrix's row sums. -/
theorem left_B_3 (c : Dev nD) (i : grid13.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : ¬cond13_0 i)
    (x0 : Vec F S1024x128 .f32) (x1 : Vec F S1x1024 .i32) (xo2 : Vec F S1024x128 .f32) (xo3 : Vec F S1024x1 .f32) :
    out13_B_3 c i a1 h1 a2 h2 a3 h3 a4 h4 hc x0 x1 xo2 xo3 = k13_pay5 x1 xo3 := by
  unfold out13_B_3
  rw [View.read_writes_eq_canon _ _ _ (cover13_B_3 c i a1 h1 a2 h2 a3 h3 a4 h4 hc x0 x1 xo2 xo3)]
  unfold kernelRun13_B
  dsimp only
  sl_unfold_words
  rw [View.canon_unit_zero hz]
  simp only [View.readAt_eq_ld, h2.read_unread, h4.read_unread,
    View.ld_unit_zero (S := S1024x1) hz, View.ld_unit_zero (S := S1x1024) hz]

/-- The first tile clears the first output, then adds to the cleared block as every tile does. -/
theorem left_A_2 (c : Dev nD) (i : grid13.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : cond13_0 i)
    (x0 : Vec F S1024x128 .f32) (x1 : Vec F S1x1024 .i32) :
    out13_A_2 c i a1 h1 a2 h2 a3 h3 a4 h4 hc x0 x1 = k13_pay4 x1 x0 (k13_pay1 (F := F)) := by
  unfold out13_A_2
  rw [View.read_writes_eq_canon _ _ _ (cover13_A_2 c i a1 h1 a2 h2 a3 h3 a4 h4 hc x0 x1)]
  unfold kernelRun13_A
  dsimp only
  sl_unfold_words
  rw [View.canon_cons_unit_zero (S := S1024x128) hz, View.readCov_unit_zero (S := S1024x128) _ hz]
  simp only [View.readAt_eq_ld, h1.read_unread, h2.read_unread,
    View.ld_unit_zero (S := S1024x128) hz, View.ld_unit_zero (S := S1x1024) hz]

/-- The first tile clears the second output, then adds to the cleared column as every tile does. -/
theorem left_A_3 (c : Dev nD) (i : grid13.Coords) (a1 : Memref sig .tc .vmem S1024x128 .f32) (h1 : a1.IsWhole)
    (a2 : Memref sig .tc .vmem S1x1024 .i32) (h2 : a2.IsWhole) (a3 : Memref sig .tc .vmem S1024x128 .f32) (h3 : a3.IsWhole)
    (a4 : Memref sig .tc .vmem S1024x1 .f32) (h4 : a4.IsWhole) (hc : cond13_0 i)
    (x0 : Vec F S1024x128 .f32) (x1 : Vec F S1x1024 .i32) :
    out13_A_3 c i a1 h1 a2 h2 a3 h3 a4 h4 hc x0 x1 = k13_pay5 x1 (k13_pay2 (F := F)) := by
  unfold out13_A_3
  rw [View.read_writes_eq_canon _ _ _ (cover13_A_3 c i a1 h1 a2 h2 a3 h3 a4 h4 hc x0 x1)]
  unfold kernelRun13_A
  dsimp only
  sl_unfold_words
  rw [View.canon_cons_unit_zero (S := S1024x1) hz, View.readCov_unit_zero (S := S1024x1) _ hz]
  simp only [View.readAt_eq_ld, h2.read_unread,
    View.ld_unit_zero (S := S1x1024) hz]

end Pieces

/-! ## The body's arithmetic at an entry, over the extended reals -/

/-- The converted comparison bit: 1 where the two words are equal, else 0. -/
theorem onehot_word (x y : BitVec 32) :
    FloatOps.sitofp (F := Ideal) .f32 ((IntOp.cmpi .eq x y).setWidth 32) = if x = y then (1 : EReal) else 0 := by
  show ((((BitVec.ofBool (x == y)).setWidth 32).toInt : ℝ) : EReal) = _
  by_cases h : x = y
  · have e : (x == y) = true := beq_iff_eq.mpr h
    rw [if_pos h, e]
    have e1 : ((BitVec.ofBool true).setWidth 32).toInt = 1 := by decide
    rw [e1, Int.cast_one, EReal.coe_one]
  · have e : (x == y) = false := beq_eq_false_iff_ne.mpr h
    rw [if_neg h, e]
    have e0 : ((BitVec.ofBool false).setWidth 32).toInt = 0 := by decide
    rw [e0, Int.cast_zero, EReal.coe_zero]

/-- The id row spread down the rows: entry (g, j) is the id of column j. -/
theorem bcast_row {α : Type} (seg : S1x1024.Idx → α) (h : S1x1024.Broadcasts S1024x1024) (g j : Fin 1024) :
    broadcastTo S1024x1024 seg h (ix2 g j) = seg (ix2 0 j) :=
  broadcastTo_apply seg h (ix2 g j) (ix2 0 j) (fun a => match a with | ⟨0, _⟩ => rfl | ⟨1, _⟩ => rfl)

/-- The row counter: entry (g, j) is the word g. -/
theorem iota_row (h : S1024x1024.Iotas .tc 32 [0]) (g j : Fin 1024) :
    iota .tc S1024x1024 32 [0] h (ix2 g j) = BitVec.ofNat 32 g.val :=
  iota_single_apply .tc S1024x1024 32 0 h (ix2 g j)

/-- A vector viewed as a column: entry (g, 0) is entry g. -/
theorem col_cast {α : Type} (v : S1024.Idx → α) (h : S1024.ShapeCasts S1024x1) (g : Fin 1024) (z : Fin 1) :
    shapeCast S1024x1 v h (ix2 g z) = v (ix1 g) :=
  shapeCast_apply v h (ix2 g z) (ix1 g) (by
    rw [Shape.rowMajor_val_one, Shape.rowMajor_val_two]
    show g.val = g.val * 1 + z.val
    have := z.isLt; omega)

/-- The sum along the columns: entry g is the sum of row g. -/
theorem row_sum (src : FVec Ideal S1024x1024 .f32) (h : S1024x1024.Reduces [1] S1024) (hφ : FKind.Formats .f32)
    (hacc : (0x00000000#32 : BitVec 32) = FKind.add.neutral .f32 hφ) (g : Fin 1024) :
    multiReduction (F := Ideal) .add [1] S1024 src 0x00000000#32 h hφ hacc (ix1 g) = ∑ j : Fin 1024, src (ix2 g j) := by
  refine (Ideal.multiReduction_add_single src 0x00000000#32 h hφ hacc (ix1 g)).trans ?_
  show ∑ k : Fin 1024, src (h.lift (ix1 g) k) = _
  refine Finset.sum_congr rfl fun k _ => congrArg src ?_
  funext a
  apply Fin.ext
  match a with
  | ⟨0, _⟩ => rfl
  | ⟨1, _⟩ => rfl

/-- Entry (g, j) of a tile's one-hot matrix: 1 when row j's id word is g, else 0. -/
theorem onehot_apply (seg : IVec S1x1024 32) (g j : Fin 1024) :
    k13_pay3 (F := Ideal) seg (ix2 g j) = if seg (ix2 0 j) = BitVec.ofNat 32 g.val then (1 : EReal) else 0 := by
  unfold k13_pay3
  show FloatOps.sitofp .f32 ((IntOp.cmpi .eq (broadcastTo S1024x1024 (shapeCast S1x1024 seg _) _ (ix2 g j))
    (iota .tc S1024x1024 32 [0] _ (ix2 g j))).setWidth 32) = _
  rw [bcast_row, iota_row, shapeCast_self]
  exact onehot_word _ _

/-- The first output's update at (g, q): what was there plus the one-hot row g times column q of the tile's rows. -/
theorem sums_step (seg : IVec S1x1024 32) (x acc : FVec Ideal S1024x128 .f32) (g : Fin 1024) (q : Fin 128) :
    k13_pay4 (F := Ideal) seg x acc (ix2 g q)
      = acc (ix2 g q) + ∑ j : Fin 1024, (if seg (ix2 0 j) = BitVec.ofNat 32 g.val then (1 : EReal) else 0) * x (ix2 j q) := by
  unfold k13_pay4
  show shapeCast S1024x128 acc _ (ix2 g q)
    + FloatOps.matmul dot_S1024x1024_S1024x128_S1024x128_1_0_0_1_n_n (some .fp32) (k13_pay3 (F := Ideal) seg)
        (shapeCast S1024x128 x _) (constant S1024x128 .f32 0x00000000#32) (ix2 g q) = _
  rw [shapeCast_self, shapeCast_self]
  refine congrArg (acc (ix2 g q) + ·) ?_
  refine (Cert.LibDense.matmul_zero_apply dot_S1024x1024_S1024x128_S1024x128_1_0_0_1_n_n (some .fp32) rfl rfl rfl rfl rfl rfl
    (k13_pay3 (F := Ideal) seg) x g q).trans ?_
  exact Finset.sum_congr rfl fun j _ => by rw [onehot_apply]

/-- The second output's update at (g, 0): what was there plus the sum of the one-hot row g. -/
theorem counts_step (seg : IVec S1x1024 32) (acc : FVec Ideal S1024x1 .f32) (g : Fin 1024) (z : Fin 1) :
    k13_pay5 (F := Ideal) seg acc (ix2 g z)
      = acc (ix2 g z) + ∑ j : Fin 1024, (if seg (ix2 0 j) = BitVec.ofNat 32 g.val then (1 : EReal) else 0) := by
  unfold k13_pay5
  show shapeCast S1024x1 acc _ (ix2 g z)
    + shapeCast S1024x1 (multiReduction (F := Ideal) .add [1] S1024 (k13_pay3 (F := Ideal) seg) 0x00000000#32 _ _ _) _ (ix2 g z) = _
  rw [shapeCast_self]
  refine congrArg (acc (ix2 g z) + ·) ?_
  refine (col_cast _ _ g z).trans ?_
  refine (row_sum (k13_pay3 (F := Ideal) seg) _ _ _ g).trans ?_
  exact Finset.sum_congr rfl fun j _ => onehot_apply seg g j

/-- The cleared first output is zero everywhere. -/
theorem cleared_2 (y : S1024x128.Idx) : k13_pay1 (F := Ideal) y = 0 := by
  unfold k13_pay1
  show Ideal.ofBits .f32 0x00000000#32 = 0
  exact Ideal.ofBits_zero_f32

/-- The cleared second output is zero everywhere. -/
theorem cleared_3 (y : S1024x1.Idx) : k13_pay2 (F := Ideal) y = 0 := by
  unfold k13_pay2
  show Ideal.ofBits .f32 0x00000000#32 = 0
  exact Ideal.ofBits_zero_f32

/-- A sum over the first 1024·(n+1) naturals is the sum over the first 1024·n and over the next tile's rows. -/
theorem sum_tile (f : ℕ → EReal) (n : ℕ) :
    ∑ a ∈ Finset.range (1024 * (n + 1)), f a
      = ∑ a ∈ Finset.range (1024 * n), f a + ∑ j : Fin 1024, f (1024 * n + j.val) := by
  rw [show 1024 * (n + 1) = 1024 * n + 1024 by ring, Finset.sum_range_add]
  exact congrArg (_ + ·) (Finset.sum_range fun x => f (1024 * n + x))

-- The buffer contents a region is entered with.
variable (V : (c : Dev nD) → (b : Ref sig .tc) → Buf (Elt Ideal) ((c : Thread nD τ).loc b))

/-! ## The arrays, a tile's blocks of them, and where a block's entries sit -/

/-- The padded value array. -/
abbrev xarr (c : Dev nD) : FVec Ideal S100352x128 .f32 := V c main_v205
/-- The padded row of id words. -/
abbrev sarr (c : Dev nD) : IVec S1x100352 32 := V c main_v207
/-- Tile t's 1024 rows of the value array. -/
abbrev xblk (c : Dev nD) (t : Fin cfg13.N) : FVec Ideal S1024x128 .f32 := iblk13 V c 0 t
/-- Tile t's 1024 id words. -/
abbrev sblk (c : Dev nD) (t : Fin cfg13.N) : IVec S1x1024 32 := iblk13 V c 1 t

/-- Tile t's value block is block (t, 0). -/
theorem idx_0 : ∀ t : Fin cfg13.N, win13_0.index t 0 = t.val ∧ win13_0.index t 1 = 0 :=
  (by decide +kernel : ∀ t : Fin grid13.N, win13_0.index t 0 = t.val ∧ win13_0.index t 1 = 0)
/-- Tile t's id block is block (0, t). -/
theorem idx_1 : ∀ t : Fin cfg13.N, win13_1.index t 0 = 0 ∧ win13_1.index t 1 = t.val :=
  (by decide +kernel : ∀ t : Fin grid13.N, win13_1.index t 0 = 0 ∧ win13_1.index t 1 = t.val)
/-- The outputs' one block is block (0, 0) at every tile. -/
theorem idx_2 : ∀ t : Fin cfg13.N, win13_2.index t 0 = 0 ∧ win13_2.index t 1 = 0 :=
  (by decide +kernel : ∀ t : Fin grid13.N, win13_2.index t 0 = 0 ∧ win13_2.index t 1 = 0)
theorem idx_3 : ∀ t : Fin cfg13.N, win13_3.index t 0 = 0 ∧ win13_3.index t 1 = 0 :=
  (by decide +kernel : ∀ t : Fin grid13.N, win13_3.index t 0 = 0 ∧ win13_3.index t 1 = 0)

/-- Row j of tile t's value block is row 1024·t + j of the array. -/
theorem xblk_apply (c : Dev nD) (t : Fin cfg13.N) (j : Fin 1024) (q : Fin 128) (h : 1024 * t.val + j.val < 100352) :
    xblk V c t (ix2 j q) = xarr V c (ix2 ⟨1024 * t.val + j.val, h⟩ q) := by
  show iblk13 V c 0 t (ix2 j q) = V c main_v205 (ix2 ⟨1024 * t.val + j.val, h⟩ q)
  unfold iblk13
  rw [View.read_apply]
  show V c main_v205 _ = V c main_v205 _
  congr 1
  funext a
  apply Fin.ext
  match a with
  | ⟨0, _⟩ => show win13_0.index t 0 * 1024 + 1 * j.val = 1024 * t.val + j.val; rw [(idx_0 t).1]; omega
  | ⟨1, _⟩ => show win13_0.index t 1 * 128 + 1 * q.val = q.val; rw [(idx_0 t).2]; omega

/-- Id word j of tile t's id block is word 1024·t + j of the row. -/
theorem sblk_apply (c : Dev nD) (t : Fin cfg13.N) (j : Fin 1024) (h : 1024 * t.val + j.val < 100352) :
    sblk V c t (ix2 0 j) = sarr V c (ix2 0 ⟨1024 * t.val + j.val, h⟩) := by
  show iblk13 V c 1 t (ix2 0 j) = V c main_v207 (ix2 0 ⟨1024 * t.val + j.val, h⟩)
  unfold iblk13
  rw [View.read_apply]
  show V c main_v207 _ = V c main_v207 _
  congr 1
  funext a
  apply Fin.ext
  match a with
  | ⟨0, _⟩ => show win13_1.index t 0 * 1 + 1 * 0 = 0; rw [(idx_1 t).1]
  | ⟨1, _⟩ => show win13_1.index t 1 * 1024 + 1 * j.val = 1024 * t.val + j.val; rw [(idx_1 t).2]; omega

/-! ## The outputs after each tile -/

/-- Row a's share of entry (g, q) of the sums: its value at column q when its id word is g; nothing past the array. -/
def share (c : Dev nD) (g : Fin 1024) (q : Fin 128) (a : ℕ) : EReal :=
  if h : a < 100352 then
    (if sarr V c (ix2 0 ⟨a, h⟩) = BitVec.ofNat 32 g.val then (1 : EReal) else 0) * xarr V c (ix2 ⟨a, h⟩ q)
  else 0

/-- Row a's share of count g: 1 when its id word is g; nothing past the array. -/
def hit (c : Dev nD) (g : Fin 1024) (a : ℕ) : EReal :=
  if h : a < 100352 then (if sarr V c (ix2 0 ⟨a, h⟩) = BitVec.ofNat 32 g.val then (1 : EReal) else 0) else 0

/-- A tile's one-hot row g times column q of its rows is the shares of the array's rows 1024·t … 1024·t + 1023. -/
theorem tile_shares (c : Dev nD) (t : Fin cfg13.N) (g : Fin 1024) (q : Fin 128) :
    ∑ j : Fin 1024, (if sblk V c t (ix2 0 j) = BitVec.ofNat 32 g.val then (1 : EReal) else 0) * xblk V c t (ix2 j q)
      = ∑ j : Fin 1024, share V c g q (1024 * t.val + j.val) := by
  have hN : t.val < 98 := lt_of_lt_of_eq t.isLt (show cfg13.N = 98 from N_13)
  refine Finset.sum_congr rfl fun j _ => ?_
  have h : 1024 * t.val + j.val < 100352 := by have := j.isLt; omega
  rw [share, dif_pos h, xblk_apply V c t j q h, sblk_apply V c t j h]

/-- A tile's one-hot row g sums to the hits among the array's rows 1024·t … 1024·t + 1023. -/
theorem tile_hits (c : Dev nD) (t : Fin cfg13.N) (g : Fin 1024) :
    ∑ j : Fin 1024, (if sblk V c t (ix2 0 j) = BitVec.ofNat 32 g.val then (1 : EReal) else 0)
      = ∑ j : Fin 1024, hit V c g (1024 * t.val + j.val) := by
  have hN : t.val < 98 := lt_of_lt_of_eq t.isLt (show cfg13.N = 98 from N_13)
  refine Finset.sum_congr rfl fun j _ => ?_
  have h : 1024 * t.val + j.val < 100352 := by have := j.isLt; omega
  rw [hit, dif_pos h, sblk_apply V c t j h]

/-- After the first tile the first output is the body's update of the cleared block. -/
theorem first_2 (c : Dev nD) (hn : 0 < cfg13.N) :
    (outsAt13 V c 0 hn).1 = k13_pay4 (F := Ideal) (sblk V c ⟨0, hn⟩) (xblk V c ⟨0, hn⟩) (k13_pay1 (F := Ideal)) := by
  rw [outsAt13_A V c ⟨0, hn⟩ rfl]
  dsimp only
  exact left_A_2 (F := Ideal) c (grid13.coords ⟨0, hn⟩) (ms13_0 ⟨0, hn⟩) (hs13_0 ⟨0, hn⟩) (ms13_1 ⟨0, hn⟩) (hs13_1 ⟨0, hn⟩)
    (ms13_2 ⟨0, hn⟩) (hs13_2 ⟨0, hn⟩) (ms13_3 ⟨0, hn⟩) (hs13_3 ⟨0, hn⟩) ((hcond13_0 ⟨0, hn⟩).mpr rfl)
    (iblk13 V c 0 ⟨0, hn⟩) (iblk13 V c 1 ⟨0, hn⟩)

/-- After the first tile the second output is the body's update of the cleared column. -/
theorem first_3 (c : Dev nD) (hn : 0 < cfg13.N) :
    (outsAt13 V c 0 hn).2 = k13_pay5 (F := Ideal) (sblk V c ⟨0, hn⟩) (k13_pay2 (F := Ideal)) := by
  rw [outsAt13_A V c ⟨0, hn⟩ rfl]
  dsimp only
  exact left_A_3 (F := Ideal) c (grid13.coords ⟨0, hn⟩) (ms13_0 ⟨0, hn⟩) (hs13_0 ⟨0, hn⟩) (ms13_1 ⟨0, hn⟩) (hs13_1 ⟨0, hn⟩)
    (ms13_2 ⟨0, hn⟩) (hs13_2 ⟨0, hn⟩) (ms13_3 ⟨0, hn⟩) (hs13_3 ⟨0, hn⟩) ((hcond13_0 ⟨0, hn⟩).mpr rfl)
    (iblk13 V c 0 ⟨0, hn⟩) (iblk13 V c 1 ⟨0, hn⟩)

/-- After a later tile the first output is the body's update of what the tile before left. -/
theorem next_2 (c : Dev nD) (n : ℕ) (hn : n + 1 < cfg13.N) :
    (outsAt13 V c (n + 1) hn).1
      = k13_pay4 (F := Ideal) (sblk V c ⟨n + 1, hn⟩) (xblk V c ⟨n + 1, hn⟩) (outsAt13 V c n (Nat.lt_of_succ_lt hn)).1 := by
  have hN : cfg13.N = 98 := N_13
  have hB : ¬(⟨n + 1, hn⟩ : Fin cfg13.N).val % 98 = 0 := by dsimp only; omega
  rw [outsAt13_B V c ⟨n + 1, hn⟩ hB]
  dsimp only
  exact left_B_2 (F := Ideal) c (grid13.coords ⟨n + 1, hn⟩) (ms13_0 ⟨n + 1, hn⟩) (hs13_0 ⟨n + 1, hn⟩) (ms13_1 ⟨n + 1, hn⟩)
    (hs13_1 ⟨n + 1, hn⟩) (ms13_2 ⟨n + 1, hn⟩) (hs13_2 ⟨n + 1, hn⟩) (ms13_3 ⟨n + 1, hn⟩) (hs13_3 ⟨n + 1, hn⟩)
    (fun h => hB ((hcond13_0 ⟨n + 1, hn⟩).mp h)) (iblk13 V c 0 ⟨n + 1, hn⟩) (iblk13 V c 1 ⟨n + 1, hn⟩)
    (outsAt13 V c n (Nat.lt_of_succ_lt hn)).1 (outsAt13 V c n (Nat.lt_of_succ_lt hn)).2

/-- After a later tile the second output is the body's update of what the tile before left. -/
theorem next_3 (c : Dev nD) (n : ℕ) (hn : n + 1 < cfg13.N) :
    (outsAt13 V c (n + 1) hn).2 = k13_pay5 (F := Ideal) (sblk V c ⟨n + 1, hn⟩) (outsAt13 V c n (Nat.lt_of_succ_lt hn)).2 := by
  have hN : cfg13.N = 98 := N_13
  have hB : ¬(⟨n + 1, hn⟩ : Fin cfg13.N).val % 98 = 0 := by dsimp only; omega
  rw [outsAt13_B V c ⟨n + 1, hn⟩ hB]
  dsimp only
  exact left_B_3 (F := Ideal) c (grid13.coords ⟨n + 1, hn⟩) (ms13_0 ⟨n + 1, hn⟩) (hs13_0 ⟨n + 1, hn⟩) (ms13_1 ⟨n + 1, hn⟩)
    (hs13_1 ⟨n + 1, hn⟩) (ms13_2 ⟨n + 1, hn⟩) (hs13_2 ⟨n + 1, hn⟩) (ms13_3 ⟨n + 1, hn⟩) (hs13_3 ⟨n + 1, hn⟩)
    (fun h => hB ((hcond13_0 ⟨n + 1, hn⟩).mp h)) (iblk13 V c 0 ⟨n + 1, hn⟩) (iblk13 V c 1 ⟨n + 1, hn⟩)
    (outsAt13 V c n (Nat.lt_of_succ_lt hn)).1 (outsAt13 V c n (Nat.lt_of_succ_lt hn)).2

/-- After tile n the first output at (g, q) is the sum of the shares of the rows of tiles 0 … n. -/
theorem sums_after (c : Dev nD) (g : Fin 1024) (q : Fin 128) : ∀ (n : ℕ) (hn : n < cfg13.N),
    (outsAt13 V c n hn).1 (ix2 g q) = ∑ a ∈ Finset.range (1024 * (n + 1)), share V c g q a := by
  intro n
  induction n with
  | zero =>
    intro hn
    rw [first_2 V c hn, sums_step, cleared_2, zero_add, tile_shares, sum_tile _ 0]
    show _ = ∑ a ∈ Finset.range (1024 * 0), share V c g q a + _
    rw [Nat.mul_zero, Finset.range_zero, Finset.sum_empty, zero_add]
  | succ n ih =>
    intro hn
    rw [next_2 V c n hn, sums_step, ih (Nat.lt_of_succ_lt hn), tile_shares, sum_tile _ (n + 1)]

/-- After tile n the second output at (g, 0) is the number of hits among the rows of tiles 0 … n. -/
theorem counts_after (c : Dev nD) (g : Fin 1024) (z : Fin 1) : ∀ (n : ℕ) (hn : n < cfg13.N),
    (outsAt13 V c n hn).2 (ix2 g z) = ∑ a ∈ Finset.range (1024 * (n + 1)), hit V c g a := by
  intro n
  induction n with
  | zero =>
    intro hn
    rw [first_3 V c hn, counts_step, cleared_3, zero_add, tile_hits, sum_tile _ 0]
    show _ = ∑ a ∈ Finset.range (1024 * 0), hit V c g a + _
    rw [Nat.mul_zero, Finset.range_zero, Finset.sum_empty, zero_add]
  | succ n ih =>
    intro hn
    rw [next_3 V c n hn, counts_step, ih (Nat.lt_of_succ_lt hn), tile_hits, sum_tile _ (n + 1)]

/-- After the last tile the first output is the one-hot sums over the whole padded array. -/
theorem sums_last (c : Dev nD) (h : 97 < cfg13.N) :
    (outsAt13 V c 97 h).1 = Cert.Spec.onehotSums (xarr V c) (sarr V c) := by
  funext y
  obtain ⟨g, q, rfl⟩ : ∃ (g : Fin 1024) (q : Fin 128), y = ix2 g q := ⟨y 0, y 1, eq_ix2 y⟩
  rw [sums_after V c g q 97 h]
  show _ = ∑ a : Fin 100352, (if sarr V c (ix2 0 a) = BitVec.ofNat 32 g.val then (1 : EReal) else 0) * xarr V c (ix2 a q)
  rw [show 1024 * (97 + 1) = 100352 by norm_num, Finset.sum_range]
  refine Finset.sum_congr rfl fun a _ => ?_
  rw [share, dif_pos a.isLt]

/-- After the last tile the second output is the one-hot counts over the whole padded id row. -/
theorem counts_last (c : Dev nD) (h : 97 < cfg13.N) :
    (outsAt13 V c 97 h).2 = Cert.Spec.onehotCount (sarr V c) := by
  funext y
  obtain ⟨g, z, rfl⟩ : ∃ (g : Fin 1024) (z : Fin 1), y = ix2 g z := ⟨y 0, y 1, eq_ix2 y⟩
  rw [counts_after V c g z 97 h]
  show _ = ∑ a : Fin 100352, (if sarr V c (ix2 0 a) = BitVec.ofNat 32 g.val then (1 : EReal) else 0)
  rw [show 1024 * (97 + 1) = 100352 by norm_num, Finset.sum_range]
  refine Finset.sum_congr rfl fun a _ => ?_
  rw [hit, dif_pos a.isLt]

/-! ## The result arrays: the outputs' one block, written back after the last tile, is the whole array -/

/-- The last tile. -/
abbrev tlast : Fin cfg13.N := ⟨97, by rw [show cfg13.N = 98 from N_13]; norm_num⟩

/-- The one write-back of the first output writes the one-hot sums. -/
theorem flushed_sums (c : Dev nD) (t : Fin cfg13.N) (hf : (cfg13.win 2).flush t = true) :
    (dat13 V c).flushed 2 t
      = ((cfg13.win 2).blk t).view.read (Elt Ideal) (Cert.Spec.onehotSums (xarr V c) (sarr V c)) := by
  have hN : cfg13.N = 98 := N_13
  have h97 : t.val = 97 := by have := (flush13_2 t).mp hf; have := t.isLt; omega
  obtain rfl : t = tlast := Fin.ext h97
  show (cfg13.win 2).cut (grid13.coords tlast) ((dat13 V c).after 2 tlast) = _
  rw [after13_2, sums_last]
  have hz' : (fun a => win13_2.index tlast a * main_v208_0.ty.shape.size a) = fun _ => 0 :=
    funext fun a => match a with
      | ⟨0, _⟩ => by show win13_2.index tlast 0 * _ = 0; rw [(idx_2 tlast).1, Nat.zero_mul]
      | ⟨1, _⟩ => by show win13_2.index tlast 1 * _ = 0; rw [(idx_2 tlast).2, Nat.zero_mul]
  exact (Memref.read_access_unit_zero (Elt Ideal) main_v208_0 hz' (fun a => by rw [congrFun hz' a]; simp)
    (Cert.Spec.onehotSums (xarr V c) (sarr V c))).symm

/-- The one write-back of the second output writes the one-hot counts. -/
theorem flushed_counts (c : Dev nD) (t : Fin cfg13.N) (hf : (cfg13.win 3).flush t = true) :
    (dat13 V c).flushed 3 t = ((cfg13.win 3).blk t).view.read (Elt Ideal) (Cert.Spec.onehotCount (sarr V c)) := by
  have hN : cfg13.N = 98 := N_13
  have h97 : t.val = 97 := by have := (flush13_3 t).mp hf; have := t.isLt; omega
  obtain rfl : t = tlast := Fin.ext h97
  show (cfg13.win 3).cut (grid13.coords tlast) ((dat13 V c).after 3 tlast) = _
  rw [after13_3, counts_last]
  have hz' : (fun a => win13_3.index tlast a * main_v208_1.ty.shape.size a) = fun _ => 0 :=
    funext fun a => match a with
      | ⟨0, _⟩ => by show win13_3.index tlast 0 * _ = 0; rw [(idx_3 tlast).1, Nat.zero_mul]
      | ⟨1, _⟩ => by show win13_3.index tlast 1 * _ = 0; rw [(idx_3 tlast).2, Nat.zero_mul]
  exact (Memref.read_access_unit_zero (Elt Ideal) main_v208_1 hz' (fun a => by rw [congrFun hz' a]; simp)
    (Cert.Spec.onehotCount (sarr V c))).symm

/-- After the 98 tiles the first output holds the one-hot sums of the whole padded value array. -/
theorem sums (c : Dev nD) :
    (dat13 (F := Ideal) V c).arrAt 2 cfg13.N = Cert.Spec.onehotSums (V c main_v205) (V c main_v207) :=
  (dat13 V c).arrAt_eq_of_cover 2 (Cert.Spec.onehotSums (xarr V c) (sarr V c)) (flushed_sums V c) fun i =>
    ⟨tlast, (flush13_2 tlast).mpr rfl, by
      show i ∈ ((View.whole main_v208_0).slice (win13_2.rect tlast)).set
      rw [View.set_slice_whole, Rect.mem_set_unit]
      intro a
      have h0 : (i 0 : Nat) < 1024 := (i 0).isLt
      have h1 : (i 1 : Nat) < 128 := (i 1).isLt
      match a with
      | ⟨0, _⟩ =>
        show win13_2.index tlast 0 * win13_2.size 0 ≤ (i 0 : Nat)
          ∧ (i 0 : Nat) < win13_2.index tlast 0 * win13_2.size 0 + win13_2.xsize (grid13.coords tlast) 0
        rw [(idx_2 tlast).1, show win13_2.xsize (grid13.coords tlast) 0 = 1024 from by decide +kernel]; omega
      | ⟨1, _⟩ =>
        show win13_2.index tlast 1 * win13_2.size 1 ≤ (i 1 : Nat)
          ∧ (i 1 : Nat) < win13_2.index tlast 1 * win13_2.size 1 + win13_2.xsize (grid13.coords tlast) 1
        rw [(idx_2 tlast).2, show win13_2.xsize (grid13.coords tlast) 1 = 128 from by decide +kernel]; omega⟩

/-- After the 98 tiles the second output holds the one-hot row counts of the whole padded id array. -/
theorem counts (c : Dev nD) :
    (dat13 (F := Ideal) V c).arrAt 3 cfg13.N = Cert.Spec.onehotCount (V c main_v207) :=
  (dat13 V c).arrAt_eq_of_cover 3 (Cert.Spec.onehotCount (sarr V c)) (flushed_counts V c) fun i =>
    ⟨tlast, (flush13_3 tlast).mpr rfl, by
      show i ∈ ((View.whole main_v208_1).slice (win13_3.rect tlast)).set
      rw [View.set_slice_whole, Rect.mem_set_unit]
      intro a
      have h0 : (i 0 : Nat) < 1024 := (i 0).isLt
      have h1 : (i 1 : Nat) < 1 := (i 1).isLt
      match a with
      | ⟨0, _⟩ =>
        show win13_3.index tlast 0 * win13_3.size 0 ≤ (i 0 : Nat)
          ∧ (i 0 : Nat) < win13_3.index tlast 0 * win13_3.size 0 + win13_3.xsize (grid13.coords tlast) 0
        rw [(idx_3 tlast).1, show win13_3.xsize (grid13.coords tlast) 0 = 1024 from by decide +kernel]; omega
      | ⟨1, _⟩ =>
        show win13_3.index tlast 1 * win13_3.size 1 ≤ (i 1 : Nat)
          ∧ (i 1 : Nat) < win13_3.index tlast 1 * win13_3.size 1 + win13_3.xsize (grid13.coords tlast) 1
        rw [(idx_3 tlast).2, show win13_3.xsize (grid13.coords tlast) 1 = 1 from by decide +kernel]; omega⟩

end Cert.KernelIdeal.Reg13

end
-- ==== Proof.ChainT6.lean ====
-- Whole-graph branch, pooling, and the two branches' means stacked into the result.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.Reg13
import proofs.«400221_j39548058861723_2_alg».proof.Proof.PadForms
set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

theorem read_v205 (Wp : Valuation τ sig (Elt Ideal)) :
    StableHlo.after (hostOps13_1 (F := Ideal)) Wp (Proc.devRef .tc main_v205)
      = pad S100352x128 ![0, 0] ![352, 0] ![0, 0] (Wp (Proc.devRef .tc main_v197))
          (sitofp (F := Ideal) .f32 (Wp (Proc.devRef .tc main_c_33))) pads_S100000x128_S100352x128_03520_000 h_S_ := by
  after_results
  rfl

theorem read_v206 (Wp : Valuation τ sig (Elt Ideal)) :
    StableHlo.after (hostOps13_3 (F := Ideal)) Wp (Proc.devRef .tc main_v206)
      = pad S100352 ![0] ![352] ![0] (Wp (Proc.devRef .tc main_v204)) (Wp (Proc.devRef .tc main_c_34))
          pads_S100000_S100352_03520 h_S_ := by
  after_results
  rfl

theorem read_v207 (Wp : Valuation τ sig (Elt Ideal)) :
    StableHlo.after (hostOps13_4 (F := Ideal)) Wp (Proc.devRef .tc main_v207)
      = shapeCast S1x100352 (Wp (Proc.devRef .tc main_v206)) shapeCasts_S100352_S1x100352 := by
  after_results
  rfl

theorem read_c_33 (Wp : Valuation τ sig (Elt Ideal)) :
    StableHlo.after (hostOps13 (F := Ideal)) Wp (Proc.devRef .tc main_c_33) = constantI S_ 32 0#32 := by
  after_results_simp

theorem read_c_34 (Wp : Valuation τ sig (Elt Ideal)) :
    StableHlo.after (hostOps13_2 (F := Ideal)) Wp (Proc.devRef .tc main_c_34) = constantI S_ 32 4294967295#32 := by
  after_results

theorem read_v212 (Wp : Valuation τ sig (Elt Ideal)) :
    StableHlo.after (hostOps14 (F := Ideal)) Wp (Proc.devRef .tc main_v212)
      = Host.divf (Wp (Proc.devRef .tc main_v208_0))
          (broadcastInDim S1024x128 ![0, 1] bcast_S1024x1_S1024x128_0_1
            (maximumf (Wp (Proc.devRef .tc main_v208_1))
              (broadcastInDim S1024x1 ![] bcast_S_S1024x1 (constant (F := Ideal) S_ .f32 0x3F800000#32)))) := by
  after_results_simp

theorem read_v215 (Wp : Valuation τ sig (Elt Ideal)) :
    StableHlo.after (hostOps14 (F := Ideal)) Wp (Proc.devRef .tc main_v215)
      = concatenate S2x1024x128 0
          [⟨S1x1024x128, broadcastInDim S1x1024x128 ![1, 2] bcast_S1024x128_S1x1024x128_1_2 (Wp (Proc.devRef .tc main_v117))⟩,
           ⟨S1x1024x128, broadcastInDim S1x1024x128 ![1, 2] bcast_S1024x128_S1x1024x128_1_2
              (StableHlo.after (hostOps14 (F := Ideal)) Wp (Proc.devRef .tc main_v212))⟩]
          concatenates_S1x1024x128_S1x1024x128_S2x1024x128_d0 := by
  rw [read_v212 Wp]
  after_results

set_option maxHeartbeats 4000000 in

theorem k197 (hag : Agree m m') (c : Dev nD) (h190 : W30 m ρ c (Proc.devRef .tc main_v190) = rv_v230 (F := Ideal) m' c) :
    W31 m ρ c (Proc.devRef .tc main_v197) = rv_v237 (F := Ideal) m' c := by
  have h7 : W30 m ρ c (Proc.devRef .tc main_arg7) = m' ((c.tc : Thread Cert.ReferenceIdeal.nD Cert.ReferenceIdeal.τ).loc Cert.ReferenceIdeal.main_arg7) :=
    (keepSpan m ρ c main_arg7 0 30 (by decide) (by decide)).trans ((hag c).2.2.2.2.2.2.2.1).symm
  show StableHlo.after hostOps13 (W30 m ρ c) (Proc.devRef .tc main_v197) = _
  after_results_simp
  rw [h7, h190]
  unfold rv_v237 rv_v236 rv_v235 rv_v234 rv_v233 rv_v232 rv_v231 rv_c_30 rv_c_31
  rfl

set_option maxHeartbeats 4000000 in

theorem k204 (hag : Agree m m') (c : Dev nD) : W31 m ρ c (Proc.devRef .tc main_v204) = rv_v244 (F := Ideal) m' c := by
  have h5 : W30 m ρ c (Proc.devRef .tc main_arg5) = m' ((c.tc : Thread Cert.ReferenceIdeal.nD Cert.ReferenceIdeal.τ).loc Cert.ReferenceIdeal.main_arg5) :=
    (keepSpan m ρ c main_arg5 0 30 (by decide) (by decide)).trans ((hag c).2.2.2.2.2.1).symm
  have h7 : W30 m ρ c (Proc.devRef .tc main_arg7) = m' ((c.tc : Thread Cert.ReferenceIdeal.nD Cert.ReferenceIdeal.τ).loc Cert.ReferenceIdeal.main_arg7) :=
    (keepSpan m ρ c main_arg7 0 30 (by decide) (by decide)).trans ((hag c).2.2.2.2.2.2.2.1).symm
  show StableHlo.after hostOps13 (W30 m ρ c) (Proc.devRef .tc main_v204) = _
  after_results_simp
  rw [h5, h7]
  unfold rv_v244 rv_v243 rv_v242 rv_v241 rv_v240 rv_v239 rv_v238 rv_c_32 rv_c_33
  rfl

theorem k205 (hag : Agree m m') (c : Dev nD) (h190 : W30 m ρ c (Proc.devRef .tc main_v190) = rv_v230 (F := Ideal) m' c) :
    W32 m ρ c (Proc.devRef .tc main_v205)
      = pad S100352x128 ![0, 0] ![352, 0] ![0, 0] (rv_v237 (F := Ideal) m' c)
          (sitofp (F := Ideal) .f32 (constantI S_ 32 0#32)) pads_S100000x128_S100352x128_03520_000 h_S_ := by
  have hc : W31 m ρ c (Proc.devRef .tc main_c_33) = constantI S_ 32 0#32 := read_c_33 (W30 m ρ c)
  have hx : W31 m ρ c (Proc.devRef .tc main_v197) = rv_v237 (F := Ideal) m' c := k197 m ρ m' hag c h190
  have hr : W32 m ρ c (Proc.devRef .tc main_v205) = _ := read_v205 (W31 m ρ c)
  rw [hr, hc, hx]

theorem k207 (hag : Agree m m') (c : Dev nD) :
    W35 m ρ c (Proc.devRef .tc main_v207)
      = shapeCast S1x100352 (pad S100352 ![0] ![352] ![0] (rv_v244 (F := Ideal) m' c)
          (constantI S_ 32 4294967295#32) pads_S100000_S100352_03520 h_S_) shapeCasts_S100352_S1x100352 := by
  have hc : W33 m ρ c (Proc.devRef .tc main_c_34) = constantI S_ 32 4294967295#32 := read_c_34 (W32 m ρ c)
  have hx : W33 m ρ c (Proc.devRef .tc main_v204) = rv_v244 (F := Ideal) m' c :=
    (keepSpan m ρ c main_v204 31 2 (by decide) (by decide)).trans (k204 m ρ m' hag c)
  have h206 : W34 m ρ c (Proc.devRef .tc main_v206) = _ := read_v206 (W33 m ρ c)
  have hr : W35 m ρ c (Proc.devRef .tc main_v207) = _ := read_v207 (W34 m ρ c)
  rw [hr, h206, hc, hx]

set_option maxHeartbeats 4000000 in

theorem k212 (hag : Agree m m') (c : Dev nD) (h190 : W30 m ρ c (Proc.devRef .tc main_v190) = rv_v230 (F := Ideal) m' c) :
    W37 m ρ c (Proc.devRef .tc main_v212) = rv_v256 (F := Ideal) m' c := by

  have hX : V35 m ρ c main_v205 = _ :=
    (keepSpan m ρ c main_v205 32 3 (by decide) (by decide)).trans (k205 m ρ m' hag c h190)
  have hS : V35 m ρ c main_v207 = _ := k207 m ρ m' hag c

  have hA : W36 m ρ c (Proc.devRef .tc main_v208_0) = Cert.Spec.onehotSums (V35 m ρ c main_v205) (V35 m ρ c main_v207) :=
    (W36_arr m ρ c 2).trans (Cert.KernelIdeal.Reg13.sums (V35 m ρ) c)
  have hC : W36 m ρ c (Proc.devRef .tc main_v208_1) = Cert.Spec.onehotCount (V35 m ρ c main_v207) :=
    (W36_arr m ρ c 3).trans (Cert.KernelIdeal.Reg13.counts (V35 m ρ) c)
  have hr : W37 m ρ c (Proc.devRef .tc main_v212) = _ := read_v212 (W36 m ρ c)
  rw [hr, hA, hC, hX, hS]

  have hz : ∀ i, sitofp (F := Ideal) .f32 (constantI S_ 32 0#32) i = 0 := fun i => by
    show (((0#32 : BitVec 32).toInt : ℝ) : EReal) = 0
    rw [show (0#32 : BitVec 32).toInt = 0 from by decide]; simp
  have hwd : ∀ i, constantI S_ 32 4294967295#32 i = 4294967295#32 := fun _ => rfl
  have hone : ∀ i, constant (F := Ideal) S_ .f32 0x3F800000#32 i = 1 := fun _ => Ideal.ofBits_one_f32
  have hzero : ∀ i, constant (F := Ideal) S_ .f32 0x00000000#32 i = 0 := fun _ => Ideal.ofBits_zero_f32
  refine (Cert.PadForms.padded_onehot_mean (n := 100000) (np := 100352) (g := 1024) (h := 128) (by norm_num) (by norm_num) 352
    (rv_v237 (F := Ideal) m' c) (rv_v244 (F := Ideal) m' c) _ hz _ hwd _ hone h_S_ pads_S100000x128_S100352x128_03520_000
    pads_S100000_S100352_03520 shapeCasts_S100352_S1x100352 bcast_S_S1024x1 bcast_S1024x1_S1024x128_0_1).trans ?_
  unfold rv_v256 rv_v255 rv_v254 rv_v253 rv_v252 rv_cst_37 rv_v251 rv_v250 rv_v249 rv_cst_36 rv_v248 rv_cst_35 rv_v247
    rv_v246 rv_v245 rv_cst_34
  exact (Cert.PadForms.scatter_mean (n := 100000) (g := 1024) (h := 128)
    Cert.ReferenceIdeal.scatter_S1024x128_S100000x1_S100000x128_1_0_0_1 rfl rfl rfl rfl
    Cert.ReferenceIdeal.scatter_S1024_S100000x1_S100000_n_0_0_1 rfl rfl rfl rfl
    (rv_v237 (F := Ideal) m' c) (rv_v244 (F := Ideal) m' c) _ _ _ _ hzero hzero hone hone
    _ _ _ _ _ _ _ _).symm

set_option maxHeartbeats 4000000 in

theorem k215 (hag : Agree m m') (c : Dev nD) (h117 : W19 m ρ c (Proc.devRef .tc main_v117) = rv_v139 (F := Ideal) m' c)
    (h190 : W30 m ρ c (Proc.devRef .tc main_v190) = rv_v230 (F := Ideal) m' c) :
    W37 m ρ c (Proc.devRef .tc main_v215) = rv_v259 (F := Ideal) m' c := by
  have hc : W36 m ρ c (Proc.devRef .tc main_v117) = rv_v139 (F := Ideal) m' c :=
    (keepSpan m ρ c main_v117 19 17 (by decide) (by decide)).trans h117
  have ht : StableHlo.after (hostOps14 (F := Ideal)) (W36 m ρ c) (Proc.devRef .tc main_v212) = rv_v256 (F := Ideal) m' c :=
    k212 m ρ m' hag c h190
  have hr : W37 m ρ c (Proc.devRef .tc main_v215) = _ := read_v215 (W36 m ρ c)
  rw [hr, hc, ht]
  unfold rv_v259 rv_v258 rv_v257
  rfl

end Cert.Chain

end
-- ==== Proof.ChainEnd.lean ====
-- The last link: the result buffer holds the reference's last stage.
import proofs.«400221_j39548058861723_2_alg».proof.Proof.KSpan
import proofs.«400221_j39548058861723_2_alg».proof.Proof.RStage
import proofs.«400221_j39548058861723_2_alg».proof.Proof.Agree
import proofs.«400221_j39548058861723_2_alg».proof.Proof.ChainC5
import proofs.«400221_j39548058861723_2_alg».proof.Proof.ChainT5
import proofs.«400221_j39548058861723_2_alg».proof.Proof.ChainC6
import proofs.«400221_j39548058861723_2_alg».proof.Proof.ChainT6

set_option maxRecDepth 16384

noncomputable section

namespace Cert.Chain

open Idealize.ShloMosaic Idealize.ShloMosaic.TcCoe Idealize.SL.Sem Idealize.ShloMosaic.StableHlo Idealize.ShloMosaic.ValueIdx
open Cert.KernelIdeal Cert.KernelIdeal.Gen Cert.KernelIdeal.Keep
open Cert.ReferenceIdeal.Stage

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

theorem result_eq (hag : Agree m m') (c : Dev nD) : W37 m ρ c (Proc.devRef .tc main_v215) = rv_v259 (F := Ideal) m' c :=
  k215 m ρ m' hag c (k117 m ρ m' hag c (k102 m ρ m' hag c)) (k190 m ρ m' hag c)

end Cert.Chain

end
-- ==== Proof.lean ====
-- Both programs hold, stage by stage, one function of the argument arrays over the extended reals; the frames are the runs with the result dropped.
import proofs.«400221_j39548058861723_2_alg».proof.Defs
import proofs.«400221_j39548058861723_2_alg».proof.Proof.Gen.Kernel
import proofs.«400221_j39548058861723_2_alg».proof.Proof.Gen.Kernel.Frame
import proofs.«400221_j39548058861723_2_alg».proof.Proof.Gen.KernelIdeal
import proofs.«400221_j39548058861723_2_alg».proof.Proof.Gen.KernelIdeal.Frame
import proofs.«400221_j39548058861723_2_alg».proof.Proof.Gen.ReferenceIdeal
import proofs.«400221_j39548058861723_2_alg».proof.Proof.Gen.Pre_finite_inputs
import proofs.«400221_j39548058861723_2_alg».proof.Proof.KRun
import proofs.«400221_j39548058861723_2_alg».proof.Proof.RefRunH
import proofs.«400221_j39548058861723_2_alg».proof.Proof.ChainEnd
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  ·
    exact fun m ρ _ => (θ_run Cert.ReferenceIdeal.defs _ _).mono (fun _ h c => (h c).2) (Cert.ReferenceIdeal.RunH.run (F := Ideal) m ρ)
  ·
    intro m ρ m' ρ' _ hagree
    refine ⟨fun c => Cert.ReferenceIdeal.Stage.rv_v259 (F := Ideal) m' c, ?_, Cert.ReferenceIdeal.RunH.run (F := Ideal) m' ρ'⟩
    exact (θ_run Cert.KernelIdeal.defs _ _).mono
      (fun r h c => ⟨(h c).1.trans (Cert.Chain.result_eq m ρ m' hagree c), (h c).2⟩)
      (Cert.KernelIdeal.KRun.run (F := Ideal) m ρ)⟩

end Cert.Proof

end
